-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22)) (m ((c.tc : Thread Cert.Kernel.nD Cert.Kernel.τ).loc Cert.Kernel.main_arg23)) (m ((c.tc : Thread Cert.Kernel.nD Cert.Kernel.τ).loc Cert.Kernel.main_arg24))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23)
      ∧ r.2.mem ((c.tc : Thread Cert.Kernel.nD Cert.Kernel.τ).loc Cert.Kernel.main_arg24) = m ((c.tc : Thread Cert.Kernel.nD Cert.Kernel.τ).loc Cert.Kernel.main_arg24))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)) →
    ∃ (v0 : (c : Dev Cert.KernelIdeal.nD) → Buf (Elt Ideal) ((c.tc : Thread Cert.KernelIdeal.nD Cert.KernelIdeal.τ).loc Cert.KernelIdeal.main_v72)) (v1 : (c : Dev Cert.KernelIdeal.nD) → Buf (Elt Ideal) ((c.tc : Thread Cert.KernelIdeal.nD Cert.KernelIdeal.τ).loc Cert.KernelIdeal.main_v44)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v72) = v0 c
          ∧ r.2.mem ((c.tc : Thread Cert.KernelIdeal.nD Cert.KernelIdeal.τ).loc Cert.KernelIdeal.main_v44) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
          ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v147) = v0 c
          ∧ r.2.mem ((c.tc : Thread Cert.ReferenceIdeal.nD Cert.ReferenceIdeal.τ).loc Cert.ReferenceIdeal.main_v99) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23)
          ∧ r.2.mem ((c.tc : Thread Cert.ReferenceIdeal.nD Cert.ReferenceIdeal.τ).loc Cert.ReferenceIdeal.main_arg24) = m' ((c.tc : Thread Cert.ReferenceIdeal.nD Cert.ReferenceIdeal.τ).loc Cert.ReferenceIdeal.main_arg24))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S800000x128 : Shape := ⟨2, ![800000, 128]⟩
abbrev S128x128 : Shape := ⟨2, ![128, 128]⟩
abbrev S128 : Shape := ⟨1, ![128]⟩
abbrev S128x256 : Shape := ⟨2, ![128, 256]⟩
abbrev S256 : Shape := ⟨1, ![256]⟩
abbrev S256x128 : Shape := ⟨2, ![256, 128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S800000x128 : S_.BroadcastsInDim S800000x128 (![] : Fin 0 → Fin S800000x128.rank)
  reducesTo_S800000x128_S_d0_1 : S800000x128.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x256 : S_.BroadcastsInDim S128x256 (![] : Fin 0 → Fin S128x256.rank)
  reducesTo_S128x256_S_d0_1 : S128x256.ReducesTo [0, 1] S_
  bcast_S_S256 : S_.BroadcastsInDim S256 (![] : Fin 0 → Fin S256.rank)
  reducesTo_S256_S_d0 : S256.ReducesTo [0] S_
  bcast_S_S256x128 : S_.BroadcastsInDim S256x128 (![] : Fin 0 → Fin S256x128.rank)
  reducesTo_S256x128_S_d0_1 : S256x128.ReducesTo [0, 1] S_
  bcast_S_S2x800000 : S_.BroadcastsInDim S2x800000 (![] : Fin 0 → Fin S2x800000.rank)
  reducesTo_S2x800000_S_d0_1 : S2x800000.ReducesTo [0, 1] S_

variable [Facts]

def fn_part7 {F : FTy → Type} [FloatOps F] (main_arg1 : IVec S2x800000 32) (main_v118 : IVec S_ 1) (main_c_46 : IVec S_ 32) : IVec S_ 1 :=
  let main_v119 : IVec S2x800000 32 := broadcastInDim S2x800000 ![] bcast_S_S2x800000 main_c_46
  let main_v120 : IVec S2x800000 1 := cmpi .sge main_arg1 main_v119
  let main_c_47 : IVec S_ 1 := constantI S_ 1 1#1
  let main_v121 : IVec S_ 1 := (fun x v => Host.reduce IntOp.andi x v reducesTo_S2x800000_S_d0_1 h_S_) main_v120 main_c_47
  let main_v122 : IVec S_ 1 := andi main_v118 main_v121
  let main_c_48 : IVec S_ 32 := constantI S_ 32 50000#32
  let main_v123 : IVec S2x800000 32 := broadcastInDim S2x800000 ![] bcast_S_S2x800000 main_c_48
  let main_v124 : IVec S2x800000 1 := cmpi .slt main_arg1 main_v123
  let main_c_49 : IVec S_ 1 := constantI S_ 1 1#1
  let main_v125 : IVec S_ 1 := (fun x v => Host.reduce IntOp.andi x v reducesTo_S2x800000_S_d0_1 h_S_) main_v124 main_c_49
  let main_v126 : IVec S_ 1 := andi main_v122 main_v125
  main_v126

def fn_part6 {F : FTy → Type} [FloatOps F] (main_arg1 : IVec S2x800000 32) (main_arg22 : FVec F S256 .f32) (main_arg23 : FVec F S256x128 .f32) (main_arg24 : FVec F S128 .f32) (main_v98 : IVec S_ 1) (main_v101 : IVec S128x256 1) (main_c_39 : IVec S_ 1) : IVec S_ 1 :=
  let main_v102 : IVec S_ 1 := (fun x v => Host.reduce IntOp.andi x v reducesTo_S128x256_S_d0_1 h_S_) main_v101 main_c_39
  let main_v103 : IVec S_ 1 := andi main_v98 main_v102
  let main_v104 : FVec F S256 .f32 := Host.absf main_arg22
  let main_cst_40 : FVec F S_ .f32 := constant S_ .f32 0x7F800000#32
  let main_v105 : FVec F S256 .f32 := broadcastInDim S256 ![] bcast_S_S256 main_cst_40
  let main_v106 : IVec S256 1 := cmpf .olt main_v104 main_v105
  let main_c_41 : IVec S_ 1 := constantI S_ 1 1#1
  let main_v107 : IVec S_ 1 := (fun x v => Host.reduce IntOp.andi x v reducesTo_S256_S_d0 h_S_) main_v106 main_c_41
  let main_v108 : IVec S_ 1 := andi main_v103 main_v107
  let main_v109 : FVec F S256x128 .f32 := Host.absf main_arg23
  let main_cst_42 : FVec F S_ .f32 := constant S_ .f32 0x7F800000#32
  let main_v110 : FVec F S256x128 .f32 := broadcastInDim S256x128 ![] bcast_S_S256x128 main_cst_42
  let main_v111 : IVec S256x128 1 := cmpf .olt main_v109 main_v110
  let main_c_43 : IVec S_ 1 := constantI S_ 1 1#1
  let main_v112 : IVec S_ 1 := (fun x v => Host.reduce IntOp.andi x v reducesTo_S256x128_S_d0_1 h_S_) main_v111 main_c_43
  let main_v113 : IVec S_ 1 := andi main_v108 main_v112
  let main_v114 : FVec F S128 .f32 := Host.absf main_arg24
  let main_cst_44 : FVec F S_ .f32 := constant S_ .f32 0x7F800000#32
  let main_v115 : FVec F S128 .f32 := broadcastInDim S128 ![] bcast_S_S128 main_cst_44
  let main_v116 : IVec S128 1 := cmpf .olt main_v114 main_v115
  let main_c_45 : IVec S_ 1 := constantI S_ 1 1#1
  let main_v117 : IVec S_ 1 := (fun x v => Host.reduce IntOp.andi x v reducesTo_S128_S_d0 h_S_) main_v116 main_c_45
  let main_v118 : IVec S_ 1 := andi main_v113 main_v117
  let main_c_46 : IVec S_ 32 := constantI S_ 32 0#32
  fn_part7 (F := F) main_arg1 main_v118 main_c_46

def fn_part5 {F : FTy → Type} [FloatOps F] (main_arg1 : IVec S2x800000 32) (main_arg19 : FVec F S128 .f32) (main_arg20 : FVec F S128 .f32) (main_arg21 : FVec F S128x256 .f32) (main_arg22 : FVec F S256 .f32) (main_arg23 : FVec F S256x128 .f32) (main_arg24 : FVec F S128 .f32) (main_v83 : IVec S_ 1) (main_v84 : FVec F S128 .f32) (main_cst_32 : FVec F S_ .f32) : IVec S_ 1 :=
  let main_v85 : FVec F S128 .f32 := broadcastInDim S128 ![] bcast_S_S128 main_cst_32
  let main_v86 : IVec S128 1 := cmpf .olt main_v84 main_v85
  let main_c_33 : IVec S_ 1 := constantI S_ 1 1#1
  let main_v87 : IVec S_ 1 := (fun x v => Host.reduce IntOp.andi x v reducesTo_S128_S_d0 h_S_) main_v86 main_c_33
  let main_v88 : IVec S_ 1 := andi main_v83 main_v87
  let main_v89 : FVec F S128 .f32 := Host.absf main_arg19
  let main_cst_34 : FVec F S_ .f32 := constant S_ .f32 0x7F800000#32
  let main_v90 : FVec F S128 .f32 := broadcastInDim S128 ![] bcast_S_S128 main_cst_34
  let main_v91 : IVec S128 1 := cmpf .olt main_v89 main_v90
  let main_c_35 : IVec S_ 1 := constantI S_ 1 1#1
  let main_v92 : IVec S_ 1 := (fun x v => Host.reduce IntOp.andi x v reducesTo_S128_S_d0 h_S_) main_v91 main_c_35
  let main_v93 : IVec S_ 1 := andi main_v88 main_v92
  let main_v94 : FVec F S128 .f32 := Host.absf main_arg20
  let main_cst_36 : FVec F S_ .f32 := constant S_ .f32 0x7F800000#32
  let main_v95 : FVec F S128 .f32 := broadcastInDim S128 ![] bcast_S_S128 main_cst_36
  let main_v96 : IVec S128 1 := cmpf .olt main_v94 main_v95
  let main_c_37 : IVec S_ 1 := constantI S_ 1 1#1
  let main_v97 : IVec S_ 1 := (fun x v => Host.reduce IntOp.andi x v reducesTo_S128_S_d0 h_S_) main_v96 main_c_37
  let main_v98 : IVec S_ 1 := andi main_v93 main_v97
  let main_v99 : FVec F S128x256 .f32 := Host.absf main_arg21
  let main_cst_38 : FVec F S_ .f32 := constant S_ .f32 0x7F800000#32
  let main_v100 : FVec F S128x256 .f32 := broadcastInDim S128x256 ![] bcast_S_S128x256 main_cst_38
  let main_v101 : IVec S128x256 1 := cmpf .olt main_v99 main_v100
  let main_c_39 : IVec S_ 1 := constantI S_ 1 1#1
  fn_part6 (F := F) main_arg1 main_arg22 main_arg23 main_arg24 main_v98 main_v101 main_c_39

def fn_part4 {F : FTy → Type} [FloatOps F] (main_arg1 : IVec S2x800000 32) (main_arg15 : FVec F S128 .f32) (main_arg16 : FVec F S128 .f32) (main_arg17 : FVec F S128 .f32) (main_arg18 : FVec F S128 .f32) (main_arg19 : FVec F S128 .f32) (main_arg20 : FVec F S128 .f32) (main_arg21 : FVec F S128x256 .f32) (main_arg22 : FVec F S256 .f32) (main_arg23 : FVec F S256x128 .f32) (main_arg24 : FVec F S128 .f32) (main_v63 : IVec S_ 1) (main_v67 : IVec S_ 1) : IVec S_ 1 :=
  let main_v68 : IVec S_ 1 := andi main_v63 main_v67
  let main_v69 : FVec F S128 .f32 := Host.absf main_arg15
  let main_cst_26 : FVec F S_ .f32 := constant S_ .f32 0x7F800000#32
  let main_v70 : FVec F S128 .f32 := broadcastInDim S128 ![] bcast_S_S128 main_cst_26
  let main_v71 : IVec S128 1 := cmpf .olt main_v69 main_v70
  let main_c_27 : IVec S_ 1 := constantI S_ 1 1#1
  let main_v72 : IVec S_ 1 := (fun x v => Host.reduce IntOp.andi x v reducesTo_S128_S_d0 h_S_) main_v71 main_c_27
  let main_v73 : IVec S_ 1 := andi main_v68 main_v72
  let main_v74 : FVec F S128 .f32 := Host.absf main_arg16
  let main_cst_28 : FVec F S_ .f32 := constant S_ .f32 0x7F800000#32
  let main_v75 : FVec F S128 .f32 := broadcastInDim S128 ![] bcast_S_S128 main_cst_28
  let main_v76 : IVec S128 1 := cmpf .olt main_v74 main_v75
  let main_c_29 : IVec S_ 1 := constantI S_ 1 1#1
  let main_v77 : IVec S_ 1 := (fun x v => Host.reduce IntOp.andi x v reducesTo_S128_S_d0 h_S_) main_v76 main_c_29
  let main_v78 : IVec S_ 1 := andi main_v73 main_v77
  let main_v79 : FVec F S128 .f32 := Host.absf main_arg17
  let main_cst_30 : FVec F S_ .f32 := constant S_ .f32 0x7F800000#32
  let main_v80 : FVec F S128 .f32 := broadcastInDim S128 ![] bcast_S_S128 main_cst_30
  let main_v81 : IVec S128 1 := cmpf .olt main_v79 main_v80
  let main_c_31 : IVec S_ 1 := constantI S_ 1 1#1
  let main_v82 : IVec S_ 1 := (fun x v => Host.reduce IntOp.andi x v reducesTo_S128_S_d0 h_S_) main_v81 main_c_31
  let main_v83 : IVec S_ 1 := andi main_v78 main_v82
  let main_v84 : FVec F S128 .f32 := Host.absf main_arg18
  let main_cst_32 : FVec F S_ .f32 := constant S_ .f32 0x7F800000#32
  fn_part5 (F := F) main_arg1 main_arg19 main_arg20 main_arg21 main_arg22 main_arg23 main_arg24 main_v83 main_v84 main_cst_32

def fn_part3 {F : FTy → Type} [FloatOps F] (main_arg1 : IVec S2x800000 32) (main_arg12 : FVec F S128 .f32) (main_arg13 : FVec F S128 .f32) (main_arg14 : FVec F S128 .f32) (main_arg15 : FVec F S128 .f32) (main_arg16 : FVec F S128 .f32) (main_arg17 : FVec F S128 .f32) (main_arg18 : FVec F S128 .f32) (main_arg19 : FVec F S128 .f32) (main_arg20 : FVec F S128 .f32) (main_arg21 : FVec F S128x256 .f32) (main_arg22 : FVec F S256 .f32) (main_arg23 : FVec F S256x128 .f32) (main_arg24 : FVec F S128 .f32) (main_v48 : IVec S_ 1) (main_v49 : FVec F S128x128 .f32) (main_v50 : FVec F S128x128 .f32) : IVec S_ 1 :=
  let main_v51 : IVec S128x128 1 := cmpf .olt main_v49 main_v50
  let main_c_19 : IVec S_ 1 := constantI S_ 1 1#1
  let main_v52 : IVec S_ 1 := (fun x v => Host.reduce IntOp.andi x v reducesTo_S128x128_S_d0_1 h_S_) main_v51 main_c_19
  let main_v53 : IVec S_ 1 := andi main_v48 main_v52
  let main_v54 : FVec F S128 .f32 := Host.absf main_arg12
  let main_cst_20 : FVec F S_ .f32 := constant S_ .f32 0x7F800000#32
  let main_v55 : FVec F S128 .f32 := broadcastInDim S128 ![] bcast_S_S128 main_cst_20
  let main_v56 : IVec S128 1 := cmpf .olt main_v54 main_v55
  let main_c_21 : IVec S_ 1 := constantI S_ 1 1#1
  let main_v57 : IVec S_ 1 := (fun x v => Host.reduce IntOp.andi x v reducesTo_S128_S_d0 h_S_) main_v56 main_c_21
  let main_v58 : IVec S_ 1 := andi main_v53 main_v57
  let main_v59 : FVec F S128 .f32 := Host.absf main_arg13
  let main_cst_22 : FVec F S_ .f32 := constant S_ .f32 0x7F800000#32
  let main_v60 : FVec F S128 .f32 := broadcastInDim S128 ![] bcast_S_S128 main_cst_22
  let main_v61 : IVec S128 1 := cmpf .olt main_v59 main_v60
  let main_c_23 : IVec S_ 1 := constantI S_ 1 1#1
  let main_v62 : IVec S_ 1 := (fun x v => Host.reduce IntOp.andi x v reducesTo_S128_S_d0 h_S_) main_v61 main_c_23
  let main_v63 : IVec S_ 1 := andi main_v58 main_v62
  let main_v64 : FVec F S128 .f32 := Host.absf main_arg14
  let main_cst_24 : FVec F S_ .f32 := constant S_ .f32 0x7F800000#32
  let main_v65 : FVec F S128 .f32 := broadcastInDim S128 ![] bcast_S_S128 main_cst_24
  let main_v66 : IVec S128 1 := cmpf .olt main_v64 main_v65
  let main_c_25 : IVec S_ 1 := constantI S_ 1 1#1
  let main_v67 : IVec S_ 1 := (fun x v => Host.reduce IntOp.andi x v reducesTo_S128_S_d0 h_S_) main_v66 main_c_25
  fn_part4 (F := F) main_arg1 main_arg15 main_arg16 main_arg17 main_arg18 main_arg19 main_arg20 main_arg21 main_arg22 main_arg23 main_arg24 main_v63 main_v67

def fn_part2 {F : FTy → Type} [FloatOps F] (main_arg1 : IVec S2x800000 32) (main_arg8 : FVec F S128 .f32) (main_arg9 : FVec F S128x128 .f32) (main_arg10 : FVec F S128 .f32) (main_arg11 : FVec F S128x128 .f32) (main_arg12 : FVec F S128 .f32) (main_arg13 : FVec F S128 .f32) (main_arg14 : FVec F S128 .f32) (main_arg15 : FVec F S128 .f32) (main_arg16 : FVec F S128 .f32) (main_arg17 : FVec F S128 .f32) (main_arg18 : FVec F S128 .f32) (main_arg19 : FVec F S128 .f32) (main_arg20 : FVec F S128 .f32) (main_arg21 : FVec F S128x256 .f32) (main_arg22 : FVec F S256 .f32) (main_arg23 : FVec F S256x128 .f32) (main_arg24 : FVec F S128 .f32) (main_v33 : IVec S_ 1) : IVec S_ 1 :=
  let main_v34 : FVec F S128 .f32 := Host.absf main_arg8
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128x128 .f32 := Host.absf main_arg9
  let main_cst_14 : FVec F S_ .f32 := constant S_ .f32 0x7F800000#32
  let main_v40 : FVec F S128x128 .f32 := broadcastInDim S128x128 ![] bcast_S_S128x128 main_cst_14
  let main_v41 : IVec S128x128 1 := cmpf .olt main_v39 main_v40
  let main_c_15 : IVec S_ 1 := constantI S_ 1 1#1
  let main_v42 : IVec S_ 1 := (fun x v => Host.reduce IntOp.andi x v reducesTo_S128x128_S_d0_1 h_S_) main_v41 main_c_15
  let main_v43 : IVec S_ 1 := andi main_v38 main_v42
  let main_v44 : FVec F S128 .f32 := Host.absf main_arg10
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S128x128 .f32 := Host.absf main_arg11
  let main_cst_18 : FVec F S_ .f32 := constant S_ .f32 0x7F800000#32
  let main_v50 : FVec F S128x128 .f32 := broadcastInDim S128x128 ![] bcast_S_S128x128 main_cst_18
  fn_part3 (F := F) main_arg1 main_arg12 main_arg13 main_arg14 main_arg15 main_arg16 main_arg17 main_arg18 main_arg19 main_arg20 main_arg21 main_arg22 main_arg23 main_arg24 main_v48 main_v49 main_v50

def fn_part1 {F : FTy → Type} [FloatOps F] (main_arg1 : IVec S2x800000 32) (main_arg5 : FVec F S128x128 .f32) (main_arg6 : FVec F S128 .f32) (main_arg7 : FVec F S128x128 .f32) (main_arg8 : FVec F S128 .f32) (main_arg9 : FVec F S128x128 .f32) (main_arg10 : FVec F S128 .f32) (main_arg11 : FVec F S128x128 .f32) (main_arg12 : FVec F S128 .f32) (main_arg13 : FVec F S128 .f32) (main_arg14 : FVec F S128 .f32) (main_arg15 : FVec F S128 .f32) (main_arg16 : FVec F S128 .f32) (main_arg17 : FVec F S128 .f32) (main_arg18 : FVec F S128 .f32) (main_arg19 : FVec F S128 .f32) (main_arg20 : FVec F S128 .f32) (main_arg21 : FVec F S128x256 .f32) (main_arg22 : FVec F S256 .f32) (main_arg23 : FVec F S256x128 .f32) (main_arg24 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg5
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg7
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg1 main_arg8 main_arg9 main_arg10 main_arg11 main_arg12 main_arg13 main_arg14 main_arg15 main_arg16 main_arg17 main_arg18 main_arg19 main_arg20 main_arg21 main_arg22 main_arg23 main_arg24 main_v33

def fn {F : FTy → Type} [FloatOps F] (main_arg0 : FVec F S50000x128 .f32) (main_arg1 : IVec S2x800000 32) (main_arg2 : FVec F S800000x128 .f32) (main_arg3 : FVec F S128x128 .f32) (main_arg4 : FVec F S128 .f32) (main_arg5 : FVec F S128x128 .f32) (main_arg6 : FVec F S128 .f32) (main_arg7 : FVec F S128x128 .f32) (main_arg8 : FVec F S128 .f32) (main_arg9 : FVec F S128x128 .f32) (main_arg10 : FVec F S128 .f32) (main_arg11 : FVec F S128x128 .f32) (main_arg12 : FVec F S128 .f32) (main_arg13 : FVec F S128 .f32) (main_arg14 : FVec F S128 .f32) (main_arg15 : FVec F S128 .f32) (main_arg16 : FVec F S128 .f32) (main_arg17 : FVec F S128 .f32) (main_arg18 : FVec F S128 .f32) (main_arg19 : FVec F S128 .f32) (main_arg20 : FVec F S128 .f32) (main_arg21 : FVec F S128x256 .f32) (main_arg22 : FVec F S256 .f32) (main_arg23 : FVec F S256x128 .f32) (main_arg24 : FVec F S128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S800000x128 .f32 := Host.absf main_arg2
  let main_cst_0 : FVec F S_ .f32 := constant S_ .f32 0x7F800000#32
  let main_v5 : FVec F S800000x128 .f32 := broadcastInDim S800000x128 ![] bcast_S_S800000x128 main_cst_0
  let main_v6 : IVec S800000x128 1 := cmpf .olt main_v4 main_v5
  let main_c_1 : IVec S_ 1 := constantI S_ 1 1#1
  let main_v7 : IVec S_ 1 := (fun x v => Host.reduce IntOp.andi x v reducesTo_S800000x128_S_d0_1 h_S_) main_v6 main_c_1
  let main_v8 : IVec S_ 1 := andi main_v3 main_v7
  let main_v9 : FVec F S128x128 .f32 := Host.absf main_arg3
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg1 main_arg5 main_arg6 main_arg7 main_arg8 main_arg9 main_arg10 main_arg11 main_arg12 main_arg13 main_arg14 main_arg15 main_arg16 main_arg17 main_arg18 main_arg19 main_arg20 main_arg21 main_arg22 main_arg23 main_arg24 main_v13 main_v16
-- ==== Kernel.lean ====
abbrev S50000x128 : Shape := ⟨2, ![50000, 128]⟩
abbrev S2x800000 : Shape := ⟨2, ![2, 800000]⟩
abbrev S800000x128 : Shape := ⟨2, ![800000, 128]⟩
abbrev S128x128 : Shape := ⟨2, ![128, 128]⟩
abbrev S128 : Shape := ⟨1, ![128]⟩
abbrev S128x256 : Shape := ⟨2, ![128, 256]⟩
abbrev S256 : Shape := ⟨1, ![256]⟩
abbrev S256x128 : Shape := ⟨2, ![256, 128]⟩
abbrev S1x800000 : Shape := ⟨2, ![1, 800000]⟩
abbrev S800000 : Shape := ⟨1, ![800000]⟩
abbrev S128x512 : Shape := ⟨2, ![128, 512]⟩
abbrev S512 : Shape := ⟨1, ![512]⟩
abbrev S1x512 : Shape := ⟨2, ![1, 512]⟩
abbrev S50000x512 : Shape := ⟨2, ![50000, 512]⟩
abbrev S2000x128 : Shape := ⟨2, ![2000, 128]⟩
abbrev S2000x512 : Shape := ⟨2, ![2000, 512]⟩
abbrev S_ : Shape := ⟨0, ![]⟩
abbrev S800000x1 : Shape := ⟨2, ![800000, 1]⟩
abbrev S1 : Shape := ⟨1, ![1]⟩
abbrev S1x1 : Shape := ⟨2, ![1, 1]⟩
abbrev S1x128 : Shape := ⟨2, ![1, 128]⟩
abbrev S160x1x128 : Shape := ⟨3, ![160, 1, 128]⟩
abbrev S5000x128 : Shape := ⟨2, ![5000, 128]⟩
abbrev S1x1x128 : Shape := ⟨3, ![1, 1, 128]⟩
abbrev S160x128 : Shape := ⟨2, ![160, 128]⟩
abbrev S1x256 : Shape := ⟨2, ![1, 256]⟩
abbrev S2000x256 : Shape := ⟨2, ![2000, 256]⟩

abbrev nBuf : Space → Nat
  | .hbm => 247
  | .vmem => 56
  | .smem => 0
  | _ => 0

abbrev hbmTy0_0 (i : Nat) : BufTy := match i % 128 with
  | 0 => ⟨S50000x128, .f32⟩
  | 1 => ⟨S2x800000, .i32⟩
  | 2 => ⟨S800000x128, .f32⟩
  | 3 => ⟨S128x128, .f32⟩
  | 4 => ⟨S128, .f32⟩
  | 5 => ⟨S128x128, .f32⟩
  | 6 => ⟨S128, .f32⟩
  | 7 => ⟨S128x128, .f32⟩
  | 8 => ⟨S128, .f32⟩
  | 9 => ⟨S128x128, .f32⟩
  | 10 => ⟨S128, .f32⟩
  | 11 => ⟨S128x128, .f32⟩
  | 12 => ⟨S128, .f32⟩
  | 13 => ⟨S128, .f32⟩
  | 14 => ⟨S128, .f32⟩
  | 15 => ⟨S128, .f32⟩
  | 16 => ⟨S128, .f32⟩
  | 17 => ⟨S128, .f32⟩
  | 18 => ⟨S128, .f32⟩
  | 19 => ⟨S128, .f32⟩
  | 20 => ⟨S128, .f32⟩
  | 21 => ⟨S128x256, .f32⟩
  | 22 => ⟨S256, .f32⟩
  | 23 => ⟨S256x128, .f32⟩
  | 24 => ⟨S128, .f32⟩
  | 25 => ⟨S1x800000, .i32⟩
  | 26 => ⟨S800000, .i32⟩
  | 27 => ⟨S1x800000, .i32⟩
  | 28 => ⟨S800000, .i32⟩
  | 29 => ⟨S128x512, .f32⟩
  | 30 => ⟨S512, .f32⟩
  | 31 => ⟨S1x512, .f32⟩
  | 32 => ⟨S50000x512, .f32⟩
  | 33 => ⟨S50000x128, .f32⟩
  | 34 => ⟨S50000x128, .f32⟩
  | 35 => ⟨S50000x128, .f32⟩
  | 36 => ⟨S50000x128, .f32⟩
  | 37 => ⟨S_, .i32⟩
  | 38 => ⟨S800000, .i32⟩
  | 39 => ⟨S800000, .i1⟩
  | 40 => ⟨S_, .i32⟩
  | 41 => ⟨S800000, .i32⟩
  | 42 => ⟨S800000, .i32⟩
  | 43 => ⟨S800000, .i32⟩
  | 44 => ⟨S800000x1, .i32⟩
  | 45 => ⟨S1, .i32⟩
  | 46 => ⟨S_, .i32⟩
  | 47 => ⟨S800000x1, .i32⟩
  | 48 => ⟨S800000x1, .i1⟩
  | 49 => ⟨S1x1, .i32⟩
  | 50 => ⟨S800000x1, .i32⟩
  | 51 => ⟨S800000x1, .i1⟩
  | 52 => ⟨S800000x1, .i1⟩
  | 53 => ⟨S_, .i1⟩
  | 54 => ⟨S800000, .i1⟩
  | 55 => ⟨S800000x128, .f32⟩
  | 56 => ⟨S800000x128, .i1⟩
  | 57 => ⟨S_, .f32⟩
  | 58 => ⟨S800000x128, .f32⟩
  | 59 => ⟨S800000x128, .f32⟩
  | 60 => ⟨S_, .i32⟩
  | 61 => ⟨S800000, .i32⟩
  | 62 => ⟨S800000, .i1⟩
  | 63 => ⟨S_, .i32⟩
  | 64 => ⟨S800000, .i32⟩
  | 65 => ⟨S800000, .i32⟩
  | 66 => ⟨S800000, .i32⟩
  | 67 => ⟨S800000x1, .i32⟩
  | 68 => ⟨S1, .i32⟩
  | 69 => ⟨S_, .i32⟩
  | 70 => ⟨S800000x1, .i32⟩
  | 71 => ⟨S800000x1, .i1⟩
  | 72 => ⟨S1x1, .i32⟩
  | 73 => ⟨S800000x1, .i32⟩
  | 74 => ⟨S800000x1, .i1⟩
  | 75 => ⟨S800000x1, .i1⟩
  | 76 => ⟨S_, .i1⟩
  | 77 => ⟨S800000, .i1⟩
  | 78 => ⟨S800000x128, .f32⟩
  | 79 => ⟨S800000x128, .i1⟩
  | 80 => ⟨S_, .f32⟩
  | 81 => ⟨S800000x128, .f32⟩
  | 82 => ⟨S800000x128, .f32⟩
  | 83 => ⟨S800000x128, .f32⟩
  | 84 => ⟨S_, .i32⟩
  | 85 => ⟨S800000, .i32⟩
  | 86 => ⟨S800000, .i1⟩
  | 87 => ⟨S_, .i32⟩
  | 88 => ⟨S800000, .i32⟩
  | 89 => ⟨S800000, .i32⟩
  | 90 => ⟨S800000, .i32⟩
  | 91 => ⟨S800000x1, .i32⟩
  | 92 => ⟨S1, .i32⟩
  | 93 => ⟨S_, .i32⟩
  | 94 => ⟨S800000x1, .i32⟩
  | 95 => ⟨S800000x1, .i1⟩
  | 96 => ⟨S1x1, .i32⟩
  | 97 => ⟨S800000x1, .i32⟩
  | 98 => ⟨S800000x1, .i1⟩
  | 99 => ⟨S800000x1, .i1⟩
  | 100 => ⟨S_, .i1⟩
  | 101 => ⟨S800000, .i1⟩
  | 102 => ⟨S800000x128, .f32⟩
  | 103 => ⟨S800000x128, .i1⟩
  | 104 => ⟨S_, .f32⟩
  | 105 => ⟨S800000x128, .f32⟩
  | 106 => ⟨S800000x128, .f32⟩
  | 107 => ⟨S1x128, .f32⟩
  | 108 => ⟨S800000x128, .f32⟩
  | 109 => ⟨S160x1x128, .f32⟩
  | 110 => ⟨S160x1x128, .f32⟩
  | 111 => ⟨S_, .f32⟩
  | 112 => ⟨S50000x128, .f32⟩
  | 113 => ⟨S800000x1, .i32⟩
  | 114 => ⟨S50000x128, .f32⟩
  | 115 => ⟨S50000x128, .f32⟩
  | 116 => ⟨S_, .f32⟩
  | 117 => ⟨S128, .f32⟩
  | 118 => ⟨S1x128, .f32⟩
  | 119 => ⟨S_, .f32⟩
  | 120 => ⟨S1x128, .f32⟩
  | 121 => ⟨S1x128, .f32⟩
  | 122 => ⟨S_, .i32⟩
  | 123 => ⟨S_, .f32⟩
  | 124 => ⟨S128, .f32⟩
  | 125 => ⟨S1x128, .f32⟩
  | 126 => ⟨S_, .f32⟩
  | 127 => ⟨S1x128, .f32⟩
  | _ => ⟨S50000x128, .f32⟩

abbrev hbmTy0_1 (i : Nat) : BufTy := match i % 128 with
  | 0 => ⟨S1x128, .f32⟩
  | 1 => ⟨S50000x128, .f32⟩
  | 2 => ⟨S50000x128, .f32⟩
  | 3 => ⟨S50000x128, .f32⟩
  | 4 => ⟨S_, .f32⟩
  | 5 => ⟨S_, .f32⟩
  | 6 => ⟨S_, .f32⟩
  | 7 => ⟨S_, .f32⟩
  | 8 => ⟨S128, .f32⟩
  | 9 => ⟨S1x128, .f32⟩
  | 10 => ⟨S1x128, .f32⟩
  | 11 => ⟨S1x128, .f32⟩
  | 12 => ⟨S_, .f32⟩
  | 13 => ⟨S_, .i1⟩
  | 14 => ⟨S_, .f32⟩
  | 15 => ⟨S_, .f32⟩
  | 16 => ⟨S1x128, .f32⟩
  | 17 => ⟨S1x128, .f32⟩
  | 18 => ⟨S1x128, .f32⟩
  | 19 => ⟨S1x128, .f32⟩
  | 20 => ⟨S50000x128, .f32⟩
  | 21 => ⟨S160x128, .f32⟩
  | 22 => ⟨S_, .f32⟩
  | 23 => ⟨S128, .f32⟩
  | 24 => ⟨S1x128, .f32⟩
  | 25 => ⟨S160x128, .f32⟩
  | 26 => ⟨S_, .f32⟩
  | 27 => ⟨S128, .f32⟩
  | 28 => ⟨S1x128, .f32⟩
  | 29 => ⟨S_, .f32⟩
  | 30 => ⟨S1x128, .f32⟩
  | 31 => ⟨S1x128, .f32⟩
  | 32 => ⟨S_, .f32⟩
  | 33 => ⟨S1x128, .f32⟩
  | 34 => ⟨S1x128, .f32⟩
  | 35 => ⟨S1x128, .f32⟩
  | 36 => ⟨S1x128, .f32⟩
  | 37 => ⟨S1x128, .f32⟩
  | 38 => ⟨S1x128, .f32⟩
  | 39 => ⟨S800000x128, .f32⟩
  | 40 => ⟨S_, .f32⟩
  | 41 => ⟨S128, .f32⟩
  | 42 => ⟨S1x128, .f32⟩
  | 43 => ⟨S_, .f32⟩
  | 44 => ⟨S1x128, .f32⟩
  | 45 => ⟨S1x128, .f32⟩
  | 46 => ⟨S_, .i32⟩
  | 47 => ⟨S_, .f32⟩
  | 48 => ⟨S128, .f32⟩
  | 49 => ⟨S1x128, .f32⟩
  | 50 => ⟨S_, .f32⟩
  | 51 => ⟨S1x128, .f32⟩
  | 52 => ⟨S1x128, .f32⟩
  | 53 => ⟨S50000x128, .f32⟩
  | 54 => ⟨S50000x128, .f32⟩
  | 55 => ⟨S50000x128, .f32⟩
  | 56 => ⟨S_, .f32⟩
  | 57 => ⟨S_, .f32⟩
  | 58 => ⟨S_, .f32⟩
  | 59 => ⟨S_, .f32⟩
  | 60 => ⟨S128, .f32⟩
  | 61 => ⟨S1x128, .f32⟩
  | 62 => ⟨S1x128, .f32⟩
  | 63 => ⟨S1x128, .f32⟩
  | 64 => ⟨S_, .f32⟩
  | 65 => ⟨S_, .i1⟩
  | 66 => ⟨S_, .f32⟩
  | 67 => ⟨S_, .f32⟩
  | 68 => ⟨S1x128, .f32⟩
  | 69 => ⟨S1x128, .f32⟩
  | 70 => ⟨S1x256, .f32⟩
  | 71 => ⟨S1x128, .f32⟩
  | 72 => ⟨S1x128, .f32⟩
  | 73 => ⟨S1x128, .f32⟩
  | 74 => ⟨S50000x128, .f32⟩
  | 75 => ⟨S_, .f32⟩
  | 76 => ⟨S128, .f32⟩
  | 77 => ⟨S1x128, .f32⟩
  | 78 => ⟨S_, .f32⟩
  | 79 => ⟨S1x128, .f32⟩
  | 80 => ⟨S1x128, .f32⟩
  | 81 => ⟨S_, .i32⟩
  | 82 => ⟨S_, .f32⟩
  | 83 => ⟨S128, .f32⟩
  | 84 => ⟨S1x128, .f32⟩
  | 85 => ⟨S_, .f32⟩
  | 86 => ⟨S1x128, .f32⟩
  | 87 => ⟨S1x128, .f32⟩
  | 88 => ⟨S50000x128, .f32⟩
  | 89 => ⟨S50000x128, .f32⟩
  | 90 => ⟨S50000x128, .f32⟩
  | 91 => ⟨S_, .f32⟩
  | 92 => ⟨S_, .f32⟩
  | 93 => ⟨S_, .f32⟩
  | 94 => ⟨S_, .f32⟩
  | 95 => ⟨S128, .f32⟩
  | 96 => ⟨S1x128, .f32⟩
  | 97 => ⟨S1x128, .f32⟩
  | 98 => ⟨S1x128, .f32⟩
  | 99 => ⟨S_, .f32⟩
  | 100 => ⟨S_, .i1⟩
  | 101 => ⟨S_, .f32⟩
  | 102 => ⟨S_, .f32⟩
  | 103 => ⟨S1x128, .f32⟩
  | 104 => ⟨S1x128, .f32⟩
  | 105 => ⟨S50000x128, .f32⟩
  | 106 => ⟨S50000x128, .f32⟩
  | 107 => ⟨S_, .f32⟩
  | 108 => ⟨S1x128, .f32⟩
  | 109 => ⟨S1x128, .f32⟩
  | 110 => ⟨S1x128, .f32⟩
  | 111 => ⟨S50000x128, .f32⟩
  | 112 => ⟨S50000x128, .f32⟩
  | 113 => ⟨S1x128, .f32⟩
  | 114 => ⟨S50000x128, .f32⟩
  | 115 => ⟨S50000x128, .f32⟩
  | 116 => ⟨S1x128, .f32⟩
  | 117 => ⟨S50000x128, .f32⟩
  | 118 => ⟨S50000x128, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | .local _ .vmem, ⟨0, _⟩ => ⟨S2000x128, .f32⟩
  | .local _ .vmem, ⟨1, _⟩ => ⟨S2000x128, .f32⟩
  | .local _ .vmem, ⟨2, _⟩ => ⟨S128x512, .f32⟩
  | .local _ .vmem, ⟨3, _⟩ => ⟨S1x512, .f32⟩
  | .local _ .vmem, ⟨4, _⟩ => ⟨S2000x512, .f32⟩
  | .local _ .vmem, ⟨5, _⟩ => ⟨S2000x512, .f32⟩
  | .local _ .vmem, ⟨6, _⟩ => ⟨S5000x128, .f32⟩
  | .local _ .vmem, ⟨7, _⟩ => ⟨S5000x128, .f32⟩
  | .local _ .vmem, ⟨8, _⟩ => ⟨S128x128, .f32⟩
  | .local _ .vmem, ⟨9, _⟩ => ⟨S1x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S5000x128, .f32⟩
  | .local _ .vmem, ⟨14, _⟩ => ⟨S5000x128, .f32⟩
  | .local _ .vmem, ⟨15, _⟩ => ⟨S5000x128, .f32⟩
  | .local _ .vmem, ⟨16, _⟩ => ⟨S1x1x128, .f32⟩
  | .local _ .vmem, ⟨17, _⟩ => ⟨S1x1x128, .f32⟩
  | .local _ .vmem, ⟨18, _⟩ => ⟨S1x1x128, .f32⟩
  | .local _ .vmem, ⟨19, _⟩ => ⟨S1x1x128, .f32⟩
  | .local _ .vmem, ⟨20, _⟩ => ⟨S2000x128, .f32⟩
  | .local _ .vmem, ⟨21, _⟩ => ⟨S2000x128, .f32⟩
  | .local _ .vmem, ⟨22, _⟩ => ⟨S2000x128, .f32⟩
  | .local _ .vmem, ⟨23, _⟩ => ⟨S2000x128, .f32⟩
  | .local _ .vmem, ⟨24, _⟩ => ⟨S2000x128, .f32⟩
  | .local _ .vmem, ⟨25, _⟩ => ⟨S2000x128, .f32⟩
  | .local _ .vmem, ⟨26, _⟩ => ⟨S1x128, .f32⟩
  | .local _ .vmem, ⟨27, _⟩ => ⟨S1x128, .f32⟩
  | .local _ .vmem, ⟨28, _⟩ => ⟨S1x128, .f32⟩
  | .local _ .vmem, ⟨29, _⟩ => ⟨S1x128, .f32⟩
  | .local _ .vmem, ⟨30, _⟩ => ⟨S2000x128, .f32⟩
  | .local _ .vmem, ⟨31, _⟩ => ⟨S2000x128, .f32⟩
  | .local _ .vmem, ⟨32, _⟩ => ⟨S5000x128, .f32⟩
  | .local _ .vmem, ⟨33, _⟩ => ⟨S5000x128, .f32⟩
  | .local _ .vmem, ⟨34, _⟩ => ⟨S128x128, .f32⟩
  | .local _ .vmem, ⟨35, _⟩ => ⟨S1x128, .f32⟩
  | .local _ .vmem, ⟨36, _⟩ => ⟨S5000x128, .f32⟩
  | .local _ .vmem, ⟨37, _⟩ => ⟨S5000x128, .f32⟩
  | .local _ .vmem, ⟨38, _⟩ => ⟨S1x128, .f32⟩
  | .local _ .vmem, ⟨39, _⟩ => ⟨S1x128, .f32⟩
  | .local _ .vmem, ⟨40, _⟩ => ⟨S1x128, .f32⟩
  | .local _ .vmem, ⟨41, _⟩ => ⟨S1x128, .f32⟩
  | .local _ .vmem, ⟨42, _⟩ => ⟨S5000x128, .f32⟩
  | .local _ .vmem, ⟨43, _⟩ => ⟨S5000x128, .f32⟩
  | .local _ .vmem, ⟨44, _⟩ => ⟨S2000x128, .f32⟩
  | .local _ .vmem, ⟨45, _⟩ => ⟨S2000x128, .f32⟩
  | .local _ .vmem, ⟨46, _⟩ => ⟨S1x128, .f32⟩
  | .local _ .vmem, ⟨47, _⟩ => ⟨S1x128, .f32⟩
  | .local _ .vmem, ⟨48, _⟩ => ⟨S1x128, .f32⟩
  | .local _ .vmem, ⟨49, _⟩ => ⟨S1x128, .f32⟩
  | .local _ .vmem, ⟨50, _⟩ => ⟨S128x256, .f32⟩
  | .local _ .vmem, ⟨51, _⟩ => ⟨S1x256, .f32⟩
  | .local _ .vmem, ⟨52, _⟩ => ⟨S256x128, .f32⟩
  | .local _ .vmem, ⟨53, _⟩ => ⟨S1x128, .f32⟩
  | .local _ .vmem, ⟨54, _⟩ => ⟨S2000x128, .f32⟩
  | .local _ .vmem, ⟨55, _⟩ => ⟨S2000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | _, _ => false

abbrev semScoped : Fin 0 → Bool
  | ⟨_, h⟩ => absurd h (Nat.not_lt_zero _)

abbrev dmaSemScoped : Fin 56 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | _ => false

abbrev sig : RefSig :=
  ofTc nBuf bufTy 0 56 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_v0 : Ref sig .tc := ⟨.hbm, 25, rfl⟩
abbrev main_v1 : Ref sig .tc := ⟨.hbm, 26, rfl⟩
abbrev main_v2 : Ref sig .tc := ⟨.hbm, 27, rfl⟩
abbrev main_v3 : Ref sig .tc := ⟨.hbm, 28, rfl⟩
abbrev main_v4 : Ref sig .tc := ⟨.hbm, 29, rfl⟩
abbrev main_v5 : Ref sig .tc := ⟨.hbm, 30, rfl⟩
abbrev main_v6 : Ref sig .tc := ⟨.hbm, 31, rfl⟩
abbrev main_v7 : Ref sig .tc := ⟨.hbm, 32, rfl⟩
abbrev main_v8 : Ref sig .tc := ⟨.hbm, 33, rfl⟩
abbrev main_v9 : Ref sig .tc := ⟨.hbm, 34, rfl⟩
abbrev main_v10 : Ref sig .tc := ⟨.hbm, 35, rfl⟩
abbrev main_v11 : Ref sig .tc := ⟨.hbm, 36, rfl⟩
abbrev main_call0_c : Ref sig .tc := ⟨.hbm, 37, rfl⟩
abbrev main_call0_v0 : Ref sig .tc := ⟨.hbm, 38, rfl⟩
abbrev main_call0_v1 : Ref sig .tc := ⟨.hbm, 39, rfl⟩
abbrev main_call0_c_0 : Ref sig .tc := ⟨.hbm, 40, rfl⟩
abbrev main_call0_v2 : Ref sig .tc := ⟨.hbm, 41, rfl⟩
abbrev main_call0_v3 : Ref sig .tc := ⟨.hbm, 42, rfl⟩
abbrev main_call0_v4 : Ref sig .tc := ⟨.hbm, 43, rfl⟩
abbrev main_call0_v5 : Ref sig .tc := ⟨.hbm, 44, rfl⟩
abbrev main_call0_c_1 : Ref sig .tc := ⟨.hbm, 45, rfl⟩
abbrev main_call0_c_2 : Ref sig .tc := ⟨.hbm, 46, rfl⟩
abbrev main_call0_v6 : Ref sig .tc := ⟨.hbm, 47, rfl⟩
abbrev main_call0_v7 : Ref sig .tc := ⟨.hbm, 48, rfl⟩
abbrev main_call0_v8 : Ref sig .tc := ⟨.hbm, 49, rfl⟩
abbrev main_call0_v9 : Ref sig .tc := ⟨.hbm, 50, rfl⟩
abbrev main_call0_v10 : Ref sig .tc := ⟨.hbm, 51, rfl⟩
abbrev main_call0_v11 : Ref sig .tc := ⟨.hbm, 52, rfl⟩
abbrev main_call0_c_3 : Ref sig .tc := ⟨.hbm, 53, rfl⟩
abbrev main_call0_v12 : Ref sig .tc := ⟨.hbm, 54, rfl⟩
abbrev main_call0_v13 : Ref sig .tc := ⟨.hbm, 55, rfl⟩
abbrev main_call0_v14 : Ref sig .tc := ⟨.hbm, 56, rfl⟩
abbrev main_call0_cst : Ref sig .tc := ⟨.hbm, 57, rfl⟩
abbrev main_call0_v15 : Ref sig .tc := ⟨.hbm, 58, rfl⟩
abbrev main_v12 : Ref sig .tc := ⟨.hbm, 59, rfl⟩
abbrev main_call1_c : Ref sig .tc := ⟨.hbm, 60, rfl⟩
abbrev main_call1_v0 : Ref sig .tc := ⟨.hbm, 61, rfl⟩
abbrev main_call1_v1 : Ref sig .tc := ⟨.hbm, 62, rfl⟩
abbrev main_call1_c_0 : Ref sig .tc := ⟨.hbm, 63, rfl⟩
abbrev main_call1_v2 : Ref sig .tc := ⟨.hbm, 64, rfl⟩
abbrev main_call1_v3 : Ref sig .tc := ⟨.hbm, 65, rfl⟩
abbrev main_call1_v4 : Ref sig .tc := ⟨.hbm, 66, rfl⟩
abbrev main_call1_v5 : Ref sig .tc := ⟨.hbm, 67, rfl⟩
abbrev main_call1_c_1 : Ref sig .tc := ⟨.hbm, 68, rfl⟩
abbrev main_call1_c_2 : Ref sig .tc := ⟨.hbm, 69, rfl⟩
abbrev main_call1_v6 : Ref sig .tc := ⟨.hbm, 70, rfl⟩
abbrev main_call1_v7 : Ref sig .tc := ⟨.hbm, 71, rfl⟩
abbrev main_call1_v8 : Ref sig .tc := ⟨.hbm, 72, rfl⟩
abbrev main_call1_v9 : Ref sig .tc := ⟨.hbm, 73, rfl⟩
abbrev main_call1_v10 : Ref sig .tc := ⟨.hbm, 74, rfl⟩
abbrev main_call1_v11 : Ref sig .tc := ⟨.hbm, 75, rfl⟩
abbrev main_call1_c_3 : Ref sig .tc := ⟨.hbm, 76, rfl⟩
abbrev main_call1_v12 : Ref sig .tc := ⟨.hbm, 77, rfl⟩
abbrev main_call1_v13 : Ref sig .tc := ⟨.hbm, 78, rfl⟩
abbrev main_call1_v14 : Ref sig .tc := ⟨.hbm, 79, rfl⟩
abbrev main_call1_cst : Ref sig .tc := ⟨.hbm, 80, rfl⟩
abbrev main_call1_v15 : Ref sig .tc := ⟨.hbm, 81, rfl⟩
abbrev main_v13 : Ref sig .tc := ⟨.hbm, 82, rfl⟩
abbrev main_v14 : Ref sig .tc := ⟨.hbm, 83, rfl⟩
abbrev main_call2_c : Ref sig .tc := ⟨.hbm, 84, rfl⟩
abbrev main_call2_v0 : Ref sig .tc := ⟨.hbm, 85, rfl⟩
abbrev main_call2_v1 : Ref sig .tc := ⟨.hbm, 86, rfl⟩
abbrev main_call2_c_0 : Ref sig .tc := ⟨.hbm, 87, rfl⟩
abbrev main_call2_v2 : Ref sig .tc := ⟨.hbm, 88, rfl⟩
abbrev main_call2_v3 : Ref sig .tc := ⟨.hbm, 89, rfl⟩
abbrev main_call2_v4 : Ref sig .tc := ⟨.hbm, 90, rfl⟩
abbrev main_call2_v5 : Ref sig .tc := ⟨.hbm, 91, rfl⟩
abbrev main_call2_c_1 : Ref sig .tc := ⟨.hbm, 92, rfl⟩
abbrev main_call2_c_2 : Ref sig .tc := ⟨.hbm, 93, rfl⟩
abbrev main_call2_v6 : Ref sig .tc := ⟨.hbm, 94, rfl⟩
abbrev main_call2_v7 : Ref sig .tc := ⟨.hbm, 95, rfl⟩
abbrev main_call2_v8 : Ref sig .tc := ⟨.hbm, 96, rfl⟩
abbrev main_call2_v9 : Ref sig .tc := ⟨.hbm, 97, rfl⟩
abbrev main_call2_v10 : Ref sig .tc := ⟨.hbm, 98, rfl⟩
abbrev main_call2_v11 : Ref sig .tc := ⟨.hbm, 99, rfl⟩
abbrev main_call2_c_3 : Ref sig .tc := ⟨.hbm, 100, rfl⟩
abbrev main_call2_v12 : Ref sig .tc := ⟨.hbm, 101, rfl⟩
abbrev main_call2_v13 : Ref sig .tc := ⟨.hbm, 102, rfl⟩
abbrev main_call2_v14 : Ref sig .tc := ⟨.hbm, 103, rfl⟩
abbrev main_call2_cst : Ref sig .tc := ⟨.hbm, 104, rfl⟩
abbrev main_call2_v15 : Ref sig .tc := ⟨.hbm, 105, rfl⟩
abbrev main_v15 : Ref sig .tc := ⟨.hbm, 106, rfl⟩
abbrev main_v16 : Ref sig .tc := ⟨.hbm, 107, rfl⟩
abbrev main_v17_0 : Ref sig .tc := ⟨.hbm, 108, rfl⟩
abbrev main_v17_1 : Ref sig .tc := ⟨.hbm, 109, rfl⟩
abbrev main_v17_2 : Ref sig .tc := ⟨.hbm, 110, rfl⟩
abbrev main_cst : Ref sig .tc := ⟨.hbm, 111, rfl⟩
abbrev main_v18 : Ref sig .tc := ⟨.hbm, 112, rfl⟩
abbrev main_v19 : Ref sig .tc := ⟨.hbm, 113, rfl⟩
abbrev main_v20 : Ref sig .tc := ⟨.hbm, 114, rfl⟩
abbrev main_v21 : Ref sig .tc := ⟨.hbm, 115, rfl⟩
abbrev main_cst_0 : Ref sig .tc := ⟨.hbm, 116, rfl⟩
abbrev main_v22 : Ref sig .tc := ⟨.hbm, 117, rfl⟩
abbrev main_v23 : Ref sig .tc := ⟨.hbm, 118, rfl⟩
abbrev main_cst_1 : Ref sig .tc := ⟨.hbm, 119, rfl⟩
abbrev main_v24 : Ref sig .tc := ⟨.hbm, 120, rfl⟩
abbrev main_v25 : Ref sig .tc := ⟨.hbm, 121, rfl⟩
abbrev main_c : Ref sig .tc := ⟨.hbm, 122, rfl⟩
abbrev main_call3_cst : Ref sig .tc := ⟨.hbm, 123, rfl⟩
abbrev main_call3_v0 : Ref sig .tc := ⟨.hbm, 124, rfl⟩
abbrev main_call3_v1 : Ref sig .tc := ⟨.hbm, 125, rfl⟩
abbrev main_call3_cst_0 : Ref sig .tc := ⟨.hbm, 126, rfl⟩
abbrev main_call3_v2 : Ref sig .tc := ⟨.hbm, 127, rfl⟩
abbrev main_call3_v3 : Ref sig .tc := ⟨.hbm, 128, rfl⟩
abbrev main_call3_v4 : Ref sig .tc := ⟨.hbm, 129, rfl⟩
abbrev main_call3_v5 : Ref sig .tc := ⟨.hbm, 130, rfl⟩
abbrev main_call3_v6 : Ref sig .tc := ⟨.hbm, 131, rfl⟩
abbrev main_call3_v7 : Ref sig .tc := ⟨.hbm, 132, rfl⟩
abbrev main_call3_cst_1 : Ref sig .tc := ⟨.hbm, 133, rfl⟩
abbrev main_call3_v8 : Ref sig .tc := ⟨.hbm, 134, rfl⟩
abbrev main_call3_cst_2 : Ref sig .tc := ⟨.hbm, 135, rfl⟩
abbrev main_call3_v9 : Ref sig .tc := ⟨.hbm, 136, rfl⟩
abbrev main_call3_v10 : Ref sig .tc := ⟨.hbm, 137, rfl⟩
abbrev main_call3_v11 : Ref sig .tc := ⟨.hbm, 138, rfl⟩
abbrev main_call3_v12 : Ref sig .tc := ⟨.hbm, 139, rfl⟩
abbrev main_call3_cst_3 : Ref sig .tc := ⟨.hbm, 140, rfl⟩
abbrev main_call3_v13 : Ref sig .tc := ⟨.hbm, 141, rfl⟩
abbrev main_call3_cst_4 : Ref sig .tc := ⟨.hbm, 142, rfl⟩
abbrev main_call3_call0_v0 : Ref sig .tc := ⟨.hbm, 143, rfl⟩
abbrev main_call3_call0_v1 : Ref sig .tc := ⟨.hbm, 144, rfl⟩
abbrev main_v26 : Ref sig .tc := ⟨.hbm, 145, rfl⟩
abbrev main_v27 : Ref sig .tc := ⟨.hbm, 146, rfl⟩
abbrev main_v28 : Ref sig .tc := ⟨.hbm, 147, rfl⟩
abbrev main_v29 : Ref sig .tc := ⟨.hbm, 148, rfl⟩
abbrev main_v30 : Ref sig .tc := ⟨.hbm, 149, rfl⟩
abbrev main_cst_2 : Ref sig .tc := ⟨.hbm, 150, rfl⟩
abbrev main_v31 : Ref sig .tc := ⟨.hbm, 151, rfl⟩
abbrev main_v32 : Ref sig .tc := ⟨.hbm, 152, rfl⟩
abbrev main_v33 : Ref sig .tc := ⟨.hbm, 153, rfl⟩
abbrev main_cst_3 : Ref sig .tc := ⟨.hbm, 154, rfl⟩
abbrev main_v34 : Ref sig .tc := ⟨.hbm, 155, rfl⟩
abbrev main_v35 : Ref sig .tc := ⟨.hbm, 156, rfl⟩
abbrev main_cst_4 : Ref sig .tc := ⟨.hbm, 157, rfl⟩
abbrev main_v36 : Ref sig .tc := ⟨.hbm, 158, rfl⟩
abbrev main_v37 : Ref sig .tc := ⟨.hbm, 159, rfl⟩
abbrev main_cst_5 : Ref sig .tc := ⟨.hbm, 160, rfl⟩
abbrev main_v38 : Ref sig .tc := ⟨.hbm, 161, rfl⟩
abbrev main_v39 : Ref sig .tc := ⟨.hbm, 162, rfl⟩
abbrev main_v40 : Ref sig .tc := ⟨.hbm, 163, rfl⟩
abbrev main_v41 : Ref sig .tc := ⟨.hbm, 164, rfl⟩
abbrev main_v42 : Ref sig .tc := ⟨.hbm, 165, rfl⟩
abbrev main_v43 : Ref sig .tc := ⟨.hbm, 166, rfl⟩
abbrev main_v44 : Ref sig .tc := ⟨.hbm, 167, rfl⟩
abbrev main_cst_6 : Ref sig .tc := ⟨.hbm, 168, rfl⟩
abbrev main_v45 : Ref sig .tc := ⟨.hbm, 169, rfl⟩
abbrev main_v46 : Ref sig .tc := ⟨.hbm, 170, rfl⟩
abbrev main_cst_7 : Ref sig .tc := ⟨.hbm, 171, rfl⟩
abbrev main_v47 : Ref sig .tc := ⟨.hbm, 172, rfl⟩
abbrev main_v48 : Ref sig .tc := ⟨.hbm, 173, rfl⟩
abbrev main_c_8 : Ref sig .tc := ⟨.hbm, 174, rfl⟩
abbrev main_call4_cst : Ref sig .tc := ⟨.hbm, 175, rfl⟩
abbrev main_call4_v0 : Ref sig .tc := ⟨.hbm, 176, rfl⟩
abbrev main_call4_v1 : Ref sig .tc := ⟨.hbm, 177, rfl⟩
abbrev main_call4_cst_0 : Ref sig .tc := ⟨.hbm, 178, rfl⟩
abbrev main_call4_v2 : Ref sig .tc := ⟨.hbm, 179, rfl⟩
abbrev main_call4_v3 : Ref sig .tc := ⟨.hbm, 180, rfl⟩
abbrev main_call4_v4 : Ref sig .tc := ⟨.hbm, 181, rfl⟩
abbrev main_call4_v5 : Ref sig .tc := ⟨.hbm, 182, rfl⟩
abbrev main_call4_v6 : Ref sig .tc := ⟨.hbm, 183, rfl⟩
abbrev main_call4_v7 : Ref sig .tc := ⟨.hbm, 184, rfl⟩
abbrev main_call4_cst_1 : Ref sig .tc := ⟨.hbm, 185, rfl⟩
abbrev main_call4_v8 : Ref sig .tc := ⟨.hbm, 186, rfl⟩
abbrev main_call4_cst_2 : Ref sig .tc := ⟨.hbm, 187, rfl⟩
abbrev main_call4_v9 : Ref sig .tc := ⟨.hbm, 188, rfl⟩
abbrev main_call4_v10 : Ref sig .tc := ⟨.hbm, 189, rfl⟩
abbrev main_call4_v11 : Ref sig .tc := ⟨.hbm, 190, rfl⟩
abbrev main_call4_v12 : Ref sig .tc := ⟨.hbm, 191, rfl⟩
abbrev main_call4_cst_3 : Ref sig .tc := ⟨.hbm, 192, rfl⟩
abbrev main_call4_v13 : Ref sig .tc := ⟨.hbm, 193, rfl⟩
abbrev main_call4_cst_4 : Ref sig .tc := ⟨.hbm, 194, rfl⟩
abbrev main_call4_call0_v0 : Ref sig .tc := ⟨.hbm, 195, rfl⟩
abbrev main_call4_call0_v1 : Ref sig .tc := ⟨.hbm, 196, rfl⟩
abbrev main_v49 : Ref sig .tc := ⟨.hbm, 197, rfl⟩
abbrev main_v50 : Ref sig .tc := ⟨.hbm, 198, rfl⟩
abbrev main_v51 : Ref sig .tc := ⟨.hbm, 199, rfl⟩
abbrev main_v52 : Ref sig .tc := ⟨.hbm, 200, rfl⟩
abbrev main_v53 : Ref sig .tc := ⟨.hbm, 201, rfl⟩
abbrev main_v54 : Ref sig .tc := ⟨.hbm, 202, rfl⟩
abbrev main_cst_9 : Ref sig .tc := ⟨.hbm, 203, rfl⟩
abbrev main_v55 : Ref sig .tc := ⟨.hbm, 204, rfl⟩
abbrev main_v56 : Ref sig .tc := ⟨.hbm, 205, rfl⟩
abbrev main_cst_10 : Ref sig .tc := ⟨.hbm, 206, rfl⟩
abbrev main_v57 : Ref sig .tc := ⟨.hbm, 207, rfl⟩
abbrev main_v58 : Ref sig .tc := ⟨.hbm, 208, rfl⟩
abbrev main_c_11 : Ref sig .tc := ⟨.hbm, 209, rfl⟩
abbrev main_call5_cst : Ref sig .tc := ⟨.hbm, 210, rfl⟩
abbrev main_call5_v0 : Ref sig .tc := ⟨.hbm, 211, rfl⟩
abbrev main_call5_v1 : Ref sig .tc := ⟨.hbm, 212, rfl⟩
abbrev main_call5_cst_0 : Ref sig .tc := ⟨.hbm, 213, rfl⟩
abbrev main_call5_v2 : Ref sig .tc := ⟨.hbm, 214, rfl⟩
abbrev main_call5_v3 : Ref sig .tc := ⟨.hbm, 215, rfl⟩
abbrev main_call5_v4 : Ref sig .tc := ⟨.hbm, 216, rfl⟩
abbrev main_call5_v5 : Ref sig .tc := ⟨.hbm, 217, rfl⟩
abbrev main_call5_v6 : Ref sig .tc := ⟨.hbm, 218, rfl⟩
abbrev main_call5_v7 : Ref sig .tc := ⟨.hbm, 219, rfl⟩
abbrev main_call5_cst_1 : Ref sig .tc := ⟨.hbm, 220, rfl⟩
abbrev main_call5_v8 : Ref sig .tc := ⟨.hbm, 221, rfl⟩
abbrev main_call5_cst_2 : Ref sig .tc := ⟨.hbm, 222, rfl⟩
abbrev main_call5_v9 : Ref sig .tc := ⟨.hbm, 223, rfl⟩
abbrev main_call5_v10 : Ref sig .tc := ⟨.hbm, 224, rfl⟩
abbrev main_call5_v11 : Ref sig .tc := ⟨.hbm, 225, rfl⟩
abbrev main_call5_v12 : Ref sig .tc := ⟨.hbm, 226, rfl⟩
abbrev main_call5_cst_3 : Ref sig .tc := ⟨.hbm, 227, rfl⟩
abbrev main_call5_v13 : Ref sig .tc := ⟨.hbm, 228, rfl⟩
abbrev main_call5_cst_4 : Ref sig .tc := ⟨.hbm, 229, rfl⟩
abbrev main_call5_call0_v0 : Ref sig .tc := ⟨.hbm, 230, rfl⟩
abbrev main_call5_call0_v1 : Ref sig .tc := ⟨.hbm, 231, rfl⟩
abbrev main_v59 : Ref sig .tc := ⟨.hbm, 232, rfl⟩
abbrev main_v60 : Ref sig .tc := ⟨.hbm, 233, rfl⟩
abbrev main_v61 : Ref sig .tc := ⟨.hbm, 234, rfl⟩
abbrev main_cst_12 : Ref sig .tc := ⟨.hbm, 235, rfl⟩
abbrev main_v62 : Ref sig .tc := ⟨.hbm, 236, rfl⟩
abbrev main_v63 : Ref sig .tc := ⟨.hbm, 237, rfl⟩
abbrev main_v64 : Ref sig .tc := ⟨.hbm, 238, rfl⟩
abbrev main_v65 : Ref sig .tc := ⟨.hbm, 239, rfl⟩
abbrev main_v66 : Ref sig .tc := ⟨.hbm, 240, rfl⟩
abbrev main_v67 : Ref sig .tc := ⟨.hbm, 241, rfl⟩
abbrev main_v68 : Ref sig .tc := ⟨.hbm, 242, rfl⟩
abbrev main_v69 : Ref sig .tc := ⟨.hbm, 243, rfl⟩
abbrev main_v70 : Ref sig .tc := ⟨.hbm, 244, rfl⟩
abbrev main_v71 : Ref sig .tc := ⟨.hbm, 245, rfl⟩
abbrev main_v72 : Ref sig .tc := ⟨.hbm, 246, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc1_stg4_0 : Ref sig .tc := ⟨.vmem, 12, rfl⟩
abbrev cc1_stg4_1 : Ref sig .tc := ⟨.vmem, 13, rfl⟩
abbrev cc1_stg5_0 : Ref sig .tc := ⟨.vmem, 14, rfl⟩
abbrev cc1_stg5_1 : Ref sig .tc := ⟨.vmem, 15, rfl⟩
abbrev cc1_stg6_0 : Ref sig .tc := ⟨.vmem, 16, rfl⟩
abbrev cc1_stg6_1 : Ref sig .tc := ⟨.vmem, 17, rfl⟩
abbrev cc1_stg7_0 : Ref sig .tc := ⟨.vmem, 18, rfl⟩
abbrev cc1_stg7_1 : Ref sig .tc := ⟨.vmem, 19, rfl⟩
abbrev cc2_stg0_0 : Ref sig .tc := ⟨.vmem, 20, rfl⟩
abbrev cc2_stg0_1 : Ref sig .tc := ⟨.vmem, 21, rfl⟩
abbrev cc2_stg1_0 : Ref sig .tc := ⟨.vmem, 22, rfl⟩
abbrev cc2_stg1_1 : Ref sig .tc := ⟨.vmem, 23, rfl⟩
abbrev cc2_stg2_0 : Ref sig .tc := ⟨.vmem, 24, rfl⟩
abbrev cc2_stg2_1 : Ref sig .tc := ⟨.vmem, 25, rfl⟩
abbrev cc2_stg3_0 : Ref sig .tc := ⟨.vmem, 26, rfl⟩
abbrev cc2_stg4_0 : Ref sig .tc := ⟨.vmem, 27, rfl⟩
abbrev cc2_stg5_0 : Ref sig .tc := ⟨.vmem, 28, rfl⟩
abbrev cc2_stg6_0 : Ref sig .tc := ⟨.vmem, 29, rfl⟩
abbrev cc2_stg7_0 : Ref sig .tc := ⟨.vmem, 30, rfl⟩
abbrev cc2_stg7_1 : Ref sig .tc := ⟨.vmem, 31, rfl⟩
abbrev cc3_stg0_0 : Ref sig .tc := ⟨.vmem, 32, rfl⟩
abbrev cc3_stg0_1 : Ref sig .tc := ⟨.vmem, 33, rfl⟩
abbrev cc3_stg1_0 : Ref sig .tc := ⟨.vmem, 34, rfl⟩
abbrev cc3_stg2_0 : Ref sig .tc := ⟨.vmem, 35, rfl⟩
abbrev cc3_stg3_0 : Ref sig .tc := ⟨.vmem, 36, rfl⟩
abbrev cc3_stg3_1 : Ref sig .tc := ⟨.vmem, 37, rfl⟩
abbrev cc3_stg4_0 : Ref sig .tc := ⟨.vmem, 38, rfl⟩
abbrev cc3_stg5_0 : Ref sig .tc := ⟨.vmem, 39, rfl⟩
abbrev cc3_stg6_0 : Ref sig .tc := ⟨.vmem, 40, rfl⟩
abbrev cc3_stg7_0 : Ref sig .tc := ⟨.vmem, 41, rfl⟩
abbrev cc3_stg8_0 : Ref sig .tc := ⟨.vmem, 42, rfl⟩
abbrev cc3_stg8_1 : Ref sig .tc := ⟨.vmem, 43, rfl⟩
abbrev cc4_stg0_0 : Ref sig .tc := ⟨.vmem, 44, rfl⟩
abbrev cc4_stg0_1 : Ref sig .tc := ⟨.vmem, 45, rfl⟩
abbrev cc4_stg1_0 : Ref sig .tc := ⟨.vmem, 46, rfl⟩
abbrev cc4_stg2_0 : Ref sig .tc := ⟨.vmem, 47, rfl⟩
abbrev cc4_stg3_0 : Ref sig .tc := ⟨.vmem, 48, rfl⟩
abbrev cc4_stg4_0 : Ref sig .tc := ⟨.vmem, 49, rfl⟩
abbrev cc4_stg5_0 : Ref sig .tc := ⟨.vmem, 50, rfl⟩
abbrev cc4_stg6_0 : Ref sig .tc := ⟨.vmem, 51, rfl⟩
abbrev cc4_stg7_0 : Ref sig .tc := ⟨.vmem, 52, rfl⟩
abbrev cc4_stg8_0 : Ref sig .tc := ⟨.vmem, 53, rfl⟩
abbrev cc4_stg9_0 : Ref sig .tc := ⟨.vmem, 54, rfl⟩
abbrev cc4_stg9_1 : Ref sig .tc := ⟨.vmem, 55, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11
abbrev cc1_sem4_0 : DmaSem sig := 12
abbrev cc1_sem4_1 : DmaSem sig := 13
abbrev cc1_sem5_0 : DmaSem sig := 14
abbrev cc1_sem5_1 : DmaSem sig := 15
abbrev cc1_sem6_0 : DmaSem sig := 16
abbrev cc1_sem6_1 : DmaSem sig := 17
abbrev cc1_sem7_0 : DmaSem sig := 18
abbrev cc1_sem7_1 : DmaSem sig := 19
abbrev cc2_sem0_0 : DmaSem sig := 20
abbrev cc2_sem0_1 : DmaSem sig := 21
abbrev cc2_sem1_0 : DmaSem sig := 22
abbrev cc2_sem1_1 : DmaSem sig := 23
abbrev cc2_sem2_0 : DmaSem sig := 24
abbrev cc2_sem2_1 : DmaSem sig := 25
abbrev cc2_sem3_0 : DmaSem sig := 26
abbrev cc2_sem4_0 : DmaSem sig := 27
abbrev cc2_sem5_0 : DmaSem sig := 28
abbrev cc2_sem6_0 : DmaSem sig := 29
abbrev cc2_sem7_0 : DmaSem sig := 30
abbrev cc2_sem7_1 : DmaSem sig := 31
abbrev cc3_sem0_0 : DmaSem sig := 32
abbrev cc3_sem0_1 : DmaSem sig := 33
abbrev cc3_sem1_0 : DmaSem sig := 34
abbrev cc3_sem2_0 : DmaSem sig := 35
abbrev cc3_sem3_0 : DmaSem sig := 36
abbrev cc3_sem3_1 : DmaSem sig := 37
abbrev cc3_sem4_0 : DmaSem sig := 38
abbrev cc3_sem5_0 : DmaSem sig := 39
abbrev cc3_sem6_0 : DmaSem sig := 40
abbrev cc3_sem7_0 : DmaSem sig := 41
abbrev cc3_sem8_0 : DmaSem sig := 42
abbrev cc3_sem8_1 : DmaSem sig := 43
abbrev cc4_sem0_0 : DmaSem sig := 44
abbrev cc4_sem0_1 : DmaSem sig := 45
abbrev cc4_sem1_0 : DmaSem sig := 46
abbrev cc4_sem2_0 : DmaSem sig := 47
abbrev cc4_sem3_0 : DmaSem sig := 48
abbrev cc4_sem4_0 : DmaSem sig := 49
abbrev cc4_sem5_0 : DmaSem sig := 50
abbrev cc4_sem6_0 : DmaSem sig := 51
abbrev cc4_sem7_0 : DmaSem sig := 52
abbrev cc4_sem8_0 : DmaSem sig := 53
abbrev cc4_sem9_0 : DmaSem sig := 54
abbrev cc4_sem9_1 : DmaSem sig := 55

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2000x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![160], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_6 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_7 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S5000x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S5000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S1x1x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 2 → Memref sig .tc .vmem S1x1x128 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S2000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S1x128 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 2 → Memref sig .tc .vmem S2000x128 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true]

abbrev grid3 : Pipeline.Grid := ⟨1, ![160], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_7 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_8 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S128x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S5000x128 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev stage3_4 : Fin 1 → Memref sig .tc .vmem S1x128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S1x128 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 1 → Memref sig .tc .vmem S1x128 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false]

abbrev stage3_7 : Fin 1 → Memref sig .tc .vmem S1x128 .f32 := fun | 0 => Memref.whole cc3_stg7_0 | ⟨_ + 1, h⟩ => absurd h (Nat.not_lt.2 (Nat.le_add_left _ _))
abbrev sem3_7 : Fin 1 → DmaSem sig := fun | 0 => cc3_sem7_0 | ⟨_ + 1, h⟩ => absurd h (Nat.not_lt.2 (Nat.le_add_left _ _))
abbrev reads3_7 : Fin grid3.rank → Bool := ![false]

abbrev stage3_8 : Fin 2 → Memref sig .tc .vmem S5000x128 .f32 := fun | 0 => Memref.whole cc3_stg8_0 | 1 => Memref.whole cc3_stg8_1 | ⟨_ + 2, h⟩ => absurd h (Nat.not_lt.2 (Nat.le_add_left _ _))
abbrev sem3_8 : Fin 2 → DmaSem sig := fun | 0 => cc3_sem8_0 | 1 => cc3_sem8_1 | ⟨_ + 2, h⟩ => absurd h (Nat.not_lt.2 (Nat.le_add_left _ _))
abbrev reads3_8 : Fin grid3.rank → Bool := ![true]

abbrev grid4 : Pipeline.Grid := ⟨1, ![25], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_6 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_7 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_8 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_9 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S2000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S1x128 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x128 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S1x128 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S1x128 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 1 → Memref sig .tc .vmem S128x256 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

abbrev stage4_6 : Fin 1 → Memref sig .tc .vmem S1x256 .f32 := fun | 0 => Memref.whole cc4_stg6_0 | ⟨_ + 1, h⟩ => absurd h (Nat.not_lt.2 (Nat.le_add_left _ _))
abbrev sem4_6 : Fin 1 → DmaSem sig := fun | 0 => cc4_sem6_0 | ⟨_ + 1, h⟩ => absurd h (Nat.not_lt.2 (Nat.le_add_left _ _))
abbrev reads4_6 : Fin grid4.rank → Bool := ![false]

abbrev stage4_7 : Fin 1 → Memref sig .tc .vmem S256x128 .f32 := fun | 0 => Memref.whole cc4_stg7_0 | ⟨_ + 1, h⟩ => absurd h (Nat.not_lt.2 (Nat.le_add_left _ _))
abbrev sem4_7 : Fin 1 → DmaSem sig := fun | 0 => cc4_sem7_0 | ⟨_ + 1, h⟩ => absurd h (Nat.not_lt.2 (Nat.le_add_left _ _))
abbrev reads4_7 : Fin grid4.rank → Bool := ![false]

abbrev stage4_8 : Fin 1 → Memref sig .tc .vmem S1x128 .f32 := fun | 0 => Memref.whole cc4_stg8_0 | ⟨_ + 1, h⟩ => absurd h (Nat.not_lt.2 (Nat.le_add_left _ _))
abbrev sem4_8 : Fin 1 → DmaSem sig := fun | 0 => cc4_sem8_0 | ⟨_ + 1, h⟩ => absurd h (Nat.not_lt.2 (Nat.le_add_left _ _))
abbrev reads4_8 : Fin grid4.rank → Bool := ![false]

abbrev stage4_9 : Fin 2 → Memref sig .tc .vmem S2000x128 .f32 := fun | 0 => Memref.whole cc4_stg9_0 | 1 => Memref.whole cc4_stg9_1 | ⟨_ + 2, h⟩ => absurd h (Nat.not_lt.2 (Nat.le_add_left _ _))
abbrev sem4_9 : Fin 2 → DmaSem sig := fun | 0 => cc4_sem9_0 | 1 => cc4_sem9_1 | ⟨_ + 2, h⟩ => absurd h (Nat.not_lt.2 (Nat.le_add_left _ _))
abbrev reads4_9 : Fin grid4.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  concatenates_S128x128_S128x128_S128x128_S128x128_S128x512_d1 : Shape.Concatenates [S128x128, S128x128, S128x128, S128x128] S128x512 1
  concatenates_S128_S128_S128_S128_S512_d0 : Shape.Concatenates [S128, S128, S128, S128] S512 0
  shapeCasts_S512_S1x512 : S512.ShapeCasts S1x512
  inb_S2000x128_S2000x128_0_0 : ∀ a, (![0, 0] : Fin 2 → Nat) a + S2000x128.size a ≤ S2000x128.size a
  h_S2000x128 : 0 < S2000x128.numel
  bitsLt_bf16_f32 : FTy.bits .bf16 < FTy.bits .f32
  inb_S128x512_S128x512_0_0 : ∀ a, (![0, 0] : Fin 2 → Nat) a + S128x512.size a ≤ S128x512.size a
  h_S128x512 : 0 < S128x512.numel
  shapeCasts_S128x512_S128x512 : S128x512.ShapeCasts S128x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S2000x512 : S1x512.Broadcasts S2000x512
  inb_S2000x512_S2000x512_0_0 : ∀ a, (![0, 0] : Fin 2 → Nat) a + S2000x512.size a ≤ S2000x512.size a
  h_S2000x512 : 0 < S2000x512.numel
  slices_S50000x512_S50000x128_0_0 : S50000x512.Slices ![0, 0] S50000x128
  slices_S50000x512_S50000x128_0_128 : S50000x512.Slices ![0, 128] S50000x128
  slices_S50000x512_S50000x128_0_256 : S50000x512.Slices ![0, 256] S50000x128
  slices_S50000x512_S50000x128_0_384 : S50000x512.Slices ![0, 384] S50000x128
  bcast_S_S800000 : S_.BroadcastsInDim S800000 (![] : Fin 0 → Fin S800000.rank)
  bcast_S800000_S800000x1_0 : S800000.BroadcastsInDim S800000x1 (![0] : Fin 1 → Fin S800000x1.rank)
  bcast_S_S800000x1 : S_.BroadcastsInDim S800000x1 (![] : Fin 0 → Fin S800000x1.rank)
  bcast_S1_S1x1_1 : S1.BroadcastsInDim S1x1 (![1] : Fin 1 → Fin S1x1.rank)
  bcast_S1x1_S800000x1_0_1 : S1x1.BroadcastsInDim S800000x1 (![0, 1] : Fin 2 → Fin S800000x1.rank)
  reducesTo_S800000x1_S800000_d1 : S800000x1.ReducesTo [1] S800000
  h_S_ : 0 < S_.numel
  bcast_S800000_S800000x128_0 : S800000.BroadcastsInDim S800000x128 (![0] : Fin 1 → Fin S800000x128.rank)
  bcast_S_S800000x128 : S_.BroadcastsInDim S800000x128 (![] : Fin 0 → Fin S800000x128.rank)
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  shapeCasts_S5000x128_S5000x128 : S5000x128.ShapeCasts S5000x128
  reduces_S5000x128_S128 : S5000x128.Reduces [0] S128
  shapeCasts_S1x128_S1x1x128 : S1x128.ShapeCasts S1x1x128
  inb_S1x1x128_S1x1x128_0_0_0 : ∀ a, (![0, 0, 0] : Fin 3 → Nat) a + S1x1x128.size a ≤ S1x1x128.size a
  h_S1x1x128 : 0 < S1x1x128.numel
  bcast_S_S50000x128 : S_.BroadcastsInDim S50000x128 (![] : Fin 0 → Fin S50000x128.rank)
  reducesTo_S50000x128_S128_d0 : S50000x128.ReducesTo [0] S128
  bcast_S128_S1x128_1 : S128.BroadcastsInDim S1x128 (![1] : Fin 1 → Fin S1x128.rank)
  bcast_S_S1x128 : S_.BroadcastsInDim S1x128 (![] : Fin 0 → Fin S1x128.rank)
  bcast_S1x128_S50000x128_0_1 : S1x128.BroadcastsInDim S50000x128 (![0, 1] : Fin 2 → Fin S50000x128.rank)
  shapeCasts_S2000x128_S2000x128 : S2000x128.ShapeCasts S2000x128
  broadcasts_S1x128_S2000x128 : S1x128.Broadcasts S2000x128
  shapeCasts_S160x1x128_S160x128 : S160x1x128.ShapeCasts S160x128
  reducesTo_S160x128_S128_d0 : S160x128.ReducesTo [0] S128
  shapeCasts_S256_S1x256 : S256.ShapeCasts S1x256
  inb_S128x256_S128x256_0_0 : ∀ a, (![0, 0] : Fin 2 → Nat) a + S128x256.size a ≤ S128x256.size a
  h_S128x256 : 0 < S128x256.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S2000x256 : S1x256.Broadcasts S2000x256
  inb_S256x128_S256x128_0_0 : ∀ a, (![0, 0] : Fin 2 → Nat) a + S256x128.size a ≤ S256x128.size a
  h_S256x128 : 0 < S256x128.numel
  dot_S2000x128_S128x512_S2000x512_1_0_0_1_n_n_wf : DotDims.WF S2000x128 S128x512 S2000x512 [1] [0] [0] [1] [] []
  gather_S50000x128_S800000x1_S800000x128_1_0_n_n_0_1_1128_wf : GatherDims.WF S50000x128 S800000x1 S800000x128 [1] [0] [] [0] [] 1 ![1, 128]
  dot_S5000x128_S128x128_S5000x128_1_0_0_1_n_n_wf : DotDims.WF S5000x128 S128x128 S5000x128 [1] [0] [0] [1] [] []
  scatter_S50000x128_S800000x1_S800000x128_1_0_0_1_wf : ScatterDims.WF S50000x128 S800000x1 S800000x128 [1] [0] [0] 1
  dot_S2000x128_S128x256_S2000x256_1_0_0_1_n_n_wf : DotDims.WF S2000x128 S128x256 S2000x256 [1] [0] [0] [1] [] []
  dot_S2000x256_S256x128_S2000x128_1_0_0_1_n_n_wf : DotDims.WF S2000x256 S256x128 S2000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S50000x128.size a
  hwx0_0 : ∀ i : grid0.Coords, EltTy.bits .f32 = 32 ∨ (Rect.block (s := S50000x128) S2000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x512.size a ≤ S128x512.size a
  hwx0_1 : ∀ i : grid0.Coords, EltTy.bits .f32 = 32 ∨ (Rect.block (s := S128x512) S128x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x512.size a ≤ S1x512.size a
  hwx0_2 : ∀ i : grid0.Coords, EltTy.bits .f32 = 32 ∨ (Rect.block (s := S1x512) S1x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2000x512.size a ≤ S50000x512.size a
  hwx0_3 : ∀ i : grid0.Coords, EltTy.bits .f32 = 32 ∨ (Rect.block (s := S50000x512) S2000x512.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S800000x128.size a
  hwx1_0 : ∀ i : grid1.Coords, EltTy.bits .f32 = 32 ∨ (Rect.block (s := S800000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x128.size a ≤ S128x128.size a
  hwx1_1 : ∀ i : grid1.Coords, EltTy.bits .f32 = 32 ∨ (Rect.block (s := S128x128) S128x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x128.size a ≤ S800000x128.size a
  hwx1_3 : ∀ i : grid1.Coords, EltTy.bits .f32 = 32 ∨ (Rect.block (s := S800000x128) S5000x128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S5000x128.size a ≤ S800000x128.size a
  hwx1_4 : ∀ i : grid1.Coords, EltTy.bits .f32 = 32 ∨ (Rect.block (s := S800000x128) S5000x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x128.size a ≤ S800000x128.size a
  hwx1_5 : ∀ i : grid1.Coords, EltTy.bits .f32 = 32 ∨ (Rect.block (s := S800000x128) S5000x128.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S1x1x128.size a ≤ S160x1x128.size a
  hwx1_6 : ∀ i : grid1.Coords, EltTy.bits .f32 = 32 ∨ (Rect.block (s := S160x1x128) S1x1x128.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S1x1x128.size a ≤ S160x1x128.size a
  hwx1_7 : ∀ i : grid1.Coords, EltTy.bits .f32 = 32 ∨ (Rect.block (s := S160x1x128) S1x1x128.size (cc1_transform_7 i) (hinb1_7 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x128.size a ≤ S50000x128.size a
  hwx2_0 : ∀ i : grid2.Coords, EltTy.bits .f32 = 32 ∨ (Rect.block (s := S50000x128) S2000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2000x128.size a ≤ S50000x128.size a
  hwx2_1 : ∀ i : grid2.Coords, EltTy.bits .f32 = 32 ∨ (Rect.block (s := S50000x128) S2000x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2000x128.size a ≤ S50000x128.size a
  hwx2_2 : ∀ i : grid2.Coords, EltTy.bits .f32 = 32 ∨ (Rect.block (s := S50000x128) S2000x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x128.size a ≤ S1x128.size a
  hwx2_3 : ∀ i : grid2.Coords, EltTy.bits .f32 = 32 ∨ (Rect.block (s := S1x128) S1x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x128.size a ≤ S1x128.size a
  hwx2_4 : ∀ i : grid2.Coords, EltTy.bits .f32 = 32 ∨ (Rect.block (s := S1x128) S1x128.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x128.size a ≤ S1x128.size a
  hwx2_5 : ∀ i : grid2.Coords, EltTy.bits .f32 = 32 ∨ (Rect.block (s := S1x128) S1x128.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S1x128.size a ≤ S1x128.size a
  hwx2_6 : ∀ i : grid2.Coords, EltTy.bits .f32 = 32 ∨ (Rect.block (s := S1x128) S1x128.size (cc2_transform_6 i) (hinb2_6 i)).WholeWords (EltTy.packing .f32)
  hstage2_7 : ∀ j, (stage2_7 j).IsWhole
  nbuf2_7 : grid2.bufCount reads2_7 false = 2
  hreads2_7 : ∀ i i' : grid2.Coords, (∀ a, reads2_7 a = true → i a = i' a) → cc2_transform_7 i = cc2_transform_7 i'
  hinb2_7 : ∀ (i : grid2.Coords) a, (cc2_transform_7 i a + 1) * S2000x128.size a ≤ S50000x128.size a
  hwx2_7 : ∀ i : grid2.Coords, EltTy.bits .f32 = 32 ∨ (Rect.block (s := S50000x128) S2000x128.size (cc2_transform_7 i) (hinb2_7 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S800000x128.size a
  hwx3_0 : ∀ i : grid3.Coords, EltTy.bits .f32 = 32 ∨ (Rect.block (s := S800000x128) S5000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S128x128.size a ≤ S128x128.size a
  hwx3_1 : ∀ i : grid3.Coords, EltTy.bits .f32 = 32 ∨ (Rect.block (s := S128x128) S128x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x128.size a ≤ S1x128.size a
  hwx3_2 : ∀ i : grid3.Coords, EltTy.bits .f32 = 32 ∨ (Rect.block (s := S1x128) S1x128.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S5000x128.size a ≤ S800000x128.size a
  hwx3_3 : ∀ i : grid3.Coords, EltTy.bits .f32 = 32 ∨ (Rect.block (s := S800000x128) S5000x128.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x128.size a ≤ S1x128.size a
  hwx3_4 : ∀ i : grid3.Coords, EltTy.bits .f32 = 32 ∨ (Rect.block (s := S1x128) S1x128.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S1x128.size a ≤ S1x128.size a
  hwx3_5 : ∀ i : grid3.Coords, EltTy.bits .f32 = 32 ∨ (Rect.block (s := S1x128) S1x128.size (cc3_transform_5 i) (hinb3_5 i)).WholeWords (EltTy.packing .f32)
  hstage3_6 : ∀ j, (stage3_6 j).IsWhole
  nbuf3_6 : grid3.bufCount reads3_6 true = 1
  hreads3_6 : ∀ i i' : grid3.Coords, (∀ a, reads3_6 a = true → i a = i' a) → cc3_transform_6 i = cc3_transform_6 i'
  hinb3_6 : ∀ (i : grid3.Coords) a, (cc3_transform_6 i a + 1) * S1x128.size a ≤ S1x128.size a
  hwx3_6 : ∀ i : grid3.Coords, EltTy.bits .f32 = 32 ∨ (Rect.block (s := S1x128) S1x128.size (cc3_transform_6 i) (hinb3_6 i)).WholeWords (EltTy.packing .f32)
  hstage3_7 : ∀ j, (stage3_7 j).IsWhole
  nbuf3_7 : grid3.bufCount reads3_7 true = 1
  hreads3_7 : ∀ i i' : grid3.Coords, (∀ a, reads3_7 a = true → i a = i' a) → cc3_transform_7 i = cc3_transform_7 i'
  hinb3_7 : ∀ (i : grid3.Coords) a, (cc3_transform_7 i a + 1) * S1x128.size a ≤ S1x128.size a
  hwx3_7 : ∀ i : grid3.Coords, EltTy.bits .f32 = 32 ∨ (Rect.block (s := S1x128) S1x128.size (cc3_transform_7 i) (hinb3_7 i)).WholeWords (EltTy.packing .f32)
  hstage3_8 : ∀ j, (stage3_8 j).IsWhole
  nbuf3_8 : grid3.bufCount reads3_8 false = 2
  hreads3_8 : ∀ i i' : grid3.Coords, (∀ a, reads3_8 a = true → i a = i' a) → cc3_transform_8 i = cc3_transform_8 i'
  hinb3_8 : ∀ (i : grid3.Coords) a, (cc3_transform_8 i a + 1) * S5000x128.size a ≤ S800000x128.size a
  hwx3_8 : ∀ i : grid3.Coords, EltTy.bits .f32 = 32 ∨ (Rect.block (s := S800000x128) S5000x128.size (cc3_transform_8 i) (hinb3_8 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S2000x128.size a ≤ S50000x128.size a
  hwx4_0 : ∀ i : grid4.Coords, EltTy.bits .f32 = 32 ∨ (Rect.block (s := S50000x128) S2000x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S1x128.size a ≤ S1x128.size a
  hwx4_1 : ∀ i : grid4.Coords, EltTy.bits .f32 = 32 ∨ (Rect.block (s := S1x128) S1x128.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x128.size a ≤ S1x128.size a
  hwx4_2 : ∀ i : grid4.Coords, EltTy.bits .f32 = 32 ∨ (Rect.block (s := S1x128) S1x128.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S1x128.size a ≤ S1x128.size a
  hwx4_3 : ∀ i : grid4.Coords, EltTy.bits .f32 = 32 ∨ (Rect.block (s := S1x128) S1x128.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S1x128.size a ≤ S1x128.size a
  hwx4_4 : ∀ i : grid4.Coords, EltTy.bits .f32 = 32 ∨ (Rect.block (s := S1x128) S1x128.size (cc4_transform_4 i) (hinb4_4 i)).WholeWords (EltTy.packing .f32)
  hstage4_5 : ∀ j, (stage4_5 j).IsWhole
  nbuf4_5 : grid4.bufCount reads4_5 true = 1
  hreads4_5 : ∀ i i' : grid4.Coords, (∀ a, reads4_5 a = true → i a = i' a) → cc4_transform_5 i = cc4_transform_5 i'
  hinb4_5 : ∀ (i : grid4.Coords) a, (cc4_transform_5 i a + 1) * S128x256.size a ≤ S128x256.size a
  hwx4_5 : ∀ i : grid4.Coords, EltTy.bits .f32 = 32 ∨ (Rect.block (s := S128x256) S128x256.size (cc4_transform_5 i) (hinb4_5 i)).WholeWords (EltTy.packing .f32)
  hstage4_6 : ∀ j, (stage4_6 j).IsWhole
  nbuf4_6 : grid4.bufCount reads4_6 true = 1
  hreads4_6 : ∀ i i' : grid4.Coords, (∀ a, reads4_6 a = true → i a = i' a) → cc4_transform_6 i = cc4_transform_6 i'
  hinb4_6 : ∀ (i : grid4.Coords) a, (cc4_transform_6 i a + 1) * S1x256.size a ≤ S1x256.size a
  hwx4_6 : ∀ i : grid4.Coords, EltTy.bits .f32 = 32 ∨ (Rect.block (s := S1x256) S1x256.size (cc4_transform_6 i) (hinb4_6 i)).WholeWords (EltTy.packing .f32)
  hstage4_7 : ∀ j, (stage4_7 j).IsWhole
  nbuf4_7 : grid4.bufCount reads4_7 true = 1
  hreads4_7 : ∀ i i' : grid4.Coords, (∀ a, reads4_7 a = true → i a = i' a) → cc4_transform_7 i = cc4_transform_7 i'
  hinb4_7 : ∀ (i : grid4.Coords) a, (cc4_transform_7 i a + 1) * S256x128.size a ≤ S256x128.size a
  hwx4_7 : ∀ i : grid4.Coords, EltTy.bits .f32 = 32 ∨ (Rect.block (s := S256x128) S256x128.size (cc4_transform_7 i) (hinb4_7 i)).WholeWords (EltTy.packing .f32)
  hstage4_8 : ∀ j, (stage4_8 j).IsWhole
  nbuf4_8 : grid4.bufCount reads4_8 true = 1
  hreads4_8 : ∀ i i' : grid4.Coords, (∀ a, reads4_8 a = true → i a = i' a) → cc4_transform_8 i = cc4_transform_8 i'
  hinb4_8 : ∀ (i : grid4.Coords) a, (cc4_transform_8 i a + 1) * S1x128.size a ≤ S1x128.size a
  hwx4_8 : ∀ i : grid4.Coords, EltTy.bits .f32 = 32 ∨ (Rect.block (s := S1x128) S1x128.size (cc4_transform_8 i) (hinb4_8 i)).WholeWords (EltTy.packing .f32)
  hstage4_9 : ∀ j, (stage4_9 j).IsWhole
  nbuf4_9 : grid4.bufCount reads4_9 false = 2
  hreads4_9 : ∀ i i' : grid4.Coords, (∀ a, reads4_9 a = true → i a = i' a) → cc4_transform_9 i = cc4_transform_9 i'
  hinb4_9 : ∀ (i : grid4.Coords) a, (cc4_transform_9 i a + 1) * S2000x128.size a ≤ S50000x128.size a
  hwx4_9 : ∀ i : grid4.Coords, EltTy.bits .f32 = 32 ∨ (Rect.block (s := S50000x128) S2000x128.size (cc4_transform_9 i) (hinb4_9 i)).WholeWords (EltTy.packing .f32)

variable [Facts₀]

def dot_S2000x128_S128x512_S2000x512_1_0_0_1_n_n : DotDims S2000x128 S128x512 S2000x512 where
  lhsContracting := [1]
  rhsContracting := [0]
  lhsNonContracting := [0]
  rhsNonContracting := [1]
  lhsBatch := []
  rhsBatch := []
  wf := dot_S2000x128_S128x512_S2000x512_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S2000x128_S128x256_S2000x256_1_0_0_1_n_n : DotDims S2000x128 S128x256 S2000x256 where
  lhsContracting := [1]
  rhsContracting := [0]
  lhsNonContracting := [0]
  rhsNonContracting := [1]
  lhsBatch := []
  rhsBatch := []
  wf := dot_S2000x128_S128x256_S2000x256_1_0_0_1_n_n_wf
def dot_S2000x256_S256x128_S2000x128_1_0_0_1_n_n : DotDims S2000x256 S256x128 S2000x128 where
  lhsContracting := [1]
  rhsContracting := [0]
  lhsNonContracting := [0]
  rhsNonContracting := [1]
  lhsBatch := []
  rhsBatch := []
  wf := dot_S2000x256_S256x128_S2000x128_1_0_0_1_n_n_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v4) S128x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v6) S1x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v7) S2000x512.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_arg2) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg7) S128x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v16) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v14) S5000x128.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v15) S5000x128.size cc1_transform_4 reads1_4 false false 2 stage1_4 sem1_4
    hrank1 hreads1_4 hinb1_4 nbuf1_4 (Memref.isWhole_whole _) hwx1_4 hstage1_4

abbrev win1_5 : Pipeline.Window sig grid1 :=
  Pipeline.Window.ofSpec (Memref.whole main_v17_0) S5000x128.size cc1_transform_5 reads1_5 true false 2 stage1_5 sem1_5
    hrank1 hreads1_5 hinb1_5 nbuf1_5 (Memref.isWhole_whole _) hwx1_5 hstage1_5

abbrev win1_6 : Pipeline.Window sig grid1 :=
  Pipeline.Window.ofSpec (Memref.whole main_v17_1) S1x1x128.size cc1_transform_6 reads1_6 true false 2 stage1_6 sem1_6
    hrank1 hreads1_6 hinb1_6 nbuf1_6 (Memref.isWhole_whole _) hwx1_6 hstage1_6

abbrev win1_7 : Pipeline.Window sig grid1 :=
  Pipeline.Window.ofSpec (Memref.whole main_v17_2) S1x1x128.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

abbrev win2_0 : Pipeline.Window sig grid2 :=
  Pipeline.Window.ofSpec (Memref.whole main_v8) S2000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v20) S2000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg0) S2000x128.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v25) S1x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v26) S1x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v27) S1x128.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v28) S1x128.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v29) S2000x128.size cc2_transform_7 reads2_7 true false 2 stage2_7 sem2_7
    hrank2 hreads2_7 hinb2_7 nbuf2_7 (Memref.isWhole_whole _) hwx2_7 hstage2_7

abbrev win2 : Fin 8 → Pipeline.Window sig grid2 := fun | 0 => win2_0 | 1 => win2_1 | 2 => win2_2 | 3 => win2_3 | 4 => win2_4 | 5 => win2_5 | 6 => win2_6 | 7 => win2_7 | ⟨_ + 8, h⟩ => absurd h (Nat.not_lt.2 (Nat.le_add_left _ _))
abbrev spec2 : Fin 8 → Pipeline.WinSpec sig grid2.rank := fun w => (win2 w).toWinSpec

abbrev win3_0 : Pipeline.Window sig grid3 :=
  Pipeline.Window.ofSpec (Memref.whole main_arg2) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg7) S128x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v16) S1x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v14) S5000x128.size cc3_transform_3 reads3_3 false false 2 stage3_3 sem3_3
    hrank3 hreads3_3 hinb3_3 nbuf3_3 (Memref.isWhole_whole _) hwx3_3 hstage3_3

abbrev win3_4 : Pipeline.Window sig grid3 :=
  Pipeline.Window.ofSpec (Memref.whole main_v37) S1x128.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v41) S1x128.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v42) S1x128.size cc3_transform_6 reads3_6 false true 1 stage3_6 sem3_6
    hrank3 hreads3_6 hinb3_6 nbuf3_6 (Memref.isWhole_whole _) hwx3_6 hstage3_6

abbrev win3_7 : Pipeline.Window sig grid3 :=
  Pipeline.Window.ofSpec (Memref.whole main_v43) S1x128.size cc3_transform_7 reads3_7 false true 1 stage3_7 sem3_7
    hrank3 hreads3_7 hinb3_7 nbuf3_7 (Memref.isWhole_whole _) hwx3_7 hstage3_7

abbrev win3_8 : Pipeline.Window sig grid3 :=
  Pipeline.Window.ofSpec (Memref.whole main_v44) S5000x128.size cc3_transform_8 reads3_8 true false 2 stage3_8 sem3_8
    hrank3 hreads3_8 hinb3_8 nbuf3_8 (Memref.isWhole_whole _) hwx3_8 hstage3_8

abbrev win3 : Fin 9 → Pipeline.Window sig grid3 := fun | 0 => win3_0 | 1 => win3_1 | 2 => win3_2 | 3 => win3_3 | 4 => win3_4 | 5 => win3_5 | 6 => win3_6 | 7 => win3_7 | 8 => win3_8 | ⟨_ + 9, h⟩ => absurd h (Nat.not_lt.2 (Nat.le_add_left _ _))
abbrev spec3 : Fin 9 → Pipeline.WinSpec sig grid3.rank := fun w => (win3 w).toWinSpec

abbrev win4_0 : Pipeline.Window sig grid4 :=
  Pipeline.Window.ofSpec (Memref.whole main_v29) S2000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v48) S1x128.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v49) S1x128.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v52) S1x128.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v53) S1x128.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_arg21) S128x256.size cc4_transform_5 reads4_5 false true 1 stage4_5 sem4_5
    hrank4 hreads4_5 hinb4_5 nbuf4_5 (Memref.isWhole_whole _) hwx4_5 hstage4_5

abbrev win4_6 : Pipeline.Window sig grid4 :=
  Pipeline.Window.ofSpec (Memref.whole main_v50) S1x256.size cc4_transform_6 reads4_6 false true 1 stage4_6 sem4_6
    hrank4 hreads4_6 hinb4_6 nbuf4_6 (Memref.isWhole_whole _) hwx4_6 hstage4_6

abbrev win4_7 : Pipeline.Window sig grid4 :=
  Pipeline.Window.ofSpec (Memref.whole main_arg23) S256x128.size cc4_transform_7 reads4_7 false true 1 stage4_7 sem4_7
    hrank4 hreads4_7 hinb4_7 nbuf4_7 (Memref.isWhole_whole _) hwx4_7 hstage4_7

abbrev win4_8 : Pipeline.Window sig grid4 :=
  Pipeline.Window.ofSpec (Memref.whole main_v51) S1x128.size cc4_transform_8 reads4_8 false true 1 stage4_8 sem4_8
    hrank4 hreads4_8 hinb4_8 nbuf4_8 (Memref.isWhole_whole _) hwx4_8 hstage4_8

abbrev win4_9 : Pipeline.Window sig grid4 :=
  Pipeline.Window.ofSpec (Memref.whole main_v54) S2000x128.size cc4_transform_9 reads4_9 true false 2 stage4_9 sem4_9
    hrank4 hreads4_9 hinb4_9 nbuf4_9 (Memref.isWhole_whole _) hwx4_9 hstage4_9

abbrev win4 : Fin 10 → Pipeline.Window sig grid4 := fun | 0 => win4_0 | 1 => win4_1 | 2 => win4_2 | 3 => win4_3 | 4 => win4_4 | 5 => win4_5 | 6 => win4_6 | 7 => win4_7 | 8 => win4_8 | 9 => win4_9 | ⟨_ + 10, h⟩ => absurd h (Nat.not_lt.2 (Nat.le_add_left _ _))
abbrev spec4 : Fin 10 → Pipeline.WinSpec sig grid4.rank := fun w => (win4 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S800000x128 : Shape := ⟨2, ![800000, 128]⟩
abbrev S128x128 : Shape := ⟨2, ![128, 128]⟩
abbrev S128 : Shape := ⟨1, ![128]⟩
abbrev S128x256 : Shape := ⟨2, ![128, 256]⟩
abbrev S256 : Shape := ⟨1, ![256]⟩
abbrev S256x128 : Shape := ⟨2, ![256, 128]⟩
abbrev S1x800000 : Shape := ⟨2, ![1, 800000]⟩
abbrev S800000 : Shape := ⟨1, ![800000]⟩
abbrev S1x128 : Shape := ⟨2, ![1, 128]⟩
abbrev S_ : Shape := ⟨0, ![]⟩
abbrev S800000x1 : Shape := ⟨2, ![800000, 1]⟩
abbrev S50000x256 : Shape := ⟨2, ![50000, 256]⟩
abbrev S1x256 : Shape := ⟨2, ![1, 256]⟩

abbrev nBuf : Space → Nat
  | .hbm => 288
  | .vmem => 0
  | .smem => 0
  | _ => 0

abbrev hbmTy0_0 (i : Nat) : BufTy := match i % 128 with
  | 0 => ⟨S50000x128, .f32⟩
  | 1 => ⟨S2x800000, .i32⟩
  | 2 => ⟨S800000x128, .f32⟩
  | 3 => ⟨S128x128, .f32⟩
  | 4 => ⟨S128, .f32⟩
  | 5 => ⟨S128x128, .f32⟩
  | 6 => ⟨S128, .f32⟩
  | 7 => ⟨S128x128, .f32⟩
  | 8 => ⟨S128, .f32⟩
  | 9 => ⟨S128x128, .f32⟩
  | 10 => ⟨S128, .f32⟩
  | 11 => ⟨S128x128, .f32⟩
  | 12 => ⟨S128, .f32⟩
  | 13 => ⟨S128, .f32⟩
  | 14 => ⟨S128, .f32⟩
  | 15 => ⟨S128, .f32⟩
  | 16 => ⟨S128, .f32⟩
  | 17 => ⟨S128, .f32⟩
  | 18 => ⟨S128, .f32⟩
  | 19 => ⟨S128, .f32⟩
  | 20 => ⟨S128, .f32⟩
  | 21 => ⟨S128x256, .f32⟩
  | 22 => ⟨S256, .f32⟩
  | 23 => ⟨S256x128, .f32⟩
  | 24 => ⟨S128, .f32⟩
  | 25 => ⟨S1x800000, .i32⟩
  | 26 => ⟨S800000, .i32⟩
  | 27 => ⟨S1x800000, .i32⟩
  | 28 => ⟨S800000, .i32⟩
  | 29 => ⟨S50000x128, .f32⟩
  | 30 => ⟨S1x128, .f32⟩
  | 31 => ⟨S50000x128, .f32⟩
  | 32 => ⟨S50000x128, .f32⟩
  | 33 => ⟨S50000x128, .f32⟩
  | 34 => ⟨S1x128, .f32⟩
  | 35 => ⟨S50000x128, .f32⟩
  | 36 => ⟨S50000x128, .f32⟩
  | 37 => ⟨S800000x128, .f32⟩
  | 38 => ⟨S1x128, .f32⟩
  | 39 => ⟨S800000x128, .f32⟩
  | 40 => ⟨S800000x128, .f32⟩
  | 41 => ⟨S50000x128, .f32⟩
  | 42 => ⟨S1x128, .f32⟩
  | 43 => ⟨S50000x128, .f32⟩
  | 44 => ⟨S50000x128, .f32⟩
  | 45 => ⟨S50000x128, .f32⟩
  | 46 => ⟨S1x128, .f32⟩
  | 47 => ⟨S50000x128, .f32⟩
  | 48 => ⟨S50000x128, .f32⟩
  | 49 => ⟨S_, .i32⟩
  | 50 => ⟨S800000, .i32⟩
  | 51 => ⟨S800000, .i1⟩
  | 52 => ⟨S_, .i32⟩
  | 53 => ⟨S800000, .i32⟩
  | 54 => ⟨S800000, .i32⟩
  | 55 => ⟨S800000, .i32⟩
  | 56 => ⟨S800000x1, .i32⟩
  | 57 => ⟨S800000x128, .f32⟩
  | 58 => ⟨S_, .i32⟩
  | 59 => ⟨S800000, .i32⟩
  | 60 => ⟨S800000, .i1⟩
  | 61 => ⟨S_, .i32⟩
  | 62 => ⟨S800000, .i32⟩
  | 63 => ⟨S800000, .i32⟩
  | 64 => ⟨S800000, .i32⟩
  | 65 => ⟨S800000x1, .i32⟩
  | 66 => ⟨S800000x128, .f32⟩
  | 67 => ⟨S800000x128, .f32⟩
  | 68 => ⟨S800000x128, .f32⟩
  | 69 => ⟨S800000x128, .f32⟩
  | 70 => ⟨S800000x128, .f32⟩
  | 71 => ⟨S_, .f32⟩
  | 72 => ⟨S800000x128, .f32⟩
  | 73 => ⟨S800000x128, .f32⟩
  | 74 => ⟨S_, .f32⟩
  | 75 => ⟨S800000x128, .f32⟩
  | 76 => ⟨S800000x128, .f32⟩
  | 77 => ⟨S_, .i32⟩
  | 78 => ⟨S800000, .i32⟩
  | 79 => ⟨S800000, .i1⟩
  | 80 => ⟨S_, .i32⟩
  | 81 => ⟨S800000, .i32⟩
  | 82 => ⟨S800000, .i32⟩
  | 83 => ⟨S800000, .i32⟩
  | 84 => ⟨S800000x1, .i32⟩
  | 85 => ⟨S800000x128, .f32⟩
  | 86 => ⟨S800000x128, .f32⟩
  | 87 => ⟨S_, .f32⟩
  | 88 => ⟨S50000x128, .f32⟩
  | 89 => ⟨S800000x1, .i32⟩
  | 90 => ⟨S50000x128, .f32⟩
  | 91 => ⟨S50000x128, .f32⟩
  | 92 => ⟨S_, .f32⟩
  | 93 => ⟨S128, .f32⟩
  | 94 => ⟨S_, .f32⟩
  | 95 => ⟨S128, .f32⟩
  | 96 => ⟨S128, .f32⟩
  | 97 => ⟨S_, .i32⟩
  | 98 => ⟨S_, .f32⟩
  | 99 => ⟨S128, .f32⟩
  | 100 => ⟨S1x128, .f32⟩
  | 101 => ⟨S_, .f32⟩
  | 102 => ⟨S1x128, .f32⟩
  | 103 => ⟨S1x128, .f32⟩
  | 104 => ⟨S50000x128, .f32⟩
  | 105 => ⟨S50000x128, .f32⟩
  | 106 => ⟨S50000x128, .f32⟩
  | 107 => ⟨S_, .f32⟩
  | 108 => ⟨S_, .f32⟩
  | 109 => ⟨S_, .f32⟩
  | 110 => ⟨S_, .f32⟩
  | 111 => ⟨S128, .f32⟩
  | 112 => ⟨S128, .f32⟩
  | 113 => ⟨S128, .f32⟩
  | 114 => ⟨S_, .f32⟩
  | 115 => ⟨S_, .i1⟩
  | 116 => ⟨S_, .f32⟩
  | 117 => ⟨S_, .f32⟩
  | 118 => ⟨S128, .f32⟩
  | 119 => ⟨S128, .f32⟩
  | 120 => ⟨S1x128, .f32⟩
  | 121 => ⟨S50000x128, .f32⟩
  | 122 => ⟨S50000x128, .f32⟩
  | 123 => ⟨S_, .f32⟩
  | 124 => ⟨S128, .f32⟩
  | 125 => ⟨S128, .f32⟩
  | 126 => ⟨S128, .f32⟩
  | 127 => ⟨S1x128, .f32⟩
  | _ => ⟨S50000x128, .f32⟩

abbrev hbmTy0_1 (i : Nat) : BufTy := match i % 128 with
  | 0 => ⟨S50000x128, .f32⟩
  | 1 => ⟨S50000x128, .f32⟩
  | 2 => ⟨S1x128, .f32⟩
  | 3 => ⟨S50000x128, .f32⟩
  | 4 => ⟨S50000x128, .f32⟩
  | 5 => ⟨S1x128, .f32⟩
  | 6 => ⟨S50000x128, .f32⟩
  | 7 => ⟨S50000x128, .f32⟩
  | 8 => ⟨S_, .f32⟩
  | 9 => ⟨S50000x128, .f32⟩
  | 10 => ⟨S50000x128, .f32⟩
  | 11 => ⟨S_, .f32⟩
  | 12 => ⟨S128, .f32⟩
  | 13 => ⟨S_, .f32⟩
  | 14 => ⟨S128, .f32⟩
  | 15 => ⟨S128, .f32⟩
  | 16 => ⟨S_, .i32⟩
  | 17 => ⟨S_, .f32⟩
  | 18 => ⟨S128, .f32⟩
  | 19 => ⟨S1x128, .f32⟩
  | 20 => ⟨S_, .f32⟩
  | 21 => ⟨S1x128, .f32⟩
  | 22 => ⟨S1x128, .f32⟩
  | 23 => ⟨S800000x128, .f32⟩
  | 24 => ⟨S800000x128, .f32⟩
  | 25 => ⟨S800000x128, .f32⟩
  | 26 => ⟨S_, .f32⟩
  | 27 => ⟨S_, .f32⟩
  | 28 => ⟨S_, .f32⟩
  | 29 => ⟨S_, .f32⟩
  | 30 => ⟨S128, .f32⟩
  | 31 => ⟨S128, .f32⟩
  | 32 => ⟨S128, .f32⟩
  | 33 => ⟨S_, .f32⟩
  | 34 => ⟨S_, .i1⟩
  | 35 => ⟨S_, .f32⟩
  | 36 => ⟨S_, .f32⟩
  | 37 => ⟨S128, .f32⟩
  | 38 => ⟨S128, .f32⟩
  | 39 => ⟨S1x128, .f32⟩
  | 40 => ⟨S800000x128, .f32⟩
  | 41 => ⟨S800000x128, .f32⟩
  | 42 => ⟨S_, .f32⟩
  | 43 => ⟨S128, .f32⟩
  | 44 => ⟨S128, .f32⟩
  | 45 => ⟨S128, .f32⟩
  | 46 => ⟨S1x128, .f32⟩
  | 47 => ⟨S800000x128, .f32⟩
  | 48 => ⟨S800000x128, .f32⟩
  | 49 => ⟨S1x128, .f32⟩
  | 50 => ⟨S800000x128, .f32⟩
  | 51 => ⟨S800000x128, .f32⟩
  | 52 => ⟨S1x128, .f32⟩
  | 53 => ⟨S800000x128, .f32⟩
  | 54 => ⟨S800000x128, .f32⟩
  | 55 => ⟨S_, .f32⟩
  | 56 => ⟨S800000x128, .f32⟩
  | 57 => ⟨S800000x128, .f32⟩
  | 58 => ⟨S50000x128, .f32⟩
  | 59 => ⟨S800000x128, .f32⟩
  | 60 => ⟨S_, .f32⟩
  | 61 => ⟨S128, .f32⟩
  | 62 => ⟨S_, .f32⟩
  | 63 => ⟨S128, .f32⟩
  | 64 => ⟨S128, .f32⟩
  | 65 => ⟨S_, .i32⟩
  | 66 => ⟨S_, .f32⟩
  | 67 => ⟨S128, .f32⟩
  | 68 => ⟨S1x128, .f32⟩
  | 69 => ⟨S_, .f32⟩
  | 70 => ⟨S1x128, .f32⟩
  | 71 => ⟨S1x128, .f32⟩
  | 72 => ⟨S50000x128, .f32⟩
  | 73 => ⟨S50000x128, .f32⟩
  | 74 => ⟨S50000x128, .f32⟩
  | 75 => ⟨S_, .f32⟩
  | 76 => ⟨S_, .f32⟩
  | 77 => ⟨S_, .f32⟩
  | 78 => ⟨S_, .f32⟩
  | 79 => ⟨S128, .f32⟩
  | 80 => ⟨S128, .f32⟩
  | 81 => ⟨S128, .f32⟩
  | 82 => ⟨S_, .f32⟩
  | 83 => ⟨S_, .i1⟩
  | 84 => ⟨S_, .f32⟩
  | 85 => ⟨S_, .f32⟩
  | 86 => ⟨S128, .f32⟩
  | 87 => ⟨S128, .f32⟩
  | 88 => ⟨S1x128, .f32⟩
  | 89 => ⟨S50000x128, .f32⟩
  | 90 => ⟨S50000x128, .f32⟩
  | 91 => ⟨S_, .f32⟩
  | 92 => ⟨S128, .f32⟩
  | 93 => ⟨S128, .f32⟩
  | 94 => ⟨S128, .f32⟩
  | 95 => ⟨S1x128, .f32⟩
  | 96 => ⟨S50000x128, .f32⟩
  | 97 => ⟨S50000x128, .f32⟩
  | 98 => ⟨S1x128, .f32⟩
  | 99 => ⟨S50000x128, .f32⟩
  | 100 => ⟨S50000x128, .f32⟩
  | 101 => ⟨S1x128, .f32⟩
  | 102 => ⟨S50000x128, .f32⟩
  | 103 => ⟨S50000x128, .f32⟩
  | 104 => ⟨S50000x256, .f32⟩
  | 105 => ⟨S1x256, .f32⟩
  | 106 => ⟨S50000x256, .f32⟩
  | 107 => ⟨S50000x256, .f32⟩
  | 108 => ⟨S_, .f32⟩
  | 109 => ⟨S50000x256, .f32⟩
  | 110 => ⟨S50000x256, .f32⟩
  | 111 => ⟨S50000x128, .f32⟩
  | 112 => ⟨S1x128, .f32⟩
  | 113 => ⟨S50000x128, .f32⟩
  | 114 => ⟨S50000x128, .f32⟩
  | 115 => ⟨S50000x128, .f32⟩
  | 116 => ⟨S_, .f32⟩
  | 117 => ⟨S128, .f32⟩
  | 118 => ⟨S_, .f32⟩
  | 119 => ⟨S128, .f32⟩
  | 120 => ⟨S128, .f32⟩
  | 121 => ⟨S_, .i32⟩
  | 122 => ⟨S_, .f32⟩
  | 123 => ⟨S128, .f32⟩
  | 124 => ⟨S1x128, .f32⟩
  | 125 => ⟨S_, .f32⟩
  | 126 => ⟨S1x128, .f32⟩
  | 127 => ⟨S1x128, .f32⟩
  | _ => ⟨S50000x128, .f32⟩

abbrev hbmTy0_2 (i : Nat) : BufTy := match i % 128 with
  | 0 => ⟨S50000x128, .f32⟩
  | 1 => ⟨S50000x128, .f32⟩
  | 2 => ⟨S50000x128, .f32⟩
  | 3 => ⟨S_, .f32⟩
  | 4 => ⟨S_, .f32⟩
  | 5 => ⟨S_, .f32⟩
  | 6 => ⟨S_, .f32⟩
  | 7 => ⟨S128, .f32⟩
  | 8 => ⟨S128, .f32⟩
  | 9 => ⟨S128, .f32⟩
  | 10 => ⟨S_, .f32⟩
  | 11 => ⟨S_, .i1⟩
  | 12 => ⟨S_, .f32⟩
  | 13 => ⟨S_, .f32⟩
  | 14 => ⟨S128, .f32⟩
  | 15 => ⟨S128, .f32⟩
  | 16 => ⟨S1x128, .f32⟩
  | 17 => ⟨S50000x128, .f32⟩
  | 18 => ⟨S50000x128, .f32⟩
  | 19 => ⟨S_, .f32⟩
  | 20 => ⟨S128, .f32⟩
  | 21 => ⟨S128, .f32⟩
  | 22 => ⟨S128, .f32⟩
  | 23 => ⟨S1x128, .f32⟩
  | 24 => ⟨S50000x128, .f32⟩
  | 25 => ⟨S50000x128, .f32⟩
  | 26 => ⟨S1x128, .f32⟩
  | 27 => ⟨S50000x128, .f32⟩
  | 28 => ⟨S50000x128, .f32⟩
  | 29 => ⟨S1x128, .f32⟩
  | 30 => ⟨S50000x128, .f32⟩
  | 31 => ⟨S50000x128, .f32⟩
  | _ => ⟨S50000x128, .f32⟩

abbrev hbmTy (i : Nat) : BufTy := match i / 128 with
  | 0 => hbmTy0_0 i
  | 1 => hbmTy0_1 i
  | 2 => hbmTy0_2 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_v0 : Ref sig .tc := ⟨.hbm, 25, rfl⟩
abbrev main_v1 : Ref sig .tc := ⟨.hbm, 26, rfl⟩
abbrev main_v2 : Ref sig .tc := ⟨.hbm, 27, rfl⟩
abbrev main_v3 : Ref sig .tc := ⟨.hbm, 28, rfl⟩
abbrev main_v4 : Ref sig .tc := ⟨.hbm, 29, rfl⟩
abbrev main_v5 : Ref sig .tc := ⟨.hbm, 30, rfl⟩
abbrev main_v6 : Ref sig .tc := ⟨.hbm, 31, rfl⟩
abbrev main_v7 : Ref sig .tc := ⟨.hbm, 32, rfl⟩
abbrev main_v8 : Ref sig .tc := ⟨.hbm, 33, rfl⟩
abbrev main_v9 : Ref sig .tc := ⟨.hbm, 34, rfl⟩
abbrev main_v10 : Ref sig .tc := ⟨.hbm, 35, rfl⟩
abbrev main_v11 : Ref sig .tc := ⟨.hbm, 36, rfl⟩
abbrev main_v12 : Ref sig .tc := ⟨.hbm, 37, rfl⟩
abbrev main_v13 : Ref sig .tc := ⟨.hbm, 38, rfl⟩
abbrev main_v14 : Ref sig .tc := ⟨.hbm, 39, rfl⟩
abbrev main_v15 : Ref sig .tc := ⟨.hbm, 40, rfl⟩
abbrev main_v16 : Ref sig .tc := ⟨.hbm, 41, rfl⟩
abbrev main_v17 : Ref sig .tc := ⟨.hbm, 42, rfl⟩
abbrev main_v18 : Ref sig .tc := ⟨.hbm, 43, rfl⟩
abbrev main_v19 : Ref sig .tc := ⟨.hbm, 44, rfl⟩
abbrev main_v20 : Ref sig .tc := ⟨.hbm, 45, rfl⟩
abbrev main_v21 : Ref sig .tc := ⟨.hbm, 46, rfl⟩
abbrev main_v22 : Ref sig .tc := ⟨.hbm, 47, rfl⟩
abbrev main_v23 : Ref sig .tc := ⟨.hbm, 48, rfl⟩
abbrev main_c : Ref sig .tc := ⟨.hbm, 49, rfl⟩
abbrev main_v24 : Ref sig .tc := ⟨.hbm, 50, rfl⟩
abbrev main_v25 : Ref sig .tc := ⟨.hbm, 51, rfl⟩
abbrev main_c_0 : Ref sig .tc := ⟨.hbm, 52, rfl⟩
abbrev main_v26 : Ref sig .tc := ⟨.hbm, 53, rfl⟩
abbrev main_v27 : Ref sig .tc := ⟨.hbm, 54, rfl⟩
abbrev main_v28 : Ref sig .tc := ⟨.hbm, 55, rfl⟩
abbrev main_v29 : Ref sig .tc := ⟨.hbm, 56, rfl⟩
abbrev main_v30 : Ref sig .tc := ⟨.hbm, 57, rfl⟩
abbrev main_c_1 : Ref sig .tc := ⟨.hbm, 58, rfl⟩
abbrev main_v31 : Ref sig .tc := ⟨.hbm, 59, rfl⟩
abbrev main_v32 : Ref sig .tc := ⟨.hbm, 60, rfl⟩
abbrev main_c_2 : Ref sig .tc := ⟨.hbm, 61, rfl⟩
abbrev main_v33 : Ref sig .tc := ⟨.hbm, 62, rfl⟩
abbrev main_v34 : Ref sig .tc := ⟨.hbm, 63, rfl⟩
abbrev main_v35 : Ref sig .tc := ⟨.hbm, 64, rfl⟩
abbrev main_v36 : Ref sig .tc := ⟨.hbm, 65, rfl⟩
abbrev main_v37 : Ref sig .tc := ⟨.hbm, 66, rfl⟩
abbrev main_v38 : Ref sig .tc := ⟨.hbm, 67, rfl⟩
abbrev main_v39 : Ref sig .tc := ⟨.hbm, 68, rfl⟩
abbrev main_v40 : Ref sig .tc := ⟨.hbm, 69, rfl⟩
abbrev main_v41 : Ref sig .tc := ⟨.hbm, 70, rfl⟩
abbrev main_cst : Ref sig .tc := ⟨.hbm, 71, rfl⟩
abbrev main_v42 : Ref sig .tc := ⟨.hbm, 72, rfl⟩
abbrev main_v43 : Ref sig .tc := ⟨.hbm, 73, rfl⟩
abbrev main_cst_3 : Ref sig .tc := ⟨.hbm, 74, rfl⟩
abbrev main_v44 : Ref sig .tc := ⟨.hbm, 75, rfl⟩
abbrev main_v45 : Ref sig .tc := ⟨.hbm, 76, rfl⟩
abbrev main_c_4 : Ref sig .tc := ⟨.hbm, 77, rfl⟩
abbrev main_v46 : Ref sig .tc := ⟨.hbm, 78, rfl⟩
abbrev main_v47 : Ref sig .tc := ⟨.hbm, 79, rfl⟩
abbrev main_c_5 : Ref sig .tc := ⟨.hbm, 80, rfl⟩
abbrev main_v48 : Ref sig .tc := ⟨.hbm, 81, rfl⟩
abbrev main_v49 : Ref sig .tc := ⟨.hbm, 82, rfl⟩
abbrev main_v50 : Ref sig .tc := ⟨.hbm, 83, rfl⟩
abbrev main_v51 : Ref sig .tc := ⟨.hbm, 84, rfl⟩
abbrev main_v52 : Ref sig .tc := ⟨.hbm, 85, rfl⟩
abbrev main_v53 : Ref sig .tc := ⟨.hbm, 86, rfl⟩
abbrev main_cst_6 : Ref sig .tc := ⟨.hbm, 87, rfl⟩
abbrev main_v54 : Ref sig .tc := ⟨.hbm, 88, rfl⟩
abbrev main_v55 : Ref sig .tc := ⟨.hbm, 89, rfl⟩
abbrev main_v56 : Ref sig .tc := ⟨.hbm, 90, rfl⟩
abbrev main_v57 : Ref sig .tc := ⟨.hbm, 91, rfl⟩
abbrev main_cst_7 : Ref sig .tc := ⟨.hbm, 92, rfl⟩
abbrev main_v58 : Ref sig .tc := ⟨.hbm, 93, rfl⟩
abbrev main_cst_8 : Ref sig .tc := ⟨.hbm, 94, rfl⟩
abbrev main_v59 : Ref sig .tc := ⟨.hbm, 95, rfl⟩
abbrev main_v60 : Ref sig .tc := ⟨.hbm, 96, rfl⟩
abbrev main_c_9 : Ref sig .tc := ⟨.hbm, 97, rfl⟩
abbrev main_call0_cst : Ref sig .tc := ⟨.hbm, 98, rfl⟩
abbrev main_call0_v0 : Ref sig .tc := ⟨.hbm, 99, rfl⟩
abbrev main_call0_v1 : Ref sig .tc := ⟨.hbm, 100, rfl⟩
abbrev main_call0_cst_0 : Ref sig .tc := ⟨.hbm, 101, rfl⟩
abbrev main_call0_v2 : Ref sig .tc := ⟨.hbm, 102, rfl⟩
abbrev main_call0_v3 : Ref sig .tc := ⟨.hbm, 103, rfl⟩
abbrev main_call0_v4 : Ref sig .tc := ⟨.hbm, 104, rfl⟩
abbrev main_call0_v5 : Ref sig .tc := ⟨.hbm, 105, rfl⟩
abbrev main_call0_v6 : Ref sig .tc := ⟨.hbm, 106, rfl⟩
abbrev main_call0_v7 : Ref sig .tc := ⟨.hbm, 107, rfl⟩
abbrev main_call0_cst_1 : Ref sig .tc := ⟨.hbm, 108, rfl⟩
abbrev main_call0_v8 : Ref sig .tc := ⟨.hbm, 109, rfl⟩
abbrev main_call0_cst_2 : Ref sig .tc := ⟨.hbm, 110, rfl⟩
abbrev main_call0_v9 : Ref sig .tc := ⟨.hbm, 111, rfl⟩
abbrev main_call0_v10 : Ref sig .tc := ⟨.hbm, 112, rfl⟩
abbrev main_call0_v11 : Ref sig .tc := ⟨.hbm, 113, rfl⟩
abbrev main_call0_cst_3 : Ref sig .tc := ⟨.hbm, 114, rfl⟩
abbrev main_call0_v12 : Ref sig .tc := ⟨.hbm, 115, rfl⟩
abbrev main_call0_cst_4 : Ref sig .tc := ⟨.hbm, 116, rfl⟩
abbrev main_call0_call0_v0 : Ref sig .tc := ⟨.hbm, 117, rfl⟩
abbrev main_call0_call0_v1 : Ref sig .tc := ⟨.hbm, 118, rfl⟩
abbrev main_v61 : Ref sig .tc := ⟨.hbm, 119, rfl⟩
abbrev main_v62 : Ref sig .tc := ⟨.hbm, 120, rfl⟩
abbrev main_v63 : Ref sig .tc := ⟨.hbm, 121, rfl⟩
abbrev main_v64 : Ref sig .tc := ⟨.hbm, 122, rfl⟩
abbrev main_cst_10 : Ref sig .tc := ⟨.hbm, 123, rfl⟩
abbrev main_v65 : Ref sig .tc := ⟨.hbm, 124, rfl⟩
abbrev main_v66 : Ref sig .tc := ⟨.hbm, 125, rfl⟩
abbrev main_v67 : Ref sig .tc := ⟨.hbm, 126, rfl⟩
abbrev main_v68 : Ref sig .tc := ⟨.hbm, 127, rfl⟩
abbrev main_v69 : Ref sig .tc := ⟨.hbm, 128, rfl⟩
abbrev main_v70 : Ref sig .tc := ⟨.hbm, 129, rfl⟩
abbrev main_v71 : Ref sig .tc := ⟨.hbm, 130, rfl⟩
abbrev main_v72 : Ref sig .tc := ⟨.hbm, 131, rfl⟩
abbrev main_v73 : Ref sig .tc := ⟨.hbm, 132, rfl⟩
abbrev main_v74 : Ref sig .tc := ⟨.hbm, 133, rfl⟩
abbrev main_v75 : Ref sig .tc := ⟨.hbm, 134, rfl⟩
abbrev main_v76 : Ref sig .tc := ⟨.hbm, 135, rfl⟩
abbrev main_call1_cst : Ref sig .tc := ⟨.hbm, 136, rfl⟩
abbrev main_call1_v0 : Ref sig .tc := ⟨.hbm, 137, rfl⟩
abbrev main_v77 : Ref sig .tc := ⟨.hbm, 138, rfl⟩
abbrev main_cst_11 : Ref sig .tc := ⟨.hbm, 139, rfl⟩
abbrev main_v78 : Ref sig .tc := ⟨.hbm, 140, rfl⟩
abbrev main_cst_12 : Ref sig .tc := ⟨.hbm, 141, rfl⟩
abbrev main_v79 : Ref sig .tc := ⟨.hbm, 142, rfl⟩
abbrev main_v80 : Ref sig .tc := ⟨.hbm, 143, rfl⟩
abbrev main_c_13 : Ref sig .tc := ⟨.hbm, 144, rfl⟩
abbrev main_call2_cst : Ref sig .tc := ⟨.hbm, 145, rfl⟩
abbrev main_call2_v0 : Ref sig .tc := ⟨.hbm, 146, rfl⟩
abbrev main_call2_v1 : Ref sig .tc := ⟨.hbm, 147, rfl⟩
abbrev main_call2_cst_0 : Ref sig .tc := ⟨.hbm, 148, rfl⟩
abbrev main_call2_v2 : Ref sig .tc := ⟨.hbm, 149, rfl⟩
abbrev main_call2_v3 : Ref sig .tc := ⟨.hbm, 150, rfl⟩
abbrev main_call2_v4 : Ref sig .tc := ⟨.hbm, 151, rfl⟩
abbrev main_call2_v5 : Ref sig .tc := ⟨.hbm, 152, rfl⟩
abbrev main_call2_v6 : Ref sig .tc := ⟨.hbm, 153, rfl⟩
abbrev main_call2_v7 : Ref sig .tc := ⟨.hbm, 154, rfl⟩
abbrev main_call2_cst_1 : Ref sig .tc := ⟨.hbm, 155, rfl⟩
abbrev main_call2_v8 : Ref sig .tc := ⟨.hbm, 156, rfl⟩
abbrev main_call2_cst_2 : Ref sig .tc := ⟨.hbm, 157, rfl⟩
abbrev main_call2_v9 : Ref sig .tc := ⟨.hbm, 158, rfl⟩
abbrev main_call2_v10 : Ref sig .tc := ⟨.hbm, 159, rfl⟩
abbrev main_call2_v11 : Ref sig .tc := ⟨.hbm, 160, rfl⟩
abbrev main_call2_cst_3 : Ref sig .tc := ⟨.hbm, 161, rfl⟩
abbrev main_call2_v12 : Ref sig .tc := ⟨.hbm, 162, rfl⟩
abbrev main_call2_cst_4 : Ref sig .tc := ⟨.hbm, 163, rfl⟩
abbrev main_call2_call0_v0 : Ref sig .tc := ⟨.hbm, 164, rfl⟩
abbrev main_call2_call0_v1 : Ref sig .tc := ⟨.hbm, 165, rfl⟩
abbrev main_v81 : Ref sig .tc := ⟨.hbm, 166, rfl⟩
abbrev main_v82 : Ref sig .tc := ⟨.hbm, 167, rfl⟩
abbrev main_v83 : Ref sig .tc := ⟨.hbm, 168, rfl⟩
abbrev main_v84 : Ref sig .tc := ⟨.hbm, 169, rfl⟩
abbrev main_cst_14 : Ref sig .tc := ⟨.hbm, 170, rfl⟩
abbrev main_v85 : Ref sig .tc := ⟨.hbm, 171, rfl⟩
abbrev main_v86 : Ref sig .tc := ⟨.hbm, 172, rfl⟩
abbrev main_v87 : Ref sig .tc := ⟨.hbm, 173, rfl⟩
abbrev main_v88 : Ref sig .tc := ⟨.hbm, 174, rfl⟩
abbrev main_v89 : Ref sig .tc := ⟨.hbm, 175, rfl⟩
abbrev main_v90 : Ref sig .tc := ⟨.hbm, 176, rfl⟩
abbrev main_v91 : Ref sig .tc := ⟨.hbm, 177, rfl⟩
abbrev main_v92 : Ref sig .tc := ⟨.hbm, 178, rfl⟩
abbrev main_v93 : Ref sig .tc := ⟨.hbm, 179, rfl⟩
abbrev main_v94 : Ref sig .tc := ⟨.hbm, 180, rfl⟩
abbrev main_v95 : Ref sig .tc := ⟨.hbm, 181, rfl⟩
abbrev main_v96 : Ref sig .tc := ⟨.hbm, 182, rfl⟩
abbrev main_call3_cst : Ref sig .tc := ⟨.hbm, 183, rfl⟩
abbrev main_call3_v0 : Ref sig .tc := ⟨.hbm, 184, rfl⟩
abbrev main_v97 : Ref sig .tc := ⟨.hbm, 185, rfl⟩
abbrev main_v98 : Ref sig .tc := ⟨.hbm, 186, rfl⟩
abbrev main_v99 : Ref sig .tc := ⟨.hbm, 187, rfl⟩
abbrev main_cst_15 : Ref sig .tc := ⟨.hbm, 188, rfl⟩
abbrev main_v100 : Ref sig .tc := ⟨.hbm, 189, rfl⟩
abbrev main_cst_16 : Ref sig .tc := ⟨.hbm, 190, rfl⟩
abbrev main_v101 : Ref sig .tc := ⟨.hbm, 191, rfl⟩
abbrev main_v102 : Ref sig .tc := ⟨.hbm, 192, rfl⟩
abbrev main_c_17 : Ref sig .tc := ⟨.hbm, 193, rfl⟩
abbrev main_call4_cst : Ref sig .tc := ⟨.hbm, 194, rfl⟩
abbrev main_call4_v0 : Ref sig .tc := ⟨.hbm, 195, rfl⟩
abbrev main_call4_v1 : Ref sig .tc := ⟨.hbm, 196, rfl⟩
abbrev main_call4_cst_0 : Ref sig .tc := ⟨.hbm, 197, rfl⟩
abbrev main_call4_v2 : Ref sig .tc := ⟨.hbm, 198, rfl⟩
abbrev main_call4_v3 : Ref sig .tc := ⟨.hbm, 199, rfl⟩
abbrev main_call4_v4 : Ref sig .tc := ⟨.hbm, 200, rfl⟩
abbrev main_call4_v5 : Ref sig .tc := ⟨.hbm, 201, rfl⟩
abbrev main_call4_v6 : Ref sig .tc := ⟨.hbm, 202, rfl⟩
abbrev main_call4_v7 : Ref sig .tc := ⟨.hbm, 203, rfl⟩
abbrev main_call4_cst_1 : Ref sig .tc := ⟨.hbm, 204, rfl⟩
abbrev main_call4_v8 : Ref sig .tc := ⟨.hbm, 205, rfl⟩
abbrev main_call4_cst_2 : Ref sig .tc := ⟨.hbm, 206, rfl⟩
abbrev main_call4_v9 : Ref sig .tc := ⟨.hbm, 207, rfl⟩
abbrev main_call4_v10 : Ref sig .tc := ⟨.hbm, 208, rfl⟩
abbrev main_call4_v11 : Ref sig .tc := ⟨.hbm, 209, rfl⟩
abbrev main_call4_cst_3 : Ref sig .tc := ⟨.hbm, 210, rfl⟩
abbrev main_call4_v12 : Ref sig .tc := ⟨.hbm, 211, rfl⟩
abbrev main_call4_cst_4 : Ref sig .tc := ⟨.hbm, 212, rfl⟩
abbrev main_call4_call0_v0 : Ref sig .tc := ⟨.hbm, 213, rfl⟩
abbrev main_call4_call0_v1 : Ref sig .tc := ⟨.hbm, 214, rfl⟩
abbrev main_v103 : Ref sig .tc := ⟨.hbm, 215, rfl⟩
abbrev main_v104 : Ref sig .tc := ⟨.hbm, 216, rfl⟩
abbrev main_v105 : Ref sig .tc := ⟨.hbm, 217, rfl⟩
abbrev main_v106 : Ref sig .tc := ⟨.hbm, 218, rfl⟩
abbrev main_cst_18 : Ref sig .tc := ⟨.hbm, 219, rfl⟩
abbrev main_v107 : Ref sig .tc := ⟨.hbm, 220, rfl⟩
abbrev main_v108 : Ref sig .tc := ⟨.hbm, 221, rfl⟩
abbrev main_v109 : Ref sig .tc := ⟨.hbm, 222, rfl⟩
abbrev main_v110 : Ref sig .tc := ⟨.hbm, 223, rfl⟩
abbrev main_v111 : Ref sig .tc := ⟨.hbm, 224, rfl⟩
abbrev main_v112 : Ref sig .tc := ⟨.hbm, 225, rfl⟩
abbrev main_v113 : Ref sig .tc := ⟨.hbm, 226, rfl⟩
abbrev main_v114 : Ref sig .tc := ⟨.hbm, 227, rfl⟩
abbrev main_v115 : Ref sig .tc := ⟨.hbm, 228, rfl⟩
abbrev main_v116 : Ref sig .tc := ⟨.hbm, 229, rfl⟩
abbrev main_v117 : Ref sig .tc := ⟨.hbm, 230, rfl⟩
abbrev main_v118 : Ref sig .tc := ⟨.hbm, 231, rfl⟩
abbrev main_v119 : Ref sig .tc := ⟨.hbm, 232, rfl⟩
abbrev main_v120 : Ref sig .tc := ⟨.hbm, 233, rfl⟩
abbrev main_v121 : Ref sig .tc := ⟨.hbm, 234, rfl⟩
abbrev main_v122 : Ref sig .tc := ⟨.hbm, 235, rfl⟩
abbrev main_call5_cst : Ref sig .tc := ⟨.hbm, 236, rfl⟩
abbrev main_call5_v0 : Ref sig .tc := ⟨.hbm, 237, rfl⟩
abbrev main_v123 : Ref sig .tc := ⟨.hbm, 238, rfl⟩
abbrev main_v124 : Ref sig .tc := ⟨.hbm, 239, rfl⟩
abbrev main_v125 : Ref sig .tc := ⟨.hbm, 240, rfl⟩
abbrev main_v126 : Ref sig .tc := ⟨.hbm, 241, rfl⟩
abbrev main_v127 : Ref sig .tc := ⟨.hbm, 242, rfl⟩
abbrev main_v128 : Ref sig .tc := ⟨.hbm, 243, rfl⟩
abbrev main_cst_19 : Ref sig .tc := ⟨.hbm, 244, rfl⟩
abbrev main_v129 : Ref sig .tc := ⟨.hbm, 245, rfl⟩
abbrev main_cst_20 : Ref sig .tc := ⟨.hbm, 246, rfl⟩
abbrev main_v130 : Ref sig .tc := ⟨.hbm, 247, rfl⟩
abbrev main_v131 : Ref sig .tc := ⟨.hbm, 248, rfl⟩
abbrev main_c_21 : Ref sig .tc := ⟨.hbm, 249, rfl⟩
abbrev main_call6_cst : Ref sig .tc := ⟨.hbm, 250, rfl⟩
abbrev main_call6_v0 : Ref sig .tc := ⟨.hbm, 251, rfl⟩
abbrev main_call6_v1 : Ref sig .tc := ⟨.hbm, 252, rfl⟩
abbrev main_call6_cst_0 : Ref sig .tc := ⟨.hbm, 253, rfl⟩
abbrev main_call6_v2 : Ref sig .tc := ⟨.hbm, 254, rfl⟩
abbrev main_call6_v3 : Ref sig .tc := ⟨.hbm, 255, rfl⟩
abbrev main_call6_v4 : Ref sig .tc := ⟨.hbm, 256, rfl⟩
abbrev main_call6_v5 : Ref sig .tc := ⟨.hbm, 257, rfl⟩
abbrev main_call6_v6 : Ref sig .tc := ⟨.hbm, 258, rfl⟩
abbrev main_call6_v7 : Ref sig .tc := ⟨.hbm, 259, rfl⟩
abbrev main_call6_cst_1 : Ref sig .tc := ⟨.hbm, 260, rfl⟩
abbrev main_call6_v8 : Ref sig .tc := ⟨.hbm, 261, rfl⟩
abbrev main_call6_cst_2 : Ref sig .tc := ⟨.hbm, 262, rfl⟩
abbrev main_call6_v9 : Ref sig .tc := ⟨.hbm, 263, rfl⟩
abbrev main_call6_v10 : Ref sig .tc := ⟨.hbm, 264, rfl⟩
abbrev main_call6_v11 : Ref sig .tc := ⟨.hbm, 265, rfl⟩
abbrev main_call6_cst_3 : Ref sig .tc := ⟨.hbm, 266, rfl⟩
abbrev main_call6_v12 : Ref sig .tc := ⟨.hbm, 267, rfl⟩
abbrev main_call6_cst_4 : Ref sig .tc := ⟨.hbm, 268, rfl⟩
abbrev main_call6_call0_v0 : Ref sig .tc := ⟨.hbm, 269, rfl⟩
abbrev main_call6_call0_v1 : Ref sig .tc := ⟨.hbm, 270, rfl⟩
abbrev main_v132 : Ref sig .tc := ⟨.hbm, 271, rfl⟩
abbrev main_v133 : Ref sig .tc := ⟨.hbm, 272, rfl⟩
abbrev main_v134 : Ref sig .tc := ⟨.hbm, 273, rfl⟩
abbrev main_v135 : Ref sig .tc := ⟨.hbm, 274, rfl⟩
abbrev main_cst_22 : Ref sig .tc := ⟨.hbm, 275, rfl⟩
abbrev main_v136 : Ref sig .tc := ⟨.hbm, 276, rfl⟩
abbrev main_v137 : Ref sig .tc := ⟨.hbm, 277, rfl⟩
abbrev main_v138 : Ref sig .tc := ⟨.hbm, 278, rfl⟩
abbrev main_v139 : Ref sig .tc := ⟨.hbm, 279, rfl⟩
abbrev main_v140 : Ref sig .tc := ⟨.hbm, 280, rfl⟩
abbrev main_v141 : Ref sig .tc := ⟨.hbm, 281, rfl⟩
abbrev main_v142 : Ref sig .tc := ⟨.hbm, 282, rfl⟩
abbrev main_v143 : Ref sig .tc := ⟨.hbm, 283, rfl⟩
abbrev main_v144 : Ref sig .tc := ⟨.hbm, 284, rfl⟩
abbrev main_v145 : Ref sig .tc := ⟨.hbm, 285, rfl⟩
abbrev main_v146 : Ref sig .tc := ⟨.hbm, 286, rfl⟩
abbrev main_v147 : Ref sig .tc := ⟨.hbm, 287, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S1x128_S800000x128_0_1 : S1x128.BroadcastsInDim S800000x128 (![0, 1] : Fin 2 → Fin S800000x128.rank)
  bcast_S_S800000 : S_.BroadcastsInDim S800000 (![] : Fin 0 → Fin S800000.rank)
  bcast_S800000_S800000x1_0 : S800000.BroadcastsInDim S800000x1 (![0] : Fin 1 → Fin S800000x1.rank)
  bcast_S_S800000x128 : S_.BroadcastsInDim S800000x128 (![] : Fin 0 → Fin S800000x128.rank)
  bcast_S_S50000x128 : S_.BroadcastsInDim S50000x128 (![] : Fin 0 → Fin S50000x128.rank)
  reducesTo_S50000x128_S128_d0 : S50000x128.ReducesTo [0] S128
  h_S_ : 0 < S_.numel
  bcast_S_S128 : S_.BroadcastsInDim S128 (![] : Fin 0 → Fin S128.rank)
  bcast_S_S1x128 : S_.BroadcastsInDim S1x128 (![] : Fin 0 → Fin S1x128.rank)
  reducesTo_S800000x128_S128_d0 : S800000x128.ReducesTo [0] S128
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  bcast_S_S50000x256 : S_.BroadcastsInDim S50000x256 (![] : Fin 0 → Fin S50000x256.rank)
  dot_S50000x128_S128x128_S50000x128_1_0_0_1_n_n_wf : DotDims.WF S50000x128 S128x128 S50000x128 [1] [0] [0] [1] [] []
  dot_S800000x128_S128x128_S800000x128_1_0_0_1_n_n_wf : DotDims.WF S800000x128 S128x128 S800000x128 [1] [0] [0] [1] [] []
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S50000x128_S128x256_S50000x256_1_0_0_1_n_n_wf : DotDims.WF S50000x128 S128x256 S50000x256 [1] [0] [0] [1] [] []
  dot_S50000x256_S256x128_S50000x128_1_0_0_1_n_n_wf : DotDims.WF S50000x256 S256x128 S50000x128 [1] [0] [0] [1] [] []

variable [Facts₀]

def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def dot_S800000x128_S128x128_S800000x128_1_0_0_1_n_n : DotDims S800000x128 S128x128 S800000x128 where
  lhsContracting := [1]
  rhsContracting := [0]
  lhsNonContracting := [0]
  rhsNonContracting := [1]
  lhsBatch := []
  rhsBatch := []
  wf := dot_S800000x128_S128x128_S800000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S50000x128_S128x256_S50000x256_1_0_0_1_n_n : DotDims S50000x128 S128x256 S50000x256 where
  lhsContracting := [1]
  rhsContracting := [0]
  lhsNonContracting := [0]
  rhsNonContracting := [1]
  lhsBatch := []
  rhsBatch := []
  wf := dot_S50000x128_S128x256_S50000x256_1_0_0_1_n_n_wf
def dot_S50000x256_S256x128_S50000x128_1_0_0_1_n_n : DotDims S50000x256 S256x128 S50000x128 where
  lhsContracting := [1]
  rhsContracting := [0]
  lhsNonContracting := [0]
  rhsNonContracting := [1]
  lhsBatch := []
  rhsBatch := []
  wf := dot_S50000x256_S256x128_S50000x128_1_0_0_1_n_n_wf

class Facts : Prop extends Facts₀ where

variable [Facts]
-- ==== Proof.K.Reg0.lean ====
import proofs.«422477_j6347961663751_3_alg».proof.Proof.Gen.Kernel.Launch
import proofs.«422477_j6347961663751_3_alg».proof.Proof.Gen.Kernel.Skeleton
import proofs.«422477_j6347961663751_3_alg».proof.Proof.Gen.Kernel.Points
import Idealize.ShloMosaic.Lib.Pipeline.FrameBody
import Idealize.ShloMosaic.Lib.Tactic

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev r0_0 : Rect S2000x128 := Rect.unit (s := S2000x128) ![0, 0] S2000x128.size inb_S2000x128_S2000x128_0_0
abbrev r0_1 : Rect S128x512 := Rect.unit (s := S128x512) ![0, 0] S128x512.size inb_S128x512_S128x512_0_0
abbrev r0_2 : Rect S1x512 := Rect.unit (s := S1x512) ![0, 0] S1x512.size inb_S1x512_S1x512_0_0
abbrev r0_3 : Rect S2000x512 := Rect.unit (s := S2000x512) ![0, 0] S2000x512.size inb_S2000x512_S2000x512_0_0

def out0_3 (x0 : Vec F S2000x128 .f32) (x1 : Vec F S128x512 .f32) (x2 : Vec F S1x512 .f32) : Vec F S2000x512 .f32 :=
  View.canon [⟨r0_3, k0_pay1 (View.ld x0 r0_0) (View.ld x1 r0_1) (View.ld x2 r0_2)⟩]

theorem sound_kernel0 {c : Dev nD} {E : Set ℕ} {i : grid0.Coords} {arg1 : Memref sig .tc .vmem S2000x128 .f32} {arg2 : Memref sig .tc .vmem S128x512 .f32} {arg3 : Memref sig .tc .vmem S1x512 .f32} {arg4 : Memref sig .tc .vmem S2000x512 .f32}
    {harg1 : arg1.IsWhole} {harg2 : arg2.IsWhole} {harg3 : arg3.IsWhole} {harg4 : arg4.IsWhole}
    {x0 : Vec F S2000x128 .f32} {x1 : Vec F S128x512 .f32} {x2 : Vec F S1x512 .f32} {K : PUnit → sProp 𝕄} :
    iprop(owns c arg1 fullShare x0 ∗ owns c arg2 fullShare x1 ∗ owns c arg3 fullShare x2
        ∗ (∃ d, owns c arg4 fullShare d)
        ∗ (iprop(owns c arg1 fullShare x0 ∗ owns c arg2 fullShare x1 ∗ owns c arg3 fullShare x2
            ∗ owns c arg4 fullShare (out0_3 x0 x1 x2)) -∗ K ⟨⟩))
      ⊢ wp frame (wpE (defs₀ (F := F)) Variants.none c none) E (cc0__node_proj_kernel i arg1 harg1 arg2 harg2 arg3 harg3 arg4 harg4) K := by
  simp only [cc0__node_proj_kernel_eq_skeleton]; unfold cc0__node_proj_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (View.cover_of_tiled _ S2000x512.size (by rfl))

def dat0 (c : Dev nD) : Pipeline.Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_3 (c : Dev nD) (t : Fin cfg0.N) :
    (dat0 V c).after 3 t = out0_3 (iblk0 V c 0 t) (iblk0 V c 1 t) (iblk0 V c 2 t) := by dsimp only [dat0]

-- The body writes no input window, so the block a point finds in one is the block it leaves there.
theorem before0 (c : Dev nD) (t : Fin cfg0.N) : ∀ w : Fin cfg0.W, (cfg0.win w).isOut = false →
    ∀ d, (dat0 V c).before w t d = (dat0 V c).after w t
  | ⟨0, _⟩, _, d | ⟨1, _⟩, _, d | ⟨2, _⟩, _, d =>
    ((dat0 V c).before_in_eq_fetched _ rfl (fun _ => rfl) (fun _ _ _ => rfl) (fun _ => rfl) t d).trans rfl
  | ⟨3, _⟩, h, _ => nomatch h

-- At every point the body's triple applies at the input blocks; the invariant and the debts pass through.
theorem body_obligation0 (c : Dev nD) : Pipeline.BodyObligation (dat0 (F := F) V c) (defs₀ (F := F)) Variants.none () Set.univ := fun t => by
  rw [bigSep_W0, bigSep_W0]
  show _ ⊢ wp frame _ _ (bodyAt0 t) _
  unfold bodyAt0
  simp (disch := rfl) only [before0 V c t]
  rw [show (dat0 V c).Φ t.succ = (dat0 V c).Φ t.castSucc from rfl,
    show (dat0 V c).owesAt () t.succ = (dat0 V c).owesAt () t.castSucc from rfl]
  iintro ⟨HΦ, Ho, ⟨%d0, H0⟩, ⟨%d1, H1⟩, ⟨%d2, H2⟩, ⟨%d3, H3⟩⟩
  iapply sound_kernel0
  iframe H0 H1 H2
  isplitl [H3]; · iexists _; iexact H3
  iintro H
  iframe HΦ Ho
  dsimp only [dat0]
  iexact H

end Cert.Kernel.Frm

end
-- ==== Proof.K.Reg1.lean ====
import proofs.«422477_j6347961663751_3_alg».proof.Proof.Gen.Kernel.Launch
import proofs.«422477_j6347961663751_3_alg».proof.Proof.Gen.Kernel.Skeleton
import proofs.«422477_j6347961663751_3_alg».proof.Proof.Gen.Kernel.Points
import Idealize.ShloMosaic.Lib.Pipeline.FrameBody
import Idealize.ShloMosaic.Lib.Tactic

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev r1_a : Rect S5000x128 := Rect.unit (s := S5000x128) ![0, 0] S5000x128.size inb_S5000x128_S5000x128_0_0
abbrev r1_b : Rect S128x128 := Rect.unit (s := S128x128) ![0, 0] S128x128.size inb_S128x128_S128x128_0_0
abbrev r1_c : Rect S1x128 := Rect.unit (s := S1x128) ![0, 0] S1x128.size inb_S1x128_S1x128_0_0
abbrev r1_d : Rect S1x1x128 := Rect.unit (s := S1x1x128) ![0, 0, 0] S1x1x128.size inb_S1x1x128_S1x1x128_0_0_0

def out1_5 (x0 : Vec F S5000x128 .f32) (x1 : Vec F S128x128 .f32) (x2 : Vec F S1x128 .f32) (x3 : Vec F S5000x128 .f32) (x4 : Vec F S5000x128 .f32) : Vec F S5000x128 .f32 :=
  View.canon [⟨r1_a, k1_pay2 (View.ld x0 r1_a) (View.ld x1 r1_b) (View.ld x2 r1_c) (View.ld x3 r1_a) (View.ld x4 r1_a)⟩]

def out1_6 (x0 : Vec F S5000x128 .f32) (x1 : Vec F S128x128 .f32) (x2 : Vec F S1x128 .f32) (x3 : Vec F S5000x128 .f32) (x4 : Vec F S5000x128 .f32) : Vec F S1x1x128 .f32 :=
  View.canon [⟨r1_d, k1_pay3 (View.ld x0 r1_a) (View.ld x1 r1_b) (View.ld x2 r1_c) (View.ld x3 r1_a)⟩]

def out1_7 (x0 : Vec F S5000x128 .f32) (x1 : Vec F S128x128 .f32) (x2 : Vec F S1x128 .f32) (x3 : Vec F S5000x128 .f32) (x4 : Vec F S5000x128 .f32) : Vec F S1x1x128 .f32 :=
  View.canon [⟨r1_d, k1_pay4 (View.ld x0 r1_a) (View.ld x1 r1_b) (View.ld x2 r1_c) (View.ld x3 r1_a)⟩]

theorem sound_kernel1 {c : Dev nD} {E : Set ℕ} {i : grid1.Coords} {arg1 arg4 arg5 arg6 : Memref sig .tc .vmem S5000x128 .f32} {arg2 : Memref sig .tc .vmem S128x128 .f32} {arg3 : Memref sig .tc .vmem S1x128 .f32} {arg7 arg8 : Memref sig .tc .vmem S1x1x128 .f32}
    {harg1 : arg1.IsWhole} {harg2 : arg2.IsWhole} {harg3 : arg3.IsWhole} {harg4 : arg4.IsWhole} {harg5 : arg5.IsWhole} {harg6 : arg6.IsWhole} {harg7 : arg7.IsWhole} {harg8 : arg8.IsWhole}
    {x0 x3 x4 : Vec F S5000x128 .f32} {x1 : Vec F S128x128 .f32} {x2 : Vec F S1x128 .f32} {K : PUnit → sProp 𝕄} :
    iprop(owns c arg1 fullShare x0 ∗ owns c arg2 fullShare x1 ∗ owns c arg3 fullShare x2
        ∗ owns c arg4 fullShare x3 ∗ owns c arg5 fullShare x4
        ∗ (∃ d, owns c arg6 fullShare d) ∗ (∃ d, owns c arg7 fullShare d) ∗ (∃ d, owns c arg8 fullShare d)
        ∗ (iprop(owns c arg1 fullShare x0 ∗ owns c arg2 fullShare x1 ∗ owns c arg3 fullShare x2
            ∗ owns c arg4 fullShare x3 ∗ owns c arg5 fullShare x4
            ∗ owns c arg6 fullShare (out1_5 x0 x1 x2 x3 x4)
            ∗ owns c arg7 fullShare (out1_6 x0 x1 x2 x3 x4)
            ∗ owns c arg8 fullShare (out1_7 x0 x1 x2 x3 x4)) -∗ K ⟨⟩))
      ⊢ wp frame (wpE (defs₀ (F := F)) Variants.none c none) E
          (cc1__edge_gate_kernel i arg1 harg1 arg2 harg2 arg3 harg3 arg4 harg4 arg5 harg5 arg6 harg6 arg7 harg7 arg8 harg8) K := by
  simp only [cc1__edge_gate_kernel_eq_skeleton]; unfold cc1__edge_gate_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    exact View.read_writes_eq_canon _ _ _ (View.cover_of_tiled _ S5000x128.size (by rfl))
  isplitl [H6]
  · iexists _; isplitr
    swap; · iexact H6
    ipureintro
    exact View.read_writes_eq_canon _ _ _ (View.cover_of_tiled _ S1x1x128.size (by rfl))
  iexists _; isplitr
  swap; · iexact H7
  ipureintro
  exact View.read_writes_eq_canon _ _ _ (View.cover_of_tiled _ S1x1x128.size (by rfl))

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => out1_5 (iblk1 V c 0 t) (iblk1 V c 1 t) (iblk1 V c 2 t) (iblk1 V c 3 t) (iblk1 V c 4 t)
    | ⟨6, _⟩ => out1_6 (iblk1 V c 0 t) (iblk1 V c 1 t) (iblk1 V c 2 t) (iblk1 V c 3 t) (iblk1 V c 4 t)
    | ⟨7, _⟩ => out1_7 (iblk1 V c 0 t) (iblk1 V c 1 t) (iblk1 V c 2 t) (iblk1 V c 3 t) (iblk1 V c 4 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_5 (c : Dev nD) (t : Fin cfg1.N) : (dat1 V c).after 5 t
    = out1_5 (iblk1 V c 0 t) (iblk1 V c 1 t) (iblk1 V c 2 t) (iblk1 V c 3 t) (iblk1 V c 4 t) := by dsimp only [dat1]
theorem after1_6 (c : Dev nD) (t : Fin cfg1.N) : (dat1 V c).after 6 t
    = out1_6 (iblk1 V c 0 t) (iblk1 V c 1 t) (iblk1 V c 2 t) (iblk1 V c 3 t) (iblk1 V c 4 t) := by dsimp only [dat1]
theorem after1_7 (c : Dev nD) (t : Fin cfg1.N) : (dat1 V c).after 7 t
    = out1_7 (iblk1 V c 0 t) (iblk1 V c 1 t) (iblk1 V c 2 t) (iblk1 V c 3 t) (iblk1 V c 4 t) := by dsimp only [dat1]

-- The body writes no input window, so the block a point finds in one is the block it leaves there.
theorem before1 (c : Dev nD) (t : Fin cfg1.N) : ∀ w : Fin cfg1.W, (cfg1.win w).isOut = false →
    ∀ d, (dat1 V c).before w t d = (dat1 V c).after w t
  | ⟨0, _⟩, _, d | ⟨1, _⟩, _, d | ⟨2, _⟩, _, d | ⟨3, _⟩, _, d | ⟨4, _⟩, _, d =>
    ((dat1 V c).before_in_eq_fetched _ rfl (fun _ => rfl) (fun _ _ _ => rfl) (fun _ => rfl) t d).trans rfl
  | ⟨5, _⟩, h, _ | ⟨6, _⟩, h, _ | ⟨7, _⟩, h, _ => nomatch h

-- At every point the body's triple applies at the input blocks; the invariant and the debts pass through.
theorem body_obligation1 (c : Dev nD) : Pipeline.BodyObligation (dat1 (F := F) V c) (defs₀ (F := F)) Variants.none () Set.univ := fun t => by
  rw [bigSep_W1, bigSep_W1]
  show _ ⊢ wp frame _ _ (bodyAt1 t) _
  unfold bodyAt1
  simp (disch := rfl) only [before1 V c t]
  rw [show (dat1 V c).Φ t.succ = (dat1 V c).Φ t.castSucc from rfl,
    show (dat1 V c).owesAt () t.succ = (dat1 V c).owesAt () t.castSucc from rfl]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply sound_kernel1
  iframe H0 H1 H2 H3 H4
  isplitl [H5]; · iexists _; iexact H5
  isplitl [H6]; · iexists _; iexact H6
  isplitl [H7]; · iexists _; iexact H7
  iintro H
  iframe HΦ Ho
  dsimp only [dat1]
  iexact H

end Cert.Kernel.Frm

end
-- ==== Proof.K.Reg2.lean ====
import proofs.«422477_j6347961663751_3_alg».proof.Proof.Gen.Kernel.Launch
import proofs.«422477_j6347961663751_3_alg».proof.Proof.Gen.Kernel.Skeleton
import proofs.«422477_j6347961663751_3_alg».proof.Proof.Gen.Kernel.Points
import Idealize.ShloMosaic.Lib.Pipeline.FrameBody
import Idealize.ShloMosaic.Lib.Tactic

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

abbrev rA2 : Rect S2000x128 := Rect.unit (s := S2000x128) ![0, 0] S2000x128.size inb_S2000x128_S2000x128_0_0
abbrev rB2 : Rect S1x128 := Rect.unit (s := S1x128) ![0, 0] S1x128.size inb_S1x128_S1x128_0_0

def out2_7 (x0 : Vec F S2000x128 .f32) (x1 : Vec F S2000x128 .f32) (x2 : Vec F S2000x128 .f32) (x3 : Vec F S1x128 .f32)
    (x4 : Vec F S1x128 .f32) (x5 : Vec F S1x128 .f32) (x6 : Vec F S1x128 .f32) : Vec F S2000x128 .f32 :=
  View.canon [⟨rA2, k2_pay1 (View.ld x0 rA2) (View.ld x1 rA2) (View.ld x4 rB2) (View.ld x3 rB2) (View.ld x5 rB2) (View.ld x6 rB2) (View.ld x2 rA2)⟩]

theorem sound_kernel2 {c : Dev nD} {E : Set ℕ} {i : grid2.Coords} {arg1 arg2 arg3 arg8 : Memref sig .tc .vmem S2000x128 .f32} {arg4 arg5 arg6 arg7 : Memref sig .tc .vmem S1x128 .f32}
    {harg1 : arg1.IsWhole} {harg2 : arg2.IsWhole} {harg3 : arg3.IsWhole} {harg4 : arg4.IsWhole} {harg5 : arg5.IsWhole} {harg6 : arg6.IsWhole} {harg7 : arg7.IsWhole} {harg8 : arg8.IsWhole}
    {x0 x1 x2 : Vec F S2000x128 .f32} {x3 x4 x5 x6 : Vec F S1x128 .f32} {K : PUnit → sProp 𝕄} :
    iprop(owns c arg1 fullShare x0 ∗ owns c arg2 fullShare x1 ∗ owns c arg3 fullShare x2
        ∗ owns c arg4 fullShare x3 ∗ owns c arg5 fullShare x4 ∗ owns c arg6 fullShare x5
        ∗ owns c arg7 fullShare x6 ∗ (∃ d, owns c arg8 fullShare d)
        ∗ (iprop(owns c arg1 fullShare x0 ∗ owns c arg2 fullShare x1 ∗ owns c arg3 fullShare x2
            ∗ owns c arg4 fullShare x3 ∗ owns c arg5 fullShare x4 ∗ owns c arg6 fullShare x5
            ∗ owns c arg7 fullShare x6 ∗ owns c arg8 fullShare (out2_7 x0 x1 x2 x3 x4 x5 x6)) -∗ K ⟨⟩))
      ⊢ wp frame (wpE (defs₀ (F := F)) Variants.none c none) E
          (cc2__node_post_kernel i arg1 harg1 arg2 harg2 arg3 harg3 arg4 harg4 arg5 harg5 arg6 harg6 arg7 harg7 arg8 harg8) K := by
  simp only [cc2__node_post_kernel_eq_skeleton]; unfold cc2__node_post_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  exact View.read_writes_eq_canon _ _ _ (View.cover_of_tiled _ S2000x128.size (by rfl))

def dat2 (c : Dev nD) : Pipeline.Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => iblk2 V c 6 t
    | ⟨7, _⟩ => out2_7 (iblk2 V c 0 t) (iblk2 V c 1 t) (iblk2 V c 2 t) (iblk2 V c 3 t) (iblk2 V c 4 t) (iblk2 V c 5 t) (iblk2 V c 6 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_7 (c : Dev nD) (t : Fin cfg2.N) : (dat2 V c).after 7 t =
    out2_7 (iblk2 V c 0 t) (iblk2 V c 1 t) (iblk2 V c 2 t) (iblk2 V c 3 t) (iblk2 V c 4 t) (iblk2 V c 5 t) (iblk2 V c 6 t) := by dsimp only [dat2]

-- The body writes no input window, so the block a point finds in one is the block it leaves there.
theorem before2 (c : Dev nD) (t : Fin cfg2.N) : ∀ w : Fin cfg2.W, (cfg2.win w).isOut = false →
    ∀ d, (dat2 V c).before w t d = (dat2 V c).after w t
  | ⟨0, _⟩, _, d | ⟨1, _⟩, _, d | ⟨2, _⟩, _, d | ⟨3, _⟩, _, d | ⟨4, _⟩, _, d | ⟨5, _⟩, _, d | ⟨6, _⟩, _, d =>
    ((dat2 V c).before_in_eq_fetched _ rfl (fun _ => rfl) (fun _ _ _ => rfl) (fun _ => rfl) t d).trans rfl
  | ⟨7, _⟩, h, _ => nomatch h

-- At every point the body's triple applies at the input blocks; the invariant and the debts pass through.
theorem body_obligation2 (c : Dev nD) : Pipeline.BodyObligation (dat2 (F := F) V c) (defs₀ (F := F)) Variants.none () Set.univ := fun t => by
  rw [bigSep_W2, bigSep_W2]
  show _ ⊢ wp frame _ _ (bodyAt2 t) _
  unfold bodyAt2
  simp (disch := rfl) only [before2 V c t]
  rw [show (dat2 V c).Φ t.succ = (dat2 V c).Φ t.castSucc from rfl,
    show (dat2 V c).owesAt () t.succ = (dat2 V c).owesAt () t.castSucc from rfl]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply sound_kernel2
  iframe H0 H1 H2 H3 H4 H5 H6
  isplitl [H7]; · iexists _; iexact H7
  iintro H
  iframe HΦ Ho
  dsimp only [dat2]
  iexact H

end Cert.Kernel.Frm

end
-- ==== Proof.K.Reg3.lean ====
import proofs.«422477_j6347961663751_3_alg».proof.Proof.Gen.Kernel.Launch
import proofs.«422477_j6347961663751_3_alg».proof.Proof.Gen.Kernel.Skeleton
import proofs.«422477_j6347961663751_3_alg».proof.Proof.Gen.Kernel.Points
import Idealize.ShloMosaic.Lib.Pipeline.FrameBody
import Idealize.ShloMosaic.Lib.Pipeline.Frame
import Idealize.ShloMosaic.Lib.Tactic

set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

abbrev r3_0 : Rect S5000x128 := Rect.unit (s := S5000x128) ![0, 0] S5000x128.size inb_S5000x128_S5000x128_0_0
abbrev r3_1 : Rect S128x128 := Rect.unit (s := S128x128) ![0, 0] S128x128.size inb_S128x128_S128x128_0_0
abbrev r3_2 : Rect S1x128 := Rect.unit (s := S1x128) ![0, 0] S1x128.size inb_S1x128_S1x128_0_0

def out3_8 (x0 : Vec F S5000x128 .f32) (x1 : Vec F S128x128 .f32) (x2 : Vec F S1x128 .f32) (x3 : Vec F S5000x128 .f32) (x4 : Vec F S1x128 .f32) (x5 : Vec F S1x128 .f32) (x6 : Vec F S1x128 .f32) (x7 : Vec F S1x128 .f32) : Vec F S5000x128 .f32 :=
  View.canon [⟨r3_0, k3_pay1 (View.ld x0 r3_0) (View.ld x1 r3_1) (View.ld x2 r3_2) (View.ld x3 r3_0) (View.ld x5 r3_2) (View.ld x4 r3_2) (View.ld x6 r3_2) (View.ld x7 r3_2)⟩]

set_option maxHeartbeats 1000000 in
theorem sound_kernel3 {c : Dev nD} {E : Set ℕ} {i : grid3.Coords} {arg1 arg4 arg9 : Memref sig .tc .vmem S5000x128 .f32} {arg2 : Memref sig .tc .vmem S128x128 .f32} {arg3 arg5 arg6 arg7 arg8 : Memref sig .tc .vmem S1x128 .f32}
    {harg1 : arg1.IsWhole} {harg2 : arg2.IsWhole} {harg3 : arg3.IsWhole} {harg4 : arg4.IsWhole} {harg5 : arg5.IsWhole} {harg6 : arg6.IsWhole} {harg7 : arg7.IsWhole} {harg8 : arg8.IsWhole} {harg9 : arg9.IsWhole}
    {x0 x3 : Vec F S5000x128 .f32} {x1 : Vec F S128x128 .f32} {x2 x4 x5 x6 x7 : Vec F S1x128 .f32} {K : PUnit → sProp 𝕄} :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ d, owns (c : Thread nD τ) arg9 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare (out3_8 x0 x1 x2 x3 x4 x5 x6 x7)) -∗ K ⟨⟩))
      ⊢ wp frame (wpE (defs₀ (F := F)) Variants.none c none) E (cc3__edge_post_kernel i arg1 harg1 arg2 harg2 arg3 harg3 arg4 harg4 arg5 harg5 arg6 harg6 arg7 harg7 arg8 harg8 arg9 harg9) K := by
  simp only [cc3__edge_post_kernel_eq_skeleton]; unfold cc3__edge_post_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, Hk⟩
  subst hf0 hf1 hf2 hf3 hf4 hf5 hf6 hf7
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  iexists _; isplitr
  swap; · iexact H8
  ipureintro
  exact View.read_writes_eq_canon _ _ _ (View.cover_of_tiled _ S5000x128.size (by rfl))

def dat3 (c : Dev nD) : Pipeline.Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => iblk3 V c 5 t
    | ⟨6, _⟩ => iblk3 V c 6 t
    | ⟨7, _⟩ => iblk3 V c 7 t
    | ⟨8, _⟩ => out3_8 (iblk3 V c 0 t) (iblk3 V c 1 t) (iblk3 V c 2 t) (iblk3 V c 3 t) (iblk3 V c 4 t) (iblk3 V c 5 t) (iblk3 V c 6 t) (iblk3 V c 7 t)
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_8 (c : Dev nD) (t : Fin cfg3.N) : (dat3 V c).after 8 t = out3_8 (iblk3 V c 0 t) (iblk3 V c 1 t) (iblk3 V c 2 t) (iblk3 V c 3 t) (iblk3 V c 4 t) (iblk3 V c 5 t) (iblk3 V c 6 t) (iblk3 V c 7 t) := by dsimp only [dat3]

-- The body writes no input window, so the block a point finds in one is the block it leaves there.
theorem before3 (c : Dev nD) (t : Fin cfg3.N) :
    ∀ (w : Fin cfg3.W) (d), w.val < 8 → (dat3 V c).before w t d = (dat3 V c).after w t
  | ⟨0, _⟩, d, _ | ⟨1, _⟩, d, _ | ⟨2, _⟩, d, _ | ⟨3, _⟩, d, _ | ⟨4, _⟩, d, _ | ⟨5, _⟩, d, _ | ⟨6, _⟩, d, _ | ⟨7, _⟩, d, _ =>
    ((dat3 V c).before_in_eq_fetched _ rfl (fun _ => rfl) (fun _ _ _ => rfl) (fun _ => rfl) t d).trans rfl
  | ⟨n + 8, _⟩, _, h => absurd h (Nat.not_lt.2 (Nat.le_add_left 8 n))

-- At every point the body's triple applies at the input blocks; the invariant and the debts pass through.
theorem body_obligation3 (c : Dev nD) : Pipeline.BodyObligation (dat3 (F := F) V c) (defs₀ (F := F)) Variants.none () Set.univ := fun t => by
  rw [bigSep_W3, bigSep_W3]
  show _ ⊢ wp frame _ _ (bodyAt3 t) _
  unfold bodyAt3
  simp (disch := decide) only [before3 V c t]
  rw [show (dat3 V c).Φ t.succ = (dat3 V c).Φ t.castSucc from rfl,
    show (dat3 V c).owesAt () t.succ = (dat3 V c).owesAt () t.castSucc from rfl]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply sound_kernel3
  iframe H0 H1 H2 H3 H4 H5 H6 H7
  isplitl [H8]; · iexists _; iexact H8
  iintro H
  iframe HΦ Ho
  dsimp only [dat3]
  iexact H

end Cert.Kernel.Frm

end
-- ==== Proof.K.Reg4.lean ====
import proofs.«422477_j6347961663751_3_alg».proof.Proof.Gen.Kernel.Launch
import proofs.«422477_j6347961663751_3_alg».proof.Proof.Gen.Kernel.Skeleton
import proofs.«422477_j6347961663751_3_alg».proof.Proof.Gen.Kernel.Points
import Idealize.ShloMosaic.Lib.Pipeline.FrameBody
import Idealize.ShloMosaic.Lib.Pipeline.Frame
import Idealize.ShloMosaic.Lib.Tactic

set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

abbrev r4_0 : Rect S2000x128 := Rect.unit (s := S2000x128) ![0, 0] S2000x128.size inb_S2000x128_S2000x128_0_0
abbrev r4_1 : Rect S1x128 := Rect.unit (s := S1x128) ![0, 0] S1x128.size inb_S1x128_S1x128_0_0
abbrev r4_2 : Rect S128x256 := Rect.unit (s := S128x256) ![0, 0] S128x256.size inb_S128x256_S128x256_0_0
abbrev r4_3 : Rect S1x256 := Rect.unit (s := S1x256) ![0, 0] S1x256.size inb_S1x256_S1x256_0_0
abbrev r4_4 : Rect S256x128 := Rect.unit (s := S256x128) ![0, 0] S256x128.size inb_S256x128_S256x128_0_0

def out4_9 (x0 : Vec F S2000x128 .f32) (x1 : Vec F S1x128 .f32) (x2 : Vec F S1x128 .f32) (x3 : Vec F S1x128 .f32) (x4 : Vec F S1x128 .f32) (x5 : Vec F S128x256 .f32) (x6 : Vec F S1x256 .f32) (x7 : Vec F S256x128 .f32) (x8 : Vec F S1x128 .f32) : Vec F S2000x128 .f32 :=
  View.canon [⟨r4_0, k4_pay1 (k4_pay2 (View.ld x0 r4_0))
    (k4_pay3 (View.ld x0 r4_0) (View.ld x2 r4_1) (View.ld x1 r4_1) (View.ld x3 r4_1) (View.ld x4 r4_1) (View.ld x5 r4_2) (View.ld x6 r4_3) (View.ld x7 r4_4))
    (k4_pay4 (View.ld x8 r4_1))⟩]

set_option maxHeartbeats 1000000 in
theorem sound_kernel4 {c : Dev nD} {E : Set ℕ} {i : grid4.Coords} {arg1 arg10 : Memref sig .tc .vmem S2000x128 .f32} {arg2 arg3 arg4 arg5 arg9 : Memref sig .tc .vmem S1x128 .f32} {arg6 : Memref sig .tc .vmem S128x256 .f32} {arg7 : Memref sig .tc .vmem S1x256 .f32} {arg8 : Memref sig .tc .vmem S256x128 .f32}
    {harg1 : arg1.IsWhole} {harg2 : arg2.IsWhole} {harg3 : arg3.IsWhole} {harg4 : arg4.IsWhole} {harg5 : arg5.IsWhole} {harg6 : arg6.IsWhole} {harg7 : arg7.IsWhole} {harg8 : arg8.IsWhole} {harg9 : arg9.IsWhole} {harg10 : arg10.IsWhole}
    {x0 : Vec F S2000x128 .f32} {x1 x2 x3 x4 x8 : Vec F S1x128 .f32} {x5 : Vec F S128x256 .f32} {x6 : Vec F S1x256 .f32} {x7 : Vec F S256x128 .f32} {K : PUnit → sProp 𝕄} :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ d, owns (c : Thread nD τ) arg10 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare (out4_9 x0 x1 x2 x3 x4 x5 x6 x7 x8)) -∗ K ⟨⟩))
      ⊢ wp frame (wpE (defs₀ (F := F)) Variants.none c none) E (cc4__ffn_kernel i arg1 harg1 arg2 harg2 arg3 harg3 arg4 harg4 arg5 harg5 arg6 harg6 arg7 harg7 arg8 harg8 arg9 harg9 arg10 harg10) K := by
  simp only [cc4__ffn_kernel_eq_skeleton]; unfold cc4__ffn_kernel_skel
  simp only [k4_part1_eq_skeleton]; unfold k4_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, Hk⟩
  subst hf0 hf1 hf2 hf3 hf4 hf5 hf6 hf7 hf8
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  iexists _; isplitr
  swap; · iexact H9
  ipureintro
  try dsimp only
  exact View.read_writes_eq_canon _ _ _ (View.cover_of_tiled _ S2000x128.size (by rfl))

def dat4 (c : Dev nD) : Pipeline.Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => iblk4 V c 4 t
    | ⟨5, _⟩ => iblk4 V c 5 t
    | ⟨6, _⟩ => iblk4 V c 6 t
    | ⟨7, _⟩ => iblk4 V c 7 t
    | ⟨8, _⟩ => iblk4 V c 8 t
    | ⟨9, _⟩ => out4_9 (iblk4 V c 0 t) (iblk4 V c 1 t) (iblk4 V c 2 t) (iblk4 V c 3 t) (iblk4 V c 4 t) (iblk4 V c 5 t) (iblk4 V c 6 t) (iblk4 V c 7 t) (iblk4 V c 8 t)
  Φ _ := Pipeline.ΦA spec4 c
  q _ := fullShare
  owed _ := 0

theorem A_eq4 (c : Dev nD) (w : Fin cfg4.W) : (dat4 V c).A w = V c (Pipeline.arrRef spec4 w) := by
  dsimp only [dat4]

theorem after4_9 (c : Dev nD) (t : Fin cfg4.N) : (dat4 V c).after 9 t = out4_9 (iblk4 V c 0 t) (iblk4 V c 1 t) (iblk4 V c 2 t) (iblk4 V c 3 t) (iblk4 V c 4 t) (iblk4 V c 5 t) (iblk4 V c 6 t) (iblk4 V c 7 t) (iblk4 V c 8 t) := by dsimp only [dat4]

-- The body writes no input window, so the block a point finds in one is the block it leaves there.
theorem before4 (c : Dev nD) (t : Fin cfg4.N) :
    ∀ (w : Fin cfg4.W) (d), w.val < 9 → (dat4 V c).before w t d = (dat4 V c).after w t
  | ⟨0, _⟩, d, _ | ⟨1, _⟩, d, _ | ⟨2, _⟩, d, _ | ⟨3, _⟩, d, _ | ⟨4, _⟩, d, _ | ⟨5, _⟩, d, _ | ⟨6, _⟩, d, _ | ⟨7, _⟩, d, _ | ⟨8, _⟩, d, _ =>
    ((dat4 V c).before_in_eq_fetched _ rfl (fun _ => rfl) (fun _ _ _ => rfl) (fun _ => rfl) t d).trans rfl
  | ⟨n + 9, _⟩, _, h => absurd h (Nat.not_lt.2 (Nat.le_add_left 9 n))

-- At every point the body's triple applies at the input blocks; the invariant and the debts pass through.
theorem body_obligation4 (c : Dev nD) : Pipeline.BodyObligation (dat4 (F := F) V c) (defs₀ (F := F)) Variants.none () Set.univ := fun t => by
  rw [bigSep_W4, bigSep_W4]
  show _ ⊢ wp frame _ _ (bodyAt4 t) _
  unfold bodyAt4
  simp (disch := decide) only [before4 V c t]
  rw [show (dat4 V c).Φ t.succ = (dat4 V c).Φ t.castSucc from rfl,
    show (dat4 V c).owesAt () t.succ = (dat4 V c).owesAt () t.castSucc from rfl]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply sound_kernel4
  iframe H0 H1 H2 H3 H4 H5 H6 H7 H8
  isplitl [H9]; · iexists _; iexact H9
  iintro H
  iframe HΦ Ho
  dsimp only [dat4]
  iexact H

end Cert.Kernel.Frm

end
-- ==== Proof.Chain.lean ====
import Mathlib.Data.List.Basic

namespace Cert.Chain

/-- One more link of a chain of contents: what the link keeps outside `L` and the chain so far kept outside `U` is kept outside `L ++ U`. -/
theorem link {α : Type} {β : Sort _} {L U : List α} {r : α} {a b x : β}
    (h₁ : r ∉ L → a = b) (h₂ : r ∉ U → b = x) (h : r ∉ L ++ U) : a = x :=
  (h₁ fun h' => h (List.mem_append_left _ h')).trans (h₂ fun h' => h (List.mem_append_right _ h'))

end Cert.Chain
-- ==== Proof.K.Fold.lean ====
/- Wk is the buffers' contents after the first k items of @main, from the launch contents W0: a host stretch applies
  its operations; a region replaces its arrays by what its grid points leave, an input array ending as entered.
  Uk lists what the first k items write: a reference outside it still holds its launch contents. -/
import proofs.«422477_j6347961663751_3_alg».proof.Proof.Gen.Kernel.Launch
import proofs.«422477_j6347961663751_3_alg».proof.Proof.Gen.Kernel.Regions
import proofs.«422477_j6347961663751_3_alg».proof.Proof.K.Reg0
import proofs.«422477_j6347961663751_3_alg».proof.Proof.K.Reg1
import proofs.«422477_j6347961663751_3_alg».proof.Proof.K.Reg2
import proofs.«422477_j6347961663751_3_alg».proof.Proof.K.Reg3
import proofs.«422477_j6347961663751_3_alg».proof.Proof.K.Reg4
import proofs.«422477_j6347961663751_3_alg».proof.Proof.Chain
import Idealize.ShloMosaic.Lib.Pipeline.FrameSuffix
import Idealize.ShloMosaic.Lib.Pipeline.RegionsLoop

set_option maxRecDepth 16384

noncomputable section

namespace Cert.Kernel.Frm

open Cert.Kernel Cert.Kernel.Gen
open Idealize.ShloMosaic Idealize.ShloMosaic.TcCoe
open Idealize.SL Idealize.SL.Sem
open Idealize.ShloMosaic.Pipeline (Dat)

variable {F : FTy → Type} [FloatOps F]
variable (m : (ℓ : Loc nD τ sig) → Buf (Elt F) ℓ)

abbrev atTc (W : Dev nD → Valuation τ sig (Elt F)) : (c : Dev nD) → (b : Ref sig .tc) → Buf (Elt F) ((c : Thread nD τ).loc b) :=
  fun c b => W c b

abbrev W0 : Dev nD → Valuation τ sig (Elt F) := fun c b => m (c, b)
abbrev W1 : Dev nD → Valuation τ sig (Elt F) := fun c => StableHlo.after hostOps0 (W0 m c)
theorem W1_of (c : Dev nD) (r : Ref sig .tc) (h : r ∉ hostOps0_W) : W1 m c r = W0 m c r :=
  StableHlo.after_of_writes_sub hostOps0 _ hostOps0_writes h
def W2 (c : Dev nD) : Valuation τ sig (Elt F) :=
  Pipeline.withArrays spec0 c (W1 m c) fun w => (dat0 (atTc (W1 m)) c).arrAt w cfg0.N
theorem W2_arr (c : Dev nD) (w : Fin cfg0.W) :
    W2 m c (Proc.devRef .tc (Pipeline.arrRef spec0 w)) = (dat0 (atTc (W1 m)) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
theorem hF0 (c : Dev nD) (w : Fin cfg0.W) : (dat0 (atTc (W1 m)) c).arrAt w cfg0.N = atTc (W2 m) c (Pipeline.arrRef spec0 w) :=
  (W2_arr m c w).symm
theorem hrest0 (c : Dev nD) : ∀ b, b ∉ Finset.univ.image (Pipeline.arrRef spec0) → atTc (W2 m) c b = atTc (W1 m) c b :=
  fun b hb => W2_of_ne m c b fun w e => hb (Finset.mem_image.mpr ⟨w, Finset.mem_univ _, e⟩)
theorem W2_of (c : Dev nD) (r : Ref sig .tc) (h : r ∉ ([main_v7] : List (Ref sig .tc))) : W2 m c r = W1 m c r := by
  by_cases hr : ∃ w, Pipeline.arrRef spec0 w = r
  · obtain ⟨w, rfl⟩ := hr
    refine (W2_arr m c w).trans ?_
    fin_cases w <;> first
      | exact ((dat0 (atTc (W1 m)) c).arrAt_in _ rfl _).trans (A_eq0 _ c _)
      | exact absurd (by decide) h
  · exact W2_of_ne m c r fun w e => hr ⟨w, e⟩
abbrev W3 : Dev nD → Valuation τ sig (Elt F) := fun c => StableHlo.after hostOps1 (W2 m c)
theorem W3_of (c : Dev nD) (r : Ref sig .tc) (h : r ∉ hostOps1_W) : W3 m c r = W2 m c r :=
  StableHlo.after_of_writes_sub hostOps1 _ hostOps1_writes h
abbrev W4 : Dev nD → Valuation τ sig (Elt F) := fun c => StableHlo.after hostOps1_1 (W3 m c)
theorem W4_of (c : Dev nD) (r : Ref sig .tc) (h : r ∉ hostOps1_1_W) : W4 m c r = W3 m c r :=
  StableHlo.after_of_writes_sub hostOps1_1 _ hostOps1_1_writes h
abbrev W5 : Dev nD → Valuation τ sig (Elt F) := fun c => StableHlo.after hostOps1_2 (W4 m c)
theorem W5_of (c : Dev nD) (r : Ref sig .tc) (h : r ∉ hostOps1_2_W) : W5 m c r = W4 m c r :=
  StableHlo.after_of_writes_sub hostOps1_2 _ hostOps1_2_writes h
abbrev W6 : Dev nD → Valuation τ sig (Elt F) := fun c => StableHlo.after hostOps1_3 (W5 m c)
theorem W6_of (c : Dev nD) (r : Ref sig .tc) (h : r ∉ hostOps1_3_W) : W6 m c r = W5 m c r :=
  StableHlo.after_of_writes_sub hostOps1_3 _ hostOps1_3_writes h
abbrev W7 : Dev nD → Valuation τ sig (Elt F) := fun c => StableHlo.after hostOps1_4 (W6 m c)
theorem W7_of (c : Dev nD) (r : Ref sig .tc) (h : r ∉ hostOps1_4_W) : W7 m c r = W6 m c r :=
  StableHlo.after_of_writes_sub hostOps1_4 _ hostOps1_4_writes h
abbrev W8 : Dev nD → Valuation τ sig (Elt F) := fun c => StableHlo.after hostOps1_5 (W7 m c)
theorem W8_of (c : Dev nD) (r : Ref sig .tc) (h : r ∉ hostOps1_5_W) : W8 m c r = W7 m c r :=
  StableHlo.after_of_writes_sub hostOps1_5 _ hostOps1_5_writes h
def W9 (c : Dev nD) : Valuation τ sig (Elt F) :=
  Pipeline.withArrays spec1 c (W8 m c) fun w => (dat1 (atTc (W8 m)) c).arrAt w cfg1.N
theorem W9_arr (c : Dev nD) (w : Fin cfg1.W) :
    W9 m c (Proc.devRef .tc (Pipeline.arrRef spec1 w)) = (dat1 (atTc (W8 m)) c).arrAt w cfg1.N := by
  unfold W9; exact Pipeline.withArrays_arr spec1 launch1.win.arr_inj c _ _ w
theorem W9_of_ne (c : Dev nD) (b : Ref sig .tc) (hb : ∀ w, Pipeline.arrRef spec1 w ≠ b) :
    W9 m c (Proc.devRef .tc b) = W8 m c (Proc.devRef .tc b) := by
  unfold W9; exact Pipeline.withArrays_of_ne spec1 c _ _ b hb
theorem hF1 (c : Dev nD) (w : Fin cfg1.W) : (dat1 (atTc (W8 m)) c).arrAt w cfg1.N = atTc (W9 m) c (Pipeline.arrRef spec1 w) :=
  (W9_arr m c w).symm
theorem hrest1 (c : Dev nD) : ∀ b, b ∉ Finset.univ.image (Pipeline.arrRef spec1) → atTc (W9 m) c b = atTc (W8 m) c b :=
  fun b hb => W9_of_ne m c b fun w e => hb (Finset.mem_image.mpr ⟨w, Finset.mem_univ _, e⟩)
theorem W9_of (c : Dev nD) (r : Ref sig .tc) (h : r ∉ ([main_v17_0, main_v17_1, main_v17_2] : List (Ref sig .tc))) : W9 m c r = W8 m c r := by
  by_cases hr : ∃ w, Pipeline.arrRef spec1 w = r
  · obtain ⟨w, rfl⟩ := hr
    refine (W9_arr m c w).trans ?_
    fin_cases w <;> first
      | exact ((dat1 (atTc (W8 m)) c).arrAt_in _ rfl _).trans (A_eq1 _ c _)
      | exact absurd (by decide) h
  · exact W9_of_ne m c r fun w e => hr ⟨w, e⟩
abbrev W10 : Dev nD → Valuation τ sig (Elt F) := fun c => StableHlo.after hostOps2 (W9 m c)
theorem W10_of (c : Dev nD) (r : Ref sig .tc) (h : r ∉ hostOps2_W) : W10 m c r = W9 m c r :=
  StableHlo.after_of_writes_sub hostOps2 _ hostOps2_writes h
abbrev W11 : Dev nD → Valuation τ sig (Elt F) := fun c => StableHlo.after hostOps2_1 (W10 m c)
theorem W11_of (c : Dev nD) (r : Ref sig .tc) (h : r ∉ hostOps2_1_W) : W11 m c r = W10 m c r :=
  StableHlo.after_of_writes_sub hostOps2_1 _ hostOps2_1_writes h
abbrev W12 : Dev nD → Valuation τ sig (Elt F) := fun c => StableHlo.after hostOps2_2 (W11 m c)
theorem W12_of (c : Dev nD) (r : Ref sig .tc) (h : r ∉ hostOps2_2_W) : W12 m c r = W11 m c r :=
  StableHlo.after_of_writes_sub hostOps2_2 _ hostOps2_2_writes h
def W13 (c : Dev nD) : Valuation τ sig (Elt F) :=
  Pipeline.withArrays spec2 c (W12 m c) fun w => (dat2 (atTc (W12 m)) c).arrAt w cfg2.N
theorem W13_arr (c : Dev nD) (w : Fin cfg2.W) :
    W13 m c (Proc.devRef .tc (Pipeline.arrRef spec2 w)) = (dat2 (atTc (W12 m)) c).arrAt w cfg2.N := by
  unfold W13; exact Pipeline.withArrays_arr spec2 launch2.win.arr_inj c _ _ w
theorem W13_of_ne (c : Dev nD) (b : Ref sig .tc) (hb : ∀ w, Pipeline.arrRef spec2 w ≠ b) :
    W13 m c (Proc.devRef .tc b) = W12 m c (Proc.devRef .tc b) := by
  unfold W13; exact Pipeline.withArrays_of_ne spec2 c _ _ b hb
theorem hF2 (c : Dev nD) (w : Fin cfg2.W) : (dat2 (atTc (W12 m)) c).arrAt w cfg2.N = atTc (W13 m) c (Pipeline.arrRef spec2 w) :=
  (W13_arr m c w).symm
theorem hrest2 (c : Dev nD) : ∀ b, b ∉ Finset.univ.image (Pipeline.arrRef spec2) → atTc (W13 m) c b = atTc (W12 m) c b :=
  fun b hb => W13_of_ne m c b fun w e => hb (Finset.mem_image.mpr ⟨w, Finset.mem_univ _, e⟩)
theorem W13_of (c : Dev nD) (r : Ref sig .tc) (h : r ∉ ([main_v29] : List (Ref sig .tc))) : W13 m c r = W12 m c r := by
  by_cases hr : ∃ w, Pipeline.arrRef spec2 w = r
  · obtain ⟨w, rfl⟩ := hr
    refine (W13_arr m c w).trans ?_
    fin_cases w <;> first
      | exact ((dat2 (atTc (W12 m)) c).arrAt_in _ rfl _).trans (A_eq2 _ c _)
      | exact absurd (by decide) h
  · exact W13_of_ne m c r fun w e => hr ⟨w, e⟩
abbrev W14 : Dev nD → Valuation τ sig (Elt F) := fun c => StableHlo.after hostOps3 (W13 m c)
theorem W14_of (c : Dev nD) (r : Ref sig .tc) (h : r ∉ hostOps3_W) : W14 m c r = W13 m c r :=
  StableHlo.after_of_writes_sub hostOps3 _ hostOps3_writes h
def W15 (c : Dev nD) : Valuation τ sig (Elt F) :=
  Pipeline.withArrays spec3 c (W14 m c) fun w => (dat3 (atTc (W14 m)) c).arrAt w cfg3.N
theorem W15_arr (c : Dev nD) (w : Fin cfg3.W) :
    W15 m c (Proc.devRef .tc (Pipeline.arrRef spec3 w)) = (dat3 (atTc (W14 m)) c).arrAt w cfg3.N := by
  unfold W15; exact Pipeline.withArrays_arr spec3 launch3.win.arr_inj c _ _ w
theorem W15_of_ne (c : Dev nD) (b : Ref sig .tc) (hb : ∀ w, Pipeline.arrRef spec3 w ≠ b) :
    W15 m c (Proc.devRef .tc b) = W14 m c (Proc.devRef .tc b) := by
  unfold W15; exact Pipeline.withArrays_of_ne spec3 c _ _ b hb
theorem hF3 (c : Dev nD) (w : Fin cfg3.W) : (dat3 (atTc (W14 m)) c).arrAt w cfg3.N = atTc (W15 m) c (Pipeline.arrRef spec3 w) :=
  (W15_arr m c w).symm
theorem hrest3 (c : Dev nD) : ∀ b, b ∉ Finset.univ.image (Pipeline.arrRef spec3) → atTc (W15 m) c b = atTc (W14 m) c b :=
  fun b hb => W15_of_ne m c b fun w e => hb (Finset.mem_image.mpr ⟨w, Finset.mem_univ _, e⟩)
theorem W15_of (c : Dev nD) (r : Ref sig .tc) (h : r ∉ ([main_v44] : List (Ref sig .tc))) : W15 m c r = W14 m c r := by
  by_cases hr : ∃ w, Pipeline.arrRef spec3 w = r
  · obtain ⟨w, rfl⟩ := hr
    refine (W15_arr m c w).trans ?_
    fin_cases w <;> first
      | exact ((dat3 (atTc (W14 m)) c).arrAt_in _ rfl _).trans (A_eq3 _ c _)
      | exact absurd (by decide) h
  · exact W15_of_ne m c r fun w e => hr ⟨w, e⟩
abbrev W16 : Dev nD → Valuation τ sig (Elt F) := fun c => StableHlo.after hostOps4 (W15 m c)
theorem W16_of (c : Dev nD) (r : Ref sig .tc) (h : r ∉ hostOps4_W) : W16 m c r = W15 m c r :=
  StableHlo.after_of_writes_sub hostOps4 _ hostOps4_writes h
abbrev W17 : Dev nD → Valuation τ sig (Elt F) := fun c => StableHlo.after hostOps4_1 (W16 m c)
theorem W17_of (c : Dev nD) (r : Ref sig .tc) (h : r ∉ hostOps4_1_W) : W17 m c r = W16 m c r :=
  StableHlo.after_of_writes_sub hostOps4_1 _ hostOps4_1_writes h
abbrev W18 : Dev nD → Valuation τ sig (Elt F) := fun c => StableHlo.after hostOps4_2 (W17 m c)
theorem W18_of (c : Dev nD) (r : Ref sig .tc) (h : r ∉ hostOps4_2_W) : W18 m c r = W17 m c r :=
  StableHlo.after_of_writes_sub hostOps4_2 _ hostOps4_2_writes h
def W19 (c : Dev nD) : Valuation τ sig (Elt F) :=
  Pipeline.withArrays spec4 c (W18 m c) fun w => (dat4 (atTc (W18 m)) c).arrAt w cfg4.N
theorem W19_arr (c : Dev nD) (w : Fin cfg4.W) :
    W19 m c (Proc.devRef .tc (Pipeline.arrRef spec4 w)) = (dat4 (atTc (W18 m)) c).arrAt w cfg4.N := by
  unfold W19; exact Pipeline.withArrays_arr spec4 launch4.win.arr_inj c _ _ w
theorem W19_of_ne (c : Dev nD) (b : Ref sig .tc) (hb : ∀ w, Pipeline.arrRef spec4 w ≠ b) :
    W19 m c (Proc.devRef .tc b) = W18 m c (Proc.devRef .tc b) := by
  unfold W19; exact Pipeline.withArrays_of_ne spec4 c _ _ b hb
theorem hF4 (c : Dev nD) (w : Fin cfg4.W) : (dat4 (atTc (W18 m)) c).arrAt w cfg4.N = atTc (W19 m) c (Pipeline.arrRef spec4 w) :=
  (W19_arr m c w).symm
theorem hrest4 (c : Dev nD) : ∀ b, b ∉ Finset.univ.image (Pipeline.arrRef spec4) → atTc (W19 m) c b = atTc (W18 m) c b :=
  fun b hb => W19_of_ne m c b fun w e => hb (Finset.mem_image.mpr ⟨w, Finset.mem_univ _, e⟩)
theorem W19_of (c : Dev nD) (r : Ref sig .tc) (h : r ∉ ([main_v54] : List (Ref sig .tc))) : W19 m c r = W18 m c r := by
  by_cases hr : ∃ w, Pipeline.arrRef spec4 w = r
  · obtain ⟨w, rfl⟩ := hr
    refine (W19_arr m c w).trans ?_
    fin_cases w <;> first
      | exact ((dat4 (atTc (W18 m)) c).arrAt_in _ rfl _).trans (A_eq4 _ c _)
      | exact absurd (by decide) h
  · exact W19_of_ne m c r fun w e => hr ⟨w, e⟩
abbrev W20 : Dev nD → Valuation τ sig (Elt F) := fun c => StableHlo.after hostOps5 (W19 m c)
theorem W20_of (c : Dev nD) (r : Ref sig .tc) (h : r ∉ hostOps5_W) : W20 m c r = W19 m c r :=
  StableHlo.after_of_writes_sub hostOps5 _ hostOps5_writes h
abbrev W21 : Dev nD → Valuation τ sig (Elt F) := fun c => StableHlo.after hostOps5_1 (W20 m c)
theorem W21_of (c : Dev nD) (r : Ref sig .tc) (h : r ∉ hostOps5_1_W) : W21 m c r = W20 m c r :=
  StableHlo.after_of_writes_sub hostOps5_1 _ hostOps5_1_writes h
abbrev W22 : Dev nD → Valuation τ sig (Elt F) := fun c => StableHlo.after hostOps5_2 (W21 m c)
theorem W22_of (c : Dev nD) (r : Ref sig .tc) (h : r ∉ hostOps5_2_W) : W22 m c r = W21 m c r :=
  StableHlo.after_of_writes_sub hostOps5_2 _ hostOps5_2_writes h

abbrev U1 : List (Ref sig .tc) := hostOps0_W
theorem W1_untouched (c : Dev nD) (r : Ref sig .tc) (h : r ∉ U1) : W1 m c r = m ((c : Thread nD τ).loc r) := W1_of m c r h
abbrev U2 : List (Ref sig .tc) := [main_v7] ++ U1
theorem W2_untouched (c : Dev nD) (r : Ref sig .tc) (h : r ∉ U2) : W2 m c r = m ((c : Thread nD τ).loc r) :=
  Cert.Chain.link (W2_of m c r) (W1_untouched m c r) h
abbrev U3 : List (Ref sig .tc) := hostOps1_W ++ U2
theorem W3_untouched (c : Dev nD) (r : Ref sig .tc) (h : r ∉ U3) : W3 m c r = m ((c : Thread nD τ).loc r) :=
  Cert.Chain.link (W3_of m c r) (W2_untouched m c r) h
abbrev U4 : List (Ref sig .tc) := hostOps1_1_W ++ U3
theorem W4_untouched (c : Dev nD) (r : Ref sig .tc) (h : r ∉ U4) : W4 m c r = m ((c : Thread nD τ).loc r) :=
  Cert.Chain.link (W4_of m c r) (W3_untouched m c r) h
abbrev U5 : List (Ref sig .tc) := hostOps1_2_W ++ U4
theorem W5_untouched (c : Dev nD) (r : Ref sig .tc) (h : r ∉ U5) : W5 m c r = m ((c : Thread nD τ).loc r) :=
  Cert.Chain.link (W5_of m c r) (W4_untouched m c r) h
abbrev U6 : List (Ref sig .tc) := hostOps1_3_W ++ U5
theorem W6_untouched (c : Dev nD) (r : Ref sig .tc) (h : r ∉ U6) : W6 m c r = m ((c : Thread nD τ).loc r) :=
  Cert.Chain.link (W6_of m c r) (W5_untouched m c r) h
abbrev U7 : List (Ref sig .tc) := hostOps1_4_W ++ U6
theorem W7_untouched (c : Dev nD) (r : Ref sig .tc) (h : r ∉ U7) : W7 m c r = m ((c : Thread nD τ).loc r) :=
  Cert.Chain.link (W7_of m c r) (W6_untouched m c r) h
abbrev U8 : List (Ref sig .tc) := hostOps1_5_W ++ U7
theorem W8_untouched (c : Dev nD) (r : Ref sig .tc) (h : r ∉ U8) : W8 m c r = m ((c : Thread nD τ).loc r) :=
  Cert.Chain.link (W8_of m c r) (W7_untouched m c r) h
abbrev U9 : List (Ref sig .tc) := [main_v17_0, main_v17_1, main_v17_2] ++ U8
theorem W9_untouched (c : Dev nD) (r : Ref sig .tc) (h : r ∉ U9) : W9 m c r = m ((c : Thread nD τ).loc r) :=
  Cert.Chain.link (W9_of m c r) (W8_untouched m c r) h
abbrev U10 : List (Ref sig .tc) := hostOps2_W ++ U9
theorem W10_untouched (c : Dev nD) (r : Ref sig .tc) (h : r ∉ U10) : W10 m c r = m ((c : Thread nD τ).loc r) :=
  Cert.Chain.link (W10_of m c r) (W9_untouched m c r) h
abbrev U11 : List (Ref sig .tc) := hostOps2_1_W ++ U10
theorem W11_untouched (c : Dev nD) (r : Ref sig .tc) (h : r ∉ U11) : W11 m c r = m ((c : Thread nD τ).loc r) :=
  Cert.Chain.link (W11_of m c r) (W10_untouched m c r) h
abbrev U12 : List (Ref sig .tc) := hostOps2_2_W ++ U11
theorem W12_untouched (c : Dev nD) (r : Ref sig .tc) (h : r ∉ U12) : W12 m c r = m ((c : Thread nD τ).loc r) :=
  Cert.Chain.link (W12_of m c r) (W11_untouched m c r) h
abbrev U13 : List (Ref sig .tc) := [main_v29] ++ U12
theorem W13_untouched (c : Dev nD) (r : Ref sig .tc) (h : r ∉ U13) : W13 m c r = m ((c : Thread nD τ).loc r) :=
  Cert.Chain.link (W13_of m c r) (W12_untouched m c r) h
abbrev U14 : List (Ref sig .tc) := hostOps3_W ++ U13
theorem W14_untouched (c : Dev nD) (r : Ref sig .tc) (h : r ∉ U14) : W14 m c r = m ((c : Thread nD τ).loc r) :=
  Cert.Chain.link (W14_of m c r) (W13_untouched m c r) h
abbrev U15 : List (Ref sig .tc) := [main_v44] ++ U14
theorem W15_untouched (c : Dev nD) (r : Ref sig .tc) (h : r ∉ U15) : W15 m c r = m ((c : Thread nD τ).loc r) :=
  Cert.Chain.link (W15_of m c r) (W14_untouched m c r) h
abbrev U16 : List (Ref sig .tc) := hostOps4_W ++ U15
theorem W16_untouched (c : Dev nD) (r : Ref sig .tc) (h : r ∉ U16) : W16 m c r = m ((c : Thread nD τ).loc r) :=
  Cert.Chain.link (W16_of m c r) (W15_untouched m c r) h
abbrev U17 : List (Ref sig .tc) := hostOps4_1_W ++ U16
theorem W17_untouched (c : Dev nD) (r : Ref sig .tc) (h : r ∉ U17) : W17 m c r = m ((c : Thread nD τ).loc r) :=
  Cert.Chain.link (W17_of m c r) (W16_untouched m c r) h
abbrev U18 : List (Ref sig .tc) := hostOps4_2_W ++ U17
theorem W18_untouched (c : Dev nD) (r : Ref sig .tc) (h : r ∉ U18) : W18 m c r = m ((c : Thread nD τ).loc r) :=
  Cert.Chain.link (W18_of m c r) (W17_untouched m c r) h
abbrev U19 : List (Ref sig .tc) := [main_v54] ++ U18
theorem W19_untouched (c : Dev nD) (r : Ref sig .tc) (h : r ∉ U19) : W19 m c r = m ((c : Thread nD τ).loc r) :=
  Cert.Chain.link (W19_of m c r) (W18_untouched m c r) h
abbrev U20 : List (Ref sig .tc) := hostOps5_W ++ U19
theorem W20_untouched (c : Dev nD) (r : Ref sig .tc) (h : r ∉ U20) : W20 m c r = m ((c : Thread nD τ).loc r) :=
  Cert.Chain.link (W20_of m c r) (W19_untouched m c r) h
abbrev U21 : List (Ref sig .tc) := hostOps5_1_W ++ U20
theorem W21_untouched (c : Dev nD) (r : Ref sig .tc) (h : r ∉ U21) : W21 m c r = m ((c : Thread nD τ).loc r) :=
  Cert.Chain.link (W21_of m c r) (W20_untouched m c r) h
abbrev U22 : List (Ref sig .tc) := hostOps5_2_W ++ U21
theorem W22_untouched (c : Dev nD) (r : Ref sig .tc) (h : r ∉ U22) : W22 m c r = m ((c : Thread nD τ).loc r) :=
  Cert.Chain.link (W22_of m c r) (W21_untouched m c r) h

end Cert.Kernel.Frm

end
-- ==== Proof.K.Thread.lean ====
import proofs.«422477_j6347961663751_3_alg».proof.Proof.K.Fold
import Idealize.ShloMosaic.Lib.Ring

noncomputable section

namespace Cert.Kernel.Frm

open Cert.Kernel.Gen Idealize.ShloMosaic Idealize.ShloMosaic.TcCoe Idealize.ShloMosaic.Rounds
open Idealize.SL Idealize.SL.BI Idealize.SL.BI.BIBase Idealize.SL.Sem
open scoped Idealize.SL.BI
open Idealize.ShloMosaic.Pipeline (Dat)

variable {F : FTy → Type} [FloatOps F]

local notation "𝕄" => MT nD τ sig Unit (Elt F) ℕ (UR sig nD τ) ℕ

variable (m : (ℓ : Loc nD τ sig) → Buf (Elt F) ℓ)

abbrev admF : (p : Fin 5) → (pcfgs (F := F) p).Adm := fun p => (cfgs p).toPCfg_adm

/-- Each region's proof data, at the valuation the region is entered from. -/
def pdats : (p : Fin 5) → (c : Dev nD) → Dat τ (Elt F) Unit ℕ (UR sig nD τ) ℕ (Pipeline.pin (pcfgs (F := F)) admF p) c
  | ⟨0, _⟩ => fun c => dat0 (atTc (W1 m)) c
  | ⟨1, _⟩ => fun c => dat1 (atTc (W8 m)) c
  | ⟨2, _⟩ => fun c => dat2 (atTc (W12 m)) c
  | ⟨3, _⟩ => fun c => dat3 (atTc (W14 m)) c
  | ⟨4, _⟩ => fun c => dat4 (atTc (W18 m)) c

abbrev Vr : Variants := Variants.none
abbrev Lz : GSem nD τ sig → Finset Unit := fun _ => ∅
abbrev lvz : GSem nD τ sig → Unit → ℕ := fun _ _ => 0

/-- What every segment carries beside the buffers: the generator register at some state, and nothing owed. -/
abbrev Rst (c : Dev nD) : sProp 𝕄 := iprop((∃ r, prngReg c r) ∗ ∃ W, owes (c : Thread nD τ) (0 : CellTallies nD τ sig Unit) W)

/-- The thread state at a boundary whose valuation is `W`: every unscoped buffer held at `W c`. -/
abbrev At (W : Dev nD → Valuation τ sig (Elt F)) (c : Dev nD) : sProp 𝕄 :=
  iprop(StableHlo.held (c : Thread nD τ) (Pipeline.ucRefs τ sig) (W c) ∗ Rst (F := F) c)

/-- A host stretch from the valuation `W` ends at `StableHlo.after ops (W c)`. -/
abbrev hostSeg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ Vr Lz lvz :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W (Rst (F := F))

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

end Cert.Kernel.Frm

end
-- ==== Proof.K.Seg.lean ====
import proofs.«422477_j6347961663751_3_alg».proof.Proof.K.Thread

noncomputable section

namespace Cert.Kernel.Frm

open Cert.Kernel.Gen Idealize.ShloMosaic Idealize.ShloMosaic.TcCoe
open Idealize.SL Idealize.SL.RA Idealize.SL.BI Idealize.SL.ProofMode Idealize.SL.Sem
open scoped Idealize.SL.BI

variable {F : FTy → Type} [FloatOps F]

variable (m : (ℓ : Loc nD τ sig) → Buf (Elt F) ℓ)

/-- The thread state at `V` splits into region `p`'s arrays and the rest; they rejoin at `V'`, which agrees with `V` off the arrays. -/
def regSeg (p : Fin 5) (L : Pipeline.LaunchFacts (nD := nD) (τ := τ) cfgs p) (V V' : Dev nD → Valuation τ sig (Elt F))
    (hb : ∀ c, Pipeline.BodyObligationLoose (pdats m p c) defs₀ Vr () Set.univ)
    (hF : ∀ c w, (pdats m p c).arrAt w (cfgs p).N = atTc V' c (Pipeline.arrRef (cfgs p).spec w))
    (hrest : ∀ c b, b ∉ Finset.univ.image (Pipeline.arrRef (cfgs p).spec) → atTc V' c b = atTc V c b)
    (hA : ∀ c w, (pdats m p c).A w = atTc V c (Pipeline.arrRef (cfgs p).spec w) := by intros; rfl)
    (hΦ : ∀ c t, (pdats m p c).Φ t = Pipeline.ΦA (cfgs p).spec c := by intros; rfl)
    (hq : ∀ c w, (pdats m p c).q w = fullShare := by intros; rfl)
    (ho : ∀ c t, (pdats m p c).owed t = 0 := by intros; rfl)
    (hr : ∀ c, (pdats m p c).recorded 0 = Set.univ := by intros; rfl) :
    Pipeline.RegionSeg (pcfgs (F := F)) admF (pdats m) () defs₀ Vr Lz lvz p where
  win := L.win.to₀
  block_pos := L.block_pos
  stage_whole := L.stage_whole
  K := PEmpty
  osem k := k.elim
  ho := Pipeline.OwnSemFacts.none _
  hbody := hb
  hwaits := Pipeline.hwaits_of_owed_zero _ _ _ _ Lz lvz p ho
  pre := At V
  post := At V'
  X c := iprop(∃ r, prngReg c r)
  Y c := iprop(∃ r, prngReg c r)
  Z c := Pipeline.unscopedRest (cfgs p).spec c (atTc V c)
  hentry c := by
    have hsplit := Pipeline.arrays_of_unscopedBufs (p := p) (pcfgs (F := F)) admF (pdats m) L.win L.arr_whole c
      ((pdats m p c).share_full (hq c)) (atTc V c) (hA c)
    rw [Pipeline.unscopedBufs_held] at hsplit
    rw [Pipeline.ownSems0_none]; unfold Pipeline.Dat.owesAt Pipeline.owesWithin Pipeline.Dat.bound Pipeline.prefHeld
    rw [ho, hr, show (Finset.univ : Finset (Fin 0)) = ∅ from rfl, BI.bigSep_empty]
    iintro ⟨⟨Hub, Hp, %W, HO⟩, -, -⟩
    ihave H := hsplit $$ Hub
    icases H with ⟨Ha, Hrest⟩
    imodintro
    isplitl [Ha]; · iexact Ha
    isplitr; · iempintro
    isplitl [HO]
    · iexists W; isplitr; · ipureintro; exact fun _ _ => Or.inl trivial
      iexact HO
    isplitl [Hp]; · iexact Hp
    iexact Hrest
  hin c := by
    rw [hΦ]; unfold Pipeline.ΦA
    iintro ⟨Hp, -, Hr⟩
    isplitl [Hr]; · iexact Hr
    iexact Hp
  hout c := by
    rw [Pipeline.ownSems0_none, hΦ]; unfold Pipeline.ΦA
    iintro ⟨Hr, Hp⟩
    isplitl [Hp]; · iexact Hp
    isplitr; · iempintro
    iexact Hr
  hexit c := by
    have hjoin := Pipeline.unscopedBufs_of_arrays (p := p) (pcfgs (F := F)) admF
      L.win L.arr_whole c (pdats m) ((pdats m p c).share_full (hq c)) (atTc V c) (atTc V' c) ((pdats m p c).arrAt · (cfgs p).N) (hF c) (hrest c)
    rw [Pipeline.unscopedBufs_held] at hjoin
    unfold Pipeline.Dat.owesAt Pipeline.owesWithin; rw [ho]
    iintro ⟨Ha, ⟨%W, -, HO⟩, HY, Hrest⟩
    imodintro
    isplitl [Ha Hrest]
    · iapply hjoin; isplitl [Ha] <;> iassumption
    isplitl [HY]; · iexact HY
    iexists W; iexact HO

def regSeg0 : Pipeline.RegionSeg (pcfgs (F := F)) admF (pdats m) () defs₀ Vr Lz lvz 0 :=
  regSeg m 0 launch0 (W1 m) (W2 m) (fun c => (body_obligation0 _ c).loose) (hF0 m) (hrest0 m)
def regSeg1 : Pipeline.RegionSeg (pcfgs (F := F)) admF (pdats m) () defs₀ Vr Lz lvz 1 :=
  regSeg m 1 launch1 (W8 m) (W9 m) (fun c => (body_obligation1 _ c).loose) (hF1 m) (hrest1 m)
def regSeg2 : Pipeline.RegionSeg (pcfgs (F := F)) admF (pdats m) () defs₀ Vr Lz lvz 2 :=
  regSeg m 2 launch2 (W12 m) (W13 m) (fun c => (body_obligation2 _ c).loose) (hF2 m) (hrest2 m)
def regSeg3 : Pipeline.RegionSeg (pcfgs (F := F)) admF (pdats m) () defs₀ Vr Lz lvz 3 :=
  regSeg m 3 launch3 (W14 m) (W15 m) (fun c => (body_obligation3 _ c).loose) (hF3 m) (hrest3 m)
def regSeg4 : Pipeline.RegionSeg (pcfgs (F := F)) admF (pdats m) () defs₀ Vr Lz lvz 4 :=
  regSeg m 4 launch4 (W18 m) (W19 m) (fun c => (body_obligation4 _ c).loose) (hF4 m) (hrest4 m)

end Cert.Kernel.Frm

end
-- ==== Proof.K.Run.lean ====
import proofs.«422477_j6347961663751_3_alg».proof.Proof.K.Seg

noncomputable section

namespace Cert.Kernel.Frm

open Cert.Kernel.Gen Idealize.ShloMosaic Idealize.ShloMosaic.TcCoe Idealize.ShloMosaic.Tactic Idealize.ShloMosaic.Rounds
open Idealize.SL Idealize.SL.BI Idealize.SL.BI.BIBase Idealize.SL.ProofMode Idealize.SL.Sem
open scoped Idealize.SL.BI

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- @main's twenty-two items in order: a host stretch from its boundary's valuation, or a region. -/
abbrev mainSegs : List (Pipeline.Seg (pcfgs (F := F)) admF (pdats m) () defs₀ Vr Lz lvz) :=
  [
    .host (hostSeg hostOps0 hostOps0_sub hostOps0_fresh (W0 m)),
    .region (regSeg0 m),
    .host (hostSeg hostOps1 hostOps1_sub hostOps1_fresh (W2 m)),
    .host (hostSeg hostOps1_1 hostOps1_1_sub hostOps1_1_fresh (W3 m)),
    .host (hostSeg hostOps1_2 hostOps1_2_sub hostOps1_2_fresh (W4 m)),
    .host (hostSeg hostOps1_3 hostOps1_3_sub hostOps1_3_fresh (W5 m)),
    .host (hostSeg hostOps1_4 hostOps1_4_sub hostOps1_4_fresh (W6 m)),
    .host (hostSeg hostOps1_5 hostOps1_5_sub hostOps1_5_fresh (W7 m)),
    .region (regSeg1 m),
    .host (hostSeg hostOps2 hostOps2_sub hostOps2_fresh (W9 m)),
    .host (hostSeg hostOps2_1 hostOps2_1_sub hostOps2_1_fresh (W10 m)),
    .host (hostSeg hostOps2_2 hostOps2_2_sub hostOps2_2_fresh (W11 m)),
    .region (regSeg2 m),
    .host (hostSeg hostOps3 hostOps3_sub hostOps3_fresh (W13 m)),
    .region (regSeg3 m),
    .host (hostSeg hostOps4 hostOps4_sub hostOps4_fresh (W15 m)),
    .host (hostSeg hostOps4_1 hostOps4_1_sub hostOps4_1_fresh (W16 m)),
    .host (hostSeg hostOps4_2 hostOps4_2_sub hostOps4_2_fresh (W17 m)),
    .region (regSeg4 m),
    .host (hostSeg hostOps5 hostOps5_sub hostOps5_fresh (W19 m)),
    .host (hostSeg hostOps5_1 hostOps5_1_sub hostOps5_1_fresh (W20 m)),
    .host (hostSeg hostOps5_2 hostOps5_2_sub hostOps5_2_fresh (W21 m)) ]

theorem main_run (c : Dev nD) : main (F := F) c = Pipeline.Seg.run (mainSegs m) := (main_chain c).trans (by chain_rfl)

abbrev Tend (c : Dev nD) : sProp 𝕄 := iprop(StableHlo.held (c : Thread nD τ) (Pipeline.ucRefs τ sig) (W22 m c) ∗ ∃ r, prngReg c r)

/-- Every weakly fair execution of @main terminates without a fault, and core `c` ends holding every unscoped buffer `b` at `W22 m c b`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W22 m c b) :=
  Pipeline.θ_run_regions_kit (pcfgs (F := F)) admF (pdats m) () cellOf_inj emb₁ defs₀ Vr Lz lvz m ρ main (mainSegs m)
    (fun c Q => by rw [main_run m c])
    (by simp only [mainSegs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU _ : sProp 𝕄) ⊢ BI.own (emb₁ _) from .rfl)
        iexact Hu
      iapply (show (BI.emp : sProp 𝕄) ⊢ bigSep Finset.univ (fun _ : Dev nD => (BI.emp : sProp 𝕄)) from by rw [BI.bigSep_emp_const])
      iempintro)
    (T₀ := fun c => At (W0 m) c) (Tₙ := Tend m)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => sep_assoc'⟩)
    (hinit := by
      refine Pipeline.initEach Lz lvz fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W22 m c b)
    (hfin := fun c s' => by
      iintro ⟨⟨Hh, -⟩, HSI⟩
      unfold StableHlo.held
      imodintro
      iapply (pointsTo_read_all (Pipeline.ucRefs τ sig) (fun b => (((c : Thread nD τ)).1, b)) (W22 m c) s')
      isplitl [Hh] <;> iassumption)
    (hQ := fun s h c => h c)

/-- Buffer `r` holds in `s` what it held at launch. -/
abbrev Kept (s : MemSt nD τ sig (Elt F)) (c : Dev nD) (r : Ref sig .tc) : Prop :=
  s.mem ((c.tc : Thread nD τ).loc r) = m ((c.tc : Thread nD τ).loc r)

abbrev ArgsKept (s : MemSt nD τ sig (Elt F)) (c : Dev nD) : Prop :=
  Kept m s c main_arg0 ∧ Kept m s c main_arg1 ∧ Kept m s c main_arg2 ∧ Kept m s c main_arg3 ∧ Kept m s c main_arg4
  ∧ Kept m s c main_arg5 ∧ Kept m s c main_arg6 ∧ Kept m s c main_arg7 ∧ Kept m s c main_arg8 ∧ Kept m s c main_arg9
  ∧ Kept m s c main_arg10 ∧ Kept m s c main_arg11 ∧ Kept m s c main_arg12 ∧ Kept m s c main_arg13 ∧ Kept m s c main_arg14
  ∧ Kept m s c main_arg15 ∧ Kept m s c main_arg16 ∧ Kept m s c main_arg17 ∧ Kept m s c main_arg18 ∧ Kept m s c main_arg19
  ∧ Kept m s c main_arg20 ∧ Kept m s c main_arg21 ∧ Kept m s c main_arg22 ∧ Kept m s c main_arg23 ∧ Kept m s c main_arg24

/-- The two result arrays end at the last valuation; an argument array, which no item writes, ends as launched. -/
theorem run_results : θ_run defs (onTc (τ := τ) (main (F := F))) ⟨m, fun _ => 0, ρ⟩ (fun r => ∀ c : Dev nD,
      r.2.mem ((c.tc : Thread nD τ).loc main_v72) = W22 m c main_v72
      ∧ r.2.mem ((c.tc : Thread nD τ).loc main_v44) = W22 m c main_v44 ∧ ArgsKept m r.2 c) :=
  (θ_run defs _ _).mono (fun _ h c => ⟨h c _ (mem_uc main_v72 (by decide)), h c _ (mem_uc main_v44 (by decide)), by
    repeat' apply And.intro
    all_goals exact (h c _ (mem_uc _ (by decide))).trans (W22_untouched m c _ (by decide))⟩) (run_all m ρ)

theorem frame : θ_run defs (onTc (τ := τ) (main (F := F))) ⟨m, fun _ => 0, ρ⟩ (fun r => ∀ c : Dev nD, ArgsKept m r.2 c) :=
  (θ_run defs _ _).mono (fun _ h c => (h c).2.2) (run_results m ρ)

end Cert.Kernel.Frm

end
-- ==== Proof.KI.Reg0.lean ====
import proofs.«422477_j6347961663751_3_alg».proof.Proof.Gen.KernelIdeal.Launch
import proofs.«422477_j6347961663751_3_alg».proof.Proof.Gen.KernelIdeal.Skeleton
import proofs.«422477_j6347961663751_3_alg».proof.Proof.Gen.KernelIdeal.Points
import Idealize.ShloMosaic.Lib.Pipeline.FrameBody
import Idealize.ShloMosaic.Lib.Tactic

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev r0_0 : Rect S2000x128 := Rect.unit (s := S2000x128) ![0, 0] S2000x128.size inb_S2000x128_S2000x128_0_0
abbrev r0_1 : Rect S128x512 := Rect.unit (s := S128x512) ![0, 0] S128x512.size inb_S128x512_S128x512_0_0
abbrev r0_2 : Rect S1x512 := Rect.unit (s := S1x512) ![0, 0] S1x512.size inb_S1x512_S1x512_0_0
abbrev r0_3 : Rect S2000x512 := Rect.unit (s := S2000x512) ![0, 0] S2000x512.size inb_S2000x512_S2000x512_0_0

def out0_3 (x0 : Vec F S2000x128 .f32) (x1 : Vec F S128x512 .f32) (x2 : Vec F S1x512 .f32) : Vec F S2000x512 .f32 :=
  View.canon [⟨r0_3, k0_pay1 (View.ld x0 r0_0) (View.ld x1 r0_1) (View.ld x2 r0_2)⟩]

theorem sound_kernel0 {c : Dev nD} {E : Set ℕ} {i : grid0.Coords} {arg1 : Memref sig .tc .vmem S2000x128 .f32} {arg2 : Memref sig .tc .vmem S128x512 .f32} {arg3 : Memref sig .tc .vmem S1x512 .f32} {arg4 : Memref sig .tc .vmem S2000x512 .f32}
    {harg1 : arg1.IsWhole} {harg2 : arg2.IsWhole} {harg3 : arg3.IsWhole} {harg4 : arg4.IsWhole}
    {x0 : Vec F S2000x128 .f32} {x1 : Vec F S128x512 .f32} {x2 : Vec F S1x512 .f32} {K : PUnit → sProp 𝕄} :
    iprop(owns c arg1 fullShare x0 ∗ owns c arg2 fullShare x1 ∗ owns c arg3 fullShare x2
        ∗ (∃ d, owns c arg4 fullShare d)
        ∗ (iprop(owns c arg1 fullShare x0 ∗ owns c arg2 fullShare x1 ∗ owns c arg3 fullShare x2
            ∗ owns c arg4 fullShare (out0_3 x0 x1 x2)) -∗ K ⟨⟩))
      ⊢ wp frame (wpE (defs₀ (F := F)) Variants.none c none) E (cc0__node_proj_kernel i arg1 harg1 arg2 harg2 arg3 harg3 arg4 harg4) K := by
  simp only [cc0__node_proj_kernel_eq_skeleton]; unfold cc0__node_proj_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (View.cover_of_tiled _ S2000x512.size (by rfl))

def dat0 (c : Dev nD) : Pipeline.Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_3 (c : Dev nD) (t : Fin cfg0.N) :
    (dat0 V c).after 3 t = out0_3 (iblk0 V c 0 t) (iblk0 V c 1 t) (iblk0 V c 2 t) := by dsimp only [dat0]

-- The body writes no input window, so the block a point finds in one is the block it leaves there.
theorem before0 (c : Dev nD) (t : Fin cfg0.N) : ∀ w : Fin cfg0.W, (cfg0.win w).isOut = false →
    ∀ d, (dat0 V c).before w t d = (dat0 V c).after w t
  | ⟨0, _⟩, _, d | ⟨1, _⟩, _, d | ⟨2, _⟩, _, d =>
    ((dat0 V c).before_in_eq_fetched _ rfl (fun _ => rfl) (fun _ _ _ => rfl) (fun _ => rfl) t d).trans rfl
  | ⟨3, _⟩, h, _ => nomatch h

-- At every point the body's triple applies at the input blocks; the invariant and the debts pass through.
theorem body_obligation0 (c : Dev nD) : Pipeline.BodyObligation (dat0 (F := F) V c) (defs₀ (F := F)) Variants.none () Set.univ := fun t => by
  rw [bigSep_W0, bigSep_W0]
  show _ ⊢ wp frame _ _ (bodyAt0 t) _
  unfold bodyAt0
  simp (disch := rfl) only [before0 V c t]
  rw [show (dat0 V c).Φ t.succ = (dat0 V c).Φ t.castSucc from rfl,
    show (dat0 V c).owesAt () t.succ = (dat0 V c).owesAt () t.castSucc from rfl]
  iintro ⟨HΦ, Ho, ⟨%d0, H0⟩, ⟨%d1, H1⟩, ⟨%d2, H2⟩, ⟨%d3, H3⟩⟩
  iapply sound_kernel0
  iframe H0 H1 H2
  isplitl [H3]; · iexists _; iexact H3
  iintro H
  iframe HΦ Ho
  dsimp only [dat0]
  iexact H

end Cert.KernelIdeal.Frm

end
-- ==== Proof.KI.Reg1.lean ====
import proofs.«422477_j6347961663751_3_alg».proof.Proof.Gen.KernelIdeal.Launch
import proofs.«422477_j6347961663751_3_alg».proof.Proof.Gen.KernelIdeal.Skeleton
import proofs.«422477_j6347961663751_3_alg».proof.Proof.Gen.KernelIdeal.Points
import Idealize.ShloMosaic.Lib.Pipeline.FrameBody
import Idealize.ShloMosaic.Lib.Tactic

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev r1_a : Rect S5000x128 := Rect.unit (s := S5000x128) ![0, 0] S5000x128.size inb_S5000x128_S5000x128_0_0
abbrev r1_b : Rect S128x128 := Rect.unit (s := S128x128) ![0, 0] S128x128.size inb_S128x128_S128x128_0_0
abbrev r1_c : Rect S1x128 := Rect.unit (s := S1x128) ![0, 0] S1x128.size inb_S1x128_S1x128_0_0
abbrev r1_d : Rect S1x1x128 := Rect.unit (s := S1x1x128) ![0, 0, 0] S1x1x128.size inb_S1x1x128_S1x1x128_0_0_0

def out1_5 (x0 : Vec F S5000x128 .f32) (x1 : Vec F S128x128 .f32) (x2 : Vec F S1x128 .f32) (x3 : Vec F S5000x128 .f32) (x4 : Vec F S5000x128 .f32) : Vec F S5000x128 .f32 :=
  View.canon [⟨r1_a, k1_pay2 (View.ld x0 r1_a) (View.ld x1 r1_b) (View.ld x2 r1_c) (View.ld x3 r1_a) (View.ld x4 r1_a)⟩]

def out1_6 (x0 : Vec F S5000x128 .f32) (x1 : Vec F S128x128 .f32) (x2 : Vec F S1x128 .f32) (x3 : Vec F S5000x128 .f32) (x4 : Vec F S5000x128 .f32) : Vec F S1x1x128 .f32 :=
  View.canon [⟨r1_d, k1_pay3 (View.ld x0 r1_a) (View.ld x1 r1_b) (View.ld x2 r1_c) (View.ld x3 r1_a)⟩]

def out1_7 (x0 : Vec F S5000x128 .f32) (x1 : Vec F S128x128 .f32) (x2 : Vec F S1x128 .f32) (x3 : Vec F S5000x128 .f32) (x4 : Vec F S5000x128 .f32) : Vec F S1x1x128 .f32 :=
  View.canon [⟨r1_d, k1_pay4 (View.ld x0 r1_a) (View.ld x1 r1_b) (View.ld x2 r1_c) (View.ld x3 r1_a)⟩]

theorem sound_kernel1 {c : Dev nD} {E : Set ℕ} {i : grid1.Coords} {arg1 arg4 arg5 arg6 : Memref sig .tc .vmem S5000x128 .f32} {arg2 : Memref sig .tc .vmem S128x128 .f32} {arg3 : Memref sig .tc .vmem S1x128 .f32} {arg7 arg8 : Memref sig .tc .vmem S1x1x128 .f32}
    {harg1 : arg1.IsWhole} {harg2 : arg2.IsWhole} {harg3 : arg3.IsWhole} {harg4 : arg4.IsWhole} {harg5 : arg5.IsWhole} {harg6 : arg6.IsWhole} {harg7 : arg7.IsWhole} {harg8 : arg8.IsWhole}
    {x0 x3 x4 : Vec F S5000x128 .f32} {x1 : Vec F S128x128 .f32} {x2 : Vec F S1x128 .f32} {K : PUnit → sProp 𝕄} :
    iprop(owns c arg1 fullShare x0 ∗ owns c arg2 fullShare x1 ∗ owns c arg3 fullShare x2
        ∗ owns c arg4 fullShare x3 ∗ owns c arg5 fullShare x4
        ∗ (∃ d, owns c arg6 fullShare d) ∗ (∃ d, owns c arg7 fullShare d) ∗ (∃ d, owns c arg8 fullShare d)
        ∗ (iprop(owns c arg1 fullShare x0 ∗ owns c arg2 fullShare x1 ∗ owns c arg3 fullShare x2
            ∗ owns c arg4 fullShare x3 ∗ owns c arg5 fullShare x4
            ∗ owns c arg6 fullShare (out1_5 x0 x1 x2 x3 x4)
            ∗ owns c arg7 fullShare (out1_6 x0 x1 x2 x3 x4)
            ∗ owns c arg8 fullShare (out1_7 x0 x1 x2 x3 x4)) -∗ K ⟨⟩))
      ⊢ wp frame (wpE (defs₀ (F := F)) Variants.none c none) E
          (cc1__edge_gate_kernel i arg1 harg1 arg2 harg2 arg3 harg3 arg4 harg4 arg5 harg5 arg6 harg6 arg7 harg7 arg8 harg8) K := by
  simp only [cc1__edge_gate_kernel_eq_skeleton]; unfold cc1__edge_gate_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    exact View.read_writes_eq_canon _ _ _ (View.cover_of_tiled _ S5000x128.size (by rfl))
  isplitl [H6]
  · iexists _; isplitr
    swap; · iexact H6
    ipureintro
    exact View.read_writes_eq_canon _ _ _ (View.cover_of_tiled _ S1x1x128.size (by rfl))
  iexists _; isplitr
  swap; · iexact H7
  ipureintro
  exact View.read_writes_eq_canon _ _ _ (View.cover_of_tiled _ S1x1x128.size (by rfl))

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => out1_5 (iblk1 V c 0 t) (iblk1 V c 1 t) (iblk1 V c 2 t) (iblk1 V c 3 t) (iblk1 V c 4 t)
    | ⟨6, _⟩ => out1_6 (iblk1 V c 0 t) (iblk1 V c 1 t) (iblk1 V c 2 t) (iblk1 V c 3 t) (iblk1 V c 4 t)
    | ⟨7, _⟩ => out1_7 (iblk1 V c 0 t) (iblk1 V c 1 t) (iblk1 V c 2 t) (iblk1 V c 3 t) (iblk1 V c 4 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_5 (c : Dev nD) (t : Fin cfg1.N) : (dat1 V c).after 5 t
    = out1_5 (iblk1 V c 0 t) (iblk1 V c 1 t) (iblk1 V c 2 t) (iblk1 V c 3 t) (iblk1 V c 4 t) := by dsimp only [dat1]
theorem after1_6 (c : Dev nD) (t : Fin cfg1.N) : (dat1 V c).after 6 t
    = out1_6 (iblk1 V c 0 t) (iblk1 V c 1 t) (iblk1 V c 2 t) (iblk1 V c 3 t) (iblk1 V c 4 t) := by dsimp only [dat1]
theorem after1_7 (c : Dev nD) (t : Fin cfg1.N) : (dat1 V c).after 7 t
    = out1_7 (iblk1 V c 0 t) (iblk1 V c 1 t) (iblk1 V c 2 t) (iblk1 V c 3 t) (iblk1 V c 4 t) := by dsimp only [dat1]

-- The body writes no input window, so the block a point finds in one is the block it leaves there.
theorem before1 (c : Dev nD) (t : Fin cfg1.N) : ∀ w : Fin cfg1.W, (cfg1.win w).isOut = false →
    ∀ d, (dat1 V c).before w t d = (dat1 V c).after w t
  | ⟨0, _⟩, _, d | ⟨1, _⟩, _, d | ⟨2, _⟩, _, d | ⟨3, _⟩, _, d | ⟨4, _⟩, _, d =>
    ((dat1 V c).before_in_eq_fetched _ rfl (fun _ => rfl) (fun _ _ _ => rfl) (fun _ => rfl) t d).trans rfl
  | ⟨5, _⟩, h, _ | ⟨6, _⟩, h, _ | ⟨7, _⟩, h, _ => nomatch h

-- At every point the body's triple applies at the input blocks; the invariant and the debts pass through.
theorem body_obligation1 (c : Dev nD) : Pipeline.BodyObligation (dat1 (F := F) V c) (defs₀ (F := F)) Variants.none () Set.univ := fun t => by
  rw [bigSep_W1, bigSep_W1]
  show _ ⊢ wp frame _ _ (bodyAt1 t) _
  unfold bodyAt1
  simp (disch := rfl) only [before1 V c t]
  rw [show (dat1 V c).Φ t.succ = (dat1 V c).Φ t.castSucc from rfl,
    show (dat1 V c).owesAt () t.succ = (dat1 V c).owesAt () t.castSucc from rfl]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply sound_kernel1
  iframe H0 H1 H2 H3 H4
  isplitl [H5]; · iexists _; iexact H5
  isplitl [H6]; · iexists _; iexact H6
  isplitl [H7]; · iexists _; iexact H7
  iintro H
  iframe HΦ Ho
  dsimp only [dat1]
  iexact H

end Cert.KernelIdeal.Frm

end
-- ==== Proof.KI.Reg2.lean ====
import proofs.«422477_j6347961663751_3_alg».proof.Proof.Gen.KernelIdeal.Launch
import proofs.«422477_j6347961663751_3_alg».proof.Proof.Gen.KernelIdeal.Skeleton
import proofs.«422477_j6347961663751_3_alg».proof.Proof.Gen.KernelIdeal.Points
import Idealize.ShloMosaic.Lib.Pipeline.FrameBody
import Idealize.ShloMosaic.Lib.Tactic

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

abbrev rA2 : Rect S2000x128 := Rect.unit (s := S2000x128) ![0, 0] S2000x128.size inb_S2000x128_S2000x128_0_0
abbrev rB2 : Rect S1x128 := Rect.unit (s := S1x128) ![0, 0] S1x128.size inb_S1x128_S1x128_0_0

def out2_7 (x0 : Vec F S2000x128 .f32) (x1 : Vec F S2000x128 .f32) (x2 : Vec F S2000x128 .f32) (x3 : Vec F S1x128 .f32)
    (x4 : Vec F S1x128 .f32) (x5 : Vec F S1x128 .f32) (x6 : Vec F S1x128 .f32) : Vec F S2000x128 .f32 :=
  View.canon [⟨rA2, k2_pay1 (View.ld x0 rA2) (View.ld x1 rA2) (View.ld x4 rB2) (View.ld x3 rB2) (View.ld x5 rB2) (View.ld x6 rB2) (View.ld x2 rA2)⟩]

theorem sound_kernel2 {c : Dev nD} {E : Set ℕ} {i : grid2.Coords} {arg1 arg2 arg3 arg8 : Memref sig .tc .vmem S2000x128 .f32} {arg4 arg5 arg6 arg7 : Memref sig .tc .vmem S1x128 .f32}
    {harg1 : arg1.IsWhole} {harg2 : arg2.IsWhole} {harg3 : arg3.IsWhole} {harg4 : arg4.IsWhole} {harg5 : arg5.IsWhole} {harg6 : arg6.IsWhole} {harg7 : arg7.IsWhole} {harg8 : arg8.IsWhole}
    {x0 x1 x2 : Vec F S2000x128 .f32} {x3 x4 x5 x6 : Vec F S1x128 .f32} {K : PUnit → sProp 𝕄} :
    iprop(owns c arg1 fullShare x0 ∗ owns c arg2 fullShare x1 ∗ owns c arg3 fullShare x2
        ∗ owns c arg4 fullShare x3 ∗ owns c arg5 fullShare x4 ∗ owns c arg6 fullShare x5
        ∗ owns c arg7 fullShare x6 ∗ (∃ d, owns c arg8 fullShare d)
        ∗ (iprop(owns c arg1 fullShare x0 ∗ owns c arg2 fullShare x1 ∗ owns c arg3 fullShare x2
            ∗ owns c arg4 fullShare x3 ∗ owns c arg5 fullShare x4 ∗ owns c arg6 fullShare x5
            ∗ owns c arg7 fullShare x6 ∗ owns c arg8 fullShare (out2_7 x0 x1 x2 x3 x4 x5 x6)) -∗ K ⟨⟩))
      ⊢ wp frame (wpE (defs₀ (F := F)) Variants.none c none) E
          (cc2__node_post_kernel i arg1 harg1 arg2 harg2 arg3 harg3 arg4 harg4 arg5 harg5 arg6 harg6 arg7 harg7 arg8 harg8) K := by
  simp only [cc2__node_post_kernel_eq_skeleton]; unfold cc2__node_post_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  exact View.read_writes_eq_canon _ _ _ (View.cover_of_tiled _ S2000x128.size (by rfl))

def dat2 (c : Dev nD) : Pipeline.Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => iblk2 V c 6 t
    | ⟨7, _⟩ => out2_7 (iblk2 V c 0 t) (iblk2 V c 1 t) (iblk2 V c 2 t) (iblk2 V c 3 t) (iblk2 V c 4 t) (iblk2 V c 5 t) (iblk2 V c 6 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_7 (c : Dev nD) (t : Fin cfg2.N) : (dat2 V c).after 7 t =
    out2_7 (iblk2 V c 0 t) (iblk2 V c 1 t) (iblk2 V c 2 t) (iblk2 V c 3 t) (iblk2 V c 4 t) (iblk2 V c 5 t) (iblk2 V c 6 t) := by dsimp only [dat2]

-- The body writes no input window, so the block a point finds in one is the block it leaves there.
theorem before2 (c : Dev nD) (t : Fin cfg2.N) : ∀ w : Fin cfg2.W, (cfg2.win w).isOut = false →
    ∀ d, (dat2 V c).before w t d = (dat2 V c).after w t
  | ⟨0, _⟩, _, d | ⟨1, _⟩, _, d | ⟨2, _⟩, _, d | ⟨3, _⟩, _, d | ⟨4, _⟩, _, d | ⟨5, _⟩, _, d | ⟨6, _⟩, _, d =>
    ((dat2 V c).before_in_eq_fetched _ rfl (fun _ => rfl) (fun _ _ _ => rfl) (fun _ => rfl) t d).trans rfl
  | ⟨7, _⟩, h, _ => nomatch h

-- At every point the body's triple applies at the input blocks; the invariant and the debts pass through.
theorem body_obligation2 (c : Dev nD) : Pipeline.BodyObligation (dat2 (F := F) V c) (defs₀ (F := F)) Variants.none () Set.univ := fun t => by
  rw [bigSep_W2, bigSep_W2]
  show _ ⊢ wp frame _ _ (bodyAt2 t) _
  unfold bodyAt2
  simp (disch := rfl) only [before2 V c t]
  rw [show (dat2 V c).Φ t.succ = (dat2 V c).Φ t.castSucc from rfl,
    show (dat2 V c).owesAt () t.succ = (dat2 V c).owesAt () t.castSucc from rfl]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply sound_kernel2
  iframe H0 H1 H2 H3 H4 H5 H6
  isplitl [H7]; · iexists _; iexact H7
  iintro H
  iframe HΦ Ho
  dsimp only [dat2]
  iexact H

end Cert.KernelIdeal.Frm

end
-- ==== Proof.KI.Reg3.lean ====
import proofs.«422477_j6347961663751_3_alg».proof.Proof.Gen.KernelIdeal.Launch
import proofs.«422477_j6347961663751_3_alg».proof.Proof.Gen.KernelIdeal.Skeleton
import proofs.«422477_j6347961663751_3_alg».proof.Proof.Gen.KernelIdeal.Points
import Idealize.ShloMosaic.Lib.Pipeline.FrameBody
import Idealize.ShloMosaic.Lib.Pipeline.Frame
import Idealize.ShloMosaic.Lib.Tactic

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

abbrev r3_0 : Rect S5000x128 := Rect.unit (s := S5000x128) ![0, 0] S5000x128.size inb_S5000x128_S5000x128_0_0
abbrev r3_1 : Rect S128x128 := Rect.unit (s := S128x128) ![0, 0] S128x128.size inb_S128x128_S128x128_0_0
abbrev r3_2 : Rect S1x128 := Rect.unit (s := S1x128) ![0, 0] S1x128.size inb_S1x128_S1x128_0_0

def out3_8 (x0 : Vec F S5000x128 .f32) (x1 : Vec F S128x128 .f32) (x2 : Vec F S1x128 .f32) (x3 : Vec F S5000x128 .f32) (x4 : Vec F S1x128 .f32) (x5 : Vec F S1x128 .f32) (x6 : Vec F S1x128 .f32) (x7 : Vec F S1x128 .f32) : Vec F S5000x128 .f32 :=
  View.canon [⟨r3_0, k3_pay1 (View.ld x0 r3_0) (View.ld x1 r3_1) (View.ld x2 r3_2) (View.ld x3 r3_0) (View.ld x5 r3_2) (View.ld x4 r3_2) (View.ld x6 r3_2) (View.ld x7 r3_2)⟩]

set_option maxHeartbeats 1000000 in
theorem sound_kernel3 {c : Dev nD} {E : Set ℕ} {i : grid3.Coords} {arg1 arg4 arg9 : Memref sig .tc .vmem S5000x128 .f32} {arg2 : Memref sig .tc .vmem S128x128 .f32} {arg3 arg5 arg6 arg7 arg8 : Memref sig .tc .vmem S1x128 .f32}
    {harg1 : arg1.IsWhole} {harg2 : arg2.IsWhole} {harg3 : arg3.IsWhole} {harg4 : arg4.IsWhole} {harg5 : arg5.IsWhole} {harg6 : arg6.IsWhole} {harg7 : arg7.IsWhole} {harg8 : arg8.IsWhole} {harg9 : arg9.IsWhole}
    {x0 x3 : Vec F S5000x128 .f32} {x1 : Vec F S128x128 .f32} {x2 x4 x5 x6 x7 : Vec F S1x128 .f32} {K : PUnit → sProp 𝕄} :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ d, owns (c : Thread nD τ) arg9 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare (out3_8 x0 x1 x2 x3 x4 x5 x6 x7)) -∗ K ⟨⟩))
      ⊢ wp frame (wpE (defs₀ (F := F)) Variants.none c none) E (cc3__edge_post_kernel i arg1 harg1 arg2 harg2 arg3 harg3 arg4 harg4 arg5 harg5 arg6 harg6 arg7 harg7 arg8 harg8 arg9 harg9) K := by
  simp only [cc3__edge_post_kernel_eq_skeleton]; unfold cc3__edge_post_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, Hk⟩
  subst hf0 hf1 hf2 hf3 hf4 hf5 hf6 hf7
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  iexists _; isplitr
  swap; · iexact H8
  ipureintro
  exact View.read_writes_eq_canon _ _ _ (View.cover_of_tiled _ S5000x128.size (by rfl))

def dat3 (c : Dev nD) : Pipeline.Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => iblk3 V c 5 t
    | ⟨6, _⟩ => iblk3 V c 6 t
    | ⟨7, _⟩ => iblk3 V c 7 t
    | ⟨8, _⟩ => out3_8 (iblk3 V c 0 t) (iblk3 V c 1 t) (iblk3 V c 2 t) (iblk3 V c 3 t) (iblk3 V c 4 t) (iblk3 V c 5 t) (iblk3 V c 6 t) (iblk3 V c 7 t)
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_8 (c : Dev nD) (t : Fin cfg3.N) : (dat3 V c).after 8 t = out3_8 (iblk3 V c 0 t) (iblk3 V c 1 t) (iblk3 V c 2 t) (iblk3 V c 3 t) (iblk3 V c 4 t) (iblk3 V c 5 t) (iblk3 V c 6 t) (iblk3 V c 7 t) := by dsimp only [dat3]

-- The body writes no input window, so the block a point finds in one is the block it leaves there.
theorem before3 (c : Dev nD) (t : Fin cfg3.N) :
    ∀ (w : Fin cfg3.W) (d), w.val < 8 → (dat3 V c).before w t d = (dat3 V c).after w t
  | ⟨0, _⟩, d, _ | ⟨1, _⟩, d, _ | ⟨2, _⟩, d, _ | ⟨3, _⟩, d, _ | ⟨4, _⟩, d, _ | ⟨5, _⟩, d, _ | ⟨6, _⟩, d, _ | ⟨7, _⟩, d, _ =>
    ((dat3 V c).before_in_eq_fetched _ rfl (fun _ => rfl) (fun _ _ _ => rfl) (fun _ => rfl) t d).trans rfl
  | ⟨n + 8, _⟩, _, h => absurd h (Nat.not_lt.2 (Nat.le_add_left 8 n))

-- At every point the body's triple applies at the input blocks; the invariant and the debts pass through.
theorem body_obligation3 (c : Dev nD) : Pipeline.BodyObligation (dat3 (F := F) V c) (defs₀ (F := F)) Variants.none () Set.univ := fun t => by
  rw [bigSep_W3, bigSep_W3]
  show _ ⊢ wp frame _ _ (bodyAt3 t) _
  unfold bodyAt3
  simp (disch := decide) only [before3 V c t]
  rw [show (dat3 V c).Φ t.succ = (dat3 V c).Φ t.castSucc from rfl,
    show (dat3 V c).owesAt () t.succ = (dat3 V c).owesAt () t.castSucc from rfl]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply sound_kernel3
  iframe H0 H1 H2 H3 H4 H5 H6 H7
  isplitl [H8]; · iexists _; iexact H8
  iintro H
  iframe HΦ Ho
  dsimp only [dat3]
  iexact H

end Cert.KernelIdeal.Frm

end
-- ==== Proof.KI.Reg4.lean ====
import proofs.«422477_j6347961663751_3_alg».proof.Proof.Gen.KernelIdeal.Launch
import proofs.«422477_j6347961663751_3_alg».proof.Proof.Gen.KernelIdeal.Skeleton
import proofs.«422477_j6347961663751_3_alg».proof.Proof.Gen.KernelIdeal.Points
import Idealize.ShloMosaic.Lib.Pipeline.FrameBody
import Idealize.ShloMosaic.Lib.Pipeline.Frame
import Idealize.ShloMosaic.Lib.Tactic

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

abbrev r4_0 : Rect S2000x128 := Rect.unit (s := S2000x128) ![0, 0] S2000x128.size inb_S2000x128_S2000x128_0_0
abbrev r4_1 : Rect S1x128 := Rect.unit (s := S1x128) ![0, 0] S1x128.size inb_S1x128_S1x128_0_0
abbrev r4_2 : Rect S128x256 := Rect.unit (s := S128x256) ![0, 0] S128x256.size inb_S128x256_S128x256_0_0
abbrev r4_3 : Rect S1x256 := Rect.unit (s := S1x256) ![0, 0] S1x256.size inb_S1x256_S1x256_0_0
abbrev r4_4 : Rect S256x128 := Rect.unit (s := S256x128) ![0, 0] S256x128.size inb_S256x128_S256x128_0_0

def out4_9 (x0 : Vec F S2000x128 .f32) (x1 : Vec F S1x128 .f32) (x2 : Vec F S1x128 .f32) (x3 : Vec F S1x128 .f32) (x4 : Vec F S1x128 .f32) (x5 : Vec F S128x256 .f32) (x6 : Vec F S1x256 .f32) (x7 : Vec F S256x128 .f32) (x8 : Vec F S1x128 .f32) : Vec F S2000x128 .f32 :=
  View.canon [⟨r4_0, k4_pay1 (k4_pay2 (View.ld x0 r4_0))
    (k4_pay3 (View.ld x0 r4_0) (View.ld x2 r4_1) (View.ld x1 r4_1) (View.ld x3 r4_1) (View.ld x4 r4_1) (View.ld x5 r4_2) (View.ld x6 r4_3) (View.ld x7 r4_4))
    (k4_pay4 (View.ld x8 r4_1))⟩]

set_option maxHeartbeats 1000000 in
theorem sound_kernel4 {c : Dev nD} {E : Set ℕ} {i : grid4.Coords} {arg1 arg10 : Memref sig .tc .vmem S2000x128 .f32} {arg2 arg3 arg4 arg5 arg9 : Memref sig .tc .vmem S1x128 .f32} {arg6 : Memref sig .tc .vmem S128x256 .f32} {arg7 : Memref sig .tc .vmem S1x256 .f32} {arg8 : Memref sig .tc .vmem S256x128 .f32}
    {harg1 : arg1.IsWhole} {harg2 : arg2.IsWhole} {harg3 : arg3.IsWhole} {harg4 : arg4.IsWhole} {harg5 : arg5.IsWhole} {harg6 : arg6.IsWhole} {harg7 : arg7.IsWhole} {harg8 : arg8.IsWhole} {harg9 : arg9.IsWhole} {harg10 : arg10.IsWhole}
    {x0 : Vec F S2000x128 .f32} {x1 x2 x3 x4 x8 : Vec F S1x128 .f32} {x5 : Vec F S128x256 .f32} {x6 : Vec F S1x256 .f32} {x7 : Vec F S256x128 .f32} {K : PUnit → sProp 𝕄} :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ d, owns (c : Thread nD τ) arg10 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare (out4_9 x0 x1 x2 x3 x4 x5 x6 x7 x8)) -∗ K ⟨⟩))
      ⊢ wp frame (wpE (defs₀ (F := F)) Variants.none c none) E (cc4__ffn_kernel i arg1 harg1 arg2 harg2 arg3 harg3 arg4 harg4 arg5 harg5 arg6 harg6 arg7 harg7 arg8 harg8 arg9 harg9 arg10 harg10) K := by
  simp only [cc4__ffn_kernel_eq_skeleton]; unfold cc4__ffn_kernel_skel
  simp only [k4_part1_eq_skeleton]; unfold k4_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, Hk⟩
  subst hf0 hf1 hf2 hf3 hf4 hf5 hf6 hf7 hf8
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  iexists _; isplitr
  swap; · iexact H9
  ipureintro
  try dsimp only
  exact View.read_writes_eq_canon _ _ _ (View.cover_of_tiled _ S2000x128.size (by rfl))

def dat4 (c : Dev nD) : Pipeline.Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => iblk4 V c 4 t
    | ⟨5, _⟩ => iblk4 V c 5 t
    | ⟨6, _⟩ => iblk4 V c 6 t
    | ⟨7, _⟩ => iblk4 V c 7 t
    | ⟨8, _⟩ => iblk4 V c 8 t
    | ⟨9, _⟩ => out4_9 (iblk4 V c 0 t) (iblk4 V c 1 t) (iblk4 V c 2 t) (iblk4 V c 3 t) (iblk4 V c 4 t) (iblk4 V c 5 t) (iblk4 V c 6 t) (iblk4 V c 7 t) (iblk4 V c 8 t)
  Φ _ := Pipeline.ΦA spec4 c
  q _ := fullShare
  owed _ := 0

theorem A_eq4 (c : Dev nD) (w : Fin cfg4.W) : (dat4 V c).A w = V c (Pipeline.arrRef spec4 w) := by
  dsimp only [dat4]

theorem after4_9 (c : Dev nD) (t : Fin cfg4.N) : (dat4 V c).after 9 t = out4_9 (iblk4 V c 0 t) (iblk4 V c 1 t) (iblk4 V c 2 t) (iblk4 V c 3 t) (iblk4 V c 4 t) (iblk4 V c 5 t) (iblk4 V c 6 t) (iblk4 V c 7 t) (iblk4 V c 8 t) := by dsimp only [dat4]

-- The body writes no input window, so the block a point finds in one is the block it leaves there.
theorem before4 (c : Dev nD) (t : Fin cfg4.N) :
    ∀ (w : Fin cfg4.W) (d), w.val < 9 → (dat4 V c).before w t d = (dat4 V c).after w t
  | ⟨0, _⟩, d, _ | ⟨1, _⟩, d, _ | ⟨2, _⟩, d, _ | ⟨3, _⟩, d, _ | ⟨4, _⟩, d, _ | ⟨5, _⟩, d, _ | ⟨6, _⟩, d, _ | ⟨7, _⟩, d, _ | ⟨8, _⟩, d, _ =>
    ((dat4 V c).before_in_eq_fetched _ rfl (fun _ => rfl) (fun _ _ _ => rfl) (fun _ => rfl) t d).trans rfl
  | ⟨n + 9, _⟩, _, h => absurd h (Nat.not_lt.2 (Nat.le_add_left 9 n))

-- At every point the body's triple applies at the input blocks; the invariant and the debts pass through.
theorem body_obligation4 (c : Dev nD) : Pipeline.BodyObligation (dat4 (F := F) V c) (defs₀ (F := F)) Variants.none () Set.univ := fun t => by
  rw [bigSep_W4, bigSep_W4]
  show _ ⊢ wp frame _ _ (bodyAt4 t) _
  unfold bodyAt4
  simp (disch := decide) only [before4 V c t]
  rw [show (dat4 V c).Φ t.succ = (dat4 V c).Φ t.castSucc from rfl,
    show (dat4 V c).owesAt () t.succ = (dat4 V c).owesAt () t.castSucc from rfl]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply sound_kernel4
  iframe H0 H1 H2 H3 H4 H5 H6 H7 H8
  isplitl [H9]; · iexists _; iexact H9
  iintro H
  iframe HΦ Ho
  dsimp only [dat4]
  iexact H

end Cert.KernelIdeal.Frm

end
-- ==== Proof.KI.Fold.lean ====
/- Wk is the buffers' contents after the first k items of @main, from the launch contents W0: a host stretch applies
  its operations; a region replaces its arrays by what its grid points leave, an input array ending as entered.
  Uk lists what the first k items write: a reference outside it still holds its launch contents. -/
import proofs.«422477_j6347961663751_3_alg».proof.Proof.Gen.KernelIdeal.Launch
import proofs.«422477_j6347961663751_3_alg».proof.Proof.Gen.KernelIdeal.Regions
import proofs.«422477_j6347961663751_3_alg».proof.Proof.KI.Reg0
import proofs.«422477_j6347961663751_3_alg».proof.Proof.KI.Reg1
import proofs.«422477_j6347961663751_3_alg».proof.Proof.KI.Reg2
import proofs.«422477_j6347961663751_3_alg».proof.Proof.KI.Reg3
import proofs.«422477_j6347961663751_3_alg».proof.Proof.KI.Reg4
import proofs.«422477_j6347961663751_3_alg».proof.Proof.Chain
import Idealize.ShloMosaic.Lib.Pipeline.FrameSuffix
import Idealize.ShloMosaic.Lib.Pipeline.RegionsLoop

set_option maxRecDepth 16384

noncomputable section

namespace Cert.KernelIdeal.Frm

open Cert.KernelIdeal Cert.KernelIdeal.Gen
open Idealize.ShloMosaic Idealize.ShloMosaic.TcCoe
open Idealize.SL Idealize.SL.Sem
open Idealize.ShloMosaic.Pipeline (Dat)

variable {F : FTy → Type} [FloatOps F]
variable (m : (ℓ : Loc nD τ sig) → Buf (Elt F) ℓ)

abbrev atTc (W : Dev nD → Valuation τ sig (Elt F)) : (c : Dev nD) → (b : Ref sig .tc) → Buf (Elt F) ((c : Thread nD τ).loc b) :=
  fun c b => W c b

abbrev W0 : Dev nD → Valuation τ sig (Elt F) := fun c b => m (c, b)
abbrev W1 : Dev nD → Valuation τ sig (Elt F) := fun c => StableHlo.after hostOps0 (W0 m c)
theorem W1_of (c : Dev nD) (r : Ref sig .tc) (h : r ∉ hostOps0_W) : W1 m c r = W0 m c r :=
  StableHlo.after_of_writes_sub hostOps0 _ hostOps0_writes h
def W2 (c : Dev nD) : Valuation τ sig (Elt F) :=
  Pipeline.withArrays spec0 c (W1 m c) fun w => (dat0 (atTc (W1 m)) c).arrAt w cfg0.N
theorem W2_arr (c : Dev nD) (w : Fin cfg0.W) :
    W2 m c (Proc.devRef .tc (Pipeline.arrRef spec0 w)) = (dat0 (atTc (W1 m)) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
theorem hF0 (c : Dev nD) (w : Fin cfg0.W) : (dat0 (atTc (W1 m)) c).arrAt w cfg0.N = atTc (W2 m) c (Pipeline.arrRef spec0 w) :=
  (W2_arr m c w).symm
theorem hrest0 (c : Dev nD) : ∀ b, b ∉ Finset.univ.image (Pipeline.arrRef spec0) → atTc (W2 m) c b = atTc (W1 m) c b :=
  fun b hb => W2_of_ne m c b fun w e => hb (Finset.mem_image.mpr ⟨w, Finset.mem_univ _, e⟩)
theorem W2_of (c : Dev nD) (r : Ref sig .tc) (h : r ∉ ([main_v7] : List (Ref sig .tc))) : W2 m c r = W1 m c r := by
  by_cases hr : ∃ w, Pipeline.arrRef spec0 w = r
  · obtain ⟨w, rfl⟩ := hr
    refine (W2_arr m c w).trans ?_
    fin_cases w <;> first
      | exact ((dat0 (atTc (W1 m)) c).arrAt_in _ rfl _).trans (A_eq0 _ c _)
      | exact absurd (by decide) h
  · exact W2_of_ne m c r fun w e => hr ⟨w, e⟩
abbrev W3 : Dev nD → Valuation τ sig (Elt F) := fun c => StableHlo.after hostOps1 (W2 m c)
theorem W3_of (c : Dev nD) (r : Ref sig .tc) (h : r ∉ hostOps1_W) : W3 m c r = W2 m c r :=
  StableHlo.after_of_writes_sub hostOps1 _ hostOps1_writes h
abbrev W4 : Dev nD → Valuation τ sig (Elt F) := fun c => StableHlo.after hostOps1_1 (W3 m c)
theorem W4_of (c : Dev nD) (r : Ref sig .tc) (h : r ∉ hostOps1_1_W) : W4 m c r = W3 m c r :=
  StableHlo.after_of_writes_sub hostOps1_1 _ hostOps1_1_writes h
abbrev W5 : Dev nD → Valuation τ sig (Elt F) := fun c => StableHlo.after hostOps1_2 (W4 m c)
theorem W5_of (c : Dev nD) (r : Ref sig .tc) (h : r ∉ hostOps1_2_W) : W5 m c r = W4 m c r :=
  StableHlo.after_of_writes_sub hostOps1_2 _ hostOps1_2_writes h
abbrev W6 : Dev nD → Valuation τ sig (Elt F) := fun c => StableHlo.after hostOps1_3 (W5 m c)
theorem W6_of (c : Dev nD) (r : Ref sig .tc) (h : r ∉ hostOps1_3_W) : W6 m c r = W5 m c r :=
  StableHlo.after_of_writes_sub hostOps1_3 _ hostOps1_3_writes h
abbrev W7 : Dev nD → Valuation τ sig (Elt F) := fun c => StableHlo.after hostOps1_4 (W6 m c)
theorem W7_of (c : Dev nD) (r : Ref sig .tc) (h : r ∉ hostOps1_4_W) : W7 m c r = W6 m c r :=
  StableHlo.after_of_writes_sub hostOps1_4 _ hostOps1_4_writes h
abbrev W8 : Dev nD → Valuation τ sig (Elt F) := fun c => StableHlo.after hostOps1_5 (W7 m c)
theorem W8_of (c : Dev nD) (r : Ref sig .tc) (h : r ∉ hostOps1_5_W) : W8 m c r = W7 m c r :=
  StableHlo.after_of_writes_sub hostOps1_5 _ hostOps1_5_writes h
def W9 (c : Dev nD) : Valuation τ sig (Elt F) :=
  Pipeline.withArrays spec1 c (W8 m c) fun w => (dat1 (atTc (W8 m)) c).arrAt w cfg1.N
theorem W9_arr (c : Dev nD) (w : Fin cfg1.W) :
    W9 m c (Proc.devRef .tc (Pipeline.arrRef spec1 w)) = (dat1 (atTc (W8 m)) c).arrAt w cfg1.N := by
  unfold W9; exact Pipeline.withArrays_arr spec1 launch1.win.arr_inj c _ _ w
theorem W9_of_ne (c : Dev nD) (b : Ref sig .tc) (hb : ∀ w, Pipeline.arrRef spec1 w ≠ b) :
    W9 m c (Proc.devRef .tc b) = W8 m c (Proc.devRef .tc b) := by
  unfold W9; exact Pipeline.withArrays_of_ne spec1 c _ _ b hb
theorem hF1 (c : Dev nD) (w : Fin cfg1.W) : (dat1 (atTc (W8 m)) c).arrAt w cfg1.N = atTc (W9 m) c (Pipeline.arrRef spec1 w) :=
  (W9_arr m c w).symm
theorem hrest1 (c : Dev nD) : ∀ b, b ∉ Finset.univ.image (Pipeline.arrRef spec1) → atTc (W9 m) c b = atTc (W8 m) c b :=
  fun b hb => W9_of_ne m c b fun w e => hb (Finset.mem_image.mpr ⟨w, Finset.mem_univ _, e⟩)
theorem W9_of (c : Dev nD) (r : Ref sig .tc) (h : r ∉ ([main_v17_0, main_v17_1, main_v17_2] : List (Ref sig .tc))) : W9 m c r = W8 m c r := by
  by_cases hr : ∃ w, Pipeline.arrRef spec1 w = r
  · obtain ⟨w, rfl⟩ := hr
    refine (W9_arr m c w).trans ?_
    fin_cases w <;> first
      | exact ((dat1 (atTc (W8 m)) c).arrAt_in _ rfl _).trans (A_eq1 _ c _)
      | exact absurd (by decide) h
  · exact W9_of_ne m c r fun w e => hr ⟨w, e⟩
abbrev W10 : Dev nD → Valuation τ sig (Elt F) := fun c => StableHlo.after hostOps2 (W9 m c)
theorem W10_of (c : Dev nD) (r : Ref sig .tc) (h : r ∉ hostOps2_W) : W10 m c r = W9 m c r :=
  StableHlo.after_of_writes_sub hostOps2 _ hostOps2_writes h
abbrev W11 : Dev nD → Valuation τ sig (Elt F) := fun c => StableHlo.after hostOps2_1 (W10 m c)
theorem W11_of (c : Dev nD) (r : Ref sig .tc) (h : r ∉ hostOps2_1_W) : W11 m c r = W10 m c r :=
  StableHlo.after_of_writes_sub hostOps2_1 _ hostOps2_1_writes h
abbrev W12 : Dev nD → Valuation τ sig (Elt F) := fun c => StableHlo.after hostOps2_2 (W11 m c)
theorem W12_of (c : Dev nD) (r : Ref sig .tc) (h : r ∉ hostOps2_2_W) : W12 m c r = W11 m c r :=
  StableHlo.after_of_writes_sub hostOps2_2 _ hostOps2_2_writes h
def W13 (c : Dev nD) : Valuation τ sig (Elt F) :=
  Pipeline.withArrays spec2 c (W12 m c) fun w => (dat2 (atTc (W12 m)) c).arrAt w cfg2.N
theorem W13_arr (c : Dev nD) (w : Fin cfg2.W) :
    W13 m c (Proc.devRef .tc (Pipeline.arrRef spec2 w)) = (dat2 (atTc (W12 m)) c).arrAt w cfg2.N := by
  unfold W13; exact Pipeline.withArrays_arr spec2 launch2.win.arr_inj c _ _ w
theorem W13_of_ne (c : Dev nD) (b : Ref sig .tc) (hb : ∀ w, Pipeline.arrRef spec2 w ≠ b) :
    W13 m c (Proc.devRef .tc b) = W12 m c (Proc.devRef .tc b) := by
  unfold W13; exact Pipeline.withArrays_of_ne spec2 c _ _ b hb
theorem hF2 (c : Dev nD) (w : Fin cfg2.W) : (dat2 (atTc (W12 m)) c).arrAt w cfg2.N = atTc (W13 m) c (Pipeline.arrRef spec2 w) :=
  (W13_arr m c w).symm
theorem hrest2 (c : Dev nD) : ∀ b, b ∉ Finset.univ.image (Pipeline.arrRef spec2) → atTc (W13 m) c b = atTc (W12 m) c b :=
  fun b hb => W13_of_ne m c b fun w e => hb (Finset.mem_image.mpr ⟨w, Finset.mem_univ _, e⟩)
theorem W13_of (c : Dev nD) (r : Ref sig .tc) (h : r ∉ ([main_v29] : List (Ref sig .tc))) : W13 m c r = W12 m c r := by
  by_cases hr : ∃ w, Pipeline.arrRef spec2 w = r
  · obtain ⟨w, rfl⟩ := hr
    refine (W13_arr m c w).trans ?_
    fin_cases w <;> first
      | exact ((dat2 (atTc (W12 m)) c).arrAt_in _ rfl _).trans (A_eq2 _ c _)
      | exact absurd (by decide) h
  · exact W13_of_ne m c r fun w e => hr ⟨w, e⟩
abbrev W14 : Dev nD → Valuation τ sig (Elt F) := fun c => StableHlo.after hostOps3 (W13 m c)
theorem W14_of (c : Dev nD) (r : Ref sig .tc) (h : r ∉ hostOps3_W) : W14 m c r = W13 m c r :=
  StableHlo.after_of_writes_sub hostOps3 _ hostOps3_writes h
def W15 (c : Dev nD) : Valuation τ sig (Elt F) :=
  Pipeline.withArrays spec3 c (W14 m c) fun w => (dat3 (atTc (W14 m)) c).arrAt w cfg3.N
theorem W15_arr (c : Dev nD) (w : Fin cfg3.W) :
    W15 m c (Proc.devRef .tc (Pipeline.arrRef spec3 w)) = (dat3 (atTc (W14 m)) c).arrAt w cfg3.N := by
  unfold W15; exact Pipeline.withArrays_arr spec3 launch3.win.arr_inj c _ _ w
theorem W15_of_ne (c : Dev nD) (b : Ref sig .tc) (hb : ∀ w, Pipeline.arrRef spec3 w ≠ b) :
    W15 m c (Proc.devRef .tc b) = W14 m c (Proc.devRef .tc b) := by
  unfold W15; exact Pipeline.withArrays_of_ne spec3 c _ _ b hb
theorem hF3 (c : Dev nD) (w : Fin cfg3.W) : (dat3 (atTc (W14 m)) c).arrAt w cfg3.N = atTc (W15 m) c (Pipeline.arrRef spec3 w) :=
  (W15_arr m c w).symm
theorem hrest3 (c : Dev nD) : ∀ b, b ∉ Finset.univ.image (Pipeline.arrRef spec3) → atTc (W15 m) c b = atTc (W14 m) c b :=
  fun b hb => W15_of_ne m c b fun w e => hb (Finset.mem_image.mpr ⟨w, Finset.mem_univ _, e⟩)
theorem W15_of (c : Dev nD) (r : Ref sig .tc) (h : r ∉ ([main_v44] : List (Ref sig .tc))) : W15 m c r = W14 m c r := by
  by_cases hr : ∃ w, Pipeline.arrRef spec3 w = r
  · obtain ⟨w, rfl⟩ := hr
    refine (W15_arr m c w).trans ?_
    fin_cases w <;> first
      | exact ((dat3 (atTc (W14 m)) c).arrAt_in _ rfl _).trans (A_eq3 _ c _)
      | exact absurd (by decide) h
  · exact W15_of_ne m c r fun w e => hr ⟨w, e⟩
abbrev W16 : Dev nD → Valuation τ sig (Elt F) := fun c => StableHlo.after hostOps4 (W15 m c)
theorem W16_of (c : Dev nD) (r : Ref sig .tc) (h : r ∉ hostOps4_W) : W16 m c r = W15 m c r :=
  StableHlo.after_of_writes_sub hostOps4 _ hostOps4_writes h
abbrev W17 : Dev nD → Valuation τ sig (Elt F) := fun c => StableHlo.after hostOps4_1 (W16 m c)
theorem W17_of (c : Dev nD) (r : Ref sig .tc) (h : r ∉ hostOps4_1_W) : W17 m c r = W16 m c r :=
  StableHlo.after_of_writes_sub hostOps4_1 _ hostOps4_1_writes h
abbrev W18 : Dev nD → Valuation τ sig (Elt F) := fun c => StableHlo.after hostOps4_2 (W17 m c)
theorem W18_of (c : Dev nD) (r : Ref sig .tc) (h : r ∉ hostOps4_2_W) : W18 m c r = W17 m c r :=
  StableHlo.after_of_writes_sub hostOps4_2 _ hostOps4_2_writes h
def W19 (c : Dev nD) : Valuation τ sig (Elt F) :=
  Pipeline.withArrays spec4 c (W18 m c) fun w => (dat4 (atTc (W18 m)) c).arrAt w cfg4.N
theorem W19_arr (c : Dev nD) (w : Fin cfg4.W) :
    W19 m c (Proc.devRef .tc (Pipeline.arrRef spec4 w)) = (dat4 (atTc (W18 m)) c).arrAt w cfg4.N := by
  unfold W19; exact Pipeline.withArrays_arr spec4 launch4.win.arr_inj c _ _ w
theorem W19_of_ne (c : Dev nD) (b : Ref sig .tc) (hb : ∀ w, Pipeline.arrRef spec4 w ≠ b) :
    W19 m c (Proc.devRef .tc b) = W18 m c (Proc.devRef .tc b) := by
  unfold W19; exact Pipeline.withArrays_of_ne spec4 c _ _ b hb
theorem hF4 (c : Dev nD) (w : Fin cfg4.W) : (dat4 (atTc (W18 m)) c).arrAt w cfg4.N = atTc (W19 m) c (Pipeline.arrRef spec4 w) :=
  (W19_arr m c w).symm
theorem hrest4 (c : Dev nD) : ∀ b, b ∉ Finset.univ.image (Pipeline.arrRef spec4) → atTc (W19 m) c b = atTc (W18 m) c b :=
  fun b hb => W19_of_ne m c b fun w e => hb (Finset.mem_image.mpr ⟨w, Finset.mem_univ _, e⟩)
theorem W19_of (c : Dev nD) (r : Ref sig .tc) (h : r ∉ ([main_v54] : List (Ref sig .tc))) : W19 m c r = W18 m c r := by
  by_cases hr : ∃ w, Pipeline.arrRef spec4 w = r
  · obtain ⟨w, rfl⟩ := hr
    refine (W19_arr m c w).trans ?_
    fin_cases w <;> first
      | exact ((dat4 (atTc (W18 m)) c).arrAt_in _ rfl _).trans (A_eq4 _ c _)
      | exact absurd (by decide) h
  · exact W19_of_ne m c r fun w e => hr ⟨w, e⟩
abbrev W20 : Dev nD → Valuation τ sig (Elt F) := fun c => StableHlo.after hostOps5 (W19 m c)
theorem W20_of (c : Dev nD) (r : Ref sig .tc) (h : r ∉ hostOps5_W) : W20 m c r = W19 m c r :=
  StableHlo.after_of_writes_sub hostOps5 _ hostOps5_writes h
abbrev W21 : Dev nD → Valuation τ sig (Elt F) := fun c => StableHlo.after hostOps5_1 (W20 m c)
theorem W21_of (c : Dev nD) (r : Ref sig .tc) (h : r ∉ hostOps5_1_W) : W21 m c r = W20 m c r :=
  StableHlo.after_of_writes_sub hostOps5_1 _ hostOps5_1_writes h
abbrev W22 : Dev nD → Valuation τ sig (Elt F) := fun c => StableHlo.after hostOps5_2 (W21 m c)
theorem W22_of (c : Dev nD) (r : Ref sig .tc) (h : r ∉ hostOps5_2_W) : W22 m c r = W21 m c r :=
  StableHlo.after_of_writes_sub hostOps5_2 _ hostOps5_2_writes h

abbrev U1 : List (Ref sig .tc) := hostOps0_W
theorem W1_untouched (c : Dev nD) (r : Ref sig .tc) (h : r ∉ U1) : W1 m c r = m ((c : Thread nD τ).loc r) := W1_of m c r h
abbrev U2 : List (Ref sig .tc) := [main_v7] ++ U1
theorem W2_untouched (c : Dev nD) (r : Ref sig .tc) (h : r ∉ U2) : W2 m c r = m ((c : Thread nD τ).loc r) :=
  Cert.Chain.link (W2_of m c r) (W1_untouched m c r) h
abbrev U3 : List (Ref sig .tc) := hostOps1_W ++ U2
theorem W3_untouched (c : Dev nD) (r : Ref sig .tc) (h : r ∉ U3) : W3 m c r = m ((c : Thread nD τ).loc r) :=
  Cert.Chain.link (W3_of m c r) (W2_untouched m c r) h
abbrev U4 : List (Ref sig .tc) := hostOps1_1_W ++ U3
theorem W4_untouched (c : Dev nD) (r : Ref sig .tc) (h : r ∉ U4) : W4 m c r = m ((c : Thread nD τ).loc r) :=
  Cert.Chain.link (W4_of m c r) (W3_untouched m c r) h
abbrev U5 : List (Ref sig .tc) := hostOps1_2_W ++ U4
theorem W5_untouched (c : Dev nD) (r : Ref sig .tc) (h : r ∉ U5) : W5 m c r = m ((c : Thread nD τ).loc r) :=
  Cert.Chain.link (W5_of m c r) (W4_untouched m c r) h
abbrev U6 : List (Ref sig .tc) := hostOps1_3_W ++ U5
theorem W6_untouched (c : Dev nD) (r : Ref sig .tc) (h : r ∉ U6) : W6 m c r = m ((c : Thread nD τ).loc r) :=
  Cert.Chain.link (W6_of m c r) (W5_untouched m c r) h
abbrev U7 : List (Ref sig .tc) := hostOps1_4_W ++ U6
theorem W7_untouched (c : Dev nD) (r : Ref sig .tc) (h : r ∉ U7) : W7 m c r = m ((c : Thread nD τ).loc r) :=
  Cert.Chain.link (W7_of m c r) (W6_untouched m c r) h
abbrev U8 : List (Ref sig .tc) := hostOps1_5_W ++ U7
theorem W8_untouched (c : Dev nD) (r : Ref sig .tc) (h : r ∉ U8) : W8 m c r = m ((c : Thread nD τ).loc r) :=
  Cert.Chain.link (W8_of m c r) (W7_untouched m c r) h
abbrev U9 : List (Ref sig .tc) := [main_v17_0, main_v17_1, main_v17_2] ++ U8
theorem W9_untouched (c : Dev nD) (r : Ref sig .tc) (h : r ∉ U9) : W9 m c r = m ((c : Thread nD τ).loc r) :=
  Cert.Chain.link (W9_of m c r) (W8_untouched m c r) h
abbrev U10 : List (Ref sig .tc) := hostOps2_W ++ U9
theorem W10_untouched (c : Dev nD) (r : Ref sig .tc) (h : r ∉ U10) : W10 m c r = m ((c : Thread nD τ).loc r) :=
  Cert.Chain.link (W10_of m c r) (W9_untouched m c r) h
abbrev U11 : List (Ref sig .tc) := hostOps2_1_W ++ U10
theorem W11_untouched (c : Dev nD) (r : Ref sig .tc) (h : r ∉ U11) : W11 m c r = m ((c : Thread nD τ).loc r) :=
  Cert.Chain.link (W11_of m c r) (W10_untouched m c r) h
abbrev U12 : List (Ref sig .tc) := hostOps2_2_W ++ U11
theorem W12_untouched (c : Dev nD) (r : Ref sig .tc) (h : r ∉ U12) : W12 m c r = m ((c : Thread nD τ).loc r) :=
  Cert.Chain.link (W12_of m c r) (W11_untouched m c r) h
abbrev U13 : List (Ref sig .tc) := [main_v29] ++ U12
theorem W13_untouched (c : Dev nD) (r : Ref sig .tc) (h : r ∉ U13) : W13 m c r = m ((c : Thread nD τ).loc r) :=
  Cert.Chain.link (W13_of m c r) (W12_untouched m c r) h
abbrev U14 : List (Ref sig .tc) := hostOps3_W ++ U13
theorem W14_untouched (c : Dev nD) (r : Ref sig .tc) (h : r ∉ U14) : W14 m c r = m ((c : Thread nD τ).loc r) :=
  Cert.Chain.link (W14_of m c r) (W13_untouched m c r) h
abbrev U15 : List (Ref sig .tc) := [main_v44] ++ U14
theorem W15_untouched (c : Dev nD) (r : Ref sig .tc) (h : r ∉ U15) : W15 m c r = m ((c : Thread nD τ).loc r) :=
  Cert.Chain.link (W15_of m c r) (W14_untouched m c r) h
abbrev U16 : List (Ref sig .tc) := hostOps4_W ++ U15
theorem W16_untouched (c : Dev nD) (r : Ref sig .tc) (h : r ∉ U16) : W16 m c r = m ((c : Thread nD τ).loc r) :=
  Cert.Chain.link (W16_of m c r) (W15_untouched m c r) h
abbrev U17 : List (Ref sig .tc) := hostOps4_1_W ++ U16
theorem W17_untouched (c : Dev nD) (r : Ref sig .tc) (h : r ∉ U17) : W17 m c r = m ((c : Thread nD τ).loc r) :=
  Cert.Chain.link (W17_of m c r) (W16_untouched m c r) h
abbrev U18 : List (Ref sig .tc) := hostOps4_2_W ++ U17
theorem W18_untouched (c : Dev nD) (r : Ref sig .tc) (h : r ∉ U18) : W18 m c r = m ((c : Thread nD τ).loc r) :=
  Cert.Chain.link (W18_of m c r) (W17_untouched m c r) h
abbrev U19 : List (Ref sig .tc) := [main_v54] ++ U18
theorem W19_untouched (c : Dev nD) (r : Ref sig .tc) (h : r ∉ U19) : W19 m c r = m ((c : Thread nD τ).loc r) :=
  Cert.Chain.link (W19_of m c r) (W18_untouched m c r) h
abbrev U20 : List (Ref sig .tc) := hostOps5_W ++ U19
theorem W20_untouched (c : Dev nD) (r : Ref sig .tc) (h : r ∉ U20) : W20 m c r = m ((c : Thread nD τ).loc r) :=
  Cert.Chain.link (W20_of m c r) (W19_untouched m c r) h
abbrev U21 : List (Ref sig .tc) := hostOps5_1_W ++ U20
theorem W21_untouched (c : Dev nD) (r : Ref sig .tc) (h : r ∉ U21) : W21 m c r = m ((c : Thread nD τ).loc r) :=
  Cert.Chain.link (W21_of m c r) (W20_untouched m c r) h
abbrev U22 : List (Ref sig .tc) := hostOps5_2_W ++ U21
theorem W22_untouched (c : Dev nD) (r : Ref sig .tc) (h : r ∉ U22) : W22 m c r = m ((c : Thread nD τ).loc r) :=
  Cert.Chain.link (W22_of m c r) (W21_untouched m c r) h

end Cert.KernelIdeal.Frm

end
-- ==== Proof.KI.Thread.lean ====
import proofs.«422477_j6347961663751_3_alg».proof.Proof.KI.Fold
import Idealize.ShloMosaic.Lib.Ring

noncomputable section

namespace Cert.KernelIdeal.Frm

open Cert.KernelIdeal.Gen Idealize.ShloMosaic Idealize.ShloMosaic.TcCoe Idealize.ShloMosaic.Rounds
open Idealize.SL Idealize.SL.BI Idealize.SL.BI.BIBase Idealize.SL.Sem
open scoped Idealize.SL.BI
open Idealize.ShloMosaic.Pipeline (Dat)

variable {F : FTy → Type} [FloatOps F]

local notation "𝕄" => MT nD τ sig Unit (Elt F) ℕ (UR sig nD τ) ℕ

variable (m : (ℓ : Loc nD τ sig) → Buf (Elt F) ℓ)

abbrev admF : (p : Fin 5) → (pcfgs (F := F) p).Adm := fun p => (cfgs p).toPCfg_adm

/-- Each region's proof data, at the valuation the region is entered from. -/
def pdats : (p : Fin 5) → (c : Dev nD) → Dat τ (Elt F) Unit ℕ (UR sig nD τ) ℕ (Pipeline.pin (pcfgs (F := F)) admF p) c
  | ⟨0, _⟩ => fun c => dat0 (atTc (W1 m)) c
  | ⟨1, _⟩ => fun c => dat1 (atTc (W8 m)) c
  | ⟨2, _⟩ => fun c => dat2 (atTc (W12 m)) c
  | ⟨3, _⟩ => fun c => dat3 (atTc (W14 m)) c
  | ⟨4, _⟩ => fun c => dat4 (atTc (W18 m)) c

abbrev Vr : Variants := Variants.none
abbrev Lz : GSem nD τ sig → Finset Unit := fun _ => ∅
abbrev lvz : GSem nD τ sig → Unit → ℕ := fun _ _ => 0

/-- What every segment carries beside the buffers: the generator register at some state, and nothing owed. -/
abbrev Rst (c : Dev nD) : sProp 𝕄 := iprop((∃ r, prngReg c r) ∗ ∃ W, owes (c : Thread nD τ) (0 : CellTallies nD τ sig Unit) W)

/-- The thread state at a boundary whose valuation is `W`: every unscoped buffer held at `W c`. -/
abbrev At (W : Dev nD → Valuation τ sig (Elt F)) (c : Dev nD) : sProp 𝕄 :=
  iprop(StableHlo.held (c : Thread nD τ) (Pipeline.ucRefs τ sig) (W c) ∗ Rst (F := F) c)

/-- A host stretch from the valuation `W` ends at `StableHlo.after ops (W c)`. -/
abbrev hostSeg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ Vr Lz lvz :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W (Rst (F := F))

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

end Cert.KernelIdeal.Frm

end
-- ==== Proof.KI.Seg.lean ====
import proofs.«422477_j6347961663751_3_alg».proof.Proof.KI.Thread

noncomputable section

namespace Cert.KernelIdeal.Frm

open Cert.KernelIdeal.Gen Idealize.ShloMosaic Idealize.ShloMosaic.TcCoe
open Idealize.SL Idealize.SL.RA Idealize.SL.BI Idealize.SL.ProofMode Idealize.SL.Sem
open scoped Idealize.SL.BI

variable {F : FTy → Type} [FloatOps F]

variable (m : (ℓ : Loc nD τ sig) → Buf (Elt F) ℓ)

/-- The thread state at `V` splits into region `p`'s arrays and the rest; they rejoin at `V'`, which agrees with `V` off the arrays. -/
def regSeg (p : Fin 5) (L : Pipeline.LaunchFacts (nD := nD) (τ := τ) cfgs p) (V V' : Dev nD → Valuation τ sig (Elt F))
    (hb : ∀ c, Pipeline.BodyObligationLoose (pdats m p c) defs₀ Vr () Set.univ)
    (hF : ∀ c w, (pdats m p c).arrAt w (cfgs p).N = atTc V' c (Pipeline.arrRef (cfgs p).spec w))
    (hrest : ∀ c b, b ∉ Finset.univ.image (Pipeline.arrRef (cfgs p).spec) → atTc V' c b = atTc V c b)
    (hA : ∀ c w, (pdats m p c).A w = atTc V c (Pipeline.arrRef (cfgs p).spec w) := by intros; rfl)
    (hΦ : ∀ c t, (pdats m p c).Φ t = Pipeline.ΦA (cfgs p).spec c := by intros; rfl)
    (hq : ∀ c w, (pdats m p c).q w = fullShare := by intros; rfl)
    (ho : ∀ c t, (pdats m p c).owed t = 0 := by intros; rfl)
    (hr : ∀ c, (pdats m p c).recorded 0 = Set.univ := by intros; rfl) :
    Pipeline.RegionSeg (pcfgs (F := F)) admF (pdats m) () defs₀ Vr Lz lvz p where
  win := L.win.to₀
  block_pos := L.block_pos
  stage_whole := L.stage_whole
  K := PEmpty
  osem k := k.elim
  ho := Pipeline.OwnSemFacts.none _
  hbody := hb
  hwaits := Pipeline.hwaits_of_owed_zero _ _ _ _ Lz lvz p ho
  pre := At V
  post := At V'
  X c := iprop(∃ r, prngReg c r)
  Y c := iprop(∃ r, prngReg c r)
  Z c := Pipeline.unscopedRest (cfgs p).spec c (atTc V c)
  hentry c := by
    have hsplit := Pipeline.arrays_of_unscopedBufs (p := p) (pcfgs (F := F)) admF (pdats m) L.win L.arr_whole c
      ((pdats m p c).share_full (hq c)) (atTc V c) (hA c)
    rw [Pipeline.unscopedBufs_held] at hsplit
    rw [Pipeline.ownSems0_none]; unfold Pipeline.Dat.owesAt Pipeline.owesWithin Pipeline.Dat.bound Pipeline.prefHeld
    rw [ho, hr, show (Finset.univ : Finset (Fin 0)) = ∅ from rfl, BI.bigSep_empty]
    iintro ⟨⟨Hub, Hp, %W, HO⟩, -, -⟩
    ihave H := hsplit $$ Hub
    icases H with ⟨Ha, Hrest⟩
    imodintro
    isplitl [Ha]; · iexact Ha
    isplitr; · iempintro
    isplitl [HO]
    · iexists W; isplitr; · ipureintro; exact fun _ _ => Or.inl trivial
      iexact HO
    isplitl [Hp]; · iexact Hp
    iexact Hrest
  hin c := by
    rw [hΦ]; unfold Pipeline.ΦA
    iintro ⟨Hp, -, Hr⟩
    isplitl [Hr]; · iexact Hr
    iexact Hp
  hout c := by
    rw [Pipeline.ownSems0_none, hΦ]; unfold Pipeline.ΦA
    iintro ⟨Hr, Hp⟩
    isplitl [Hp]; · iexact Hp
    isplitr; · iempintro
    iexact Hr
  hexit c := by
    have hjoin := Pipeline.unscopedBufs_of_arrays (p := p) (pcfgs (F := F)) admF
      L.win L.arr_whole c (pdats m) ((pdats m p c).share_full (hq c)) (atTc V c) (atTc V' c) ((pdats m p c).arrAt · (cfgs p).N) (hF c) (hrest c)
    rw [Pipeline.unscopedBufs_held] at hjoin
    unfold Pipeline.Dat.owesAt Pipeline.owesWithin; rw [ho]
    iintro ⟨Ha, ⟨%W, -, HO⟩, HY, Hrest⟩
    imodintro
    isplitl [Ha Hrest]
    · iapply hjoin; isplitl [Ha] <;> iassumption
    isplitl [HY]; · iexact HY
    iexists W; iexact HO

def regSeg0 : Pipeline.RegionSeg (pcfgs (F := F)) admF (pdats m) () defs₀ Vr Lz lvz 0 :=
  regSeg m 0 launch0 (W1 m) (W2 m) (fun c => (body_obligation0 _ c).loose) (hF0 m) (hrest0 m)
def regSeg1 : Pipeline.RegionSeg (pcfgs (F := F)) admF (pdats m) () defs₀ Vr Lz lvz 1 :=
  regSeg m 1 launch1 (W8 m) (W9 m) (fun c => (body_obligation1 _ c).loose) (hF1 m) (hrest1 m)
def regSeg2 : Pipeline.RegionSeg (pcfgs (F := F)) admF (pdats m) () defs₀ Vr Lz lvz 2 :=
  regSeg m 2 launch2 (W12 m) (W13 m) (fun c => (body_obligation2 _ c).loose) (hF2 m) (hrest2 m)
def regSeg3 : Pipeline.RegionSeg (pcfgs (F := F)) admF (pdats m) () defs₀ Vr Lz lvz 3 :=
  regSeg m 3 launch3 (W14 m) (W15 m) (fun c => (body_obligation3 _ c).loose) (hF3 m) (hrest3 m)
def regSeg4 : Pipeline.RegionSeg (pcfgs (F := F)) admF (pdats m) () defs₀ Vr Lz lvz 4 :=
  regSeg m 4 launch4 (W18 m) (W19 m) (fun c => (body_obligation4 _ c).loose) (hF4 m) (hrest4 m)

end Cert.KernelIdeal.Frm

end
-- ==== Proof.KI.Run.lean ====
import proofs.«422477_j6347961663751_3_alg».proof.Proof.KI.Seg

noncomputable section

namespace Cert.KernelIdeal.Frm

open Cert.KernelIdeal.Gen Idealize.ShloMosaic Idealize.ShloMosaic.TcCoe Idealize.ShloMosaic.Tactic Idealize.ShloMosaic.Rounds
open Idealize.SL Idealize.SL.BI Idealize.SL.BI.BIBase Idealize.SL.ProofMode Idealize.SL.Sem
open scoped Idealize.SL.BI

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- @main's twenty-two items in order: a host stretch from its boundary's valuation, or a region. -/
abbrev mainSegs : List (Pipeline.Seg (pcfgs (F := F)) admF (pdats m) () defs₀ Vr Lz lvz) :=
  [
    .host (hostSeg hostOps0 hostOps0_sub hostOps0_fresh (W0 m)),
    .region (regSeg0 m),
    .host (hostSeg hostOps1 hostOps1_sub hostOps1_fresh (W2 m)),
    .host (hostSeg hostOps1_1 hostOps1_1_sub hostOps1_1_fresh (W3 m)),
    .host (hostSeg hostOps1_2 hostOps1_2_sub hostOps1_2_fresh (W4 m)),
    .host (hostSeg hostOps1_3 hostOps1_3_sub hostOps1_3_fresh (W5 m)),
    .host (hostSeg hostOps1_4 hostOps1_4_sub hostOps1_4_fresh (W6 m)),
    .host (hostSeg hostOps1_5 hostOps1_5_sub hostOps1_5_fresh (W7 m)),
    .region (regSeg1 m),
    .host (hostSeg hostOps2 hostOps2_sub hostOps2_fresh (W9 m)),
    .host (hostSeg hostOps2_1 hostOps2_1_sub hostOps2_1_fresh (W10 m)),
    .host (hostSeg hostOps2_2 hostOps2_2_sub hostOps2_2_fresh (W11 m)),
    .region (regSeg2 m),
    .host (hostSeg hostOps3 hostOps3_sub hostOps3_fresh (W13 m)),
    .region (regSeg3 m),
    .host (hostSeg hostOps4 hostOps4_sub hostOps4_fresh (W15 m)),
    .host (hostSeg hostOps4_1 hostOps4_1_sub hostOps4_1_fresh (W16 m)),
    .host (hostSeg hostOps4_2 hostOps4_2_sub hostOps4_2_fresh (W17 m)),
    .region (regSeg4 m),
    .host (hostSeg hostOps5 hostOps5_sub hostOps5_fresh (W19 m)),
    .host (hostSeg hostOps5_1 hostOps5_1_sub hostOps5_1_fresh (W20 m)),
    .host (hostSeg hostOps5_2 hostOps5_2_sub hostOps5_2_fresh (W21 m)) ]

theorem main_run (c : Dev nD) : main (F := F) c = Pipeline.Seg.run (mainSegs m) := (main_chain c).trans (by chain_rfl)

abbrev Tend (c : Dev nD) : sProp 𝕄 := iprop(StableHlo.held (c : Thread nD τ) (Pipeline.ucRefs τ sig) (W22 m c) ∗ ∃ r, prngReg c r)

/-- Every weakly fair execution of @main terminates without a fault, and core `c` ends holding every unscoped buffer `b` at `W22 m c b`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W22 m c b) :=
  Pipeline.θ_run_regions_kit (pcfgs (F := F)) admF (pdats m) () cellOf_inj emb₁ defs₀ Vr Lz lvz m ρ main (mainSegs m)
    (fun c Q => by rw [main_run m c])
    (by simp only [mainSegs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU _ : sProp 𝕄) ⊢ BI.own (emb₁ _) from .rfl)
        iexact Hu
      iapply (show (BI.emp : sProp 𝕄) ⊢ bigSep Finset.univ (fun _ : Dev nD => (BI.emp : sProp 𝕄)) from by rw [BI.bigSep_emp_const])
      iempintro)
    (T₀ := fun c => At (W0 m) c) (Tₙ := Tend m)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => sep_assoc'⟩)
    (hinit := by
      refine Pipeline.initEach Lz lvz fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W22 m c b)
    (hfin := fun c s' => by
      iintro ⟨⟨Hh, -⟩, HSI⟩
      unfold StableHlo.held
      imodintro
      iapply (pointsTo_read_all (Pipeline.ucRefs τ sig) (fun b => (((c : Thread nD τ)).1, b)) (W22 m c) s')
      isplitl [Hh] <;> iassumption)
    (hQ := fun s h c => h c)

/-- Buffer `r` holds in `s` what it held at launch. -/
abbrev Kept (s : MemSt nD τ sig (Elt F)) (c : Dev nD) (r : Ref sig .tc) : Prop :=
  s.mem ((c.tc : Thread nD τ).loc r) = m ((c.tc : Thread nD τ).loc r)

abbrev ArgsKept (s : MemSt nD τ sig (Elt F)) (c : Dev nD) : Prop :=
  Kept m s c main_arg0 ∧ Kept m s c main_arg1 ∧ Kept m s c main_arg2 ∧ Kept m s c main_arg3 ∧ Kept m s c main_arg4
  ∧ Kept m s c main_arg5 ∧ Kept m s c main_arg6 ∧ Kept m s c main_arg7 ∧ Kept m s c main_arg8 ∧ Kept m s c main_arg9
  ∧ Kept m s c main_arg10 ∧ Kept m s c main_arg11 ∧ Kept m s c main_arg12 ∧ Kept m s c main_arg13 ∧ Kept m s c main_arg14
  ∧ Kept m s c main_arg15 ∧ Kept m s c main_arg16 ∧ Kept m s c main_arg17 ∧ Kept m s c main_arg18 ∧ Kept m s c main_arg19
  ∧ Kept m s c main_arg20 ∧ Kept m s c main_arg21 ∧ Kept m s c main_arg22 ∧ Kept m s c main_arg23 ∧ Kept m s c main_arg24

/-- The two result arrays end at the last valuation; an argument array, which no item writes, ends as launched. -/
theorem run_results : θ_run defs (onTc (τ := τ) (main (F := F))) ⟨m, fun _ => 0, ρ⟩ (fun r => ∀ c : Dev nD,
      r.2.mem ((c.tc : Thread nD τ).loc main_v72) = W22 m c main_v72
      ∧ r.2.mem ((c.tc : Thread nD τ).loc main_v44) = W22 m c main_v44 ∧ ArgsKept m r.2 c) :=
  (θ_run defs _ _).mono (fun _ h c => ⟨h c _ (mem_uc main_v72 (by decide)), h c _ (mem_uc main_v44 (by decide)), by
    repeat' apply And.intro
    all_goals exact (h c _ (mem_uc _ (by decide))).trans (W22_untouched m c _ (by decide))⟩) (run_all m ρ)

theorem frame : θ_run defs (onTc (τ := τ) (main (F := F))) ⟨m, fun _ => 0, ρ⟩ (fun r => ∀ c : Dev nD, ArgsKept m r.2 c) :=
  (θ_run defs _ _).mono (fun _ h c => (h c).2.2) (run_results m ρ)

end Cert.KernelIdeal.Frm

end
-- ==== Proof.Ref.Ops.lean ====
import proofs.«422477_j6347961663751_3_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

abbrev rops0 : List (HloOp τ sig (Elt F)) :=
  [ unary main_arg1 main_v0 ((extractStridedSlice S1x800000 ![0, 0] · slices_S2x800000_S1x800000_0_0) : (⟨S2x800000, .i32⟩ : BufTy).Contents (Elt F) → (⟨S1x800000, .i32⟩ : BufTy).Contents (Elt F)),
    reshape main_v0 main_v1 rfl shapeCasts_S1x800000_S800000,
    unary main_arg1 main_v2 ((extractStridedSlice S1x800000 ![1, 0] · slices_S2x800000_S1x800000_1_0) : (⟨S2x800000, .i32⟩ : BufTy).Contents (Elt F) → (⟨S1x800000, .i32⟩ : BufTy).Contents (Elt F)),
    reshape main_v2 main_v3 rfl shapeCasts_S1x800000_S800000,
    binary main_arg0 main_arg3 main_v4 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    unary main_arg4 main_v5 (broadcastInDim S1x128 ![1] bcast_S128_S1x128_1),
    unary main_v5 main_v6 (broadcastInDim S50000x128 ![0, 1] bcast_S1x128_S50000x128_0_1),
    binary main_v4 main_v6 main_v7 addf,
    binary main_arg0 main_arg5 main_v8 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    unary main_arg6 main_v9 (broadcastInDim S1x128 ![1] bcast_S128_S1x128_1),
    unary main_v9 main_v10 (broadcastInDim S50000x128 ![0, 1] bcast_S1x128_S50000x128_0_1),
    binary main_v8 main_v10 main_v11 addf,
    binary main_arg2 main_arg7 main_v12 ((fun l r => Host.dotGeneral dot_S800000x128_S128x128_S800000x128_1_0_0_1_n_n none l r) : (⟨S800000x128, .f32⟩ : BufTy).Contents (Elt F) → (⟨S128x128, .f32⟩ : BufTy).Contents (Elt F) → (⟨S800000x128, .f32⟩ : BufTy).Contents (Elt F)),
    unary main_arg8 main_v13 (broadcastInDim S1x128 ![1] bcast_S128_S1x128_1),
    unary main_v13 main_v14 (broadcastInDim S800000x128 ![0, 1] bcast_S1x128_S800000x128_0_1),
    binary main_v12 main_v14 main_v15 addf,
    binary main_arg0 main_arg9 main_v16 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    unary main_arg10 main_v17 (broadcastInDim S1x128 ![1] bcast_S128_S1x128_1),
    unary main_v17 main_v18 (broadcastInDim S50000x128 ![0, 1] bcast_S1x128_S50000x128_0_1),
    binary main_v16 main_v18 main_v19 addf,
    binary main_arg0 main_arg11 main_v20 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    unary main_arg12 main_v21 (broadcastInDim S1x128 ![1] bcast_S128_S1x128_1),
    unary main_v21 main_v22 (broadcastInDim S50000x128 ![0, 1] bcast_S1x128_S50000x128_0_1),
    binary main_v20 main_v22 main_v23 addf ]
abbrev rops0_W : List (Ref sig .tc) :=
  [ main_v0, main_v1, main_v2, main_v3, main_v4, main_v5, main_v6, main_v7,
    main_v8, main_v9, main_v10, main_v11, main_v12, main_v13, main_v14, main_v15,
    main_v16, main_v17, main_v18, main_v19, main_v20, main_v21, main_v22, main_v23 ]

abbrev rops1 : List (HloOp τ sig (Elt F)) :=
  [ nullary main_c (constantI S_ 32 0#32),
    unary main_c main_v24 (broadcastInDim S800000 ![] bcast_S_S800000),
    binary main_v1 main_v24 main_v25 (cmpi .slt),
    nullary main_c_0 (constantI S_ 32 50000#32),
    unary main_c_0 main_v26 (broadcastInDim S800000 ![] bcast_S_S800000),
    binary main_v1 main_v26 main_v27 addi,
    ternary main_v25 main_v27 main_v1 main_v28 select,
    unary main_v28 main_v29 (broadcastInDim S800000x1 ![0] bcast_S800000_S800000x1_0),
    binary main_v19 main_v29 main_v30 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)),
    nullary main_c_1 (constantI S_ 32 0#32),
    unary main_c_1 main_v31 (broadcastInDim S800000 ![] bcast_S_S800000),
    binary main_v3 main_v31 main_v32 (cmpi .slt),
    nullary main_c_2 (constantI S_ 32 50000#32),
    unary main_c_2 main_v33 (broadcastInDim S800000 ![] bcast_S_S800000),
    binary main_v3 main_v33 main_v34 addi,
    ternary main_v32 main_v34 main_v3 main_v35 select,
    unary main_v35 main_v36 (broadcastInDim S800000x1 ![0] bcast_S800000_S800000x1_0),
    binary main_v23 main_v36 main_v37 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)) ]
abbrev rops1_W : List (Ref sig .tc) :=
  [ main_c, main_v24, main_v25, main_c_0, main_v26, main_v27, main_v28, main_v29,
    main_v30, main_c_1, main_v31, main_v32, main_c_2, main_v33, main_v34, main_v35,
    main_v36, main_v37 ]

abbrev rops2 : List (HloOp τ sig (Elt F)) :=
  [ binary main_v30 main_v37 main_v38 (addf : (⟨S800000x128, .f32⟩ : BufTy).Contents (Elt F) → (⟨S800000x128, .f32⟩ : BufTy).Contents (Elt F) → (⟨S800000x128, .f32⟩ : BufTy).Contents (Elt F)),
    binary main_v38 main_v15 main_v39 addf,
    unary main_v39 main_v40 Host.negf,
    unary main_v40 main_v41 Host.exp,
    nullary main_cst (constant S_ .f32 0x3F800000#32),
    unary main_cst main_v42 (broadcastInDim S800000x128 ![] bcast_S_S800000x128),
    binary main_v42 main_v41 main_v43 addf,
    nullary main_cst_3 (constant S_ .f32 0x3F800000#32),
    unary main_cst_3 main_v44 (broadcastInDim S800000x128 ![] bcast_S_S800000x128),
    binary main_v44 main_v43 main_v45 Host.divf,
    nullary main_c_4 (constantI S_ 32 0#32),
    unary main_c_4 main_v46 (broadcastInDim S800000 ![] bcast_S_S800000),
    binary main_v3 main_v46 main_v47 (cmpi .slt),
    nullary main_c_5 (constantI S_ 32 50000#32),
    unary main_c_5 main_v48 (broadcastInDim S800000 ![] bcast_S_S800000),
    binary main_v3 main_v48 main_v49 addi,
    ternary main_v47 main_v49 main_v3 main_v50 select,
    unary main_v50 main_v51 (broadcastInDim S800000x1 ![0] bcast_S800000_S800000x1_0),
    binary main_v11 main_v51 main_v52 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)),
    binary main_v45 main_v52 main_v53 mulf ]
abbrev rops2_W : List (Ref sig .tc) :=
  [ main_v38, main_v39, main_v40, main_v41, main_cst, main_v42, main_v43, main_cst_3,
    main_v44, main_v45, main_c_4, main_v46, main_v47, main_c_5, main_v48, main_v49,
    main_v50, main_v51, main_v52, main_v53 ]

abbrev rops3 : List (HloOp τ sig (Elt F)) :=
  [ nullary main_cst_6 (constant S_ .f32 0x00000000#32),
    unary main_cst_6 main_v54 (broadcastInDim S50000x128 ![] bcast_S_S50000x128),
    unary main_v1 main_v55 (broadcastInDim S800000x1 ![0] bcast_S800000_S800000x1_0),
    ternary main_v54 main_v55 main_v53 main_v56 ((fun x i u => Host.scatterAdd scatter_S50000x128_S800000x1_S800000x128_1_0_0_1 x i u) : (⟨S50000x128, .f32⟩ : BufTy).Contents (Elt F) → (⟨S800000x1, .i32⟩ : BufTy).Contents (Elt F) → (⟨S800000x128, .f32⟩ : BufTy).Contents (Elt F) → (⟨S50000x128, .f32⟩ : BufTy).Contents (Elt F)),
    binary main_v7 main_v56 main_v57 addf,
    nullary main_cst_7 (constant S_ .f32 0x00000000#32),
    binary main_v57 main_cst_7 main_v58 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),
    nullary main_cst_8 (constant S_ .f32 0x47435000#32),
    unary main_cst_8 main_v59 (broadcastInDim S128 ![] bcast_S_S128),
    binary main_v58 main_v59 main_v60 Host.divf,
    nullary main_c_9 (constantI S_ 32 0#32) ]
abbrev rops3_W : List (Ref sig .tc) :=
  [ main_cst_6, main_v54, main_v55, main_v56, main_v57, main_cst_7, main_v58, main_cst_8,
    main_v59, main_v60, main_c_9 ]

abbrev rops4 : List (HloOp τ sig (Elt F)) :=
  [ TRef.nullary main_call0.cst (constant S_ .f32 0x00000000#32),
    TRef.binary (.of main_v57) main_call0.cst main_call0.v0 (fun x v => Host.reduceAdd x v reducesTo_S50000x128_S128_d0 h_S_),
    TRef.unary main_call0.v0 main_call0.v1 (broadcastInDim S1x128 ![1] bcast_S128_S1x128_1),
    TRef.nullary main_call0.cst_0 (constant S_ .f32 0x47435000#32),
    TRef.unary main_call0.cst_0 main_call0.v2 (broadcastInDim S1x128 ![] bcast_S_S1x128),
    TRef.binary main_call0.v1 main_call0.v2 main_call0.v3 Host.divf,
    TRef.unary main_call0.v3 main_call0.v4 (broadcastInDim S50000x128 ![0, 1] bcast_S1x128_S50000x128_0_1),
    TRef.binary (.of main_v57) main_call0.v4 main_call0.v5 subf,
    TRef.binary main_call0.v5 main_call0.v5 main_call0.v6 mulf,
    TRef.unary (.of main_c_9) main_call0.v7 (sitofp .f32),
    TRef.nullary main_call0.cst_1 (constant S_ .f32 0x47435000#32),
    TRef.binary main_call0.cst_1 main_call0.v7 main_call0.v8 subf,
    TRef.nullary main_call0.cst_2 (constant S_ .f32 0x00000000#32),
    TRef.binary main_call0.v6 main_call0.cst_2 main_call0.v9 (fun x v => Host.reduceAdd x v reducesTo_S50000x128_S128_d0 h_S_),
    TRef.unary main_call0.v8 main_call0.v10 (broadcastInDim S128 ![] bcast_S_S128),
    TRef.binary main_call0.v9 main_call0.v10 main_call0.v11 Host.divf,
    TRef.nullary main_call0.cst_3 (constant S_ .f32 0x00000000#32),
    TRef.binary main_call0.v8 main_call0.cst_3 main_call0.v12 (cmpf .ogt),
    TRef.nullary main_call0.cst_4 (constant S_ .f32 0x7FC00000#32),
    TRef.unary main_call0.cst_4 main_call0.call0.v0 id,
    TRef.unary main_call0.call0.v0 main_call0.call0.v1 (broadcastInDim S128 ![] bcast_S_S128),
    TRef.ternary main_call0.v12 main_call0.v11 main_call0.call0.v1 main_call0.call0.v2 (fun p a b => select (broadcastInDim S128 ![] bcast_S_S128 p) a b) ]
abbrev rops4_W : List (Ref sig .tc) :=
  [ main_call0_cst, main_call0_v0, main_call0_v1, main_call0_cst_0, main_call0_v2, main_call0_v3, main_call0_v4, main_call0_v5,
    main_call0_v6, main_call0_v7, main_call0_cst_1, main_call0_v8, main_call0_cst_2, main_call0_v9, main_call0_v10, main_call0_v11,
    main_call0_cst_3, main_call0_v12, main_call0_cst_4, main_call0_call0_v0, main_call0_call0_v1, main_v61 ]

abbrev rops5 : List (HloOp τ sig (Elt F)) :=
  [ unary main_v60 main_v62 (broadcastInDim S1x128 ![1] bcast_S128_S1x128_1 : (⟨S128, .f32⟩ : BufTy).Contents (Elt F) → (⟨S1x128, .f32⟩ : BufTy).Contents (Elt F)),
    unary main_v62 main_v63 (broadcastInDim S50000x128 ![0, 1] bcast_S1x128_S50000x128_0_1),
    binary main_v57 main_v63 main_v64 subf,
    nullary main_cst_10 (constant S_ .f32 0x3727C5AC#32),
    unary main_cst_10 main_v65 (broadcastInDim S128 ![] bcast_S_S128),
    binary main_v61 main_v65 main_v66 addf,
    unary main_v66 main_v67 Host.rsqrt,
    unary main_v67 main_v68 (broadcastInDim S1x128 ![1] bcast_S128_S1x128_1),
    unary main_v68 main_v69 (broadcastInDim S50000x128 ![0, 1] bcast_S1x128_S50000x128_0_1),
    binary main_v64 main_v69 main_v70 mulf,
    unary main_arg13 main_v71 (broadcastInDim S1x128 ![1] bcast_S128_S1x128_1),
    unary main_v71 main_v72 (broadcastInDim S50000x128 ![0, 1] bcast_S1x128_S50000x128_0_1),
    binary main_v70 main_v72 main_v73 mulf,
    unary main_arg14 main_v74 (broadcastInDim S1x128 ![1] bcast_S128_S1x128_1),
    unary main_v74 main_v75 (broadcastInDim S50000x128 ![0, 1] bcast_S1x128_S50000x128_0_1),
    binary main_v73 main_v75 main_v76 addf,
    TRef.nullary main_call1.cst (constant S_ .f32 0x00000000#32),
    TRef.unary main_call1.cst main_call1.v0 (broadcastInDim S50000x128 ![] bcast_S_S50000x128),
    TRef.binary (.of main_v76) main_call1.v0 main_call1.v1 maximumf ]
abbrev rops5_W : List (Ref sig .tc) :=
  [ main_v62, main_v63, main_v64, main_cst_10, main_v65, main_v66, main_v67, main_v68,
    main_v69, main_v70, main_v71, main_v72, main_v73, main_v74, main_v75, main_v76,
    main_call1_cst, main_call1_v0, main_v77 ]

abbrev rops6 : List (HloOp τ sig (Elt F)) :=
  [ nullary main_cst_11 (constant S_ .f32 0x00000000#32),
    binary main_v39 main_cst_11 main_v78 ((fun x v => Host.reduceAdd x v reducesTo_S800000x128_S128_d0 h_S_) : (⟨S800000x128, .f32⟩ : BufTy).Contents (Elt F) → (⟨S_, .f32⟩ : BufTy).Contents (Elt F) → (⟨S128, .f32⟩ : BufTy).Contents (Elt F)),
    nullary main_cst_12 (constant S_ .f32 0x49435000#32),
    unary main_cst_12 main_v79 (broadcastInDim S128 ![] bcast_S_S128),
    binary main_v78 main_v79 main_v80 Host.divf,
    nullary main_c_13 (constantI S_ 32 0#32) ]
abbrev rops6_W : List (Ref sig .tc) :=
  [ main_cst_11, main_v78, main_cst_12, main_v79, main_v80, main_c_13 ]

abbrev rops7 : List (HloOp τ sig (Elt F)) :=
  [ TRef.nullary main_call2.cst (constant S_ .f32 0x00000000#32),
    TRef.binary (.of main_v39) main_call2.cst main_call2.v0 (fun x v => Host.reduceAdd x v reducesTo_S800000x128_S128_d0 h_S_),
    TRef.unary main_call2.v0 main_call2.v1 (broadcastInDim S1x128 ![1] bcast_S128_S1x128_1),
    TRef.nullary main_call2.cst_0 (constant S_ .f32 0x49435000#32),
    TRef.unary main_call2.cst_0 main_call2.v2 (broadcastInDim S1x128 ![] bcast_S_S1x128),
    TRef.binary main_call2.v1 main_call2.v2 main_call2.v3 Host.divf,
    TRef.unary main_call2.v3 main_call2.v4 (broadcastInDim S800000x128 ![0, 1] bcast_S1x128_S800000x128_0_1),
    TRef.binary (.of main_v39) main_call2.v4 main_call2.v5 subf,
    TRef.binary main_call2.v5 main_call2.v5 main_call2.v6 mulf,
    TRef.unary (.of main_c_13) main_call2.v7 (sitofp .f32),
    TRef.nullary main_call2.cst_1 (constant S_ .f32 0x49435000#32),
    TRef.binary main_call2.cst_1 main_call2.v7 main_call2.v8 subf,
    TRef.nullary main_call2.cst_2 (constant S_ .f32 0x00000000#32),
    TRef.binary main_call2.v6 main_call2.cst_2 main_call2.v9 (fun x v => Host.reduceAdd x v reducesTo_S800000x128_S128_d0 h_S_),
    TRef.unary main_call2.v8 main_call2.v10 (broadcastInDim S128 ![] bcast_S_S128),
    TRef.binary main_call2.v9 main_call2.v10 main_call2.v11 Host.divf,
    TRef.nullary main_call2.cst_3 (constant S_ .f32 0x00000000#32),
    TRef.binary main_call2.v8 main_call2.cst_3 main_call2.v12 (cmpf .ogt),
    TRef.nullary main_call2.cst_4 (constant S_ .f32 0x7FC00000#32),
    TRef.unary main_call2.cst_4 main_call2.call0.v0 id,
    TRef.unary main_call2.call0.v0 main_call2.call0.v1 (broadcastInDim S128 ![] bcast_S_S128),
    TRef.ternary main_call2.v12 main_call2.v11 main_call2.call0.v1 main_call2.call0.v2 (fun p a b => select (broadcastInDim S128 ![] bcast_S_S128 p) a b) ]
abbrev rops7_W : List (Ref sig .tc) :=
  [ main_call2_cst, main_call2_v0, main_call2_v1, main_call2_cst_0, main_call2_v2, main_call2_v3, main_call2_v4, main_call2_v5,
    main_call2_v6, main_call2_v7, main_call2_cst_1, main_call2_v8, main_call2_cst_2, main_call2_v9, main_call2_v10, main_call2_v11,
    main_call2_cst_3, main_call2_v12, main_call2_cst_4, main_call2_call0_v0, main_call2_call0_v1, main_v81 ]

abbrev rops8 : List (HloOp τ sig (Elt F)) :=
  [ unary main_v80 main_v82 (broadcastInDim S1x128 ![1] bcast_S128_S1x128_1 : (⟨S128, .f32⟩ : BufTy).Contents (Elt F) → (⟨S1x128, .f32⟩ : BufTy).Contents (Elt F)),
    unary main_v82 main_v83 (broadcastInDim S800000x128 ![0, 1] bcast_S1x128_S800000x128_0_1),
    binary main_v39 main_v83 main_v84 subf,
    nullary main_cst_14 (constant S_ .f32 0x3727C5AC#32),
    unary main_cst_14 main_v85 (broadcastInDim S128 ![] bcast_S_S128),
    binary main_v81 main_v85 main_v86 addf,
    unary main_v86 main_v87 Host.rsqrt,
    unary main_v87 main_v88 (broadcastInDim S1x128 ![1] bcast_S128_S1x128_1),
    unary main_v88 main_v89 (broadcastInDim S800000x128 ![0, 1] bcast_S1x128_S800000x128_0_1),
    binary main_v84 main_v89 main_v90 mulf,
    unary main_arg15 main_v91 (broadcastInDim S1x128 ![1] bcast_S128_S1x128_1),
    unary main_v91 main_v92 (broadcastInDim S800000x128 ![0, 1] bcast_S1x128_S800000x128_0_1),
    binary main_v90 main_v92 main_v93 mulf,
    unary main_arg16 main_v94 (broadcastInDim S1x128 ![1] bcast_S128_S1x128_1),
    unary main_v94 main_v95 (broadcastInDim S800000x128 ![0, 1] bcast_S1x128_S800000x128_0_1),
    binary main_v93 main_v95 main_v96 addf,
    TRef.nullary main_call3.cst (constant S_ .f32 0x00000000#32),
    TRef.unary main_call3.cst main_call3.v0 (broadcastInDim S800000x128 ![] bcast_S_S800000x128),
    TRef.binary (.of main_v96) main_call3.v0 main_call3.v1 maximumf ]
abbrev rops8_W : List (Ref sig .tc) :=
  [ main_v82, main_v83, main_v84, main_cst_14, main_v85, main_v86, main_v87, main_v88,
    main_v89, main_v90, main_v91, main_v92, main_v93, main_v94, main_v95, main_v96,
    main_call3_cst, main_call3_v0, main_v97 ]

abbrev rops9 : List (HloOp τ sig (Elt F)) :=
  [ binary main_arg0 main_v77 main_v98 (addf : (⟨S50000x128, .f32⟩ : BufTy).Contents (Elt F) → (⟨S50000x128, .f32⟩ : BufTy).Contents (Elt F) → (⟨S50000x128, .f32⟩ : BufTy).Contents (Elt F)),
    binary main_arg2 main_v97 main_v99 addf,
    nullary main_cst_15 (constant S_ .f32 0x00000000#32),
    binary main_v98 main_cst_15 main_v100 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),
    nullary main_cst_16 (constant S_ .f32 0x47435000#32),
    unary main_cst_16 main_v101 (broadcastInDim S128 ![] bcast_S_S128),
    binary main_v100 main_v101 main_v102 Host.divf,
    nullary main_c_17 (constantI S_ 32 0#32) ]
abbrev rops9_W : List (Ref sig .tc) :=
  [ main_v98, main_v99, main_cst_15, main_v100, main_cst_16, main_v101, main_v102, main_c_17 ]

abbrev rops10 : List (HloOp τ sig (Elt F)) :=
  [ TRef.nullary main_call4.cst (constant S_ .f32 0x00000000#32),
    TRef.binary (.of main_v98) main_call4.cst main_call4.v0 (fun x v => Host.reduceAdd x v reducesTo_S50000x128_S128_d0 h_S_),
    TRef.unary main_call4.v0 main_call4.v1 (broadcastInDim S1x128 ![1] bcast_S128_S1x128_1),
    TRef.nullary main_call4.cst_0 (constant S_ .f32 0x47435000#32),
    TRef.unary main_call4.cst_0 main_call4.v2 (broadcastInDim S1x128 ![] bcast_S_S1x128),
    TRef.binary main_call4.v1 main_call4.v2 main_call4.v3 Host.divf,
    TRef.unary main_call4.v3 main_call4.v4 (broadcastInDim S50000x128 ![0, 1] bcast_S1x128_S50000x128_0_1),
    TRef.binary (.of main_v98) main_call4.v4 main_call4.v5 subf,
    TRef.binary main_call4.v5 main_call4.v5 main_call4.v6 mulf,
    TRef.unary (.of main_c_17) main_call4.v7 (sitofp .f32),
    TRef.nullary main_call4.cst_1 (constant S_ .f32 0x47435000#32),
    TRef.binary main_call4.cst_1 main_call4.v7 main_call4.v8 subf,
    TRef.nullary main_call4.cst_2 (constant S_ .f32 0x00000000#32),
    TRef.binary main_call4.v6 main_call4.cst_2 main_call4.v9 (fun x v => Host.reduceAdd x v reducesTo_S50000x128_S128_d0 h_S_),
    TRef.unary main_call4.v8 main_call4.v10 (broadcastInDim S128 ![] bcast_S_S128),
    TRef.binary main_call4.v9 main_call4.v10 main_call4.v11 Host.divf,
    TRef.nullary main_call4.cst_3 (constant S_ .f32 0x00000000#32),
    TRef.binary main_call4.v8 main_call4.cst_3 main_call4.v12 (cmpf .ogt),
    TRef.nullary main_call4.cst_4 (constant S_ .f32 0x7FC00000#32),
    TRef.unary main_call4.cst_4 main_call4.call0.v0 id,
    TRef.unary main_call4.call0.v0 main_call4.call0.v1 (broadcastInDim S128 ![] bcast_S_S128),
    TRef.ternary main_call4.v12 main_call4.v11 main_call4.call0.v1 main_call4.call0.v2 (fun p a b => select (broadcastInDim S128 ![] bcast_S_S128 p) a b) ]
abbrev rops10_W : List (Ref sig .tc) :=
  [ main_call4_cst, main_call4_v0, main_call4_v1, main_call4_cst_0, main_call4_v2, main_call4_v3, main_call4_v4, main_call4_v5,
    main_call4_v6, main_call4_v7, main_call4_cst_1, main_call4_v8, main_call4_cst_2, main_call4_v9, main_call4_v10, main_call4_v11,
    main_call4_cst_3, main_call4_v12, main_call4_cst_4, main_call4_call0_v0, main_call4_call0_v1, main_v103 ]

abbrev rops11 : List (HloOp τ sig (Elt F)) :=
  [ unary main_v102 main_v104 (broadcastInDim S1x128 ![1] bcast_S128_S1x128_1 : (⟨S128, .f32⟩ : BufTy).Contents (Elt F) → (⟨S1x128, .f32⟩ : BufTy).Contents (Elt F)),
    unary main_v104 main_v105 (broadcastInDim S50000x128 ![0, 1] bcast_S1x128_S50000x128_0_1),
    binary main_v98 main_v105 main_v106 subf,
    nullary main_cst_18 (constant S_ .f32 0x3727C5AC#32),
    unary main_cst_18 main_v107 (broadcastInDim S128 ![] bcast_S_S128),
    binary main_v103 main_v107 main_v108 addf,
    unary main_v108 main_v109 Host.rsqrt,
    unary main_v109 main_v110 (broadcastInDim S1x128 ![1] bcast_S128_S1x128_1),
    unary main_v110 main_v111 (broadcastInDim S50000x128 ![0, 1] bcast_S1x128_S50000x128_0_1),
    binary main_v106 main_v111 main_v112 mulf,
    unary main_arg17 main_v113 (broadcastInDim S1x128 ![1] bcast_S128_S1x128_1),
    unary main_v113 main_v114 (broadcastInDim S50000x128 ![0, 1] bcast_S1x128_S50000x128_0_1),
    binary main_v112 main_v114 main_v115 mulf,
    unary main_arg18 main_v116 (broadcastInDim S1x128 ![1] bcast_S128_S1x128_1),
    unary main_v116 main_v117 (broadcastInDim S50000x128 ![0, 1] bcast_S1x128_S50000x128_0_1),
    binary main_v115 main_v117 main_v118 addf,
    binary main_v118 main_arg21 main_v119 ((fun l r => Host.dotGeneral dot_S50000x128_S128x256_S50000x256_1_0_0_1_n_n none l r) : (⟨S50000x128, .f32⟩ : BufTy).Contents (Elt F) → (⟨S128x256, .f32⟩ : BufTy).Contents (Elt F) → (⟨S50000x256, .f32⟩ : BufTy).Contents (Elt F)),
    unary main_arg22 main_v120 (broadcastInDim S1x256 ![1] bcast_S256_S1x256_1),
    unary main_v120 main_v121 (broadcastInDim S50000x256 ![0, 1] bcast_S1x256_S50000x256_0_1),
    binary main_v119 main_v121 main_v122 addf,
    TRef.nullary main_call5.cst (constant S_ .f32 0x00000000#32),
    TRef.unary main_call5.cst main_call5.v0 (broadcastInDim S50000x256 ![] bcast_S_S50000x256),
    TRef.binary (.of main_v122) main_call5.v0 main_call5.v1 maximumf ]
abbrev rops11_W : List (Ref sig .tc) :=
  [ main_v104, main_v105, main_v106, main_cst_18, main_v107, main_v108, main_v109, main_v110,
    main_v111, main_v112, main_v113, main_v114, main_v115, main_v116, main_v117, main_v118,
    main_v119, main_v120, main_v121, main_v122, main_call5_cst, main_call5_v0, main_v123 ]

abbrev rops12 : List (HloOp τ sig (Elt F)) :=
  [ binary main_v123 main_arg23 main_v124 ((fun l r => Host.dotGeneral dot_S50000x256_S256x128_S50000x128_1_0_0_1_n_n none l r) : (⟨S50000x256, .f32⟩ : BufTy).Contents (Elt F) → (⟨S256x128, .f32⟩ : BufTy).Contents (Elt F) → (⟨S50000x128, .f32⟩ : BufTy).Contents (Elt F)),
    unary main_arg24 main_v125 (broadcastInDim S1x128 ![1] bcast_S128_S1x128_1),
    unary main_v125 main_v126 (broadcastInDim S50000x128 ![0, 1] bcast_S1x128_S50000x128_0_1),
    binary main_v124 main_v126 main_v127 addf,
    binary main_v98 main_v127 main_v128 addf,
    nullary main_cst_19 (constant S_ .f32 0x00000000#32),
    binary main_v128 main_cst_19 main_v129 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),
    nullary main_cst_20 (constant S_ .f32 0x47435000#32),
    unary main_cst_20 main_v130 (broadcastInDim S128 ![] bcast_S_S128),
    binary main_v129 main_v130 main_v131 Host.divf,
    nullary main_c_21 (constantI S_ 32 0#32) ]
abbrev rops12_W : List (Ref sig .tc) :=
  [ main_v124, main_v125, main_v126, main_v127, main_v128, main_cst_19, main_v129, main_cst_20,
    main_v130, main_v131, main_c_21 ]

abbrev rops13 : List (HloOp τ sig (Elt F)) :=
  [ TRef.nullary main_call6.cst (constant S_ .f32 0x00000000#32),
    TRef.binary (.of main_v128) main_call6.cst main_call6.v0 (fun x v => Host.reduceAdd x v reducesTo_S50000x128_S128_d0 h_S_),
    TRef.unary main_call6.v0 main_call6.v1 (broadcastInDim S1x128 ![1] bcast_S128_S1x128_1),
    TRef.nullary main_call6.cst_0 (constant S_ .f32 0x47435000#32),
    TRef.unary main_call6.cst_0 main_call6.v2 (broadcastInDim S1x128 ![] bcast_S_S1x128),
    TRef.binary main_call6.v1 main_call6.v2 main_call6.v3 Host.divf,
    TRef.unary main_call6.v3 main_call6.v4 (broadcastInDim S50000x128 ![0, 1] bcast_S1x128_S50000x128_0_1),
    TRef.binary (.of main_v128) main_call6.v4 main_call6.v5 subf,
    TRef.binary main_call6.v5 main_call6.v5 main_call6.v6 mulf,
    TRef.unary (.of main_c_21) main_call6.v7 (sitofp .f32),
    TRef.nullary main_call6.cst_1 (constant S_ .f32 0x47435000#32),
    TRef.binary main_call6.cst_1 main_call6.v7 main_call6.v8 subf,
    TRef.nullary main_call6.cst_2 (constant S_ .f32 0x00000000#32),
    TRef.binary main_call6.v6 main_call6.cst_2 main_call6.v9 (fun x v => Host.reduceAdd x v reducesTo_S50000x128_S128_d0 h_S_),
    TRef.unary main_call6.v8 main_call6.v10 (broadcastInDim S128 ![] bcast_S_S128),
    TRef.binary main_call6.v9 main_call6.v10 main_call6.v11 Host.divf,
    TRef.nullary main_call6.cst_3 (constant S_ .f32 0x00000000#32),
    TRef.binary main_call6.v8 main_call6.cst_3 main_call6.v12 (cmpf .ogt),
    TRef.nullary main_call6.cst_4 (constant S_ .f32 0x7FC00000#32),
    TRef.unary main_call6.cst_4 main_call6.call0.v0 id,
    TRef.unary main_call6.call0.v0 main_call6.call0.v1 (broadcastInDim S128 ![] bcast_S_S128),
    TRef.ternary main_call6.v12 main_call6.v11 main_call6.call0.v1 main_call6.call0.v2 (fun p a b => select (broadcastInDim S128 ![] bcast_S_S128 p) a b) ]
abbrev rops13_W : List (Ref sig .tc) :=
  [ main_call6_cst, main_call6_v0, main_call6_v1, main_call6_cst_0, main_call6_v2, main_call6_v3, main_call6_v4, main_call6_v5,
    main_call6_v6, main_call6_v7, main_call6_cst_1, main_call6_v8, main_call6_cst_2, main_call6_v9, main_call6_v10, main_call6_v11,
    main_call6_cst_3, main_call6_v12, main_call6_cst_4, main_call6_call0_v0, main_call6_call0_v1, main_v132 ]

abbrev rops14 : List (HloOp τ sig (Elt F)) :=
  [ unary main_v131 main_v133 (broadcastInDim S1x128 ![1] bcast_S128_S1x128_1 : (⟨S128, .f32⟩ : BufTy).Contents (Elt F) → (⟨S1x128, .f32⟩ : BufTy).Contents (Elt F)),
    unary main_v133 main_v134 (broadcastInDim S50000x128 ![0, 1] bcast_S1x128_S50000x128_0_1),
    binary main_v128 main_v134 main_v135 subf,
    nullary main_cst_22 (constant S_ .f32 0x3727C5AC#32),
    unary main_cst_22 main_v136 (broadcastInDim S128 ![] bcast_S_S128),
    binary main_v132 main_v136 main_v137 addf,
    unary main_v137 main_v138 Host.rsqrt,
    unary main_v138 main_v139 (broadcastInDim S1x128 ![1] bcast_S128_S1x128_1),
    unary main_v139 main_v140 (broadcastInDim S50000x128 ![0, 1] bcast_S1x128_S50000x128_0_1),
    binary main_v135 main_v140 main_v141 mulf,
    unary main_arg19 main_v142 (broadcastInDim S1x128 ![1] bcast_S128_S1x128_1),
    unary main_v142 main_v143 (broadcastInDim S50000x128 ![0, 1] bcast_S1x128_S50000x128_0_1),
    binary main_v141 main_v143 main_v144 mulf,
    unary main_arg20 main_v145 (broadcastInDim S1x128 ![1] bcast_S128_S1x128_1),
    unary main_v145 main_v146 (broadcastInDim S50000x128 ![0, 1] bcast_S1x128_S50000x128_0_1),
    binary main_v144 main_v146 main_v147 addf ]
abbrev rops14_W : List (Ref sig .tc) :=
  [ main_v133, main_v134, main_v135, main_cst_22, main_v136, main_v137, main_v138, main_v139,
    main_v140, main_v141, main_v142, main_v143, main_v144, main_v145, main_v146, main_v147 ]

abbrev ops : List (HloOp τ sig (Elt F)) :=
  List.flatten [rops0, rops1, rops2, rops3, rops4, rops5, rops6, rops7, rops8, rops9, rops10, rops11, rops12, rops13, rops14]

end Cert.ReferenceIdeal.RefRun

end
-- ==== Proof.Ref.Fold.lean ====
import proofs.«422477_j6347961663751_3_alg».proof.Proof.Ref.Ops
import proofs.«422477_j6347961663751_3_alg».proof.Proof.Chain

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

theorem after_app (l₁ l₂ : List (HloOp τ sig (Elt F))) (V : Valuation τ sig (Elt F)) :
    after (l₁ ++ l₂) V = after l₂ (after l₁ V) := by
  induction l₁ generalizing V with
  | nil => rfl
  | cons op l ih => exact ih (op.result V)

local macro "builders_writes" : tactic =>
  `(tactic| (simp only [List.Forall]
             repeat' constructor
             all_goals
               (simp only [nullary_writes, unary_writes, binary_writes, ternary_writes, reshape_writes,
                  Finset.singleton_subset_iff, List.mem_toFinset]
                exact List.mem_map_of_mem (by decide))))

theorem rops1_writes : (rops1 : List (HloOp τ sig (Elt F))).Forall fun op => op.writes ⊆ (rops1_W.map (Proc.devRef (τ := τ) .tc)).toFinset := by
  builders_writes

variable (m : (ℓ : Loc nD τ sig) → Buf (Elt F) ℓ)

abbrev RV0 (d : Dev nD) : Valuation τ sig (Elt F) := launchContents m d
abbrev RV1 (d : Dev nD) : Valuation τ sig (Elt F) := after rops0 (RV0 m d)
abbrev RV2 (d : Dev nD) : Valuation τ sig (Elt F) := after rops1 (RV1 m d)
abbrev RV3 (d : Dev nD) : Valuation τ sig (Elt F) := after rops2 (RV2 m d)
abbrev RV4 (d : Dev nD) : Valuation τ sig (Elt F) := after rops3 (RV3 m d)
abbrev RV5 (d : Dev nD) : Valuation τ sig (Elt F) := after rops4 (RV4 m d)
abbrev RV6 (d : Dev nD) : Valuation τ sig (Elt F) := after rops5 (RV5 m d)
abbrev RV7 (d : Dev nD) : Valuation τ sig (Elt F) := after rops6 (RV6 m d)
abbrev RV8 (d : Dev nD) : Valuation τ sig (Elt F) := after rops7 (RV7 m d)
abbrev RV9 (d : Dev nD) : Valuation τ sig (Elt F) := after rops8 (RV8 m d)
abbrev RV10 (d : Dev nD) : Valuation τ sig (Elt F) := after rops9 (RV9 m d)
abbrev RV11 (d : Dev nD) : Valuation τ sig (Elt F) := after rops10 (RV10 m d)
abbrev RV12 (d : Dev nD) : Valuation τ sig (Elt F) := after rops11 (RV11 m d)
abbrev RV13 (d : Dev nD) : Valuation τ sig (Elt F) := after rops12 (RV12 m d)
abbrev RV14 (d : Dev nD) : Valuation τ sig (Elt F) := after rops13 (RV13 m d)
abbrev RV15 (d : Dev nD) : Valuation τ sig (Elt F) := after rops14 (RV14 m d)

theorem after_ops_eq (d : Dev nD) : after ops (launchContents m d) = RV15 m d := by
  simp only [ops, List.flatten_cons, List.flatten_nil, List.append_nil, after_app]

theorem RV1_of (d : Dev nD) (r : Ref sig .tc) (h : r ∉ rops0_W) :
    RV1 m d (Proc.devRef .tc r) = RV0 m d (Proc.devRef .tc r) :=
  after_of_writes_sub rops0 _ (by builders_writes) h
theorem RV2_of (d : Dev nD) (r : Ref sig .tc) (h : r ∉ rops1_W) :
    RV2 m d (Proc.devRef .tc r) = RV1 m d (Proc.devRef .tc r) :=
  after_of_writes_sub rops1 _ rops1_writes h
theorem RV3_of (d : Dev nD) (r : Ref sig .tc) (h : r ∉ rops2_W) :
    RV3 m d (Proc.devRef .tc r) = RV2 m d (Proc.devRef .tc r) :=
  after_of_writes_sub rops2 _ (by builders_writes) h
theorem RV4_of (d : Dev nD) (r : Ref sig .tc) (h : r ∉ rops3_W) :
    RV4 m d (Proc.devRef .tc r) = RV3 m d (Proc.devRef .tc r) :=
  after_of_writes_sub rops3 _ (by builders_writes) h
theorem RV5_of (d : Dev nD) (r : Ref sig .tc) (h : r ∉ rops4_W) :
    RV5 m d (Proc.devRef .tc r) = RV4 m d (Proc.devRef .tc r) :=
  after_of_writes_sub rops4 _ (by builders_writes) h
theorem RV6_of (d : Dev nD) (r : Ref sig .tc) (h : r ∉ rops5_W) :
    RV6 m d (Proc.devRef .tc r) = RV5 m d (Proc.devRef .tc r) :=
  after_of_writes_sub rops5 _ (by builders_writes) h
theorem RV7_of (d : Dev nD) (r : Ref sig .tc) (h : r ∉ rops6_W) :
    RV7 m d (Proc.devRef .tc r) = RV6 m d (Proc.devRef .tc r) :=
  after_of_writes_sub rops6 _ (by builders_writes) h
theorem RV8_of (d : Dev nD) (r : Ref sig .tc) (h : r ∉ rops7_W) :
    RV8 m d (Proc.devRef .tc r) = RV7 m d (Proc.devRef .tc r) :=
  after_of_writes_sub rops7 _ (by builders_writes) h
theorem RV9_of (d : Dev nD) (r : Ref sig .tc) (h : r ∉ rops8_W) :
    RV9 m d (Proc.devRef .tc r) = RV8 m d (Proc.devRef .tc r) :=
  after_of_writes_sub rops8 _ (by builders_writes) h
theorem RV10_of (d : Dev nD) (r : Ref sig .tc) (h : r ∉ rops9_W) :
    RV10 m d (Proc.devRef .tc r) = RV9 m d (Proc.devRef .tc r) :=
  after_of_writes_sub rops9 _ (by builders_writes) h
theorem RV11_of (d : Dev nD) (r : Ref sig .tc) (h : r ∉ rops10_W) :
    RV11 m d (Proc.devRef .tc r) = RV10 m d (Proc.devRef .tc r) :=
  after_of_writes_sub rops10 _ (by builders_writes) h
theorem RV12_of (d : Dev nD) (r : Ref sig .tc) (h : r ∉ rops11_W) :
    RV12 m d (Proc.devRef .tc r) = RV11 m d (Proc.devRef .tc r) :=
  after_of_writes_sub rops11 _ (by builders_writes) h
theorem RV13_of (d : Dev nD) (r : Ref sig .tc) (h : r ∉ rops12_W) :
    RV13 m d (Proc.devRef .tc r) = RV12 m d (Proc.devRef .tc r) :=
  after_of_writes_sub rops12 _ (by builders_writes) h
theorem RV14_of (d : Dev nD) (r : Ref sig .tc) (h : r ∉ rops13_W) :
    RV14 m d (Proc.devRef .tc r) = RV13 m d (Proc.devRef .tc r) :=
  after_of_writes_sub rops13 _ (by builders_writes) h
theorem RV15_of (d : Dev nD) (r : Ref sig .tc) (h : r ∉ rops14_W) :
    RV15 m d (Proc.devRef .tc r) = RV14 m d (Proc.devRef .tc r) :=
  after_of_writes_sub rops14 _ (by builders_writes) h

abbrev RU1 : List (Ref sig .tc) := rops0_W
theorem RV1_untouched (d : Dev nD) (r : Ref sig .tc) (h : r ∉ RU1) :
    RV1 m d (Proc.devRef .tc r) = m ((d.tc : Thread nD τ).loc r) := RV1_of m d r h
abbrev RU2 : List (Ref sig .tc) := rops1_W ++ RU1
theorem RV2_untouched (d : Dev nD) (r : Ref sig .tc) (h : r ∉ RU2) :
    RV2 m d (Proc.devRef .tc r) = m ((d.tc : Thread nD τ).loc r) := Cert.Chain.link (RV2_of m d r) (RV1_untouched m d r) h
abbrev RU3 : List (Ref sig .tc) := rops2_W ++ RU2
theorem RV3_untouched (d : Dev nD) (r : Ref sig .tc) (h : r ∉ RU3) :
    RV3 m d (Proc.devRef .tc r) = m ((d.tc : Thread nD τ).loc r) := Cert.Chain.link (RV3_of m d r) (RV2_untouched m d r) h
abbrev RU4 : List (Ref sig .tc) := rops3_W ++ RU3
theorem RV4_untouched (d : Dev nD) (r : Ref sig .tc) (h : r ∉ RU4) :
    RV4 m d (Proc.devRef .tc r) = m ((d.tc : Thread nD τ).loc r) := Cert.Chain.link (RV4_of m d r) (RV3_untouched m d r) h
abbrev RU5 : List (Ref sig .tc) := rops4_W ++ RU4
theorem RV5_untouched (d : Dev nD) (r : Ref sig .tc) (h : r ∉ RU5) :
    RV5 m d (Proc.devRef .tc r) = m ((d.tc : Thread nD τ).loc r) := Cert.Chain.link (RV5_of m d r) (RV4_untouched m d r) h
abbrev RU6 : List (Ref sig .tc) := rops5_W ++ RU5
theorem RV6_untouched (d : Dev nD) (r : Ref sig .tc) (h : r ∉ RU6) :
    RV6 m d (Proc.devRef .tc r) = m ((d.tc : Thread nD τ).loc r) := Cert.Chain.link (RV6_of m d r) (RV5_untouched m d r) h
abbrev RU7 : List (Ref sig .tc) := rops6_W ++ RU6
theorem RV7_untouched (d : Dev nD) (r : Ref sig .tc) (h : r ∉ RU7) :
    RV7 m d (Proc.devRef .tc r) = m ((d.tc : Thread nD τ).loc r) := Cert.Chain.link (RV7_of m d r) (RV6_untouched m d r) h
abbrev RU8 : List (Ref sig .tc) := rops7_W ++ RU7
theorem RV8_untouched (d : Dev nD) (r : Ref sig .tc) (h : r ∉ RU8) :
    RV8 m d (Proc.devRef .tc r) = m ((d.tc : Thread nD τ).loc r) := Cert.Chain.link (RV8_of m d r) (RV7_untouched m d r) h
abbrev RU9 : List (Ref sig .tc) := rops8_W ++ RU8
theorem RV9_untouched (d : Dev nD) (r : Ref sig .tc) (h : r ∉ RU9) :
    RV9 m d (Proc.devRef .tc r) = m ((d.tc : Thread nD τ).loc r) := Cert.Chain.link (RV9_of m d r) (RV8_untouched m d r) h
abbrev RU10 : List (Ref sig .tc) := rops9_W ++ RU9
theorem RV10_untouched (d : Dev nD) (r : Ref sig .tc) (h : r ∉ RU10) :
    RV10 m d (Proc.devRef .tc r) = m ((d.tc : Thread nD τ).loc r) := Cert.Chain.link (RV10_of m d r) (RV9_untouched m d r) h
abbrev RU11 : List (Ref sig .tc) := rops10_W ++ RU10
theorem RV11_untouched (d : Dev nD) (r : Ref sig .tc) (h : r ∉ RU11) :
    RV11 m d (Proc.devRef .tc r) = m ((d.tc : Thread nD τ).loc r) := Cert.Chain.link (RV11_of m d r) (RV10_untouched m d r) h
abbrev RU12 : List (Ref sig .tc) := rops11_W ++ RU11
theorem RV12_untouched (d : Dev nD) (r : Ref sig .tc) (h : r ∉ RU12) :
    RV12 m d (Proc.devRef .tc r) = m ((d.tc : Thread nD τ).loc r) := Cert.Chain.link (RV12_of m d r) (RV11_untouched m d r) h
abbrev RU13 : List (Ref sig .tc) := rops12_W ++ RU12
theorem RV13_untouched (d : Dev nD) (r : Ref sig .tc) (h : r ∉ RU13) :
    RV13 m d (Proc.devRef .tc r) = m ((d.tc : Thread nD τ).loc r) := Cert.Chain.link (RV13_of m d r) (RV12_untouched m d r) h
abbrev RU14 : List (Ref sig .tc) := rops13_W ++ RU13
theorem RV14_untouched (d : Dev nD) (r : Ref sig .tc) (h : r ∉ RU14) :
    RV14 m d (Proc.devRef .tc r) = m ((d.tc : Thread nD τ).loc r) := Cert.Chain.link (RV14_of m d r) (RV13_untouched m d r) h
abbrev RU15 : List (Ref sig .tc) := rops14_W ++ RU14
theorem RV15_untouched (d : Dev nD) (r : Ref sig .tc) (h : r ∉ RU15) :
    RV15 m d (Proc.devRef .tc r) = m ((d.tc : Thread nD τ).loc r) := Cert.Chain.link (RV15_of m d r) (RV14_untouched m d r) h

end Cert.ReferenceIdeal.RefRun

end
-- ==== Proof.Ref.Run.lean ====
import proofs.«422477_j6347961663751_3_alg».proof.Proof.Ref.Fold
import Idealize.ShloMosaic.Lib.Pipeline.Regions

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

theorem main_eq (c : Dev nD) : main (F := F) c = seq ops := by chain_rfl

theorem scopedRefs_eq : (Finset.univ.filter fun b : Ref sig .tc => b.isScoped) = ∅ := by decide
theorem scopedSems_eq : (Finset.univ.filter fun sm : SemLoc sig => sm.isScoped .tc) = ∅ := by decide

-- an operation of the concatenation lies in one of the stretches
theorem forall_mem_ops {p : HloOp τ sig (Elt F) → Prop}
    (h : ∀ l ∈ ([rops0, rops1, rops2, rops3, rops4, rops5, rops6, rops7, rops8, rops9, rops10, rops11, rops12, rops13, rops14] : List (List (HloOp τ sig (Elt F)))), ∀ op ∈ l, p op) :
    ∀ op ∈ (ops : List (HloOp τ sig (Elt F))), p op :=
  fun op hop => let ⟨l, hl, hol⟩ := List.mem_flatten.mp hop; h l hl op hol

local macro "builders_sub" : tactic =>
  `(tactic| simp only [List.Forall, nullary_bufs_sub, unary_bufs_sub, binary_bufs_sub, ternary_bufs_sub, reshape_bufs_sub,
      and_self])

local macro "builders_fresh" : tactic =>
  `(tactic| (intro _ h; (repeat (cases h with | head => rfl | tail _ h => ?_)); exact nomatch h))

-- each operation's buffers lie in `tcRefs`, and none of them is newly allocated
theorem ops_ok : ∀ op ∈ (ops : List (HloOp τ sig (Elt F))), op.bufs ⊆ tcRefs τ sig ∧ op.fresh = ∅ :=
  forall_mem_ops fun l hl => by
    simp only [List.mem_cons, List.not_mem_nil, or_false] at hl
    rcases hl with rfl | rfl | rfl | rfl | rfl | rfl | rfl | rfl | rfl | rfl | rfl | rfl | rfl | rfl | rfl <;>
      exact fun op h => ⟨List.forall_iff_forall_mem.mp
        (by builders_sub : (_ : List (HloOp τ sig (Elt F))).Forall fun o => o.bufs ⊆ tcRefs τ sig) op h,
        (by builders_fresh : ∀ o ∈ (_ : List (HloOp τ sig (Elt F))), o.fresh = ∅) op h⟩

theorem run_all (m : (ℓ : Loc nD τ sig) → Buf (Elt F) ℓ) (ρ : Dev nD → PrngReg) :
    θ_run defs (onTc (τ := τ) (main (F := F))) ⟨m, fun _ => 0, ρ⟩ fun r =>
      ∀ (d : Dev nD) (b : Ref sig .tc), r.2.mem ((d.tc : Thread nD τ).loc b) = after ops (launchContents m d) (Proc.devRef .tc b) :=
  run_seq scopedRefs_eq scopedSems_eq defs main (fun _ => ops) main_eq
    (fun _ => List.forall_iff_forall_mem.mpr fun op h => (ops_ok op h).1) m ρ (fun _ op h => (ops_ok op h).2)

-- a reference no stretch writes holds its launch contents after the last link
theorem kept (m : (ℓ : Loc nD τ sig) → Buf (Elt F) ℓ) (d : Dev nD) (r : Ref sig .tc) (h : r ∉ RU15) :
    after ops (launchContents m d) (Proc.devRef .tc r) = m ((d.tc : Thread nD τ).loc r) :=
  (congrFun (after_ops_eq m d) _).trans (RV15_untouched m d r h)

theorem run_results (m : (ℓ : Loc nD τ sig) → Buf (Elt F) ℓ) (ρ : Dev nD → PrngReg) :
    θ_run defs (onTc (τ := τ) (main (F := F))) ⟨m, fun _ => 0, ρ⟩ (fun r => ∀ c : Dev nD,
      r.2.mem ((c.tc : Thread nD τ).loc main_v147) = RV15 m c main_v147
      ∧ r.2.mem ((c.tc : Thread nD τ).loc main_v99) = RV15 m c main_v99
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)) :=
  (θ_run defs _ _).mono (fun _ h c => by
    refine ⟨(h c main_v147).trans (congrFun (after_ops_eq m c) _), (h c main_v99).trans (congrFun (after_ops_eq m c) _), ?_⟩
    and_intros <;> exact (h c _).trans (kept m c _ (by decide)))
    (run_all m ρ)

theorem frame (m : (ℓ : Loc nD τ sig) → Buf (Elt F) ℓ) (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)) :=
  (θ_run defs _ _).mono (fun _ h c => (h c).2.2) (run_results m ρ)

end Cert.ReferenceIdeal.RefRun

end
-- ==== Proof.LibGatherScatter.lean ====
import Idealize.ShloMosaic.PureOps.Ideal
import Idealize.ShloMosaic.Lib.ValueIdx
import Idealize.ShloMosaic.Lib.ValueIdxRank1
import Mathlib.Algebra.BigOperators.Group.Finset.Basic

noncomputable section

open scoped BigOperators
open Idealize.ShloMosaic Idealize.ShloMosaic.ValueIdx

namespace Cert.Lib

def clampRow (N : Nat) (hN : 0 < N) (w : BitVec 32) : Fin N := ⟨min w.toInt.toNat (N - 1), by omega⟩

def normIdx (n w : BitVec 32) : BitVec 32 := Scalar.select (IntOp.cmpi .slt w 0#32) (IntOp.addi w n) w

abbrev rowGatherDims (N C n : Nat)
    (wf : GatherDims.WF ⟨2, ![N, C]⟩ ⟨2, ![n, 1]⟩ ⟨2, ![n, C]⟩ [1] [0] [] [0] [] 1 ![1, C]) :
    GatherDims ⟨2, ![N, C]⟩ ⟨2, ![n, 1]⟩ ⟨2, ![n, C]⟩ where
  offsetDims := [1]
  collapsedSliceDims := [0]
  operandBatchingDims := []
  startIndicesBatchingDims := []
  startIndexMap := [0]
  indexVectorDim := 1
  sliceSizes := ![1, C]
  wf := wf

theorem gather_rows_apply {α : Type} {N C n : Nat} (hN : 0 < N)
    (wf : GatherDims.WF ⟨2, ![N, C]⟩ ⟨2, ![n, 1]⟩ ⟨2, ![n, C]⟩ [1] [0] [] [0] [] 1 ![1, C])
    (x : (⟨2, ![N, C]⟩ : Shape).Idx → α) (idx : IVec ⟨2, ![n, 1]⟩ 32) (t : Fin n) (k : Fin C) :
    Host.gather (rowGatherDims N C n wf) x idx (ix2 t k) = x (ix2 (clampRow N hN (idx (ix2 t 0))) k) := by
  unfold Host.gather
  congr 1
  have h0 : (rowGatherDims N C n wf).start (ix2 t k) idx (0 : Fin 2) + (rowGatherDims N C n wf).batchCoord (ix2 t k) (0 : Fin 2)
      + (rowGatherDims N C n wf).offCoord (ix2 t k) (0 : Fin 2) = (clampRow N hN (idx (ix2 t 0))).val := by
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGatherDims N C n wf).startIndexMap from List.mem_singleton.mpr rfl)]
    have hsi : (rowGatherDims N C n wf).siIdx (ix2 t k) ⟨List.idxOf (0 : Fin 2) (rowGatherDims N C n wf).startIndexMap,
        List.idxOf_lt_length_iff.2 (List.mem_singleton.mpr rfl)⟩ = ix2 t 0 := by
      funext b; refine Fin.ext ?_
      match b with
      | ⟨0, _⟩ => rfl
      | ⟨1, _⟩ => rfl
    rw [hsi]
    rfl
  have h1 : (rowGatherDims N C n wf).start (ix2 t k) idx (1 : Fin 2) + (rowGatherDims N C n wf).batchCoord (ix2 t k) (1 : Fin 2)
      + (rowGatherDims N C n wf).offCoord (ix2 t k) (1 : Fin 2) = k.val := by
    rw [GatherDims.batchCoord_eq_zero _ _ _ List.not_mem_nil]
    have hnot : (1 : Fin 2) ∉ (rowGatherDims N C n wf).startIndexMap := by
      show (1 : Fin 2) ∉ ([0] : List (Fin 2))
      decide
    have hk : (1 : Fin 2) ∈ (rowGatherDims N C n wf).sKept := by
      rw [GatherDims.mem_sKept]
      refine ⟨?_, List.not_mem_nil⟩
      show (1 : Fin 2) ∉ ([0] : List (Fin 2))
      decide
    unfold GatherDims.start
    rw [dif_neg hnot]
    simp only [Nat.zero_add, Nat.add_zero]
    unfold GatherDims.offCoord
    rw [dif_pos hk]
    rfl
  funext a
  refine Fin.ext ?_
  match a with
  | ⟨0, _⟩ => exact h0
  | ⟨1, _⟩ => exact h1

end Cert.Lib

end
-- ==== Proof.Spec.lean ====
import Idealize.ShloMosaic.PureOps.Ideal
import Idealize.ShloMosaic.PureOps.Contract
import Idealize.ShloMosaic.Lib.ValueIdx
import proofs.«422477_j6347961663751_3_alg».proof.Proof.LibGatherScatter

noncomputable section

open scoped BigOperators
open Idealize.ShloMosaic Idealize.ShloMosaic.ValueIdx

namespace Cert.Spec

abbrev E := EReal

structure Args where
  x : Fin 50000 → Fin 128 → E
  ei : Fin 2 → Fin 800000 → BitVec 32
  ea : Fin 800000 → Fin 128 → E
  WA : Fin 128 → Fin 128 → E
  bA : Fin 128 → E
  WB : Fin 128 → Fin 128 → E
  bB : Fin 128 → E
  WC : Fin 128 → Fin 128 → E
  bC : Fin 128 → E
  WD : Fin 128 → Fin 128 → E
  bD : Fin 128 → E
  WE : Fin 128 → Fin 128 → E
  bE : Fin 128 → E
  gx : Fin 128 → E
  bx : Fin 128 → E
  ge : Fin 128 → E
  be : Fin 128 → E
  g1 : Fin 128 → E
  b1 : Fin 128 → E
  g2 : Fin 128 → E
  b2 : Fin 128 → E
  Wf1 : Fin 128 → Fin 256 → E
  bf1 : Fin 256 → E
  Wf2 : Fin 256 → Fin 128 → E
  bf2 : Fin 128 → E

abbrev epsW : E := Ideal.ofBits .f32 0x3727C5AC#32
abbrev zeroW : E := Ideal.ofBits .f32 0x00000000#32

-- 50000 = 2¹⁵ · (1 + 4411392 / 2²³) and 800000 = 2¹⁹ · (1 + 4411392 / 2²³): the two row counts as float words.
theorem ofBits_50000 : Ideal.ofBits .f32 0x47435000#32 = ((50000 : ℝ) : EReal) := by
  simp [Ideal.ofBits, Ideal.ieee, -EReal.coe_mul]; norm_num
theorem ofBits_800000 : Ideal.ofBits .f32 0x49435000#32 = ((800000 : ℝ) : EReal) := by
  simp [Ideal.ofBits, Ideal.ieee, -EReal.coe_mul]; norm_num

def lin {R K C : ℕ} (X : Fin R → Fin K → E) (W : Fin K → Fin C → E) (b : Fin C → E) (r : Fin R) (c : Fin C) : E :=
  (∑ k : Fin K, X r k * W k c) + b c

def relu (y : E) : E := max y zeroW

def mean {R C : ℕ} (cnt : ℝ) (h : Fin R → Fin C → E) (j : Fin C) : E := Ideal.div (∑ n : Fin R, h n j) (cnt : E)
def var {R C : ℕ} (cnt : ℝ) (h : Fin R → Fin C → E) (j : Fin C) : E :=
  Ideal.div (∑ n : Fin R, (h n j - mean cnt h j) * (h n j - mean cnt h j)) (cnt : E)
def bn {R C : ℕ} (cnt : ℝ) (h : Fin R → Fin C → E) (g b : Fin C → E) (n : Fin R) (j : Fin C) : E :=
  ((h n j - mean cnt h j) * Ideal.rsqrt (var cnt h j + epsW)) * g j + b j

variable (A : Args)

def Ax : Fin 50000 → Fin 128 → E := lin A.x A.WA A.bA
def Bx : Fin 50000 → Fin 128 → E := lin A.x A.WB A.bB
def Dx : Fin 50000 → Fin 128 → E := lin A.x A.WD A.bD
def Ex : Fin 50000 → Fin 128 → E := lin A.x A.WE A.bE
def Ce : Fin 800000 → Fin 128 → E := lin A.ea A.WC A.bC

def rowOf (e : Fin 800000) : Fin 50000 := Cert.Lib.clampRow 50000 (by norm_num) (Cert.Lib.normIdx 50000#32 (A.ei 0 e))
def colOf (e : Fin 800000) : Fin 50000 := Cert.Lib.clampRow 50000 (by norm_num) (Cert.Lib.normIdx 50000#32 (A.ei 1 e))

def eij (e : Fin 800000) (j : Fin 128) : E := (Dx A (rowOf A e) j + Ex A (colOf A e) j) + Ce A e j
def msgs (e : Fin 800000) (j : Fin 128) : E := Ideal.logistic (eij A e j) * Bx A (colOf A e) j

def scatDims : ScatterDims ⟨2, ![50000, 128]⟩ ⟨2, ![800000, 1]⟩ ⟨2, ![800000, 128]⟩ where
  updateWindowDims := [1]
  insertedWindowDims := [0]
  scatterDimsToOperandDims := [0]
  indexVectorDim := 1

def aggr (n : Fin 50000) (j : Fin 128) : E :=
  Host.scatterAdd (F := Ideal) (φ := .f32) scatDims (fun _ => zeroW) (fun i => A.ei 0 (i 0)) (fun i => msgs A (i 0) (i 1)) (ix2 n j)

def xt (n : Fin 50000) (j : Fin 128) : E := Ax A n j + aggr A n j
def xf (n : Fin 50000) (j : Fin 128) : E := A.x n j + relu (bn 50000 (xt A) A.gx A.bx n j)
def ef (e : Fin 800000) (j : Fin 128) : E := A.ea e j + relu (bn 800000 (eij A) A.ge A.be e j)
def h1 (n : Fin 50000) (k : Fin 128) : E := bn 50000 (xf A) A.g1 A.b1 n k
def hid (n : Fin 50000) (q : Fin 256) : E := relu (lin (h1 A) A.Wf1 A.bf1 n q)
def ffn (n : Fin 50000) (j : Fin 128) : E := lin (hid A) A.Wf2 A.bf2 n j
def pre2 (n : Fin 50000) (j : Fin 128) : E := xf A n j + ffn A n j
def xout (n : Fin 50000) (j : Fin 128) : E := bn 50000 (pre2 A) A.g2 A.b2 n j

end Cert.Spec

end
-- ==== Proof.MathLemmas.lean ====
import Idealize.ShloMosaic.PureOps.Ideal
import Mathlib.Data.EReal.Basic
import Mathlib.Data.EReal.Operations
import Mathlib.Algebra.BigOperators.Group.Finset.Basic
import Mathlib.Algebra.BigOperators.Ring.Finset
import Mathlib.Algebra.BigOperators.Fin
import Mathlib.Logic.Equiv.Fin.Basic
import Mathlib.Tactic.FieldSimp
import Mathlib.Tactic.Ring

open Idealize.ShloMosaic
open scoped BigOperators

namespace Cert.MathLemmas

theorem coe_sum {ι : Type*} (s : Finset ι) (f : ι → ℝ) :
    (∑ i ∈ s, (f i : EReal)) = ((∑ i ∈ s, f i : ℝ) : EReal) := by
  classical
  induction s using Finset.induction_on with
  | empty => simp
  | insert a s ha ih => rw [Finset.sum_insert ha, Finset.sum_insert ha, ih, EReal.coe_add]

private theorem sum_sq_dev {ι : Type*} [Fintype ι] (a : ι → ℝ) (n : ℝ)
    (hcard : (Fintype.card ι : ℝ) = n) (m : ℝ) :
    ∑ i, (a i - m) * (a i - m) = (∑ i, a i * a i) - 2 * m * (∑ i, a i) + n * (m * m) := by
  have h : ∀ i, (a i - m) * (a i - m) = a i * a i - 2 * m * a i + m * m := fun i => by ring
  simp only [h, Finset.sum_add_distrib, Finset.sum_sub_distrib, ← Finset.mul_sum, Finset.sum_const,
    Finset.card_univ, nsmul_eq_mul, hcard]
  ring

-- each operation on real data is the real operation coerced, so this is an identity between real polynomials divided by n
theorem var_identity' {ι : Type*} [Fintype ι] (x : ι → EReal) (hx : ∀ i, ∃ r : ℝ, x i = (r : EReal)) (N : EReal) (n : ℝ) (hn : 0 < n) (hN : N = (n : EReal)) (hcard : (Fintype.card ι : ℝ) = n) :
    Ideal.div (∑ i, x i * x i) N - Ideal.div (∑ i, x i) N * Ideal.div (∑ i, x i) N = Ideal.div (∑ i, (x i - Ideal.div (∑ i, x i) N) * (x i - Ideal.div (∑ i, x i) N)) N := by
  choose a ha using hx
  obtain rfl : x = fun i => (a i : EReal) := funext ha
  subst hN
  have hn' : n ≠ 0 := hn.ne'
  simp only [Ideal.div_coe hn', ← EReal.coe_mul, coe_sum, ← EReal.coe_sub]
  congr 1
  rw [sum_sq_dev a n hcard]
  field_simp
  ring

theorem sum_tiles {M : Type*} [AddCommMonoid M] (A B : ℕ) (f : ℕ → M) :
    (∑ t : Fin A, ∑ r : Fin B, f (B * t.val + r.val)) = ∑ i : Fin (A * B), f i.val := by
  rw [← Fintype.sum_prod_type' (fun (t : Fin A) (r : Fin B) => f (B * t.val + r.val))]
  refine Fintype.sum_equiv finProdFinEquiv _ _ ?_
  rintro ⟨t, r⟩
  simp [finProdFinEquiv, add_comm]

def IsReal (x : EReal) : Prop := ∃ r : ℝ, x = (r : EReal)

theorem IsReal.add {x y : EReal} : IsReal x → IsReal y → IsReal (x + y) := by
  rintro ⟨r, rfl⟩ ⟨s, rfl⟩
  exact ⟨r + s, (EReal.coe_add r s).symm⟩

theorem IsReal.mul {x y : EReal} : IsReal x → IsReal y → IsReal (x * y) := by
  rintro ⟨r, rfl⟩ ⟨s, rfl⟩
  exact ⟨r * s, (EReal.coe_mul r s).symm⟩

theorem IsReal.sum {ι : Type*} (s : Finset ι) (f : ι → EReal) : (∀ i ∈ s, IsReal (f i)) → IsReal (∑ i ∈ s, f i) := by
  classical
  induction s using Finset.induction_on with
  | empty => exact fun _ => ⟨0, by simp⟩
  | insert a s ha ih =>
    intro h
    rw [Finset.sum_insert ha]
    exact IsReal.add (h a (Finset.mem_insert_self a s)) (ih fun i hi => h i (Finset.mem_insert_of_mem hi))

theorem IsReal.logistic {x : EReal} : IsReal x → IsReal (Ideal.logistic x) := by
  rintro ⟨r, rfl⟩
  exact ⟨_, Ideal.logistic_coe r⟩

theorem IsReal.max {x y : EReal} : IsReal x → IsReal y → IsReal (max x y) := by
  intro hx hy
  rcases le_total x y with h | h
  · rwa [max_eq_right h]
  · rwa [max_eq_left h]

end Cert.MathLemmas
-- ==== Proof.SpecGood.lean ====
import proofs.«422477_j6347961663751_3_alg».proof.Proof.Spec
import proofs.«422477_j6347961663751_3_alg».proof.Proof.MathLemmas

noncomputable section

namespace Cert.Spec

open Cert.MathLemmas

structure Args.Good (A : Args) : Prop where
  x : ∀ i j, IsReal (A.x i j)
  ea : ∀ i j, IsReal (A.ea i j)
  WA : ∀ i j, IsReal (A.WA i j)
  bA : ∀ j, IsReal (A.bA j)
  WB : ∀ i j, IsReal (A.WB i j)
  bB : ∀ j, IsReal (A.bB j)
  WC : ∀ i j, IsReal (A.WC i j)
  bC : ∀ j, IsReal (A.bC j)
  WD : ∀ i j, IsReal (A.WD i j)
  bD : ∀ j, IsReal (A.bD j)
  WE : ∀ i j, IsReal (A.WE i j)
  bE : ∀ j, IsReal (A.bE j)
  gx : ∀ j, IsReal (A.gx j)
  bx : ∀ j, IsReal (A.bx j)
  ge : ∀ j, IsReal (A.ge j)
  be : ∀ j, IsReal (A.be j)
  g1 : ∀ j, IsReal (A.g1 j)
  b1 : ∀ j, IsReal (A.b1 j)
  g2 : ∀ j, IsReal (A.g2 j)
  b2 : ∀ j, IsReal (A.b2 j)
  Wf1 : ∀ i j, IsReal (A.Wf1 i j)
  bf1 : ∀ j, IsReal (A.bf1 j)
  Wf2 : ∀ i j, IsReal (A.Wf2 i j)
  bf2 : ∀ j, IsReal (A.bf2 j)
  idx : ∀ a e, 0 ≤ (A.ei a e).toInt ∧ (A.ei a e).toInt < 50000

end Cert.Spec

end
-- ==== Proof.KV.Args.lean ====
import proofs.«422477_j6347961663751_3_alg».proof.KernelIdeal
import proofs.«422477_j6347961663751_3_alg».proof.Proof.SpecGood
import Idealize.ShloMosaic.Lib.ValueIdx

noncomputable section

open Idealize.ShloMosaic Idealize.ShloMosaic.ValueIdx Idealize.ShloMosaic.TcCoe Idealize.SL.Sem

namespace Cert.KernelIdeal.Val

open Cert.KernelIdeal

def argsOf (m : (ℓ : Loc nD τ sig) → Buf (Elt Ideal) ℓ) (c : Dev nD) : Cert.Spec.Args where
  x i j := (m ((c.tc : Thread nD τ).loc main_arg0) : FVec Ideal S50000x128 .f32) (ix2 i j)
  ei i j := (m ((c.tc : Thread nD τ).loc main_arg1) : IVec S2x800000 32) (ix2 i j)
  ea i j := (m ((c.tc : Thread nD τ).loc main_arg2) : FVec Ideal S800000x128 .f32) (ix2 i j)
  WA i j := (m ((c.tc : Thread nD τ).loc main_arg3) : FVec Ideal S128x128 .f32) (ix2 i j)
  bA j := (m ((c.tc : Thread nD τ).loc main_arg4) : FVec Ideal S128 .f32) (ix1 j)
  WB i j := (m ((c.tc : Thread nD τ).loc main_arg5) : FVec Ideal S128x128 .f32) (ix2 i j)
  bB j := (m ((c.tc : Thread nD τ).loc main_arg6) : FVec Ideal S128 .f32) (ix1 j)
  WC i j := (m ((c.tc : Thread nD τ).loc main_arg7) : FVec Ideal S128x128 .f32) (ix2 i j)
  bC j := (m ((c.tc : Thread nD τ).loc main_arg8) : FVec Ideal S128 .f32) (ix1 j)
  WD i j := (m ((c.tc : Thread nD τ).loc main_arg9) : FVec Ideal S128x128 .f32) (ix2 i j)
  bD j := (m ((c.tc : Thread nD τ).loc main_arg10) : FVec Ideal S128 .f32) (ix1 j)
  WE i j := (m ((c.tc : Thread nD τ).loc main_arg11) : FVec Ideal S128x128 .f32) (ix2 i j)
  bE j := (m ((c.tc : Thread nD τ).loc main_arg12) : FVec Ideal S128 .f32) (ix1 j)
  gx j := (m ((c.tc : Thread nD τ).loc main_arg13) : FVec Ideal S128 .f32) (ix1 j)
  bx j := (m ((c.tc : Thread nD τ).loc main_arg14) : FVec Ideal S128 .f32) (ix1 j)
  ge j := (m ((c.tc : Thread nD τ).loc main_arg15) : FVec Ideal S128 .f32) (ix1 j)
  be j := (m ((c.tc : Thread nD τ).loc main_arg16) : FVec Ideal S128 .f32) (ix1 j)
  g1 j := (m ((c.tc : Thread nD τ).loc main_arg17) : FVec Ideal S128 .f32) (ix1 j)
  b1 j := (m ((c.tc : Thread nD τ).loc main_arg18) : FVec Ideal S128 .f32) (ix1 j)
  g2 j := (m ((c.tc : Thread nD τ).loc main_arg19) : FVec Ideal S128 .f32) (ix1 j)
  b2 j := (m ((c.tc : Thread nD τ).loc main_arg20) : FVec Ideal S128 .f32) (ix1 j)
  Wf1 i j := (m ((c.tc : Thread nD τ).loc main_arg21) : FVec Ideal S128x256 .f32) (ix2 i j)
  bf1 j := (m ((c.tc : Thread nD τ).loc main_arg22) : FVec Ideal S256 .f32) (ix1 j)
  Wf2 i j := (m ((c.tc : Thread nD τ).loc main_arg23) : FVec Ideal S256x128 .f32) (ix2 i j)
  bf2 j := (m ((c.tc : Thread nD τ).loc main_arg24) : FVec Ideal S128 .f32) (ix1 j)

end Cert.KernelIdeal.Val

end
-- ==== Proof.KV.Val1Pay.lean ====
import proofs.«422477_j6347961663751_3_alg».proof.Proof.Gen.KernelIdeal.Skeleton
import Idealize.ShloMosaic.Lib.Pipeline.Value
import Idealize.ShloMosaic.Lib.ValueIdx
import Idealize.ShloMosaic.Lib.ValueLayout
import Idealize.ShloMosaic.PureOps.Ideal.Laws
import Idealize.ShloMosaic.Lib.StackMember

noncomputable section

namespace Cert.KernelIdeal.Val

open Cert.KernelIdeal Cert.KernelIdeal.Gen
open Idealize.ShloMosaic Idealize.ShloMosaic.ValueIdx

def edgeAt {R : Nat} (ea : FVec Ideal ⟨2, ![R, 128]⟩ .f32) (wc : FVec Ideal ⟨2, ![128, 128]⟩ .f32)
    (bc : FVec Ideal ⟨2, ![1, 128]⟩ .f32) (de : FVec Ideal ⟨2, ![R, 128]⟩ .f32) (i : Fin R) (j : Fin 128) : EReal :=
  de (ix2 i j) + ((∑ k : Fin 128, ea (ix2 i k) * wc (ix2 k j)) + bc (ix2 (0 : Fin 1) j))

theorem matmul_plain_at {M K N : Nat} {φ₁ φ₂ : FTy} (l : FVec Ideal ⟨2, ![M, K]⟩ φ₁) (r : FVec Ideal ⟨2, ![K, N]⟩ φ₂)
    (p : Fin M) (q : Fin N) :
    matmul (DotDims.plain M K N) none l r (constant (F := Ideal) ⟨2, ![M, N]⟩ .f32 0x00000000#32) (ix2 p q)
      = ∑ k : Fin K, l (ix2 p k) * r (ix2 k q) := by
  exact (congrFun (matmul_zero_eq_dotGeneral _ none l r) _).trans (StackMember.dotGeneral_plain_apply none l r p q)

-- The edge value reads row i of ea and de, column j of wc and entry (0, j) of bc, and nothing else.
theorem edgeAt_congr {R R' : Nat} (b0 : FVec Ideal ⟨2, ![R, 128]⟩ .f32) (a0 : FVec Ideal ⟨2, ![R', 128]⟩ .f32)
    (b1 a1 : FVec Ideal ⟨2, ![128, 128]⟩ .f32) (b2 a2 : FVec Ideal ⟨2, ![1, 128]⟩ .f32)
    (b3 : FVec Ideal ⟨2, ![R, 128]⟩ .f32) (a3 : FVec Ideal ⟨2, ![R', 128]⟩ .f32) (p : Fin R) (i : Fin R') (q : Fin 128)
    (h0 : ∀ k : Fin 128, b0 (ix2 p k) = a0 (ix2 i k)) (h1 : ∀ k : Fin 128, b1 (ix2 k q) = a1 (ix2 k q))
    (h2 : b2 (ix2 (0 : Fin 1) q) = a2 (ix2 (0 : Fin 1) q)) (h3 : b3 (ix2 p q) = a3 (ix2 i q)) :
    edgeAt b0 b1 b2 b3 p q = edgeAt a0 a1 a2 a3 i q := by
  unfold edgeAt
  rw [h3, h2]
  exact congrArg (fun s => a3 (ix2 i q) + (s + a2 (ix2 (0 : Fin 1) q)))
    (Finset.sum_congr rfl fun k _ => by rw [h0 k, h1 k])

section
variable (x0 : FVec Ideal S5000x128 .f32) (x1 : FVec Ideal S128x128 .f32) (x2 : FVec Ideal S1x128 .f32)
  (x3 x4 : FVec Ideal S5000x128 .f32) (p : Fin 5000) (q : Fin 128) (u u' : Fin 1)

theorem pay1_apply : k1_pay1 (F := Ideal) x0 x1 x2 x3 (ix2 p q) = edgeAt x0 x1 x2 x3 p q := by
  unfold k1_pay1 edgeAt
  refine congrArg₂ (· + ·) ?_ (congrArg₂ (· + ·) ?_ ?_)
  · exact congrFun (shapeCast_self x3 _) (ix2 p q)
  · exact matmul_plain_at (M := 5000) (K := 128) (N := 128) _ _ p q
  · exact (broadcastTo_1b_ab_apply _ _ p q).trans (congrFun (shapeCast_self x2 _) (ix2 (0 : Fin 1) q))

theorem pay2_apply_v1 :
    k1_pay2 (F := Ideal) x0 x1 x2 x3 x4 (ix2 p q) = Ideal.logistic (edgeAt x0 x1 x2 x3 p q) * x4 (ix2 p q) := by
  unfold k1_pay2
  exact congrArg₂ (· * ·) (congrArg Ideal.logistic (pay1_apply x0 x1 x2 x3 p q)) (congrFun (shapeCast_self x4 _) (ix2 p q))

theorem colsum_at (v : FVec Ideal S5000x128 .f32) (h : S5000x128.Reduces [0] S128) (hφ : FKind.Formats .f32)
    (hacc : (0x00000000#32 : BitVec 32) = FKind.add.neutral .f32 hφ)
    (h1 : S128.ShapeCasts S1x128) (h2 : S1x128.ShapeCasts S1x1x128) :
    shapeCast S1x1x128 (shapeCast S1x128 (multiReduction (F := Ideal) .add [0] S128 v 0x00000000#32 h hφ hacc) h1) h2 (ix3 u u' q)
      = ∑ p : Fin 5000, v (ix2 p q) := by
  refine (shapeCast_ab_1ab_apply _ h2 u u' q).trans ((shapeCast_a_1a_apply _ h1 u' q).trans ?_)
  refine (Ideal.multiReduction_add_single v 0x00000000#32 h hφ hacc (ix1 q)).trans ?_
  exact Finset.sum_congr rfl fun p _ => congrArg v (Shape.idx_ext₂ rfl rfl)

theorem pay3_apply : k1_pay3 (F := Ideal) x0 x1 x2 x3 (ix3 u u' q) = ∑ p : Fin 5000, edgeAt x0 x1 x2 x3 p q := by
  unfold k1_pay3
  exact (colsum_at q u u' _ _ _ _ _ _).trans (Finset.sum_congr rfl fun p _ => pay1_apply x0 x1 x2 x3 p q)

theorem pay4_apply :
    k1_pay4 (F := Ideal) x0 x1 x2 x3 (ix3 u u' q) = ∑ p : Fin 5000, edgeAt x0 x1 x2 x3 p q * edgeAt x0 x1 x2 x3 p q := by
  unfold k1_pay4
  exact (colsum_at q u u' _ _ _ _ _ _).trans
    (Finset.sum_congr rfl fun p _ => congrArg₂ (· * ·) (pay1_apply x0 x1 x2 x3 p q) (pay1_apply x0 x1 x2 x3 p q))

end

def rowOf (t : Fin 160) (r : Fin 5000) : Fin 800000 := ⟨5000 * t.val + r.val, by omega⟩

variable (ea : FVec Ideal S800000x128 .f32) (wc : FVec Ideal S128x128 .f32) (bc : FVec Ideal S1x128 .f32)
  (de : FVec Ideal S800000x128 .f32)

def G1_5 (bx : FVec Ideal S800000x128 .f32) : FVec Ideal S800000x128 .f32 :=
  fun i => Ideal.logistic (edgeAt ea wc bc de (i 0) (i 1)) * bx i

def G1_6 (bx : FVec Ideal S800000x128 .f32) : FVec Ideal S160x1x128 .f32 :=
  fun i => ∑ r : Fin 5000, edgeAt ea wc bc de (rowOf (i 0) r) (i 2)

def G1_7 (bx : FVec Ideal S800000x128 .f32) : FVec Ideal S160x1x128 .f32 :=
  fun i => ∑ r : Fin 5000, edgeAt ea wc bc de (rowOf (i 0) r) (i 2) * edgeAt ea wc bc de (rowOf (i 0) r) (i 2)

theorem G1_5_apply (bx : FVec Ideal S800000x128 .f32) (i : Fin 800000) (j : Fin 128) :
    G1_5 ea wc bc de bx (ix2 i j) = Ideal.logistic (edgeAt ea wc bc de i j) * bx (ix2 i j) := rfl

theorem G1_6_apply (bx : FVec Ideal S800000x128 .f32) (t : Fin 160) (u : Fin 1) (j : Fin 128) :
    G1_6 ea wc bc de bx (ix3 t u j) = ∑ r : Fin 5000, edgeAt ea wc bc de (rowOf t r) j := rfl

theorem G1_7_apply (bx : FVec Ideal S800000x128 .f32) (t : Fin 160) (u : Fin 1) (j : Fin 128) :
    G1_7 ea wc bc de bx (ix3 t u j)
      = ∑ r : Fin 5000, edgeAt ea wc bc de (rowOf t r) j * edgeAt ea wc bc de (rowOf t r) j := rfl

end Cert.KernelIdeal.Val

end
-- ==== Proof.KV.Val0.lean ====
import proofs.«422477_j6347961663751_3_alg».proof.Proof.KI.Reg0
import proofs.«422477_j6347961663751_3_alg».proof.Proof.KV.Val1Pay
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Val

open Cert.KernelIdeal Cert.KernelIdeal.Gen Cert.KernelIdeal.Frm
open Idealize.ShloMosaic Idealize.ShloMosaic.TcCoe Idealize.SL.Sem Idealize.ShloMosaic.ValueIdx
open Idealize.ShloMosaic.Pipeline (Dat)
open scoped BigOperators

def G0_3 (x : FVec Ideal S50000x128 .f32) (w : FVec Ideal S128x512 .f32) (b : FVec Ideal S1x512 .f32) :
    FVec Ideal S50000x512 .f32 :=
  fun i => (∑ k : Fin 128, x (ix2 (i 0 : Fin 50000) k) * w (ix2 k (i 1 : Fin 512))) + b (ix2 (0 : Fin 1) (i 1 : Fin 512))

theorem G0_3_apply (x : FVec Ideal S50000x128 .f32) (w : FVec Ideal S128x512 .f32) (b : FVec Ideal S1x512 .f32)
    (r : Fin 50000) (q : Fin 512) :
    G0_3 x w b (ix2 r q) = (∑ k : Fin 128, x (ix2 r k) * w (ix2 k q)) + b (ix2 (0 : Fin 1) q) := rfl

theorem pay0_apply (v0 : FVec Ideal S2000x128 .f32) (v2 : FVec Ideal S128x512 .f32) (v6 : FVec Ideal S1x512 .f32)
    (p : Fin 2000) (q : Fin 512) :
    k0_pay1 (F := Ideal) v0 v2 v6 (ix2 p q) = (∑ k : Fin 128, v0 (ix2 p k) * v2 (ix2 k q)) + v6 (ix2 (0 : Fin 1) q) := by
  unfold k0_pay1
  simp only [shapeCast_self]
  exact (addf_apply _ _ (ix2 p q)).trans (congrArg₂ (· + ·)
    (matmul_plain_at (M := 2000) (K := 128) (N := 512) _ _ p q) (broadcastTo_1b_ab_apply _ _ p q))

theorem point0 (x : FVec Ideal S50000x128 .f32) (w : FVec Ideal S128x512 .f32) (b : FVec Ideal S1x512 .f32)
    (x0 : FVec Ideal S2000x128 .f32) (x1 : FVec Ideal S128x512 .f32) (x2 : FVec Ideal S1x512 .f32)
    (p : Fin 2000) (q : Fin 512) (i : S50000x512.Idx) (hq : i 1 = q)
    (h0 : ∀ k : Fin 128, x0 (ix2 p k) = x (ix2 (i 0) k)) (h1 : ∀ z, x1 z = w z) (h2 : ∀ z, x2 z = b z) :
    k0_pay1 (F := Ideal) x0 x1 x2 (ix2 p q) = G0_3 x w b i := by
  simp only [pay0_apply, h0, h1, h2]
  rw [show i = ix2 (i 0 : Fin 50000) q from Shape.idx_ext₂ rfl (congrArg Fin.val hq)]
  rfl

theorem hz0 : (![0, 0] : Fin 2 → Nat) = fun _ => 0 := funext fun a => by fin_cases a <;> rfl

theorem idx_facts0 : ∀ t : Fin cfg0.N,
    win0_0.index t (0 : Fin 2) = win0_3.index t (0 : Fin 2) ∧ win0_0.index t (1 : Fin 2) = 0 ∧ win0_3.index t (1 : Fin 2) = 0
    ∧ ∀ a : Fin 2, win0_1.index t a = 0 ∧ win0_2.index t a = 0 :=
  (by decide +kernel : ∀ t : Fin grid0.N, _)

theorem idx_onto0 : ∀ q0 : Fin 25, ∃ t : Fin cfg0.N, win0_3.index t = ![q0.val, 0] :=
  (by decide +kernel : ∀ q0 : Fin 25, ∃ t : Fin grid0.N, win0_3.index t = ![q0.val, 0])

variable (V : (c : Dev nD) → (b : Ref sig .tc) → Buf (Elt Ideal) ((c : Thread nD τ).loc b)) (c : Dev nD) (t : Fin cfg0.N)

theorem feat0 (p : Fin 2000) (q : Fin 512) (k : Fin 128) :
    iblk0 V c 0 t (ix2 p k) = V c (Pipeline.arrRef spec0 0) (ix2 ((((cfg0.win 3).blk t).view.emb (ix2 p q)) 0) k) :=
  congrArg (V c (Pipeline.arrRef spec0 0)) (Shape.idx_ext₂
    (by show win0_0.index t (0 : Fin 2) * 2000 + 1 * p.val = win0_3.index t (0 : Fin 2) * 2000 + 1 * p.val
        rw [(idx_facts0 t).1])
    (win0_0.rect_emb_val_of_index_zero t (1 : Fin 2) (idx_facts0 t).2.1 (ix2 p k)))

theorem wt0 (z : S128x512.Idx) : iblk0 V c 1 t z = V c (Pipeline.arrRef spec0 1) z :=
  congrArg (V c (Pipeline.arrRef spec0 1)) (Shape.idx_ext₂
    (win0_1.rect_emb_val_of_index_zero t (0 : Fin 2) ((idx_facts0 t).2.2.2 0).1 z)
    (win0_1.rect_emb_val_of_index_zero t (1 : Fin 2) ((idx_facts0 t).2.2.2 1).1 z))
theorem bias0 (z : S1x512.Idx) : iblk0 V c 2 t z = V c (Pipeline.arrRef spec0 2) z :=
  congrArg (V c (Pipeline.arrRef spec0 2)) (Shape.idx_ext₂
    (win0_2.rect_emb_val_of_index_zero t (0 : Fin 2) ((idx_facts0 t).2.2.2 0).2 z)
    (win0_2.rect_emb_val_of_index_zero t (1 : Fin 2) ((idx_facts0 t).2.2.2 1).2 z))

theorem flushed0_3_eq :
    (dat0 (F := Ideal) V c).flushed 3 t = ((cfg0.win 3).blk t).view.read (Elt Ideal) (G0_3 (V c (Pipeline.arrRef spec0 0)) (V c (Pipeline.arrRef spec0 1)) (V c (Pipeline.arrRef spec0 2))) := by
  show (cfg0.win 3).cut (grid0.coords t) ((dat0 (F := Ideal) V c).after 3 t) = _
  rw [after0_3]
  unfold out0_3
  rw [View.canon_unit_zero hz0]
  simp only [View.ld_unit_zero (S := S2000x128) hz0, View.ld_unit_zero (S := S128x512) hz0, View.ld_unit_zero (S := S1x512) hz0]
  funext j
  obtain ⟨p, q, rfl⟩ : ∃ (p : Fin 2000) (q : Fin 512), j = ix2 p q := ⟨j 0, j 1, eq_ix2 j⟩
  exact point0 _ _ _ _ _ _ p q _
    (Fin.ext (win0_3.rect_emb_val_of_index_zero t (1 : Fin 2) (idx_facts0 t).2.2.1 (ix2 p q)))
    (fun k => feat0 V c t p q k) (wt0 V c t) (bias0 V c t)

-- Row r of the output lies in the block of the point whose row block is r / 2000, so the 25 blocks written cover the array.
theorem covered0_3 (i : S50000x512.Idx) :
    ∃ t : Fin cfg0.N, (cfg0.win 3).flush t = true ∧ i ∈ ((cfg0.win 3).blk t).view.set := by
  have hi0 : (i 0).val < 50000 := (i 0).isLt
  have hi1 : (i 1).val < 512 := (i 1).isLt
  obtain ⟨t, ht⟩ := idx_onto0 ⟨(i 0).val / 2000, by omega⟩
  have q0 : win0_3.index t (0 : Fin 2) = (i 0).val / 2000 := congrFun ht 0
  have q1 : win0_3.index t (1 : Fin 2) = 0 := congrFun ht 1
  refine ⟨t, flush0_3 t, ?_⟩
  show i ∈ ((View.whole main_v7).slice (win0_3.rect t)).set
  rw [View.set_slice_whole, Rect.mem_set_unit]
  intro a
  match a with
  | ⟨0, _⟩ => show win0_3.index t (0 : Fin 2) * 2000 ≤ (i 0).val ∧ (i 0).val < win0_3.index t (0 : Fin 2) * 2000 + 2000; omega
  | ⟨1, _⟩ => show win0_3.index t (1 : Fin 2) * 512 ≤ (i 1).val ∧ (i 1).val < win0_3.index t (1 : Fin 2) * 512 + 512; omega

theorem final0_3 :
    (dat0 (F := Ideal) V c).arrAt 3 cfg0.N
      = G0_3 (V c (Pipeline.arrRef spec0 0)) (V c (Pipeline.arrRef spec0 1)) (V c (Pipeline.arrRef spec0 2)) :=
  (dat0 (F := Ideal) V c).arrAt_eq_of_cover 3 _ (fun t _ => flushed0_3_eq V c t) covered0_3

end Cert.KernelIdeal.Val

end
-- ==== Proof.KV.Stage1.lean ====
import proofs.«422477_j6347961663751_3_alg».proof.Proof.KI.Fold
import proofs.«422477_j6347961663751_3_alg».proof.Proof.KV.Args
import proofs.«422477_j6347961663751_3_alg».proof.Proof.KV.Val0
import proofs.«422477_j6347961663751_3_alg».proof.Proof.Spec
import Idealize.ShloMosaic.Lib.StableHlo.Run
import Idealize.ShloMosaic.Lib.Pipeline.Value
import Idealize.ShloMosaic.Lib.ValueIdx
import Idealize.ShloMosaic.Lib.ValueLayout

noncomputable section

namespace Cert.KernelIdeal.Val

open Cert.KernelIdeal Cert.KernelIdeal.Gen Cert.KernelIdeal.Frm
open Idealize.ShloMosaic Idealize.ShloMosaic.ValueIdx Idealize.ShloMosaic.TcCoe
open Idealize.ShloMosaic.StableHlo
open scoped BigOperators

section Layout
variable {α : Type}

abbrev cat4m_s1 (u0 u1 u2 u3 : S128x128.Idx → α) : S128x512.Idx → α :=
  concatenate S128x512 1 [⟨S128x128, u0⟩, ⟨S128x128, u1⟩, ⟨S128x128, u2⟩, ⟨S128x128, u3⟩]
    concatenates_S128x128_S128x128_S128x128_S128x128_S128x512_d1

-- Piece a of the four starts at column 128a, so column 128a + j falls in it at column j.
theorem cat4m_apply_s1 (u0 u1 u2 u3 : S128x128.Idx → α) (a : Fin 4) (k j : Fin 128) (q : Fin 512)
    (hq : q.val = 128 * a.val + j.val) :
    cat4m_s1 u0 u1 u2 u3 (ix2 k q) = (![u0, u1, u2, u3] a) (ix2 k j) :=
  concatenate_apply_piece (1 : Fin S128x512.rank) _ _ (ix2 k q) a.val (by exact a.isLt) S128x128 _
    (by match a with | ⟨0, _⟩ | ⟨1, _⟩ | ⟨2, _⟩ | ⟨3, _⟩ => rfl) rfl (128 * a.val)
    (by match a with | ⟨0, _⟩ | ⟨1, _⟩ | ⟨2, _⟩ | ⟨3, _⟩ => rfl) (ix2 k j)
    (fun b hb => by
      match b with
      | ⟨0, _⟩ => rfl
      | ⟨1, _⟩ => exact absurd rfl hb) hq.symm

abbrev cat4v_s1 (b0 b1 b2 b3 : S128.Idx → α) : S512.Idx → α :=
  concatenate S512 0 [⟨S128, b0⟩, ⟨S128, b1⟩, ⟨S128, b2⟩, ⟨S128, b3⟩] concatenates_S128_S128_S128_S128_S512_d0

theorem cat4v_apply_s1 (b0 b1 b2 b3 : S128.Idx → α) (a : Fin 4) (j : Fin 128) (q : Fin 512)
    (hq : q.val = 128 * a.val + j.val) :
    cat4v_s1 b0 b1 b2 b3 (ix1 q) = (![b0, b1, b2, b3] a) (ix1 j) :=
  concatenate_apply_piece (0 : Fin S512.rank) _ _ (ix1 q) a.val (by exact a.isLt) S128 _
    (by match a with | ⟨0, _⟩ | ⟨1, _⟩ | ⟨2, _⟩ | ⟨3, _⟩ => rfl) rfl (128 * a.val)
    (by match a with | ⟨0, _⟩ | ⟨1, _⟩ | ⟨2, _⟩ | ⟨3, _⟩ => rfl) (ix1 j)
    (fun b hb => by
      match b with
      | ⟨0, _⟩ => exact absurd rfl hb) hq.symm

theorem cols_apply_s1 (off : Fin 2 → Nat) (y : S50000x512.Idx → α) (h : S50000x512.Slices off S50000x128) (n : Fin 50000) (j : Fin 128)
    (q : Fin 512) (h0 : off 0 = 0) (hq : q.val = off 1 + j.val) :
    extractStridedSlice S50000x128 off y h (ix2 n j) = y (ix2 n q) :=
  extractStridedSlice_apply off y h (ix2 n j) (ix2 n q) (fun a => by
    match a with
    | ⟨0, _⟩ => show n.val = off 0 + n.val; rw [h0]; omega
    | ⟨1, _⟩ => show q.val = off 1 + j.val; exact hq)

theorem edge_row_apply_s1 (off : Fin 2 → Nat) (x : S2x800000.Idx → α) (h : S2x800000.Slices off S1x800000) (r : Fin 2) (e : Fin 800000)
    (h0 : off 0 = r.val) (h1 : off 1 = 0) :
    shapeCast S800000 (extractStridedSlice S1x800000 off x h) shapeCasts_S1x800000_S800000 (ix1 e) = x (ix2 r e) :=
  (shapeCast_apply _ shapeCasts_S1x800000_S800000 (ix1 e) (ix2 (0 : Fin 1) e) (by
    rw [Shape.rowMajor_val_two, Shape.rowMajor_val_one]; show 0 * 800000 + e.val = e.val; omega)).trans
  (extractStridedSlice_apply off x h (ix2 (0 : Fin 1) e) (ix2 r e) (fun a => by
    match a with
    | ⟨0, _⟩ => show r.val = off 0 + 0; rw [h0]; omega
    | ⟨1, _⟩ => show e.val = off 1 + e.val; rw [h1]; omega))

end Layout

-- Column 128a + j of the wide weight is column j of weight a, and likewise for the wide bias.
theorem proj_piece_s1 (x : FVec Ideal S50000x128 .f32) (u0 u1 u2 u3 : FVec Ideal S128x128 .f32) (b0 b1 b2 b3 : FVec Ideal S128 .f32)
    (a : Fin 4) (n : Fin 50000) (j : Fin 128) (q : Fin 512) (hq : q.val = 128 * a.val + j.val) :
    G0_3 x (cat4m_s1 u0 u1 u2 u3) (shapeCast S1x512 (cat4v_s1 b0 b1 b2 b3) shapeCasts_S512_S1x512) (ix2 n q)
      = (∑ k : Fin 128, x (ix2 n k) * (![u0, u1, u2, u3] a) (ix2 k j)) + (![b0, b1, b2, b3] a) (ix1 j) := by
  rw [G0_3_apply, shapeCast_a_1a_apply, cat4v_apply_s1 b0 b1 b2 b3 a j q hq]
  exact congrArg (· + (![b0, b1, b2, b3] a) (ix1 j))
    (Finset.sum_congr rfl fun k _ => by rw [cat4m_apply_s1 u0 u1 u2 u3 a k j q hq])

variable (m : (ℓ : Loc nD τ sig) → Buf (Elt Ideal) ℓ) (c : Dev nD)

theorem v7_eq_s1 : (W2 m c main_v7 : FVec Ideal S50000x512 .f32)
    = G0_3 (W0 m c main_arg0) (cat4m_s1 (W0 m c main_arg3) (W0 m c main_arg5) (W0 m c main_arg9) (W0 m c main_arg11))
        (shapeCast S1x512 (cat4v_s1 (W0 m c main_arg4) (W0 m c main_arg6) (W0 m c main_arg10) (W0 m c main_arg12))
          shapeCasts_S512_S1x512) := by
  refine (W2_arr m c 3).trans ((final0_3 (atTc (W1 m)) c).trans ?_)
  show G0_3 (W1 m c main_arg0) (StableHlo.after hostOps0 (W0 m c) (Proc.devRef .tc main_v4))
    (StableHlo.after hostOps0 (W0 m c) (Proc.devRef .tc main_v6)) = _
  rw [W1_untouched m c main_arg0 (by decide)]
  after_results
  rfl

-- Band a of the first call's output is the linear layer by weight a and bias a.
theorem band_s1 (a : Fin 4) (off : Fin 2 → Nat) (h : S50000x512.Slices off S50000x128) (h0 : off 0 = 0)
    (h1 : off 1 = 128 * a.val) (n : Fin 50000) (j : Fin 128) :
    extractStridedSlice S50000x128 off (W2 m c main_v7 : FVec Ideal S50000x512 .f32) h (ix2 n j)
      = (![Cert.Spec.Ax, Cert.Spec.Bx, Cert.Spec.Dx, Cert.Spec.Ex] a) (argsOf m c) n j := by
  rw [cols_apply_s1 off _ h n j ⟨128 * a.val + j.val, by omega⟩ h0 (by rw [h1]), v7_eq_s1,
    proj_piece_s1 _ _ _ _ _ _ _ _ _ a n j _ rfl]
  match a with
  | ⟨0, _⟩ | ⟨1, _⟩ | ⟨2, _⟩ | ⟨3, _⟩ => rfl

theorem row_raw (e : Fin 800000) : (W1 m c main_v1 : IVec S800000 32) (ix1 e) = (argsOf m c).ei 0 e := by
  show (StableHlo.after hostOps0 (W0 m c) (Proc.devRef .tc main_v1) : IVec S800000 32) (ix1 e) = _
  after_results
  exact edge_row_apply_s1 ![0, 0] _ slices_S2x800000_S1x800000_0_0 0 e rfl rfl

theorem col_raw (e : Fin 800000) : (W1 m c main_v3 : IVec S800000 32) (ix1 e) = (argsOf m c).ei 1 e := by
  show (StableHlo.after hostOps0 (W0 m c) (Proc.devRef .tc main_v3) : IVec S800000 32) (ix1 e) = _
  after_results
  exact edge_row_apply_s1 ![1, 0] _ slices_S2x800000_S1x800000_1_0 1 e rfl rfl

theorem Ax_eq (n : Fin 50000) (j : Fin 128) :
    (W3 m c main_v8 : FVec Ideal S50000x128 .f32) (ix2 n j) = Cert.Spec.Ax (argsOf m c) n j := by
  show (StableHlo.after hostOps1 (W2 m c) (Proc.devRef .tc main_v8) : FVec Ideal S50000x128 .f32) (ix2 n j) = _
  after_results
  exact band_s1 m c 0 _ _ rfl rfl n j

theorem Bx_eq (n : Fin 50000) (j : Fin 128) :
    (W3 m c main_v9 : FVec Ideal S50000x128 .f32) (ix2 n j) = Cert.Spec.Bx (argsOf m c) n j := by
  show (StableHlo.after hostOps1 (W2 m c) (Proc.devRef .tc main_v9) : FVec Ideal S50000x128 .f32) (ix2 n j) = _
  after_results
  exact band_s1 m c 1 _ _ rfl rfl n j

theorem Dx_eq (n : Fin 50000) (j : Fin 128) :
    (W3 m c main_v10 : FVec Ideal S50000x128 .f32) (ix2 n j) = Cert.Spec.Dx (argsOf m c) n j := by
  show (StableHlo.after hostOps1 (W2 m c) (Proc.devRef .tc main_v10) : FVec Ideal S50000x128 .f32) (ix2 n j) = _
  after_results
  exact band_s1 m c 2 _ _ rfl rfl n j

theorem Ex_eq (n : Fin 50000) (j : Fin 128) :
    (W3 m c main_v11 : FVec Ideal S50000x128 .f32) (ix2 n j) = Cert.Spec.Ex (argsOf m c) n j := by
  show (StableHlo.after hostOps1 (W2 m c) (Proc.devRef .tc main_v11) : FVec Ideal S50000x128 .f32) (ix2 n j) = _
  after_results
  exact band_s1 m c 3 _ _ rfl rfl n j

end Cert.KernelIdeal.Val

end
-- ==== Proof.SpecMath.lean ====
import proofs.«422477_j6347961663751_3_alg».proof.Proof.Spec
import proofs.«422477_j6347961663751_3_alg».proof.Proof.SpecGood
import proofs.«422477_j6347961663751_3_alg».proof.Proof.MathLemmas
import proofs.«422477_j6347961663751_3_alg».proof.Proof.LibGatherScatter
import Idealize.ShloMosaic.Lib.Affine

noncomputable section

open scoped BigOperators
open Idealize.ShloMosaic

namespace Cert.Spec

private theorem toNat_of_range (w : BitVec 32) (h : 0 ≤ w.toInt ∧ w.toInt < 50000) :
    w.toInt = (w.toNat : Int) ∧ w.toNat < 50000 := by
  have hlt : w.toNat < 2 ^ 32 := w.isLt
  have hc := BitVec.toInt_eq_toNat_cond w
  by_cases h2 : 2 * w.toNat < 2 ^ 32
  · rw [if_pos h2] at hc
    omega
  · rw [if_neg h2] at hc
    omega

theorem mask_of_range (w : BitVec 32) (h : 0 ≤ w.toInt ∧ w.toInt < 50000) :
    IntOp.cmpi .slt w 0#32 = 0#1 ∧ IntOp.cmpi .sge w 0#32 = 1#1 ∧ IntOp.cmpi .sle w 49999#32 = 1#1 := by
  have h0 : (0#32).toInt = 0 := by decide
  have h1 : (49999#32).toInt = 49999 := by decide
  refine ⟨ValueIdx.eq_zero_of_ne_one ?_, ?_, ?_⟩
  · rw [IntOp.cmpi_slt, h0]; omega
  · rw [IntOp.cmpi_sge, h0]; exact h.1
  · rw [IntOp.cmpi_sle, h1]; omega

theorem normIdx_of_range (w : BitVec 32) (h : 0 ≤ w.toInt ∧ w.toInt < 50000) :
    Cert.Lib.normIdx 50000#32 w = w := by
  unfold Cert.Lib.normIdx Scalar.select
  rw [(mask_of_range w h).1]
  exact if_neg (by decide)

theorem clampRow_of_range (w : BitVec 32) (h : 0 ≤ w.toInt ∧ w.toInt < 50000) :
    (Cert.Lib.clampRow 50000 (by norm_num) w).val = w.toNat ∧ w.toNat < 50000 := by
  obtain ⟨hi, hn⟩ := toNat_of_range w h
  refine ⟨?_, hn⟩
  show min w.toInt.toNat (50000 - 1) = w.toNat
  rw [hi, Int.toNat_natCast]
  omega

variable (A : Args)

theorem rowOf_val (hG : A.Good) (e : Fin 800000) : (rowOf A e).val = (A.ei 0 e).toNat := by
  unfold rowOf
  rw [normIdx_of_range _ (hG.idx 0 e)]
  exact (clampRow_of_range _ (hG.idx 0 e)).1

theorem lin_real {R K C : ℕ} (X : Fin R → Fin K → E) (W : Fin K → Fin C → E) (b : Fin C → E)
    (hX : ∀ r k, Cert.MathLemmas.IsReal (X r k)) (hW : ∀ k c, Cert.MathLemmas.IsReal (W k c))
    (hb : ∀ c, Cert.MathLemmas.IsReal (b c)) (r c) : Cert.MathLemmas.IsReal (lin X W b r c) := by
  unfold lin
  exact Cert.MathLemmas.IsReal.add
    (Cert.MathLemmas.IsReal.sum _ _ fun k _ => Cert.MathLemmas.IsReal.mul (hX r k) (hW k c)) (hb c)

theorem eij_real (hG : A.Good) (e : Fin 800000) (j : Fin 128) : Cert.MathLemmas.IsReal (eij A e j) := by
  unfold eij Dx Ex Ce
  exact Cert.MathLemmas.IsReal.add
    (Cert.MathLemmas.IsReal.add (lin_real A.x A.WD A.bD hG.x hG.WD hG.bD _ _)
      (lin_real A.x A.WE A.bE hG.x hG.WE hG.bE _ _))
    (lin_real A.ea A.WC A.bC hG.ea hG.WC hG.bC _ _)

theorem var_e_alt (hG : A.Good) (j : Fin 128) :
    Ideal.div (∑ e : Fin 800000, eij A e j * eij A e j) ((800000 : ℝ) : E)
        - mean 800000 (eij A) j * mean 800000 (eij A) j = var 800000 (eij A) j := by
  unfold var mean
  exact Cert.MathLemmas.var_identity' (fun e : Fin 800000 => eij A e j) (fun e => eij_real A hG e j)
    ((800000 : ℝ) : E) 800000 (by norm_num) rfl (by rw [Fintype.card_fin]; norm_num)

theorem tiles (f : Fin 800000 → E) :
    (∑ t : Fin 160, ∑ r : Fin 5000, f ⟨5000 * t.val + r.val, by omega⟩) = ∑ e : Fin 800000, f e := by
  have key := Cert.MathLemmas.sum_tiles (M := E) 160 5000 (fun n => if h : n < 800000 then f ⟨n, h⟩ else 0)
  exact (Finset.sum_congr rfl fun t _ => Finset.sum_congr rfl fun r _ => by
      beta_reduce; rw [dif_pos (show 5000 * t.val + r.val < 800000 by omega)]).trans
    (key.trans (Finset.sum_congr rfl fun i _ => dif_pos i.isLt))

end Cert.Spec

end
-- ==== Proof.KV.Stage2.lean ====
import proofs.«422477_j6347961663751_3_alg».proof.Proof.KI.Fold
import proofs.«422477_j6347961663751_3_alg».proof.Proof.KV.Args
import proofs.«422477_j6347961663751_3_alg».proof.Proof.Spec
import proofs.«422477_j6347961663751_3_alg».proof.Proof.SpecGood
import proofs.«422477_j6347961663751_3_alg».proof.Proof.SpecMath
import proofs.«422477_j6347961663751_3_alg».proof.Proof.LibGatherScatter
import Idealize.ShloMosaic.Lib.StableHlo.Run
import Idealize.ShloMosaic.Lib.ValueIdx
import Idealize.ShloMosaic.Lib.ValueLayout
import Idealize.ShloMosaic.Lib.Pipeline.Value
import Idealize.ShloMosaic.PureOps.Reduce

noncomputable section

namespace Cert.KernelIdeal.Val

open Cert.KernelIdeal Cert.KernelIdeal.Gen Cert.KernelIdeal.Frm
open Idealize.ShloMosaic Idealize.ShloMosaic.ValueIdx Idealize.ShloMosaic.TcCoe

def normVec_s2 (ws : IVec S800000 32) : IVec S800000 32 :=
  select (cmpi .slt ws (broadcastInDim S800000 ![] bcast_S_S800000 (constantI S_ 32 0#32)))
    (addi ws (broadcastInDim S800000 ![] bcast_S_S800000 (constantI S_ 32 50000#32))) ws

def idxCol_s2 (ws : IVec S800000 32) : IVec S800000x1 32 :=
  broadcastInDim S800000x1 ![0] bcast_S800000_S800000x1_0 (normVec_s2 ws)

def maskCol_s2 (ws : IVec S800000 32) : IVec S800000x1 1 :=
  andi (cmpi .sge (idxCol_s2 ws) (broadcastInDim S800000x1 ![] bcast_S_S800000x1 (constantI S_ 32 0#32)))
    (cmpi .sle (idxCol_s2 ws) (broadcastInDim S800000x1 ![0, 1] bcast_S1x1_S800000x1_0_1
      (broadcastInDim S1x1 ![1] bcast_S1_S1x1_1 (constantI S1 32 49999#32))))

def maskVec_s2 (ws : IVec S800000 32) : IVec S800000 1 :=
  Host.reduce IntOp.andi (maskCol_s2 ws) (constantI S_ 1 1#1) reducesTo_S800000x1_S800000_d1 h_S_

def takeTerm_s2 {F : FTy → Type} [FloatOps F] (T : FVec F S50000x128 .f32) (ws : IVec S800000 32) :
    FVec F S800000x128 .f32 :=
  select (broadcastInDim S800000x128 ![0] bcast_S800000_S800000x128_0 (maskVec_s2 ws))
    (Host.gather gather_S50000x128_S800000x1_S800000x128_1_0_n_n_0_1_1128 T (idxCol_s2 ws))
    (broadcastInDim S800000x128 ![] bcast_S_S800000x128 (constant (F := F) S_ .f32 0x7FC00000#32))

theorem bcast_rows_apply_s2 {α : Type} {n C : Nat} (hn : n ≠ 1)
    (h : (⟨1, ![n]⟩ : Shape).BroadcastsInDim ⟨2, ![n, C]⟩ (![0] : Fin 1 → Fin 2)) (x : (⟨1, ![n]⟩ : Shape).Idx → α)
    (e : Fin n) (j : Fin C) : broadcastInDim ⟨2, ![n, C]⟩ ![0] h x (ix2 e j) = x (ix1 e) :=
  broadcastInDim_apply ![0] h x (ix2 e j) (ix1 e) (by
    intro a
    obtain rfl : a = 0 := Subsingleton.elim _ _
    show e.val = if n = 1 then 0 else e.val
    rw [if_neg hn])

theorem idxCol_apply_s2 (ws : IVec S800000 32) (e : Fin 800000) (k : Fin 1) :
    idxCol_s2 ws (ix2 e k) = Cert.Lib.normIdx 50000#32 (ws (ix1 e)) :=
  bcast_rows_apply_s2 (by norm_num) bcast_S800000_S800000x1_0 (normVec_s2 ws) e k

theorem maskCol_apply_s2 (ws : IVec S800000 32) (i : S800000x1.Idx) :
    maskCol_s2 ws i = IntOp.andi (IntOp.cmpi .sge (idxCol_s2 ws i) 0#32) (IntOp.cmpi .sle (idxCol_s2 ws i) 49999#32) := rfl

theorem maskCol_one_s2 (ws : IVec S800000 32) (e : Fin 800000) (k : Fin 1)
    (h : 0 ≤ (ws (ix1 e)).toInt ∧ (ws (ix1 e)).toInt < 50000) : maskCol_s2 ws (ix2 e k) = 1#1 := by
  rw [maskCol_apply_s2, idxCol_apply_s2, Cert.Spec.normIdx_of_range _ h, (Cert.Spec.mask_of_range _ h).2.1,
    (Cert.Spec.mask_of_range _ h).2.2]
  rfl

theorem foldl_andi_one_s2 {ι : Type} (f : ι → BitVec 1) :
    ∀ l : List ι, (∀ n ∈ l, f n = 1#1) → l.foldl (fun r n => IntOp.andi r (f n)) 1#1 = 1#1
  | [], _ => rfl
  | a :: l, h => by
    have h1 : IntOp.andi 1#1 (f a) = 1#1 := by rw [h a (List.mem_cons_self ..)]; rfl
    rw [List.foldl_cons, h1]
    exact foldl_andi_one_s2 f l fun n hn => h n (List.mem_cons_of_mem _ hn)

theorem maskVec_one_s2 (ws : IVec S800000 32) (e : Fin 800000)
    (h : 0 ≤ (ws (ix1 e)).toInt ∧ (ws (ix1 e)).toInt < 50000) : maskVec_s2 ws (ix1 e) = 1#1 := by
  unfold maskVec_s2
  rw [Host.reduce_eq_foldl]
  refine foldl_andi_one_s2 _ _ fun i hi => ?_
  have hd : reducesTo_S800000x1_S800000_d1.drop i = ix1 e := of_decide_eq_true (List.mem_filter.1 hi).2
  obtain ⟨a, k, rfl⟩ : ∃ (a : Fin 800000) (k : Fin 1), i = ix2 a k := ⟨i 0, i 1, eq_ix2 i⟩
  have h0 : a.val = e.val := by
    have h1 := congrArg (fun j : S800000.Idx => (j 0).val) hd
    have h2 := Shape.ReducesTo.drop_apply_val_of_eq reducesTo_S800000x1_S800000_d1 (ix2 a k) 0 0
    exact h2.symm.trans h1
  obtain rfl : a = e := Fin.ext h0
  exact maskCol_one_s2 ws a k h

theorem gatherRows_apply_s2 {F : FTy → Type} (T : FVec F S50000x128 .f32) (idx : IVec S800000x1 32) (e : Fin 800000)
    (j : Fin 128) :
    Host.gather gather_S50000x128_S800000x1_S800000x128_1_0_n_n_0_1_1128 T idx (ix2 e j)
      = T (ix2 (Cert.Lib.clampRow 50000 (by norm_num) (idx (ix2 e 0))) j) :=
  Cert.Lib.gather_rows_apply (by norm_num) gather_S50000x128_S800000x1_S800000x128_1_0_n_n_0_1_1128.wf T idx e j

theorem takeTerm_apply_s2 {F : FTy → Type} [FloatOps F] (T : FVec F S50000x128 .f32) (ws : IVec S800000 32)
    (e : Fin 800000) (j : Fin 128) (h : 0 ≤ (ws (ix1 e)).toInt ∧ (ws (ix1 e)).toInt < 50000) :
    takeTerm_s2 T ws (ix2 e j)
      = T (ix2 (Cert.Lib.clampRow 50000 (by norm_num) (Cert.Lib.normIdx 50000#32 (ws (ix1 e)))) j) := by
  have hm : broadcastInDim S800000x128 ![0] bcast_S800000_S800000x128_0 (maskVec_s2 ws) (ix2 e j) = 1#1 :=
    (bcast_rows_apply_s2 (by norm_num) bcast_S800000_S800000x128_0 (maskVec_s2 ws) e j).trans (maskVec_one_s2 ws e h)
  unfold takeTerm_s2
  rw [select_apply, hm, select_one, gatherRows_apply_s2, idxCol_apply_s2]

theorem ofBuf_toBuf_s2 {Val : EltTy → Type} {T : BufTy} (r : Ref sig .tc) (h1 h1' : r.ty = T) (h2 h2' : r.space ≠ .host)
    (h3 h3' : r.isScoped = false) (v : T.Contents Val) :
    (StableHlo.TRef.of r h1 h2 h3).ofBuf ((StableHlo.TRef.of r h1' h2' h3').toBuf v) = v := by
  subst h1; rfl

section Casts
variable {F : FTy → Type} [FloatOps F]

theorem ofBuf_v1_s2 (h1 h2 h3) (v : BufTy.Contents (Elt F) (main_v1 : Ref sig .tc).ty) :
    (StableHlo.TRef.of main_v1 h1 h2 h3 : StableHlo.TRef sig ⟨S800000, .i32⟩).ofBuf v = v := rfl
theorem ofBuf_v3_s2 (h1 h2 h3) (v : BufTy.Contents (Elt F) (main_v3 : Ref sig .tc).ty) :
    (StableHlo.TRef.of main_v3 h1 h2 h3 : StableHlo.TRef sig ⟨S800000, .i32⟩).ofBuf v = v := rfl
theorem ofBuf_v9_s2 (h1 h2 h3) (v : BufTy.Contents (Elt F) (main_v9 : Ref sig .tc).ty) :
    (StableHlo.TRef.of main_v9 h1 h2 h3 : StableHlo.TRef sig ⟨S50000x128, .f32⟩).ofBuf v = v := rfl
theorem ofBuf_v10_s2 (h1 h2 h3) (v : BufTy.Contents (Elt F) (main_v10 : Ref sig .tc).ty) :
    (StableHlo.TRef.of main_v10 h1 h2 h3 : StableHlo.TRef sig ⟨S50000x128, .f32⟩).ofBuf v = v := rfl
theorem ofBuf_v11_s2 (h1 h2 h3) (v : BufTy.Contents (Elt F) (main_v11 : Ref sig .tc).ty) :
    (StableHlo.TRef.of main_v11 h1 h2 h3 : StableHlo.TRef sig ⟨S50000x128, .f32⟩).ofBuf v = v := rfl
theorem toBuf_v12_s2 (h1 h2 h3) (v : FVec F S800000x128 .f32) :
    ((StableHlo.TRef.of main_v12 h1 h2 h3 : StableHlo.TRef sig ⟨S800000x128, .f32⟩).toBuf (Val := Elt F) v
      : FVec F S800000x128 .f32) = v := rfl
theorem toBuf_v13_s2 (h1 h2 h3) (v : FVec F S800000x128 .f32) :
    ((StableHlo.TRef.of main_v13 h1 h2 h3 : StableHlo.TRef sig ⟨S800000x128, .f32⟩).toBuf (Val := Elt F) v
      : FVec F S800000x128 .f32) = v := rfl
theorem toBuf_v15_s2 (h1 h2 h3) (v : FVec F S800000x128 .f32) :
    ((StableHlo.TRef.of main_v15 h1 h2 h3 : StableHlo.TRef sig ⟨S800000x128, .f32⟩).toBuf (Val := Elt F) v
      : FVec F S800000x128 .f32) = v := rfl

theorem take1_eq_s2 (V : Valuation τ sig (Elt F)) :
    StableHlo.after hostOps1_1 V (main_v12 : DevRef τ sig)
      = takeTerm_s2 (V (main_v10 : DevRef τ sig)) (V (main_v1 : DevRef τ sig)) := by
  after_results_simp
  simp only [ofBuf_toBuf_s2, ofBuf_v1_s2, ofBuf_v10_s2, toBuf_v12_s2]
  rfl

theorem take2_eq_s2 (V : Valuation τ sig (Elt F)) :
    StableHlo.after hostOps1_2 V (main_v13 : DevRef τ sig)
      = takeTerm_s2 (V (main_v11 : DevRef τ sig)) (V (main_v3 : DevRef τ sig)) := by
  after_results_simp
  simp only [ofBuf_toBuf_s2, ofBuf_v3_s2, ofBuf_v11_s2, toBuf_v13_s2]
  rfl

theorem take3_eq_s2 (V : Valuation τ sig (Elt F)) :
    StableHlo.after hostOps1_4 V (main_v15 : DevRef τ sig)
      = takeTerm_s2 (V (main_v9 : DevRef τ sig)) (V (main_v3 : DevRef τ sig)) := by
  after_results_simp
  simp only [ofBuf_toBuf_s2, ofBuf_v3_s2, ofBuf_v9_s2, toBuf_v15_s2]
  rfl

theorem add_eq_s2 (V : Valuation τ sig (Elt F)) :
    StableHlo.after hostOps1_3 V (main_v14 : DevRef τ sig)
      = addf (V (main_v12 : DevRef τ sig) : FVec F S800000x128 .f32) (V (main_v13 : DevRef τ sig)) := by
  after_results_simp

theorem bias_eq_s2 (V : Valuation τ sig (Elt F)) :
    StableHlo.after hostOps1_5 V (main_v16 : DevRef τ sig)
      = shapeCast S1x128 (V (main_arg8 : DevRef τ sig) : FVec F S128 .f32) shapeCasts_S128_S1x128 := by
  after_results_simp
  rfl

end Casts

theorem take_read_s2 (T : FVec Ideal S50000x128 .f32) (ws : IVec S800000 32) (tab : Fin 50000 → Fin 128 → Cert.Spec.E)
    (w : Fin 800000 → BitVec 32) (hT : ∀ n j, T (ix2 n j) = tab n j) (hw : ∀ e, ws (ix1 e) = w e)
    (hr : ∀ e, 0 ≤ (w e).toInt ∧ (w e).toInt < 50000) (e : Fin 800000) (j : Fin 128) :
    takeTerm_s2 T ws (ix2 e j)
      = tab (Cert.Lib.clampRow 50000 (by norm_num) (Cert.Lib.normIdx 50000#32 (w e))) j := by
  rw [takeTerm_apply_s2 T ws e j (by rw [hw]; exact hr e), hT, hw]

variable (m : (ℓ : Loc nD τ sig) → Buf (Elt Ideal) ℓ) (c : Dev nD)
  (hidx : ∀ a e, 0 ≤ ((argsOf m c).ei a e).toInt ∧ ((argsOf m c).ei a e).toInt < 50000)
  (hrow : ∀ e, (W1 m c main_v1 : IVec S800000 32) (ix1 e) = (argsOf m c).ei 0 e)
  (hcol : ∀ e, (W1 m c main_v3 : IVec S800000 32) (ix1 e) = (argsOf m c).ei 1 e)
  (hDx : ∀ n j, (W3 m c main_v10 : FVec Ideal S50000x128 .f32) (ix2 n j) = Cert.Spec.Dx (argsOf m c) n j)
  (hEx : ∀ n j, (W3 m c main_v11 : FVec Ideal S50000x128 .f32) (ix2 n j) = Cert.Spec.Ex (argsOf m c) n j)
  (hBx : ∀ n j, (W3 m c main_v9 : FVec Ideal S50000x128 .f32) (ix2 n j) = Cert.Spec.Bx (argsOf m c) n j)

include hrow in
theorem row_W3_s2 (e : Fin 800000) : (W3 m c main_v1 : IVec S800000 32) (ix1 e) = (argsOf m c).ei 0 e := by
  rw [W3_of m c main_v1 (by decide), W2_of m c main_v1 (by decide)]
  exact hrow e

include hcol in
theorem col_W3_s2 (e : Fin 800000) : (W3 m c main_v3 : IVec S800000 32) (ix1 e) = (argsOf m c).ei 1 e := by
  rw [W3_of m c main_v3 (by decide), W2_of m c main_v3 (by decide)]
  exact hcol e

include hidx hrow hDx in
theorem v12_eq_s2 (e : Fin 800000) (j : Fin 128) :
    (W4 m c main_v12 : FVec Ideal S800000x128 .f32) (ix2 e j)
      = Cert.Spec.Dx (argsOf m c) (Cert.Spec.rowOf (argsOf m c) e) j :=
  (congrFun (take1_eq_s2 (W3 m c)) (ix2 e j)).trans
    (take_read_s2 _ _ (Cert.Spec.Dx (argsOf m c)) ((argsOf m c).ei 0) hDx (row_W3_s2 m c hrow) (hidx 0) e j)

include hidx hcol hEx in
theorem v13_eq_s2 (e : Fin 800000) (j : Fin 128) :
    (W5 m c main_v13 : FVec Ideal S800000x128 .f32) (ix2 e j)
      = Cert.Spec.Ex (argsOf m c) (Cert.Spec.colOf (argsOf m c) e) j :=
  (congrFun (take2_eq_s2 (W4 m c)) (ix2 e j)).trans
    (take_read_s2 _ _ (Cert.Spec.Ex (argsOf m c)) ((argsOf m c).ei 1)
      (fun n j => by rw [W4_of m c main_v11 (by decide)]; exact hEx n j)
      (fun e => by rw [W4_of m c main_v3 (by decide)]; exact col_W3_s2 m c hcol e) (hidx 1) e j)

include hidx hrow hcol hDx hEx in
theorem de_eq (e : Fin 800000) (j : Fin 128) :
    (W8 m c main_v14 : FVec Ideal S800000x128 .f32) (ix2 e j)
      = Cert.Spec.Dx (argsOf m c) (Cert.Spec.rowOf (argsOf m c) e) j
        + Cert.Spec.Ex (argsOf m c) (Cert.Spec.colOf (argsOf m c) e) j := by
  rw [W8_of m c main_v14 (by decide), W7_of m c main_v14 (by decide)]
  refine (congrFun (add_eq_s2 (W5 m c)) (ix2 e j)).trans ?_
  rw [addf_apply, W5_of m c main_v12 (by decide), v12_eq_s2 m c hidx hrow hDx e j, v13_eq_s2 m c hidx hcol hEx e j]

include hidx hcol hBx in
theorem bxc_eq (e : Fin 800000) (j : Fin 128) :
    (W8 m c main_v15 : FVec Ideal S800000x128 .f32) (ix2 e j)
      = Cert.Spec.Bx (argsOf m c) (Cert.Spec.colOf (argsOf m c) e) j := by
  rw [W8_of m c main_v15 (by decide)]
  exact (congrFun (take3_eq_s2 (W6 m c)) (ix2 e j)).trans
    (take_read_s2 _ _ (Cert.Spec.Bx (argsOf m c)) ((argsOf m c).ei 1)
      (fun n j => by
        rw [W6_of m c main_v9 (by decide), W5_of m c main_v9 (by decide), W4_of m c main_v9 (by decide)]
        exact hBx n j)
      (fun e => by
        rw [W6_of m c main_v3 (by decide), W5_of m c main_v3 (by decide), W4_of m c main_v3 (by decide)]
        exact col_W3_s2 m c hcol e) (hidx 1) e j)

theorem bC_eq (j : Fin 128) : (W8 m c main_v16 : FVec Ideal S1x128 .f32) (ix2 (0 : Fin 1) j) = (argsOf m c).bC j := by
  refine (congrFun (bias_eq_s2 (W7 m c)) (ix2 (0 : Fin 1) j)).trans ?_
  rw [shapeCast_a_1a_apply, W7_untouched m c main_arg8 (by decide)]
  rfl

end Cert.KernelIdeal.Val
-- ==== Proof.KV.Val1.lean ====
import proofs.«422477_j6347961663751_3_alg».proof.Proof.KI.Reg1
import proofs.«422477_j6347961663751_3_alg».proof.Proof.KV.Val1Pay
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Val

open Cert.KernelIdeal Cert.KernelIdeal.Gen Cert.KernelIdeal.Frm
open Idealize.ShloMosaic Idealize.ShloMosaic.TcCoe Idealize.SL.Sem Idealize.ShloMosaic.ValueIdx
open Idealize.ShloMosaic.Pipeline (Dat)

theorem hz2_v1 : (![0, 0] : Fin 2 → Nat) = fun _ => 0 := funext fun a => by fin_cases a <;> rfl
theorem hz3_v1 : (![0, 0, 0] : Fin 3 → Nat) = fun _ => 0 := funext fun a => by fin_cases a <;> rfl

theorem idx_facts1 : ∀ t : Fin cfg1.N,
    (∀ a : Fin 2, win1_1.index t a = 0 ∧ win1_2.index t a = 0)
    ∧ (win1_0.index t (0 : Fin 2) = t.val ∧ win1_3.index t (0 : Fin 2) = t.val ∧ win1_4.index t (0 : Fin 2) = t.val
      ∧ win1_5.index t (0 : Fin 2) = t.val)
    ∧ (win1_0.index t (1 : Fin 2) = 0 ∧ win1_3.index t (1 : Fin 2) = 0 ∧ win1_4.index t (1 : Fin 2) = 0
      ∧ win1_5.index t (1 : Fin 2) = 0)
    ∧ (win1_6.index t (0 : Fin 3) = t.val ∧ win1_6.index t (1 : Fin 3) = 0 ∧ win1_6.index t (2 : Fin 3) = 0)
    ∧ (win1_7.index t (0 : Fin 3) = t.val ∧ win1_7.index t (1 : Fin 3) = 0 ∧ win1_7.index t (2 : Fin 3) = 0) :=
  (by decide +kernel : ∀ t : Fin grid1.N, _)

theorem lt160 (t : Fin cfg1.N) : t.val < 160 := Nat.lt_of_lt_of_eq t.isLt N_1

theorem unit3_mem (i : S160x1x128.Idx) (idx : Fin 3 → ℕ) (h0 : idx 0 = (i 0).val) (h1 : idx 1 = 0) (h2 : idx 2 = 0) :
    ∀ a : Fin 3, idx a * S1x1x128.size a ≤ (i a).val ∧ (i a).val < idx a * S1x1x128.size a + S1x1x128.size a := by
  have hi1 : (i 1).val < 1 := (i 1).isLt
  have hi2 : (i 2).val < 128 := (i 2).isLt
  intro a
  match a with
  | ⟨0, _⟩ => show idx 0 * 1 ≤ (i 0).val ∧ (i 0).val < idx 0 * 1 + 1; omega
  | ⟨1, _⟩ => show idx 1 * 1 ≤ (i 1).val ∧ (i 1).val < idx 1 * 1 + 1; omega
  | ⟨2, _⟩ => show idx 2 * 128 ≤ (i 2).val ∧ (i 2).val < idx 2 * 128 + 128; omega

theorem unit3_emb (t : Fin cfg1.N) (idx : Fin 3 → ℕ) (h0 : idx 0 = t.val) (h1 : idx 1 = 0) (h2 : idx 2 = 0)
    (u u' : Fin 1) (q : Fin 128) (e : S160x1x128.Idx)
    (he : ∀ a, (e a).val = idx a * S1x1x128.size a + (ix3 u u' q a).val) :
    e = ix3 (⟨t.val, lt160 t⟩ : Fin 160) (0 : Fin 1) q := by
  funext a; apply Fin.ext; rw [he]
  match a with
  | ⟨0, _⟩ => show idx 0 * 1 + u.val = t.val; omega
  | ⟨1, _⟩ => show idx 1 * 1 + u'.val = 0; omega
  | ⟨2, _⟩ => show idx 2 * 128 + q.val = q.val; omega

variable (V : (c : Dev nD) → (b : Ref sig .tc) → Buf (Elt Ideal) ((c : Thread nD τ).loc b)) (c : Dev nD) (t : Fin cfg1.N)

theorem mov1_0 (p : Fin 5000) (k : Fin 128) (r : Fin 800000) (hr : r.val = 5000 * t.val + p.val) :
    iblk1 V c 0 t (ix2 p k) = V c (Pipeline.arrRef spec1 0) (ix2 r k) :=
  congrArg (V c (Pipeline.arrRef spec1 0)) (Shape.idx_ext₂
    (by show win1_0.index t (0 : Fin 2) * 5000 + 1 * p.val = r.val
        rw [(idx_facts1 t).2.1.1, hr]; omega)
    (win1_0.rect_emb_val_of_index_zero t (1 : Fin 2) (idx_facts1 t).2.2.1.1 (ix2 p k)))
theorem mov1_3 (p : Fin 5000) (k : Fin 128) (r : Fin 800000) (hr : r.val = 5000 * t.val + p.val) :
    iblk1 V c 3 t (ix2 p k) = V c (Pipeline.arrRef spec1 3) (ix2 r k) :=
  congrArg (V c (Pipeline.arrRef spec1 3)) (Shape.idx_ext₂
    (by show win1_3.index t (0 : Fin 2) * 5000 + 1 * p.val = r.val
        rw [(idx_facts1 t).2.1.2.1, hr]; omega)
    (win1_3.rect_emb_val_of_index_zero t (1 : Fin 2) (idx_facts1 t).2.2.1.2.1 (ix2 p k)))
theorem mov1_4 (p : Fin 5000) (k : Fin 128) (r : Fin 800000) (hr : r.val = 5000 * t.val + p.val) :
    iblk1 V c 4 t (ix2 p k) = V c (Pipeline.arrRef spec1 4) (ix2 r k) :=
  congrArg (V c (Pipeline.arrRef spec1 4)) (Shape.idx_ext₂
    (by show win1_4.index t (0 : Fin 2) * 5000 + 1 * p.val = r.val
        rw [(idx_facts1 t).2.1.2.2.1, hr]; omega)
    (win1_4.rect_emb_val_of_index_zero t (1 : Fin 2) (idx_facts1 t).2.2.1.2.2.1 (ix2 p k)))

theorem res1_1 (z : S128x128.Idx) : iblk1 V c 1 t z = V c (Pipeline.arrRef spec1 1) z :=
  congrArg (V c (Pipeline.arrRef spec1 1)) (Shape.idx_ext₂
    (win1_1.rect_emb_val_of_index_zero t (0 : Fin 2) ((idx_facts1 t).1 0).1 z)
    (win1_1.rect_emb_val_of_index_zero t (1 : Fin 2) ((idx_facts1 t).1 1).1 z))
theorem res1_2 (z : S1x128.Idx) : iblk1 V c 2 t z = V c (Pipeline.arrRef spec1 2) z :=
  congrArg (V c (Pipeline.arrRef spec1 2)) (Shape.idx_ext₂
    (win1_2.rect_emb_val_of_index_zero t (0 : Fin 2) ((idx_facts1 t).1 0).2 z)
    (win1_2.rect_emb_val_of_index_zero t (1 : Fin 2) ((idx_facts1 t).1 1).2 z))

theorem edge_blk (p : Fin 5000) (q : Fin 128) (r : Fin 800000) (hr : r.val = 5000 * t.val + p.val) :
    edgeAt (iblk1 V c 0 t) (iblk1 V c 1 t) (iblk1 V c 2 t) (iblk1 V c 3 t) p q
      = edgeAt (V c (Pipeline.arrRef spec1 0)) (V c (Pipeline.arrRef spec1 1)) (V c (Pipeline.arrRef spec1 2))
          (V c (Pipeline.arrRef spec1 3)) r q :=
  edgeAt_congr _ _ _ _ _ _ _ _ p r q (fun k => mov1_0 V c t p k r hr) (fun k => res1_1 V c t _)
    (res1_2 V c t _) (mov1_3 V c t p q r hr)

theorem flushed5_eq :
    (dat1 V c).flushed 5 t = ((cfg1.win 5).blk t).view.read (Elt Ideal) (G1_5 (V c (Pipeline.arrRef spec1 0)) (V c (Pipeline.arrRef spec1 1)) (V c (Pipeline.arrRef spec1 2)) (V c (Pipeline.arrRef spec1 3)) (V c (Pipeline.arrRef spec1 4))) := by
  show (cfg1.win 5).cut (grid1.coords t) ((dat1 V c).after 5 t) = _
  rw [after1_5]
  unfold out1_5
  rw [View.canon_unit_zero hz2_v1]
  simp only [View.ld_unit_zero (S := S5000x128) hz2_v1, View.ld_unit_zero (S := S128x128) hz2_v1, View.ld_unit_zero (S := S1x128) hz2_v1]
  funext j
  obtain ⟨p, q, rfl⟩ : ∃ (p : Fin 5000) (q : Fin 128), j = ix2 p q := ⟨j 0, j 1, eq_ix2 j⟩
  have hrow : 5000 * t.val + p.val < 800000 := by have := lt160 t; omega
  have hemb : ((cfg1.win 5).blk t).view.emb (ix2 p q) = ix2 (⟨5000 * t.val + p.val, hrow⟩ : Fin 800000) q :=
    Shape.idx_ext₂
      (by show win1_5.index t (0 : Fin 2) * 5000 + 1 * p.val = 5000 * t.val + p.val
          rw [(idx_facts1 t).2.1.2.2.2]; omega)
      (win1_5.rect_emb_val_of_index_zero t (1 : Fin 2) (idx_facts1 t).2.2.1.2.2.2 (ix2 p q))
  show k1_pay2 (F := Ideal) _ _ _ _ _ (ix2 p q) = G1_5 _ _ _ _ _ (((cfg1.win 5).blk t).view.emb (ix2 p q))
  rw [hemb, G1_5_apply]
  exact (pay2_apply_v1 _ _ _ _ _ p q).trans
    (congrArg₂ (· * ·) (congrArg Ideal.logistic (edge_blk V c t p q _ rfl)) (mov1_4 V c t p q _ rfl))

-- Row r of the first result lies in the block of point r / 5000.
theorem cover5 (i : S800000x128.Idx) :
    ∃ t : Fin cfg1.N, (cfg1.win 5).flush t = true ∧ i ∈ ((cfg1.win 5).blk t).view.set := by
  have hi0 : (i 0).val < 800000 := (i 0).isLt
  have hi1 : (i 1).val < 128 := (i 1).isLt
  let t : Fin cfg1.N := ⟨(i 0).val / 5000, by rw [show cfg1.N = 160 from N_1]; omega⟩
  have ht : t.val = (i 0).val / 5000 := rfl
  refine ⟨t, flush1_5 t, ?_⟩
  show i ∈ ((View.whole main_v17_0).slice (win1_5.rect t)).set
  rw [View.set_slice_whole, Rect.mem_set_unit]
  intro a
  match a with
  | ⟨0, _⟩ =>
    show win1_5.index t (0 : Fin 2) * 5000 ≤ (i 0).val ∧ (i 0).val < win1_5.index t (0 : Fin 2) * 5000 + 5000
    rw [(idx_facts1 t).2.1.2.2.2, ht]; omega
  | ⟨1, _⟩ =>
    show win1_5.index t (1 : Fin 2) * 128 ≤ (i 1).val ∧ (i 1).val < win1_5.index t (1 : Fin 2) * 128 + 128
    rw [(idx_facts1 t).2.2.1.2.2.2]; omega

theorem final1_5 :
    (dat1 (F := Ideal) V c).arrAt 5 cfg1.N
      = G1_5 (V c (Pipeline.arrRef spec1 0)) (V c (Pipeline.arrRef spec1 1)) (V c (Pipeline.arrRef spec1 2)) (V c (Pipeline.arrRef spec1 3)) (V c (Pipeline.arrRef spec1 4)) :=
  (dat1 V c).arrAt_eq_of_cover 5 _ (fun t _ => flushed5_eq V c t) cover5

set_option maxHeartbeats 1000000 in
theorem flushed6_eq :
    (dat1 V c).flushed 6 t = ((cfg1.win 6).blk t).view.read (Elt Ideal) (G1_6 (V c (Pipeline.arrRef spec1 0)) (V c (Pipeline.arrRef spec1 1)) (V c (Pipeline.arrRef spec1 2)) (V c (Pipeline.arrRef spec1 3)) (V c (Pipeline.arrRef spec1 4))) := by
  show (cfg1.win 6).cut (grid1.coords t) ((dat1 V c).after 6 t) = _
  rw [after1_6]
  unfold out1_6
  rw [View.canon_unit_zero hz3_v1]
  simp only [View.ld_unit_zero (S := S5000x128) hz2_v1, View.ld_unit_zero (S := S128x128) hz2_v1, View.ld_unit_zero (S := S1x128) hz2_v1]
  funext j
  obtain ⟨u, u', q, rfl⟩ : ∃ (u : Fin 1) (u' : Fin 1) (q : Fin 128), j = ix3 u u' q := ⟨j 0, j 1, j 2, eq_ix3 j⟩
  have hemb := unit3_emb t _ (idx_facts1 t).2.2.2.1.1 (idx_facts1 t).2.2.2.1.2.1 (idx_facts1 t).2.2.2.1.2.2 u u' q _
    (win1_6.rect_emb_val t (ix3 u u' q))
  show k1_pay3 (F := Ideal) _ _ _ _ (ix3 u u' q) = G1_6 _ _ _ _ (V c (Pipeline.arrRef spec1 4)) ((win1_6.rect t).emb (ix3 u u' q))
  rw [hemb, G1_6_apply]
  exact (pay3_apply _ _ _ _ q u u').trans (Finset.sum_congr rfl fun p _ => edge_blk V c t p q _ rfl)

theorem cover6 (i : S160x1x128.Idx) :
    ∃ t : Fin cfg1.N, (cfg1.win 6).flush t = true ∧ i ∈ ((cfg1.win 6).blk t).view.set := by
  have hi0 : (i 0).val < 160 := (i 0).isLt
  let s : Fin cfg1.N := ⟨(i 0).val, by rw [show cfg1.N = 160 from N_1]; exact hi0⟩
  refine ⟨s, flush1_6 s, ?_⟩
  show i ∈ ((View.whole main_v17_1).slice (win1_6.rect s)).set
  rw [View.set_slice_whole, Rect.mem_set_unit]
  exact unit3_mem i _ (idx_facts1 s).2.2.2.1.1 (idx_facts1 s).2.2.2.1.2.1 (idx_facts1 s).2.2.2.1.2.2

theorem final1_6 :
    (dat1 (F := Ideal) V c).arrAt 6 cfg1.N
      = G1_6 (V c (Pipeline.arrRef spec1 0)) (V c (Pipeline.arrRef spec1 1)) (V c (Pipeline.arrRef spec1 2)) (V c (Pipeline.arrRef spec1 3)) (V c (Pipeline.arrRef spec1 4)) :=
  (dat1 V c).arrAt_eq_of_cover 6 _ (fun t _ => flushed6_eq V c t) cover6

set_option maxHeartbeats 1000000 in
theorem flushed7_eq :
    (dat1 V c).flushed 7 t = ((cfg1.win 7).blk t).view.read (Elt Ideal) (G1_7 (V c (Pipeline.arrRef spec1 0)) (V c (Pipeline.arrRef spec1 1)) (V c (Pipeline.arrRef spec1 2)) (V c (Pipeline.arrRef spec1 3)) (V c (Pipeline.arrRef spec1 4))) := by
  show (cfg1.win 7).cut (grid1.coords t) ((dat1 V c).after 7 t) = _
  rw [after1_7]
  unfold out1_7
  rw [View.canon_unit_zero hz3_v1]
  simp only [View.ld_unit_zero (S := S5000x128) hz2_v1, View.ld_unit_zero (S := S128x128) hz2_v1, View.ld_unit_zero (S := S1x128) hz2_v1]
  funext j
  obtain ⟨u, u', q, rfl⟩ : ∃ (u : Fin 1) (u' : Fin 1) (q : Fin 128), j = ix3 u u' q := ⟨j 0, j 1, j 2, eq_ix3 j⟩
  have hemb := unit3_emb t _ (idx_facts1 t).2.2.2.2.1 (idx_facts1 t).2.2.2.2.2.1 (idx_facts1 t).2.2.2.2.2.2 u u' q _
    (win1_7.rect_emb_val t (ix3 u u' q))
  show k1_pay4 (F := Ideal) _ _ _ _ (ix3 u u' q) = G1_7 _ _ _ _ (V c (Pipeline.arrRef spec1 4)) ((win1_7.rect t).emb (ix3 u u' q))
  rw [hemb, G1_7_apply]
  exact (pay4_apply _ _ _ _ q u u').trans (Finset.sum_congr rfl fun p _ => congrArg₂ (· * ·) (edge_blk V c t p q _ rfl) (edge_blk V c t p q _ rfl))

theorem cover7 (i : S160x1x128.Idx) :
    ∃ t : Fin cfg1.N, (cfg1.win 7).flush t = true ∧ i ∈ ((cfg1.win 7).blk t).view.set := by
  have hi0 : (i 0).val < 160 := (i 0).isLt
  let s : Fin cfg1.N := ⟨(i 0).val, by rw [show cfg1.N = 160 from N_1]; exact hi0⟩
  refine ⟨s, flush1_7 s, ?_⟩
  show i ∈ ((View.whole main_v17_2).slice (win1_7.rect s)).set
  rw [View.set_slice_whole, Rect.mem_set_unit]
  exact unit3_mem i _ (idx_facts1 s).2.2.2.2.1 (idx_facts1 s).2.2.2.2.2.1 (idx_facts1 s).2.2.2.2.2.2

theorem final1_7 :
    (dat1 (F := Ideal) V c).arrAt 7 cfg1.N
      = G1_7 (V c (Pipeline.arrRef spec1 0)) (V c (Pipeline.arrRef spec1 1)) (V c (Pipeline.arrRef spec1 2)) (V c (Pipeline.arrRef spec1 3)) (V c (Pipeline.arrRef spec1 4)) :=
  (dat1 V c).arrAt_eq_of_cover 7 _ (fun t _ => flushed7_eq V c t) cover7

end Cert.KernelIdeal.Val

end
-- ==== Proof.KV.Stage3.lean ====
import proofs.«422477_j6347961663751_3_alg».proof.Proof.KI.Fold
import proofs.«422477_j6347961663751_3_alg».proof.Proof.KV.Args
import proofs.«422477_j6347961663751_3_alg».proof.Proof.KV.Val1
import proofs.«422477_j6347961663751_3_alg».proof.Proof.Spec
import Idealize.ShloMosaic.Lib.Pipeline.Value
import Idealize.ShloMosaic.Lib.ValueIdx

noncomputable section

namespace Cert.KernelIdeal.Val

open Cert.KernelIdeal Cert.KernelIdeal.Gen Cert.KernelIdeal.Frm
open Idealize.ShloMosaic Idealize.ShloMosaic.ValueIdx Idealize.ShloMosaic.TcCoe
open scoped BigOperators

variable (m : (ℓ : Loc nD τ sig) → Buf (Elt Ideal) ℓ) (c : Dev nD)

theorem v17_0_eq_s3 : (W9 m c main_v17_0 : FVec Ideal S800000x128 .f32)
    = G1_5 (W8 m c main_arg2) (W8 m c main_arg7) (W8 m c main_v16) (W8 m c main_v14) (W8 m c main_v15) :=
  (W9_arr m c 5).trans (final1_5 (atTc (W8 m)) c)

theorem v17_1_eq_s3 : (W9 m c main_v17_1 : FVec Ideal S160x1x128 .f32)
    = G1_6 (W8 m c main_arg2) (W8 m c main_arg7) (W8 m c main_v16) (W8 m c main_v14) (W8 m c main_v15) :=
  (W9_arr m c 6).trans (final1_6 (atTc (W8 m)) c)

theorem v17_2_eq_s3 : (W9 m c main_v17_2 : FVec Ideal S160x1x128 .f32)
    = G1_7 (W8 m c main_arg2) (W8 m c main_arg7) (W8 m c main_v16) (W8 m c main_v14) (W8 m c main_v15) :=
  (W9_arr m c 7).trans (final1_7 (atTc (W8 m)) c)

theorem ea_W8_s3 : (W8 m c main_arg2 : FVec Ideal S800000x128 .f32) = m ((c.tc : Thread nD τ).loc main_arg2) :=
  W8_untouched m c main_arg2 (by decide)
theorem wc_W8_s3 : (W8 m c main_arg7 : FVec Ideal S128x128 .f32) = m ((c.tc : Thread nD τ).loc main_arg7) :=
  W8_untouched m c main_arg7 (by decide)

variable
  (hde : ∀ e j, (W8 m c main_v14 : FVec Ideal S800000x128 .f32) (ix2 e j) = Cert.Spec.Dx (argsOf m c) (Cert.Spec.rowOf (argsOf m c) e) j + Cert.Spec.Ex (argsOf m c) (Cert.Spec.colOf (argsOf m c) e) j)
  (hbxc : ∀ e j, (W8 m c main_v15 : FVec Ideal S800000x128 .f32) (ix2 e j) = Cert.Spec.Bx (argsOf m c) (Cert.Spec.colOf (argsOf m c) e) j)
  (hbC : ∀ j, (W8 m c main_v16 : FVec Ideal S1x128 .f32) (ix2 (0 : Fin 1) j) = (argsOf m c).bC j)

include hde hbC

-- With the incoming term and the bias row identified, the call's edge value is the specification's.
theorem edge_W8_s3 (e : Fin 800000) (j : Fin 128) :
    edgeAt (W8 m c main_arg2 : FVec Ideal S800000x128 .f32) (W8 m c main_arg7 : FVec Ideal S128x128 .f32)
      (W8 m c main_v16 : FVec Ideal S1x128 .f32) (W8 m c main_v14 : FVec Ideal S800000x128 .f32) e j
      = Cert.Spec.eij (argsOf m c) e j := by
  unfold edgeAt Cert.Spec.eij Cert.Spec.Ce Cert.Spec.lin
  rw [hde, hbC, ea_W8_s3, wc_W8_s3]
  rfl

include hbxc in
theorem msgs_eq (e : Fin 800000) (j : Fin 128) :
    (W9 m c main_v17_0 : FVec Ideal S800000x128 .f32) (ix2 e j) = Cert.Spec.msgs (argsOf m c) e j := by
  rw [v17_0_eq_s3, G1_5_apply, edge_W8_s3 m c hde hbC e j, hbxc e j]
  rfl

theorem psum_eq (t : Fin 160) (j : Fin 128) :
    @Eq EReal ((W9 m c main_v17_1 : FVec Ideal S160x1x128 .f32) (ix3 t (0 : Fin 1) j))
      (∑ r : Fin 5000, Cert.Spec.eij (argsOf m c) ⟨5000 * t.val + r.val, by omega⟩ j) := by
  rw [v17_1_eq_s3, G1_6_apply]
  exact Finset.sum_congr rfl fun r _ => edge_W8_s3 m c hde hbC (rowOf t r) j

theorem psq_eq (t : Fin 160) (j : Fin 128) :
    @Eq EReal ((W9 m c main_v17_2 : FVec Ideal S160x1x128 .f32) (ix3 t (0 : Fin 1) j))
      (∑ r : Fin 5000, Cert.Spec.eij (argsOf m c) ⟨5000 * t.val + r.val, by omega⟩ j * Cert.Spec.eij (argsOf m c) ⟨5000 * t.val + r.val, by omega⟩ j) := by
  rw [v17_2_eq_s3, G1_7_apply]
  exact Finset.sum_congr rfl fun r _ =>
    congrArg₂ (· * ·) (edge_W8_s3 m c hde hbC (rowOf t r) j) (edge_W8_s3 m c hde hbC (rowOf t r) j)

end Cert.KernelIdeal.Val

end
-- ==== Proof.KV.Val2.lean ====
import proofs.«422477_j6347961663751_3_alg».proof.Proof.KI.Reg2
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Val

open Cert.KernelIdeal Cert.KernelIdeal.Gen Cert.KernelIdeal.Frm
open Idealize.ShloMosaic Idealize.ShloMosaic.TcCoe Idealize.SL.Sem Idealize.ShloMosaic.ValueIdx
open Idealize.ShloMosaic.Pipeline (Dat)

def G2_7 (ax agg x : FVec Ideal S50000x128 .f32) (mean var g b : FVec Ideal S1x128 .f32) : FVec Ideal S50000x128 .f32 :=
  fun i =>
    x i + max ((((ax i + agg i) - mean (ix2 (0 : Fin 1) (i 1))) * Ideal.rsqrt (var (ix2 (0 : Fin 1) (i 1)) + Ideal.ofBits .f32 0x3727C5AC#32))
          * g (ix2 (0 : Fin 1) (i 1)) + b (ix2 (0 : Fin 1) (i 1))) (Ideal.ofBits .f32 0x00000000#32)

theorem G2_7_apply (ax agg x : FVec Ideal S50000x128 .f32) (mean var g b : FVec Ideal S1x128 .f32) (n : Fin 50000) (j : Fin 128) :
    G2_7 ax agg x mean var g b (ix2 n j)
      = x (ix2 n j) + max ((((ax (ix2 n j) + agg (ix2 n j)) - mean (ix2 (0 : Fin 1) j)) * Ideal.rsqrt (var (ix2 (0 : Fin 1) j) + Ideal.ofBits .f32 0x3727C5AC#32))
          * g (ix2 (0 : Fin 1) j) + b (ix2 (0 : Fin 1) j)) (Ideal.ofBits .f32 0x00000000#32) := rfl

-- Every operation of the body is entry by entry, except the four that spread one row over the block's rows.
theorem pay2_apply (x0 x1 x2 : Vec Ideal S2000x128 .f32) (x3 x4 x5 x6 : Vec Ideal S1x128 .f32) (p : Fin 2000) (q : Fin 128) :
    k2_pay1 x0 x1 x4 x3 x5 x6 x2 (ix2 p q)
      = x2 (ix2 p q) + max ((((x0 (ix2 p q) + x1 (ix2 p q)) - x3 (ix2 (0 : Fin 1) q)) * Ideal.rsqrt (x4 (ix2 (0 : Fin 1) q) + Ideal.ofBits .f32 0x3727C5AC#32))
          * x5 (ix2 (0 : Fin 1) q) + x6 (ix2 (0 : Fin 1) q)) (Ideal.ofBits .f32 0x00000000#32) := by
  unfold k2_pay1
  simp only [shapeCast_self]
  simp only [addf_apply, maximumf_apply, mulf_apply, subf_apply, broadcast_apply, broadcastTo_1b_ab_apply]
  rfl

theorem point2 (x0 x1 x2 : Vec Ideal S2000x128 .f32) (x3 x4 x5 x6 : Vec Ideal S1x128 .f32)
    (a0 a1 a2 : FVec Ideal S50000x128 .f32) (a3 a4 a5 a6 : FVec Ideal S1x128 .f32)
    (p : Fin 2000) (q : Fin 128) (i : S50000x128.Idx) (hq : i 1 = q)
    (h0 : x0 (ix2 p q) = a0 i) (h1 : x1 (ix2 p q) = a1 i) (h2 : x2 (ix2 p q) = a2 i)
    (h3 : x3 (ix2 (0 : Fin 1) q) = a3 (ix2 (0 : Fin 1) q)) (h4 : x4 (ix2 (0 : Fin 1) q) = a4 (ix2 (0 : Fin 1) q))
    (h5 : x5 (ix2 (0 : Fin 1) q) = a5 (ix2 (0 : Fin 1) q)) (h6 : x6 (ix2 (0 : Fin 1) q) = a6 (ix2 (0 : Fin 1) q)) :
    k2_pay1 x0 x1 x4 x3 x5 x6 x2 (ix2 p q) = G2_7 a0 a1 a2 a3 a4 a5 a6 i := by
  rw [pay2_apply, h0, h1, h2, h3, h4, h5, h6,
    show i = ix2 (i 0 : Fin 50000) q from Shape.idx_ext₂ rfl (congrArg Fin.val hq)]
  rfl

theorem hz2 : (![0, 0] : Fin 2 → Nat) = fun _ => 0 := funext fun a => by fin_cases a <;> rfl

theorem idx_facts2 : ∀ t : Fin cfg2.N,
    (∀ a : Fin 2, win2_0.index t a = win2_7.index t a ∧ win2_1.index t a = win2_7.index t a ∧ win2_2.index t a = win2_7.index t a)
    ∧ win2_7.index t (1 : Fin 2) = 0
    ∧ ∀ a : Fin 2, win2_3.index t a = 0 ∧ win2_4.index t a = 0 ∧ win2_5.index t a = 0 ∧ win2_6.index t a = 0 :=
  (by decide +kernel : ∀ t : Fin grid2.N, _)

theorem idx_onto2 : ∀ q0 : Fin 25, ∃ t : Fin cfg2.N, win2_7.index t = ![q0.val, 0] :=
  (by decide +kernel : ∀ q0 : Fin 25, ∃ t : Fin grid2.N, win2_7.index t = ![q0.val, 0])

variable (V : (c : Dev nD) → (b : Ref sig .tc) → Buf (Elt Ideal) ((c : Thread nD τ).loc b)) (c : Dev nD) (t : Fin cfg2.N)

-- Positions inside two blocks of one size with equal block indices are the same position of the array.
theorem same_emb2 (idx idx' sz : Fin 2 → ℕ) (h : ∀ a, idx a = idx' a) (e e' : S50000x128.Idx) (y : S2000x128.Idx)
    (he : ∀ a, (e a).val = idx a * sz a + (y a).val) (he' : ∀ a, (e' a).val = idx' a * sz a + (y a).val) : e = e' :=
  funext fun a => Fin.ext (by rw [he, he', h])

-- At block index 0 a position inside the block is the same position of the array.
theorem whole_emb2 (idx sz : Fin 2 → ℕ) (h : ∀ a, idx a = 0) (e z : S1x128.Idx)
    (he : ∀ a, (e a).val = idx a * sz a + (z a).val) : e = z :=
  funext fun a => Fin.ext (by rw [he, h, Nat.zero_mul, Nat.zero_add])

theorem big2_0 (y : S2000x128.Idx) :
    iblk2 V c 0 t y = V c (Pipeline.arrRef spec2 0) (((cfg2.win 7).blk t).view.emb y) :=
  congrArg (V c (Pipeline.arrRef spec2 0)) (same_emb2 _ _ _ (fun a => ((idx_facts2 t).1 a).1) _ _ y
    (win2_0.rect_emb_val t y) (win2_7.rect_emb_val t y))
theorem big2_1 (y : S2000x128.Idx) :
    iblk2 V c 1 t y = V c (Pipeline.arrRef spec2 1) (((cfg2.win 7).blk t).view.emb y) :=
  congrArg (V c (Pipeline.arrRef spec2 1)) (same_emb2 _ _ _ (fun a => ((idx_facts2 t).1 a).2.1) _ _ y
    (win2_1.rect_emb_val t y) (win2_7.rect_emb_val t y))
theorem big2_2 (y : S2000x128.Idx) :
    iblk2 V c 2 t y = V c (Pipeline.arrRef spec2 2) (((cfg2.win 7).blk t).view.emb y) :=
  congrArg (V c (Pipeline.arrRef spec2 2)) (same_emb2 _ _ _ (fun a => ((idx_facts2 t).1 a).2.2) _ _ y
    (win2_2.rect_emb_val t y) (win2_7.rect_emb_val t y))

theorem row2_3 (z : S1x128.Idx) : iblk2 V c 3 t z = V c (Pipeline.arrRef spec2 3) z :=
  congrArg (V c (Pipeline.arrRef spec2 3)) (whole_emb2 _ _ (fun a => ((idx_facts2 t).2.2 a).1) _ z (win2_3.rect_emb_val t z))
theorem row2_4 (z : S1x128.Idx) : iblk2 V c 4 t z = V c (Pipeline.arrRef spec2 4) z :=
  congrArg (V c (Pipeline.arrRef spec2 4)) (whole_emb2 _ _ (fun a => ((idx_facts2 t).2.2 a).2.1) _ z (win2_4.rect_emb_val t z))
theorem row2_5 (z : S1x128.Idx) : iblk2 V c 5 t z = V c (Pipeline.arrRef spec2 5) z :=
  congrArg (V c (Pipeline.arrRef spec2 5)) (whole_emb2 _ _ (fun a => ((idx_facts2 t).2.2 a).2.2.1) _ z (win2_5.rect_emb_val t z))
theorem row2_6 (z : S1x128.Idx) : iblk2 V c 6 t z = V c (Pipeline.arrRef spec2 6) z :=
  congrArg (V c (Pipeline.arrRef spec2 6)) (whole_emb2 _ _ (fun a => ((idx_facts2 t).2.2 a).2.2.2) _ z (win2_6.rect_emb_val t z))

theorem flushed2_7_eq :
    (dat2 (F := Ideal) V c).flushed 7 t = ((cfg2.win 7).blk t).view.read (Elt Ideal) (G2_7 (V c (Pipeline.arrRef spec2 0)) (V c (Pipeline.arrRef spec2 1)) (V c (Pipeline.arrRef spec2 2)) (V c (Pipeline.arrRef spec2 3)) (V c (Pipeline.arrRef spec2 4)) (V c (Pipeline.arrRef spec2 5)) (V c (Pipeline.arrRef spec2 6))) := by
  show (cfg2.win 7).cut (grid2.coords t) ((dat2 (F := Ideal) V c).after 7 t) = _
  rw [after2_7]
  unfold out2_7
  rw [View.canon_unit_zero hz2]
  simp only [View.ld_unit_zero (S := S2000x128) hz2, View.ld_unit_zero (S := S1x128) hz2]
  funext y
  obtain ⟨p, q, rfl⟩ : ∃ (p : Fin 2000) (q : Fin 128), y = ix2 p q := ⟨y 0, y 1, eq_ix2 y⟩
  exact point2 _ _ _ _ _ _ _ _ _ _ _ _ _ _ p q _
    (Fin.ext (win2_7.rect_emb_val_of_index_zero t (1 : Fin 2) (idx_facts2 t).2.1 (ix2 p q)))
    (big2_0 V c t _) (big2_1 V c t _) (big2_2 V c t _) (row2_3 V c t _) (row2_4 V c t _) (row2_5 V c t _) (row2_6 V c t _)

-- Row r of the result lies in the block of the point whose row block is r / 2000, so the 25 blocks written cover the array.
theorem covered2_7 (i : S50000x128.Idx) :
    ∃ t : Fin cfg2.N, (cfg2.win 7).flush t = true ∧ i ∈ ((cfg2.win 7).blk t).view.set := by
  have hi0 : (i 0).val < 50000 := (i 0).isLt
  have hi1 : (i 1).val < 128 := (i 1).isLt
  obtain ⟨t, ht⟩ := idx_onto2 ⟨(i 0).val / 2000, by omega⟩
  have q0 : win2_7.index t (0 : Fin 2) = (i 0).val / 2000 := congrFun ht 0
  have q1 : win2_7.index t (1 : Fin 2) = 0 := congrFun ht 1
  refine ⟨t, flush2_7 t, ?_⟩
  show i ∈ ((View.whole main_v29).slice (win2_7.rect t)).set
  rw [View.set_slice_whole, Rect.mem_set_unit]
  intro a
  match a with
  | ⟨0, _⟩ => show win2_7.index t (0 : Fin 2) * 2000 ≤ (i 0).val ∧ (i 0).val < win2_7.index t (0 : Fin 2) * 2000 + 2000; omega
  | ⟨1, _⟩ => show win2_7.index t (1 : Fin 2) * 128 ≤ (i 1).val ∧ (i 1).val < win2_7.index t (1 : Fin 2) * 128 + 128; omega

theorem final2_7 :
    (dat2 (F := Ideal) V c).arrAt 7 cfg2.N
      = G2_7 (V c (Pipeline.arrRef spec2 0)) (V c (Pipeline.arrRef spec2 1)) (V c (Pipeline.arrRef spec2 2)) (V c (Pipeline.arrRef spec2 3)) (V c (Pipeline.arrRef spec2 4)) (V c (Pipeline.arrRef spec2 5)) (V c (Pipeline.arrRef spec2 6)) :=
  (dat2 (F := Ideal) V c).arrAt_eq_of_cover 7 _ (fun t _ => flushed2_7_eq V c t) covered2_7

end Cert.KernelIdeal.Val

end
-- ==== Proof.KV.VarChain.lean ====
import proofs.«422477_j6347961663751_3_alg».proof.Proof.Gen.KernelIdeal
import proofs.«422477_j6347961663751_3_alg».proof.Proof.Spec
import Idealize.ShloMosaic.Lib.IdealHost
import Idealize.ShloMosaic.Lib.KernelVsHost
import Idealize.ShloMosaic.Lib.ValueLayout
import Idealize.ShloMosaic.Lib.Pipeline.Value
import Idealize.ShloMosaic.PureOps.Ideal.Laws

noncomputable section

open Idealize.ShloMosaic Idealize.ShloMosaic.ValueIdx

namespace Cert.KernelIdeal.Val

open Cert.KernelIdeal Cert.KernelIdeal.Gen

def meanChain (x : FVec Ideal S50000x128 .f32) : FVec Ideal S1x128 .f32 :=
  Host.divf (broadcastInDim S1x128 ![1] bcast_S128_S1x128_1 (Host.reduceAdd x (constant (F := Ideal) S_ .f32 0x00000000#32) reducesTo_S50000x128_S128_d0 h_S_))
    (broadcastInDim S1x128 ![] bcast_S_S1x128 (constant (F := Ideal) S_ .f32 0x47435000#32))

def varChain (x : FVec Ideal S50000x128 .f32) (c0 : IVec S_ 32) : FVec Ideal S1x128 .f32 :=
  let d : FVec Ideal S50000x128 .f32 := subf x (broadcastInDim S50000x128 ![0, 1] bcast_S1x128_S50000x128_0_1 (meanChain x))
  let dof : FVec Ideal S_ .f32 := subf (constant (F := Ideal) S_ .f32 0x47435000#32) (sitofp .f32 c0)
  let q : FVec Ideal S1x128 .f32 := Host.divf (broadcastInDim S1x128 ![1] bcast_S128_S1x128_1 (Host.reduceAdd (mulf d d) (constant (F := Ideal) S_ .f32 0x00000000#32) reducesTo_S50000x128_S128_d0 h_S_))
    (broadcastInDim S1x128 ![] bcast_S_S1x128 dof)
  select (broadcastInDim S1x128 ![] bcast_S_S1x128 (cmpf .ogt dof (constant (F := Ideal) S_ .f32 0x00000000#32))) q
    (broadcastInDim S1x128 ![] bcast_S_S1x128 (id (constant (F := Ideal) S_ .f32 0x7FC00000#32)))

theorem sitofp_zero (i : S_.Idx) : (sitofp .f32 (constantI S_ 32 0#32) : FVec Ideal S_ .f32) i = 0 := by
  show (((0#32 : BitVec 32).toInt : ℝ) : EReal) = 0
  simp

theorem dof_zero (i : S_.Idx) :
    (subf (constant (F := Ideal) S_ .f32 0x47435000#32) (sitofp .f32 (constantI S_ 32 0#32)) : FVec Ideal S_ .f32) i
      = ((50000 : ℝ) : EReal) := by
  rw [subf_apply, constant_apply, sitofp_zero, Cert.Spec.ofBits_50000, sub_zero]

theorem cmp_50000_pos : Ideal.cmp .ogt ((50000 : ℝ) : EReal) (Ideal.ofBits .f32 0x00000000#32) = 1#1 := by
  rw [Ideal.ofBits_zero_f32]
  have h : (0 : EReal) < ((50000 : ℝ) : EReal) := EReal.coe_pos.mpr (by norm_num)
  simp [Ideal.cmp, h]

-- The reduction starts from zero and runs over the row axis only.
theorem colSum_apply (y : FVec Ideal S50000x128 .f32) (j : Fin 128) :
    Host.reduceAdd y (constant (F := Ideal) S_ .f32 0x00000000#32) reducesTo_S50000x128_S128_d0 h_S_ (ix1 j)
      = ∑ n : Fin 50000, y (ix2 n j) := by
  have h : S50000x128.Reduces [0] S128 := by decide
  refine (hostReduceAdd_apply y _ _ _ _).trans ?_
  refine (Ideal.hostReduceAdd_single reducesTo_S50000x128_S128_d0 h y _ (ix1 j)).trans ?_
  rw [constant_apply, Ideal.ofBits_zero_f32, zero_add]
  refine Finset.sum_congr rfl fun n _ => congrArg y ?_
  funext a; match a with | ⟨0, _⟩ => rfl | ⟨1, _⟩ => rfl

theorem row_apply {α : Type} (v : S128.Idx → α) (j : Fin 128) :
    broadcastInDim S1x128 ![1] bcast_S128_S1x128_1 v (ix2 0 j) = v (ix1 j) := by
  refine broadcastInDim_apply _ _ v _ (ix1 j) fun a => ?_
  match a with | ⟨0, _⟩ => rfl

theorem meanChain_apply (x : FVec Ideal S50000x128 .f32) (j : Fin 128) :
    meanChain x (ix2 0 j) = Cert.Spec.mean 50000 (fun n k => x (ix2 n k)) j := by
  unfold meanChain Cert.Spec.mean
  refine (hostDivf_apply _ _ _).trans ?_
  rw [row_apply, colSum_apply, broadcastInDim_scalar_apply, constant_apply, Cert.Spec.ofBits_50000]

-- With ddof = 0 the divisor is the count 50000 > 0, which selects the quotient branch.
theorem varChain_apply (x : FVec Ideal S50000x128 .f32) (j : Fin 128) :
    varChain x (constantI S_ 32 0#32) (ix2 0 j) = Cert.Spec.var 50000 (fun n k => x (ix2 n k)) j := by
  unfold varChain
  dsimp only
  rw [select_apply, broadcastInDim_scalar_apply, cmpf_apply, dof_zero, constant_apply, Ideal.cmpf_def, cmp_50000_pos,
    select_one]
  refine (hostDivf_apply _ _ _).trans ?_
  rw [row_apply, colSum_apply, broadcastInDim_scalar_apply, dof_zero]
  unfold Cert.Spec.var
  refine congrArg (fun s => Ideal.div s ((50000 : ℝ) : EReal)) ?_
  refine Finset.sum_congr rfl fun n _ => ?_
  rw [mulf_apply, subf_apply, broadcastInDim_oneRow_apply, meanChain_apply]

end Cert.KernelIdeal.Val

end
-- ==== Proof.KV.Stage4.lean ====
import proofs.«422477_j6347961663751_3_alg».proof.Proof.KI.Fold
import proofs.«422477_j6347961663751_3_alg».proof.Proof.KV.Args
import proofs.«422477_j6347961663751_3_alg».proof.Proof.KV.Val2
import proofs.«422477_j6347961663751_3_alg».proof.Proof.KV.VarChain
import proofs.«422477_j6347961663751_3_alg».proof.Proof.Spec
import Idealize.ShloMosaic.Lib.StableHlo.Run
import Idealize.ShloMosaic.Lib.Pipeline.Value
import Idealize.ShloMosaic.Lib.ValueIdx
import Idealize.ShloMosaic.Lib.ValueLayout

noncomputable section

namespace Cert.KernelIdeal.Val

open Cert.KernelIdeal Cert.KernelIdeal.Gen Cert.KernelIdeal.Frm
open Idealize.ShloMosaic Idealize.ShloMosaic.ValueIdx Idealize.ShloMosaic.TcCoe

variable (m : (ℓ : Loc nD τ sig) → Buf (Elt Ideal) ℓ) (c : Dev nD)
  (hrow : ∀ e, (W1 m c main_v1 : IVec S800000 32) (ix1 e) = (argsOf m c).ei 0 e)
  (hAx : ∀ n j, (W3 m c main_v8 : FVec Ideal S50000x128 .f32) (ix2 n j) = Cert.Spec.Ax (argsOf m c) n j)
  (hmsgs : ∀ e j, (W9 m c main_v17_0 : FVec Ideal S800000x128 .f32) (ix2 e j) = Cert.Spec.msgs (argsOf m c) e j)

theorem v20_term_s4 : (W10 m c main_v20 : FVec Ideal S50000x128 .f32)
    = Host.scatterAdd scatter_S50000x128_S800000x1_S800000x128_1_0_0_1
        (broadcastInDim S50000x128 ![] bcast_S_S50000x128 (constant (F := Ideal) S_ .f32 0x00000000#32))
        (broadcastInDim S800000x1 ![0] bcast_S800000_S800000x1_0 (W9 m c main_v1 : IVec S800000 32))
        (W9 m c main_v17_0 : FVec Ideal S800000x128 .f32) := by
  show StableHlo.after hostOps2 (W9 m c) (Proc.devRef .tc main_v20) = _
  after_results_simp
  first | done | rfl

theorem v21_term_s4 : (W10 m c main_v21 : FVec Ideal S50000x128 .f32)
    = (addf (F := Ideal) (s := S50000x128) (φ := .f32) (W9 m c main_v8) (W10 m c main_v20) : FVec Ideal S50000x128 .f32) := by
  rw [v20_term_s4]
  show StableHlo.after hostOps2 (W9 m c) (Proc.devRef .tc main_v21) = _
  after_results_simp
  first | done | rfl

theorem c_term_s4 : (W10 m c main_c : IVec S_ 32) = constantI S_ 32 0#32 := by
  show StableHlo.after hostOps2 (W9 m c) (Proc.devRef .tc main_c) = _
  after_results

theorem zeros_fun_s4 : (broadcastInDim S50000x128 ![] bcast_S_S50000x128 (constant (F := Ideal) S_ .f32 0x00000000#32) : FVec Ideal S50000x128 .f32)
    = fun _ => Cert.Spec.zeroW := rfl

theorem v1_carry_s4 : (W9 m c main_v1 : IVec S800000 32) = (W1 m c main_v1 : IVec S800000 32) := by
  rw [W9_of m c main_v1 (by decide), W8_of m c main_v1 (by decide), W7_of m c main_v1 (by decide), W6_of m c main_v1 (by decide), W5_of m c main_v1 (by decide), W4_of m c main_v1 (by decide), W3_of m c main_v1 (by decide), W2_of m c main_v1 (by decide)]

theorem rows_at_s4 (x : IVec S800000 32) (i : S800000x1.Idx) :
    (broadcastInDim S800000x1 ![0] bcast_S800000_S800000x1_0 x : IVec S800000x1 32) i = x (ix1 (i 0)) := by
  refine broadcastInDim_apply ![0] bcast_S800000_S800000x1_0 x i (ix1 (i 0)) fun a => ?_
  match a with
  | ⟨0, _⟩ => exact (if_neg (show ¬ (800000 : ℕ) = 1 by decide)).symm

include hrow in
theorem rows_fun_s4 :
    (broadcastInDim S800000x1 ![0] bcast_S800000_S800000x1_0 (W9 m c main_v1 : IVec S800000 32) : IVec S800000x1 32)
      = fun i => (argsOf m c).ei 0 (i 0) := by
  funext i
  rw [rows_at_s4, v1_carry_s4]
  exact hrow (i 0)

include hmsgs in
theorem msgs_fun_s4 :
    (W9 m c main_v17_0 : FVec Ideal S800000x128 .f32) = fun i => Cert.Spec.msgs (argsOf m c) (i 0) (i 1) := by
  funext i
  exact (congrArg (W9 m c main_v17_0 : FVec Ideal S800000x128 .f32) (eq_ix2 i)).trans (hmsgs (i 0) (i 1))

include hrow hmsgs in
theorem aggr_eq_s4 (n : Fin 50000) (j : Fin 128) :
    (W10 m c main_v20 : FVec Ideal S50000x128 .f32) (ix2 n j) = Cert.Spec.aggr (argsOf m c) n j := by
  rw [v20_term_s4, zeros_fun_s4, rows_fun_s4 m c hrow, msgs_fun_s4 m c hmsgs]
  rfl

theorem v8_carry_s4 : (W9 m c main_v8 : FVec Ideal S50000x128 .f32) = (W3 m c main_v8 : FVec Ideal S50000x128 .f32) := by
  rw [W9_of m c main_v8 (by decide), W8_of m c main_v8 (by decide), W7_of m c main_v8 (by decide), W6_of m c main_v8 (by decide), W5_of m c main_v8 (by decide), W4_of m c main_v8 (by decide)]

include hrow hAx hmsgs in
theorem xt_eq_s4 (n : Fin 50000) (j : Fin 128) :
    (W10 m c main_v21 : FVec Ideal S50000x128 .f32) (ix2 n j) = Cert.Spec.xt (argsOf m c) n j := by
  rw [v21_term_s4, addf_apply, v8_carry_s4, hAx, aggr_eq_s4 m c hrow hmsgs]
  rfl

theorem v25_chain_s4 : (W10 m c main_v25 : FVec Ideal S1x128 .f32) = meanChain (W10 m c main_v21 : FVec Ideal S50000x128 .f32) := by
  rw [v21_term_s4, v20_term_s4]
  unfold meanChain
  show StableHlo.after hostOps2 (W9 m c) (Proc.devRef .tc main_v25) = _
  after_results_simp
  first | done | rfl

theorem v26_of_s4 (Wv : Valuation τ sig (Elt Ideal)) :
    (StableHlo.after hostOps2_1 Wv (Proc.devRef .tc main_v26) : FVec Ideal S1x128 .f32)
      = varChain (Wv (Proc.devRef .tc main_v21) : FVec Ideal S50000x128 .f32) (Wv (Proc.devRef .tc main_c) : IVec S_ 32) := by
  unfold varChain meanChain
  after_results_simp
  first | done | (simp only [StableHlo.TRef.ofBuf, StableHlo.TRef.toBuf, cast_eq]; first | done | rfl)

theorem v26_chain_s4 : (W11 m c main_v26 : FVec Ideal S1x128 .f32)
    = varChain (W10 m c main_v21 : FVec Ideal S50000x128 .f32) (W10 m c main_c : IVec S_ 32) :=
  v26_of_s4 (W10 m c)

include hrow hAx hmsgs in
theorem mean_eq_s4 (j : Fin 128) :
    (W10 m c main_v25 : FVec Ideal S1x128 .f32) (ix2 0 j) = Cert.Spec.mean 50000 (Cert.Spec.xt (argsOf m c)) j := by
  rw [v25_chain_s4, meanChain_apply]
  exact congrArg (fun h => Cert.Spec.mean 50000 h j) (funext fun n => funext fun k => xt_eq_s4 m c hrow hAx hmsgs n k)

include hrow hAx hmsgs in
theorem var_eq_s4 (j : Fin 128) :
    (W11 m c main_v26 : FVec Ideal S1x128 .f32) (ix2 0 j) = Cert.Spec.var 50000 (Cert.Spec.xt (argsOf m c)) j := by
  rw [v26_chain_s4, c_term_s4, varChain_apply]
  exact congrArg (fun h => Cert.Spec.var 50000 h j) (funext fun n => funext fun k => xt_eq_s4 m c hrow hAx hmsgs n k)

theorem v27_of_s4 (Wv : Valuation τ sig (Elt Ideal)) :
    (StableHlo.after hostOps2_2 Wv (Proc.devRef .tc main_v27) : FVec Ideal S1x128 .f32)
      = shapeCast S1x128 (Wv (Proc.devRef .tc main_arg13) : FVec Ideal S128 .f32) shapeCasts_S128_S1x128 := by
  after_results
  rfl

theorem v28_of_s4 (Wv : Valuation τ sig (Elt Ideal)) :
    (StableHlo.after hostOps2_2 Wv (Proc.devRef .tc main_v28) : FVec Ideal S1x128 .f32)
      = shapeCast S1x128 (Wv (Proc.devRef .tc main_arg14) : FVec Ideal S128 .f32) shapeCasts_S128_S1x128 := by
  after_results
  rfl

theorem gx_eq_s4 (j : Fin 128) : (W12 m c main_v27 : FVec Ideal S1x128 .f32) (ix2 0 j) = (argsOf m c).gx j := by
  refine (congrFun (v27_of_s4 (W11 m c)) _).trans ?_
  rw [shapeCast_a_1a_apply, W11_untouched m c main_arg13 (by decide)]
  rfl

theorem bx_eq_s4 (j : Fin 128) : (W12 m c main_v28 : FVec Ideal S1x128 .f32) (ix2 0 j) = (argsOf m c).bx j := by
  refine (congrFun (v28_of_s4 (W11 m c)) _).trans ?_
  rw [shapeCast_a_1a_apply, W11_untouched m c main_arg14 (by decide)]
  rfl

theorem v29_term_s4 : (W13 m c main_v29 : FVec Ideal S50000x128 .f32)
    = G2_7 (W12 m c main_v8) (W12 m c main_v20) (W12 m c main_arg0) (W12 m c main_v25) (W12 m c main_v26) (W12 m c main_v27) (W12 m c main_v28) :=
  (W13_arr m c 7).trans (final2_7 (atTc (W12 m)) c)

include hrow hAx hmsgs in
theorem xf_eq (n : Fin 50000) (j : Fin 128) :
    (W13 m c main_v29 : FVec Ideal S50000x128 .f32) (ix2 n j) = Cert.Spec.xf (argsOf m c) n j := by
  rw [v29_term_s4, G2_7_apply, W12_of m c main_v8 (by decide), W11_of m c main_v8 (by decide), W10_of m c main_v8 (by decide), v8_carry_s4, hAx,
    W12_of m c main_v20 (by decide), W11_of m c main_v20 (by decide), aggr_eq_s4 m c hrow hmsgs, W12_untouched m c main_arg0 (by decide),
    W12_of m c main_v25 (by decide), W11_of m c main_v25 (by decide), mean_eq_s4 m c hrow hAx hmsgs, W12_of m c main_v26 (by decide), var_eq_s4 m c hrow hAx hmsgs,
    gx_eq_s4, bx_eq_s4]
  rfl

end Cert.KernelIdeal.Val

end
-- ==== Proof.KV.Val3.lean ====
import proofs.«422477_j6347961663751_3_alg».proof.Proof.KI.Reg3
import proofs.«422477_j6347961663751_3_alg».proof.Proof.KV.Val1Pay
import Idealize.ShloMosaic.Lib.Pipeline.Value
import Idealize.ShloMosaic.Lib.ValueLayout
import Idealize.ShloMosaic.PureOps.Ideal.Laws

noncomputable section

namespace Cert.KernelIdeal.Val

open Cert.KernelIdeal Cert.KernelIdeal.Gen Cert.KernelIdeal.Frm
open Idealize.ShloMosaic Idealize.ShloMosaic.TcCoe Idealize.SL.Sem Idealize.ShloMosaic.ValueIdx
open Idealize.ShloMosaic.Pipeline (Dat)
open scoped BigOperators

theorem matmul3_apply (a : FVec Ideal S5000x128 .bf16) (b : FVec Ideal S128x128 .bf16) (p : Fin 5000) (q : Fin 128) :
    matmul dot_S5000x128_S128x128_S5000x128_1_0_0_1_n_n none a b (constant (F := Ideal) S5000x128 .f32 0x00000000#32) (ix2 p q)
      = ∑ k : Fin 128, a (ix2 p k) * b (ix2 k q) :=
  matmul_plain_at a b p q

theorem k3_pay1_apply (v0 : Vec Ideal S5000x128 .f32) (v2 : Vec Ideal S128x128 .f32) (v5 : Vec Ideal S1x128 .f32)
    (v9 : Vec Ideal S5000x128 .f32) (v12 v17 v23 v27 : Vec Ideal S1x128 .f32) (p : Fin 5000) (q : Fin 128) :
    k3_pay1 v0 v2 v5 v9 v12 v17 v23 v27 (ix2 p q)
      = v0 (ix2 p q)
        + max ((((v9 (ix2 p q) + ((∑ k : Fin 128, v0 (ix2 p k) * v2 (ix2 k q)) + v5 (ix2 (0 : Fin 1) q)))
                  - v17 (ix2 (0 : Fin 1) q))
                * Ideal.rsqrt (v12 (ix2 (0 : Fin 1) q) + Ideal.ofBits .f32 0x3727C5AC#32))
              * v23 (ix2 (0 : Fin 1) q)
            + v27 (ix2 (0 : Fin 1) q))
          (Ideal.ofBits .f32 0x00000000#32) := by
  unfold k3_pay1
  simp only [addf_apply, maximumf_apply, mulf_apply, subf_apply, broadcast_apply, shapeCast_self, matmul3_apply,
    broadcastTo_1b_ab_apply, truncf_apply]
  rfl

def G3_8 (ea : FVec Ideal S800000x128 .f32) (wc : FVec Ideal S128x128 .f32) (bc : FVec Ideal S1x128 .f32)
    (de : FVec Ideal S800000x128 .f32) (mean var g b : FVec Ideal S1x128 .f32) : FVec Ideal S800000x128 .f32 := fun i =>
  ea i
    + max ((((de i + ((∑ k : Fin 128, ea (ix2 (i 0 : Fin 800000) k) * wc (ix2 k (i 1 : Fin 128))) + bc (ix2 (0 : Fin 1) (i 1 : Fin 128))))
              - mean (ix2 (0 : Fin 1) (i 1 : Fin 128)))
            * Ideal.rsqrt (var (ix2 (0 : Fin 1) (i 1 : Fin 128)) + Ideal.ofBits .f32 0x3727C5AC#32))
          * g (ix2 (0 : Fin 1) (i 1 : Fin 128))
        + b (ix2 (0 : Fin 1) (i 1 : Fin 128)))
      (Ideal.ofBits .f32 0x00000000#32)

theorem G3_8_apply (ea : FVec Ideal S800000x128 .f32) (wc : FVec Ideal S128x128 .f32) (bc : FVec Ideal S1x128 .f32)
    (de : FVec Ideal S800000x128 .f32) (mean var g b : FVec Ideal S1x128 .f32) (r : Fin 800000) (q : Fin 128) :
    G3_8 ea wc bc de mean var g b (ix2 r q)
      = ea (ix2 r q)
        + max ((((de (ix2 r q) + ((∑ k : Fin 128, ea (ix2 r k) * wc (ix2 k q)) + bc (ix2 (0 : Fin 1) q)))
                  - mean (ix2 (0 : Fin 1) q))
                * Ideal.rsqrt (var (ix2 (0 : Fin 1) q) + Ideal.ofBits .f32 0x3727C5AC#32))
              * g (ix2 (0 : Fin 1) q)
            + b (ix2 (0 : Fin 1) q))
          (Ideal.ofBits .f32 0x00000000#32) := rfl

variable (V : (c : Dev nD) → (b : Ref sig .tc) → Buf (Elt Ideal) ((c : Thread nD τ).loc b))

theorem hz3 : (![0, 0] : Fin 2 → Nat) = fun _ => 0 := funext fun a => by fin_cases a <;> rfl

-- On each axis the element sits at 0 * size + y = y, so such a block is its array.
theorem whole3_1 (c : Dev nD) (t : Fin cfg3.N) : iblk3 V c 1 t = V c (Pipeline.arrRef spec3 1) :=
  funext fun y => congrArg (V c _) (funext fun a => Fin.ext (win3_1.rect_emb_val_of_index_zero t a (by match a with | ⟨0, _⟩ => rfl | ⟨1, _⟩ => rfl) y))
theorem whole3_2 (c : Dev nD) (t : Fin cfg3.N) : iblk3 V c 2 t = V c (Pipeline.arrRef spec3 2) :=
  funext fun y => congrArg (V c _) (funext fun a => Fin.ext (win3_2.rect_emb_val_of_index_zero t a (by match a with | ⟨0, _⟩ => rfl | ⟨1, _⟩ => rfl) y))
theorem whole3_4 (c : Dev nD) (t : Fin cfg3.N) : iblk3 V c 4 t = V c (Pipeline.arrRef spec3 4) :=
  funext fun y => congrArg (V c _) (funext fun a => Fin.ext (win3_4.rect_emb_val_of_index_zero t a (by match a with | ⟨0, _⟩ => rfl | ⟨1, _⟩ => rfl) y))
theorem whole3_5 (c : Dev nD) (t : Fin cfg3.N) : iblk3 V c 5 t = V c (Pipeline.arrRef spec3 5) :=
  funext fun y => congrArg (V c _) (funext fun a => Fin.ext (win3_5.rect_emb_val_of_index_zero t a (by match a with | ⟨0, _⟩ => rfl | ⟨1, _⟩ => rfl) y))
theorem whole3_6 (c : Dev nD) (t : Fin cfg3.N) : iblk3 V c 6 t = V c (Pipeline.arrRef spec3 6) :=
  funext fun y => congrArg (V c _) (funext fun a => Fin.ext (win3_6.rect_emb_val_of_index_zero t a (by match a with | ⟨0, _⟩ => rfl | ⟨1, _⟩ => rfl) y))
theorem whole3_7 (c : Dev nD) (t : Fin cfg3.N) : iblk3 V c 7 t = V c (Pipeline.arrRef spec3 7) :=
  funext fun y => congrArg (V c _) (funext fun a => Fin.ext (win3_7.rect_emb_val_of_index_zero t a (by match a with | ⟨0, _⟩ => rfl | ⟨1, _⟩ => rfl) y))

theorem idx3_8 : ∀ t : Fin cfg3.N, win3_8.index t (0 : Fin 2) = t.val ∧ win3_8.index t (1 : Fin 2) = 0 :=
  (by decide +kernel : ∀ t : Fin grid3.N, _)

-- Row coordinate t * 5000 + p, column coordinate 0 * 128 + q.
theorem read_blk3_8 (G : FVec Ideal S800000x128 .f32) (t : Fin cfg3.N) (p : Fin 5000) (r : Fin 800000)
    (hr : r.val = t.val * 5000 + p.val) (q : Fin 128) :
    ((cfg3.win 8).blk t).view.read (Elt Ideal) G (ix2 p q) = G (ix2 r q) := by
  refine congrArg G (funext fun a => Fin.ext ((win3_8.rect_emb_val t (ix2 p q) a).trans ?_))
  match a with
  | ⟨0, _⟩ => show win3_8.index t (0 : Fin 2) * 5000 + p.val = r.val; rw [(idx3_8 t).1, hr]
  | ⟨1, _⟩ => show win3_8.index t (1 : Fin 2) * 128 + q.val = q.val; rw [(idx3_8 t).2, Nat.zero_mul, Nat.zero_add]

-- The same rectangle of rows as the output's block t.
theorem rows3_0 (c : Dev nD) (t : Fin cfg3.N) (p : Fin 5000) (r : Fin 800000) (hr : r.val = t.val * 5000 + p.val) (q : Fin 128) :
    (iblk3 V c 0 t : Vec Ideal S5000x128 .f32) (ix2 p q) = (V c (Pipeline.arrRef spec3 0) : FVec Ideal S800000x128 .f32) (ix2 r q) :=
  read_blk3_8 _ t p r hr q
theorem rows3_3 (c : Dev nD) (t : Fin cfg3.N) (p : Fin 5000) (r : Fin 800000) (hr : r.val = t.val * 5000 + p.val) (q : Fin 128) :
    (iblk3 V c 3 t : Vec Ideal S5000x128 .f32) (ix2 p q) = (V c (Pipeline.arrRef spec3 3) : FVec Ideal S800000x128 .f32) (ix2 r q) :=
  read_blk3_8 _ t p r hr q

theorem flushed3_8_eq (c : Dev nD) (t : Fin cfg3.N) :
    (dat3 (F := Ideal) V c).flushed 8 t
      = ((cfg3.win 8).blk t).view.read (Elt Ideal) (G3_8 (V c (Pipeline.arrRef spec3 0)) (V c (Pipeline.arrRef spec3 1)) (V c (Pipeline.arrRef spec3 2)) (V c (Pipeline.arrRef spec3 3)) (V c (Pipeline.arrRef spec3 4)) (V c (Pipeline.arrRef spec3 5)) (V c (Pipeline.arrRef spec3 6)) (V c (Pipeline.arrRef spec3 7))) := by
  funext j
  obtain ⟨p, q, rfl⟩ : ∃ (p : Fin 5000) (q : Fin 128), j = ix2 p q := ⟨j 0, j 1, eq_ix2 j⟩
  have ht : t.val < 160 := lt_of_lt_of_eq t.isLt N_3
  have hp : p.val < 5000 := p.isLt
  obtain ⟨r, hr⟩ : ∃ r : Fin 800000, r.val = t.val * 5000 + p.val := ⟨⟨t.val * 5000 + p.val, by omega⟩, rfl⟩
  show (cfg3.win 8).cut (grid3.coords t) ((dat3 (F := Ideal) V c).after 8 t) (ix2 p q) = _
  rw [after3_8]
  unfold out3_8
  rw [View.canon_unit_zero hz3]
  simp only [View.ld_unit_zero (S := S5000x128) hz3, View.ld_unit_zero (S := S128x128) hz3, View.ld_unit_zero (S := S1x128) hz3]
  refine (k3_pay1_apply _ _ _ _ _ _ _ _ p q).trans ?_
  rw [read_blk3_8 _ t p r hr q, G3_8_apply]
  simp only [rows3_0 V c t p r hr, rows3_3 V c t p r hr, whole3_1 V c t, whole3_2 V c t, whole3_4 V c t, whole3_5 V c t,
    whole3_6 V c t, whole3_7 V c t]

-- i = 5000 * (i / 5000) + i % 5000 with i / 5000 < 160.
theorem covered3_8 (i : S800000x128.Idx) :
    ∃ t : Fin cfg3.N, (cfg3.win 8).flush t = true ∧ i ∈ ((cfg3.win 8).blk t).view.set := by
  have hi0 : (i 0).val < 800000 := (i 0).isLt
  have hi1 : (i 1).val < 128 := (i 1).isLt
  obtain ⟨t, ht⟩ : ∃ t : Fin cfg3.N, t.val = (i 0).val / 5000 :=
    ⟨⟨(i 0).val / 5000, by rw [show cfg3.N = 160 from N_3]; omega⟩, rfl⟩
  refine ⟨t, flush3_8 t, ?_⟩
  show i ∈ ((View.whole main_v44).slice (win3_8.rect t)).set
  rw [View.set_slice_whole, Rect.mem_set_unit]
  intro a
  match a with
  | ⟨0, _⟩ => show win3_8.index t (0 : Fin 2) * 5000 ≤ (i 0).val ∧ (i 0).val < win3_8.index t (0 : Fin 2) * 5000 + 5000; rw [(idx3_8 t).1, ht]; omega
  | ⟨1, _⟩ => show win3_8.index t (1 : Fin 2) * 128 ≤ (i 1).val ∧ (i 1).val < win3_8.index t (1 : Fin 2) * 128 + 128; rw [(idx3_8 t).2]; omega

theorem final3_8 (c : Dev nD) :
    (dat3 (F := Ideal) V c).arrAt 8 cfg3.N = G3_8 (V c (Pipeline.arrRef spec3 0)) (V c (Pipeline.arrRef spec3 1)) (V c (Pipeline.arrRef spec3 2)) (V c (Pipeline.arrRef spec3 3)) (V c (Pipeline.arrRef spec3 4)) (V c (Pipeline.arrRef spec3 5)) (V c (Pipeline.arrRef spec3 6)) (V c (Pipeline.arrRef spec3 7)) :=
  (dat3 (F := Ideal) V c).arrAt_eq_of_cover 8 _ (fun t _ => flushed3_8_eq V c t) covered3_8

end Cert.KernelIdeal.Val

end
-- ==== Proof.KV.Stage5.lean ====
import proofs.«422477_j6347961663751_3_alg».proof.Proof.KI.Fold
import proofs.«422477_j6347961663751_3_alg».proof.Proof.KV.Args
import proofs.«422477_j6347961663751_3_alg».proof.Proof.KV.Val3
import proofs.«422477_j6347961663751_3_alg».proof.Proof.Spec
import proofs.«422477_j6347961663751_3_alg».proof.Proof.SpecGood
import proofs.«422477_j6347961663751_3_alg».proof.Proof.SpecMath
import Idealize.ShloMosaic.Lib.StableHlo.Run
import Idealize.ShloMosaic.Lib.IdealHost
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Val

open Cert.KernelIdeal Cert.KernelIdeal.Gen Cert.KernelIdeal.Frm
open Idealize.ShloMosaic Idealize.ShloMosaic.ValueIdx Idealize.ShloMosaic.TcCoe
open Idealize.ShloMosaic.StableHlo
open scoped BigOperators

variable (m : (ℓ : Loc nD τ sig) → Buf (Elt Ideal) ℓ) (c : Dev nD)
  (hG : (argsOf m c).Good)
  (hde : ∀ e j, (W8 m c main_v14 : FVec Ideal S800000x128 .f32) (ix2 e j) = Cert.Spec.Dx (argsOf m c) (Cert.Spec.rowOf (argsOf m c) e) j + Cert.Spec.Ex (argsOf m c) (Cert.Spec.colOf (argsOf m c) e) j)
  (hbC : ∀ j, (W8 m c main_v16 : FVec Ideal S1x128 .f32) (ix2 (0 : Fin 1) j) = (argsOf m c).bC j)
  (hpsum : ∀ (t : Fin 160) (j : Fin 128), (W9 m c main_v17_1 : FVec Ideal S160x1x128 .f32) (ix3 t (0 : Fin 1) j) = ∑ r : Fin 5000, Cert.Spec.eij (argsOf m c) ⟨5000 * t.val + r.val, by omega⟩ j)
  (hpsq : ∀ (t : Fin 160) (j : Fin 128), (W9 m c main_v17_2 : FVec Ideal S160x1x128 .f32) (ix3 t (0 : Fin 1) j) = ∑ r : Fin 5000, Cert.Spec.eij (argsOf m c) ⟨5000 * t.val + r.val, by omega⟩ j * Cert.Spec.eij (argsOf m c) ⟨5000 * t.val + r.val, by omega⟩ j)

def tileSum_s5 (x : FVec Ideal S160x1x128 .f32) : FVec Ideal S1x128 .f32 :=
  broadcastInDim S1x128 ![1] bcast_S128_S1x128_1
    (Host.reduceAdd (F := Ideal) (shapeCast S160x128 x shapeCasts_S160x1x128_S160x128) (constant (F := Ideal) S_ .f32 0x00000000#32) reducesTo_S160x128_S128_d0 h_S_)

def cntRow_s5 : FVec Ideal S1x128 .f32 :=
  broadcastInDim S1x128 ![] bcast_S_S1x128 (constant (F := Ideal) S_ .f32 0x49435000#32)

def meanRow_s5 (x : FVec Ideal S160x1x128 .f32) : FVec Ideal S1x128 .f32 := Host.divf (F := Ideal) (tileSum_s5 x) cntRow_s5

def varRow_s5 (x x2 : FVec Ideal S160x1x128 .f32) : FVec Ideal S1x128 .f32 :=
  subf (Host.divf (F := Ideal) (tileSum_s5 x2) cntRow_s5) (mulf (meanRow_s5 x) (meanRow_s5 x))

theorem red160_s5 : S160x128.Reduces [0] S128 := by decide

theorem lift160_s5 (j : Fin 128) (t : Fin 160) : red160_s5.lift (ix1 j) t = ix2 t j := by
  funext a
  apply Fin.ext
  match a with
  | ⟨0, _⟩ => rfl
  | ⟨1, _⟩ => rfl

theorem tileSum_apply_s5 (x : FVec Ideal S160x1x128 .f32) (j : Fin 128) :
    tileSum_s5 x (ix2 (0 : Fin 1) j) = ∑ t : Fin 160, x (ix3 t (0 : Fin 1) j) := by
  unfold tileSum_s5
  refine (broadcastInDim_apply ![1] bcast_S128_S1x128_1 _ (ix2 (0 : Fin 1) j) (ix1 j) (fun a => ?_)).trans ?_
  · match a with
    | ⟨0, _⟩ => show j.val = if (128 : ℕ) = 1 then 0 else j.val; rw [if_neg (by decide)]
  rw [hostReduceAdd_apply, Ideal.hostReduceAdd_single reducesTo_S160x128_S128_d0 red160_s5]
  show Ideal.ofBits .f32 0x00000000#32 + _ = _
  rw [Ideal.ofBits_zero_f32, zero_add]
  refine Finset.sum_congr rfl fun t _ => ?_
  exact (congrArg (shapeCast S160x128 x shapeCasts_S160x1x128_S160x128) (lift160_s5 j t)).trans
    (shapeCast_apply x shapeCasts_S160x1x128_S160x128 (ix2 (t : Fin 160) j) (ix3 (t : Fin 160) (0 : Fin 1) j) (by
      rw [Shape.rowMajor_val_three, Shape.rowMajor_val_two]
      show (t.val * 1 + 0) * 128 + j.val = t.val * 128 + j.val
      omega))

theorem cntRow_apply_s5 (j : Fin 128) : cntRow_s5 (ix2 (0 : Fin 1) j) = ((800000 : ℝ) : EReal) := by
  unfold cntRow_s5
  rw [broadcastInDim_scalar_apply]
  exact Cert.Spec.ofBits_800000

theorem meanRow_apply_s5 (x : FVec Ideal S160x1x128 .f32) (j : Fin 128) :
    meanRow_s5 x (ix2 (0 : Fin 1) j) = Ideal.div (∑ t : Fin 160, x (ix3 t (0 : Fin 1) j)) ((800000 : ℝ) : EReal) := by
  unfold meanRow_s5
  rw [hostDivf_apply, tileSum_apply_s5, cntRow_apply_s5]

theorem varRow_apply_s5 (x x2 : FVec Ideal S160x1x128 .f32) (j : Fin 128) :
    varRow_s5 x x2 (ix2 (0 : Fin 1) j)
      = Ideal.div (∑ t : Fin 160, x2 (ix3 t (0 : Fin 1) j)) ((800000 : ℝ) : EReal)
        - Ideal.div (∑ t : Fin 160, x (ix3 t (0 : Fin 1) j)) ((800000 : ℝ) : EReal)
          * Ideal.div (∑ t : Fin 160, x (ix3 t (0 : Fin 1) j)) ((800000 : ℝ) : EReal) := by
  unfold varRow_s5
  rw [subf_apply, mulf_apply, hostDivf_apply, tileSum_apply_s5, cntRow_apply_s5, meanRow_apply_s5]

theorem v37_term_s5 : (W14 m c main_v37 : FVec Ideal S1x128 .f32) = meanRow_s5 (W13 m c main_v17_1) := by
  show StableHlo.after hostOps3 (W13 m c) (Proc.devRef .tc main_v37) = _
  after_results
  rfl

theorem v41_term_s5 : (W14 m c main_v41 : FVec Ideal S1x128 .f32) = varRow_s5 (W13 m c main_v17_1) (W13 m c main_v17_2) := by
  show StableHlo.after hostOps3 (W13 m c) (Proc.devRef .tc main_v41) = _
  after_results
  rfl

theorem v42_term_s5 : (W14 m c main_v42 : FVec Ideal S1x128 .f32) = shapeCast S1x128 (W13 m c main_arg15 : FVec Ideal S128 .f32) shapeCasts_S128_S1x128 := by
  show StableHlo.after hostOps3 (W13 m c) (Proc.devRef .tc main_v42) = _
  after_results
  rfl

theorem v43_term_s5 : (W14 m c main_v43 : FVec Ideal S1x128 .f32) = shapeCast S1x128 (W13 m c main_arg16 : FVec Ideal S128 .f32) shapeCasts_S128_S1x128 := by
  show StableHlo.after hostOps3 (W13 m c) (Proc.devRef .tc main_v43) = _
  after_results
  rfl

theorem carry_v17_1_s5 : W13 m c main_v17_1 = W9 m c main_v17_1 := by
  rw [W13_of m c main_v17_1 (by decide), W12_of m c main_v17_1 (by decide), W11_of m c main_v17_1 (by decide), W10_of m c main_v17_1 (by decide)]

theorem carry_v17_2_s5 : W13 m c main_v17_2 = W9 m c main_v17_2 := by
  rw [W13_of m c main_v17_2 (by decide), W12_of m c main_v17_2 (by decide), W11_of m c main_v17_2 (by decide), W10_of m c main_v17_2 (by decide)]

theorem carry_v14_s5 : W14 m c main_v14 = W8 m c main_v14 := by
  rw [W14_of m c main_v14 (by decide), W13_of m c main_v14 (by decide), W12_of m c main_v14 (by decide), W11_of m c main_v14 (by decide), W10_of m c main_v14 (by decide), W9_of m c main_v14 (by decide)]

theorem carry_v16_s5 : W14 m c main_v16 = W8 m c main_v16 := by
  rw [W14_of m c main_v16 (by decide), W13_of m c main_v16 (by decide), W12_of m c main_v16 (by decide), W11_of m c main_v16 (by decide), W10_of m c main_v16 (by decide), W9_of m c main_v16 (by decide)]

theorem arg2_s5 : W14 m c main_arg2 = m ((c : Thread nD τ).loc main_arg2) := W14_untouched m c main_arg2 (by decide)
theorem arg7_s5 : W14 m c main_arg7 = m ((c : Thread nD τ).loc main_arg7) := W14_untouched m c main_arg7 (by decide)
theorem arg15_s5 : W13 m c main_arg15 = m ((c : Thread nD τ).loc main_arg15) := W13_untouched m c main_arg15 (by decide)
theorem arg16_s5 : W13 m c main_arg16 = m ((c : Thread nD τ).loc main_arg16) := W13_untouched m c main_arg16 (by decide)

abbrev ps1_s5 : FVec Ideal S160x1x128 .f32 := W9 m c main_v17_1
abbrev ps2_s5 : FVec Ideal S160x1x128 .f32 := W9 m c main_v17_2

theorem out_eq_s5 : (W15 m c main_v44 : FVec Ideal S800000x128 .f32)
    = G3_8 (W14 m c main_arg2) (W14 m c main_arg7) (W14 m c main_v16) (W14 m c main_v14) (W14 m c main_v37)
        (W14 m c main_v41) (W14 m c main_v42) (W14 m c main_v43) :=
  (W15_arr m c 8).trans (final3_8 (atTc (W14 m)) c)

theorem xg_apply_s5 (j : Fin 128) : (W14 m c main_v42 : FVec Ideal S1x128 .f32) (ix2 (0 : Fin 1) j) = (argsOf m c).ge j := by
  rw [v42_term_s5, shapeCast_a_1a_apply, arg15_s5]; rfl

theorem xb_apply_s5 (j : Fin 128) : (W14 m c main_v43 : FVec Ideal S1x128 .f32) (ix2 (0 : Fin 1) j) = (argsOf m c).be j := by
  rw [v43_term_s5, shapeCast_a_1a_apply, arg16_s5]; rfl

-- The 160 tile sums add up to the sum over all 800000 edges.
include hpsum in
theorem sum1_s5 (j : Fin 128) :
    (∑ t : Fin 160, ps1_s5 m c (ix3 t (0 : Fin 1) j)) = ∑ e : Fin 800000, Cert.Spec.eij (argsOf m c) e j :=
  Eq.trans (Finset.sum_congr rfl fun t _ => hpsum t j) (Cert.Spec.tiles fun e => Cert.Spec.eij (argsOf m c) e j)

include hpsq in
theorem sum2_s5 (j : Fin 128) :
    (∑ t : Fin 160, ps2_s5 m c (ix3 t (0 : Fin 1) j))
      = ∑ e : Fin 800000, Cert.Spec.eij (argsOf m c) e j * Cert.Spec.eij (argsOf m c) e j :=
  Eq.trans (Finset.sum_congr rfl fun t _ => hpsq t j)
    (Cert.Spec.tiles fun e => Cert.Spec.eij (argsOf m c) e j * Cert.Spec.eij (argsOf m c) e j)

include hpsum in
theorem xmean_apply_s5 (j : Fin 128) :
    (W14 m c main_v37 : FVec Ideal S1x128 .f32) (ix2 (0 : Fin 1) j) = Cert.Spec.mean 800000 (Cert.Spec.eij (argsOf m c)) j := by
  rw [v37_term_s5, meanRow_apply_s5, carry_v17_1_s5]
  exact congrArg (fun s => Ideal.div s ((800000 : ℝ) : EReal)) (sum1_s5 m c hpsum j)

-- For real data the mean of the squares minus the squared mean is the mean of the squared deviations.
include hG hpsum hpsq in
theorem xvar_apply_s5 (j : Fin 128) :
    (W14 m c main_v41 : FVec Ideal S1x128 .f32) (ix2 (0 : Fin 1) j) = Cert.Spec.var 800000 (Cert.Spec.eij (argsOf m c)) j := by
  rw [v41_term_s5, varRow_apply_s5, carry_v17_1_s5, carry_v17_2_s5, ← Cert.Spec.var_e_alt (argsOf m c) hG j]
  unfold Cert.Spec.mean
  show Ideal.div (∑ t : Fin 160, ps2_s5 m c (ix3 t (0 : Fin 1) j)) ((800000 : ℝ) : EReal)
      - Ideal.div (∑ t : Fin 160, ps1_s5 m c (ix3 t (0 : Fin 1) j)) ((800000 : ℝ) : EReal)
        * Ideal.div (∑ t : Fin 160, ps1_s5 m c (ix3 t (0 : Fin 1) j)) ((800000 : ℝ) : EReal) = _
  rw [sum1_s5 m c hpsum j, sum2_s5 m c hpsq j]

include hG hde hbC hpsum hpsq in
theorem ef_eq (e : Fin 800000) (j : Fin 128) :
    (W15 m c main_v44 : FVec Ideal S800000x128 .f32) (ix2 e j) = Cert.Spec.ef (argsOf m c) e j := by
  rw [out_eq_s5, G3_8_apply, arg2_s5, arg7_s5, carry_v16_s5, hbC, carry_v14_s5, hde, xmean_apply_s5 m c hpsum j,
    xvar_apply_s5 m c hG hpsum hpsq j, xg_apply_s5, xb_apply_s5]
  rfl

end Cert.KernelIdeal.Val

end
-- ==== Proof.KV.Val4Pay.lean ====
import proofs.«422477_j6347961663751_3_alg».proof.Proof.Gen.KernelIdeal.Skeleton
import proofs.«422477_j6347961663751_3_alg».proof.Proof.KV.Val1Pay
import Idealize.ShloMosaic.Lib.ValueLayout
import Idealize.ShloMosaic.PureOps.Ideal.Laws

noncomputable section

open scoped BigOperators

namespace Cert.KernelIdeal.Val

open Cert.KernelIdeal Cert.KernelIdeal.Gen
open Idealize.ShloMosaic Idealize.ShloMosaic.ValueIdx

abbrev ffnEps : EReal := Ideal.ofBits .f32 0x3727C5AC#32
abbrev ffnZero : EReal := Ideal.ofBits .f32 0x00000000#32

def ffnNorm (row : Fin 128 → EReal) (mean var g bb : FVec Ideal S1x128 .f32) (k : Fin 128) : EReal :=
  ((row k - mean (ix2 (0 : Fin 1) k)) * Ideal.rsqrt (var (ix2 (0 : Fin 1) k) + ffnEps)) * g (ix2 (0 : Fin 1) k) + bb (ix2 (0 : Fin 1) k)

def ffnHidden (row : Fin 128 → EReal) (mean var g bb : FVec Ideal S1x128 .f32) (w1 : FVec Ideal S128x256 .f32)
    (b1 : FVec Ideal S1x256 .f32) (q : Fin 256) : EReal :=
  max ((∑ k : Fin 128, ffnNorm row mean var g bb k * w1 (ix2 k q)) + b1 (ix2 (0 : Fin 1) q)) ffnZero

def ffnOut (row : Fin 128 → EReal) (mean var g bb : FVec Ideal S1x128 .f32) (w1 : FVec Ideal S128x256 .f32)
    (b1 : FVec Ideal S1x256 .f32) (w2 : FVec Ideal S256x128 .f32) (b2 : FVec Ideal S1x128 .f32) (j : Fin 128) : EReal :=
  row j + ((∑ q : Fin 256, ffnHidden row mean var g bb w1 b1 q * w2 (ix2 q j)) + b2 (ix2 (0 : Fin 1) j))

theorem ffn_pay2_eq (x0 : FVec Ideal S2000x128 .f32) : k4_pay2 (F := Ideal) x0 = x0 := by
  unfold k4_pay2; exact shapeCast_self _ _
theorem ffn_pay4_eq (x8 : FVec Ideal S1x128 .f32) : k4_pay4 (F := Ideal) x8 = x8 := by
  unfold k4_pay4; exact shapeCast_self _ _

-- Over the extended reals rounding to a shorter format is exact, so both products see the real operands.
theorem ffn_pay3_apply (x0 : FVec Ideal S2000x128 .f32) (x2 x1 x3 x4 : FVec Ideal S1x128 .f32) (x5 : FVec Ideal S128x256 .f32)
    (x6 : FVec Ideal S1x256 .f32) (x7 : FVec Ideal S256x128 .f32) (p : Fin 2000) (j : Fin 128) :
    k4_pay3 (F := Ideal) x0 x2 x1 x3 x4 x5 x6 x7 (ix2 p j)
      = ∑ q : Fin 256, ffnHidden (fun k => x0 (ix2 p k)) x1 x2 x3 x4 x5 x6 q * x7 (ix2 q j) := by
  unfold k4_pay3
  simp only [ffn_pay2_eq, shapeCast_self]
  refine (matmul_plain_at _ _ p j).trans ?_
  refine Finset.sum_congr rfl fun q _ => ?_
  refine congrArg (fun z => z * x7 (ix2 q j)) ?_
  unfold ffnHidden
  refine congrArg₂ max (congrArg₂ (fun a b => a + b) ?_ (broadcastTo_1b_ab_apply x6 _ p q)) rfl
  refine (matmul_plain_at _ _ p q).trans ?_
  refine Finset.sum_congr rfl fun k _ => ?_
  refine congrArg (fun z => z * x5 (ix2 k q)) ?_
  unfold ffnNorm
  refine congrArg₂ (fun a b => a + b) (congrArg₂ (fun a b => a * b) (congrArg₂ (fun a b => a * b)
    (congrArg (fun b => x0 (ix2 p k) - b) (broadcastTo_1b_ab_apply x1 _ p k)) ?_) (broadcastTo_1b_ab_apply x3 _ p k))
    (broadcastTo_1b_ab_apply x4 _ p k)
  exact broadcastTo_1b_ab_apply (rsqrt (addf x2 (broadcast S1x128 (FloatOps.ofBits FTy.f32 0x3727C5AC#32)))) _ p k

theorem ffn_pay_apply (x0 : FVec Ideal S2000x128 .f32) (x1 x2 x3 x4 : FVec Ideal S1x128 .f32) (x5 : FVec Ideal S128x256 .f32)
    (x6 : FVec Ideal S1x256 .f32) (x7 : FVec Ideal S256x128 .f32) (x8 : FVec Ideal S1x128 .f32) (p : Fin 2000) (j : Fin 128) :
    k4_pay1 (F := Ideal) (k4_pay2 x0) (k4_pay3 x0 x2 x1 x3 x4 x5 x6 x7) (k4_pay4 x8) (ix2 p j)
      = ffnOut (fun k => x0 (ix2 p k)) x1 x2 x3 x4 x5 x6 x7 x8 j := by
  unfold k4_pay1
  simp only [ffn_pay2_eq, ffn_pay4_eq]
  unfold ffnOut
  exact congrArg (fun b => x0 (ix2 p j) + b)
    (congrArg₂ (fun a b => a + b) (ffn_pay3_apply x0 x2 x1 x3 x4 x5 x6 x7 p j) (broadcastTo_1b_ab_apply x8 _ p j))

end Cert.KernelIdeal.Val

end
-- ==== Proof.KV.Val4.lean ====
import proofs.«422477_j6347961663751_3_alg».proof.Proof.KI.Reg4
import proofs.«422477_j6347961663751_3_alg».proof.Proof.KV.Val4Pay
import Idealize.ShloMosaic.Lib.Pipeline.Value
import Idealize.ShloMosaic.Lib.ValueLayout
import Idealize.ShloMosaic.PureOps.Ideal.Laws

noncomputable section

open scoped BigOperators

namespace Cert.KernelIdeal.Val

open Cert.KernelIdeal Cert.KernelIdeal.Gen Cert.KernelIdeal.Frm
open Idealize.ShloMosaic Idealize.ShloMosaic.TcCoe Idealize.SL.Sem Idealize.ShloMosaic.ValueIdx
open Idealize.ShloMosaic.Pipeline (Dat)

def G4_9 (xf : FVec Ideal S50000x128 .f32) (mean var g bb : FVec Ideal S1x128 .f32) (w1 : FVec Ideal S128x256 .f32)
    (b1 : FVec Ideal S1x256 .f32) (w2 : FVec Ideal S256x128 .f32) (b2 : FVec Ideal S1x128 .f32) : FVec Ideal S50000x128 .f32 :=
  fun i => ffnOut (fun k => xf (ix2 (n0 := 50000) (i 0) k)) mean var g bb w1 b1 w2 b2 (i 1)

variable (V : (c : Dev nD) → (b : Ref sig .tc) → Buf (Elt Ideal) ((c : Thread nD τ).loc b))

theorem hz4 : (![0, 0] : Fin 2 → Nat) = fun _ => 0 := funext fun a => by fin_cases a <;> rfl

-- On each axis the element sits at 0 * size + y = y, so such a block is its array.
theorem whole4_1 (c : Dev nD) (t : Fin cfg4.N) : iblk4 V c 1 t = V c (Pipeline.arrRef spec4 1) :=
  funext fun y => congrArg (V c _) (funext fun a => Fin.ext (win4_1.rect_emb_val_of_index_zero t a (by match a with | ⟨0, _⟩ => rfl | ⟨1, _⟩ => rfl) y))
theorem whole4_2 (c : Dev nD) (t : Fin cfg4.N) : iblk4 V c 2 t = V c (Pipeline.arrRef spec4 2) :=
  funext fun y => congrArg (V c _) (funext fun a => Fin.ext (win4_2.rect_emb_val_of_index_zero t a (by match a with | ⟨0, _⟩ => rfl | ⟨1, _⟩ => rfl) y))
theorem whole4_3 (c : Dev nD) (t : Fin cfg4.N) : iblk4 V c 3 t = V c (Pipeline.arrRef spec4 3) :=
  funext fun y => congrArg (V c _) (funext fun a => Fin.ext (win4_3.rect_emb_val_of_index_zero t a (by match a with | ⟨0, _⟩ => rfl | ⟨1, _⟩ => rfl) y))
theorem whole4_4 (c : Dev nD) (t : Fin cfg4.N) : iblk4 V c 4 t = V c (Pipeline.arrRef spec4 4) :=
  funext fun y => congrArg (V c _) (funext fun a => Fin.ext (win4_4.rect_emb_val_of_index_zero t a (by match a with | ⟨0, _⟩ => rfl | ⟨1, _⟩ => rfl) y))
theorem whole4_5 (c : Dev nD) (t : Fin cfg4.N) : iblk4 V c 5 t = V c (Pipeline.arrRef spec4 5) :=
  funext fun y => congrArg (V c _) (funext fun a => Fin.ext (win4_5.rect_emb_val_of_index_zero t a (by match a with | ⟨0, _⟩ => rfl | ⟨1, _⟩ => rfl) y))
theorem whole4_6 (c : Dev nD) (t : Fin cfg4.N) : iblk4 V c 6 t = V c (Pipeline.arrRef spec4 6) :=
  funext fun y => congrArg (V c _) (funext fun a => Fin.ext (win4_6.rect_emb_val_of_index_zero t a (by match a with | ⟨0, _⟩ => rfl | ⟨1, _⟩ => rfl) y))
theorem whole4_7 (c : Dev nD) (t : Fin cfg4.N) : iblk4 V c 7 t = V c (Pipeline.arrRef spec4 7) :=
  funext fun y => congrArg (V c _) (funext fun a => Fin.ext (win4_7.rect_emb_val_of_index_zero t a (by match a with | ⟨0, _⟩ => rfl | ⟨1, _⟩ => rfl) y))
theorem whole4_8 (c : Dev nD) (t : Fin cfg4.N) : iblk4 V c 8 t = V c (Pipeline.arrRef spec4 8) :=
  funext fun y => congrArg (V c _) (funext fun a => Fin.ext (win4_8.rect_emb_val_of_index_zero t a (by match a with | ⟨0, _⟩ => rfl | ⟨1, _⟩ => rfl) y))

theorem idx4_9 : ∀ t : Fin cfg4.N, win4_9.index t (0 : Fin 2) = t.val ∧ win4_9.index t (1 : Fin 2) = 0 :=
  (by decide +kernel : ∀ t : Fin grid4.N, _)

-- Row coordinate t * 2000 + p, column coordinate 0 * 128 + j.
theorem read_blk4_9 (G : FVec Ideal S50000x128 .f32) (t : Fin cfg4.N) (p : Fin 2000) (r : Fin 50000)
    (hr : r.val = t.val * 2000 + p.val) (j : Fin 128) :
    ((cfg4.win 9).blk t).view.read (Elt Ideal) G (ix2 p j) = G (ix2 r j) := by
  refine congrArg G (funext fun a => Fin.ext ((win4_9.rect_emb_val t (ix2 p j) a).trans ?_))
  match a with
  | ⟨0, _⟩ => show win4_9.index t (0 : Fin 2) * 2000 + p.val = r.val; rw [(idx4_9 t).1, hr]
  | ⟨1, _⟩ => show win4_9.index t (1 : Fin 2) * 128 + j.val = j.val; rw [(idx4_9 t).2, Nat.zero_mul, Nat.zero_add]

-- The same rectangle of rows as the output's block t.
theorem rows4_0 (c : Dev nD) (t : Fin cfg4.N) (p : Fin 2000) (r : Fin 50000) (hr : r.val = t.val * 2000 + p.val) (j : Fin 128) :
    (iblk4 V c 0 t : FVec Ideal S2000x128 .f32) (ix2 p j) = (V c (Pipeline.arrRef spec4 0) : FVec Ideal S50000x128 .f32) (ix2 r j) :=
  read_blk4_9 _ t p r hr j

theorem flushed4_9_eq (c : Dev nD) (t : Fin cfg4.N) :
    (dat4 (F := Ideal) V c).flushed 9 t = ((cfg4.win 9).blk t).view.read (Elt Ideal) (G4_9 (V c (Pipeline.arrRef spec4 0)) (V c (Pipeline.arrRef spec4 1)) (V c (Pipeline.arrRef spec4 2)) (V c (Pipeline.arrRef spec4 3)) (V c (Pipeline.arrRef spec4 4)) (V c (Pipeline.arrRef spec4 5)) (V c (Pipeline.arrRef spec4 6)) (V c (Pipeline.arrRef spec4 7)) (V c (Pipeline.arrRef spec4 8))) := by
  funext y
  obtain ⟨p, j, rfl⟩ : ∃ (p : Fin 2000) (j : Fin 128), y = ix2 p j := ⟨y 0, y 1, eq_ix2 y⟩
  have ht : t.val < 25 := lt_of_lt_of_eq t.isLt N_4
  have hp : p.val < 2000 := p.isLt
  obtain ⟨r, hr⟩ : ∃ r : Fin 50000, r.val = t.val * 2000 + p.val := ⟨⟨t.val * 2000 + p.val, by omega⟩, rfl⟩
  show (cfg4.win 9).cut (grid4.coords t) ((dat4 V c).after 9 t) (ix2 p j) = _
  rw [after4_9]
  unfold out4_9
  rw [View.canon_unit_zero hz4]
  simp only [View.ld_unit_zero (S := S2000x128) hz4, View.ld_unit_zero (S := S1x128) hz4, View.ld_unit_zero (S := S128x256) hz4,
    View.ld_unit_zero (S := S1x256) hz4, View.ld_unit_zero (S := S256x128) hz4]
  refine (ffn_pay_apply _ _ _ _ _ _ _ _ _ p j).trans ?_
  rw [read_blk4_9 _ t p r hr j]
  simp only [rows4_0 V c t p r hr, whole4_1 V c t, whole4_2 V c t, whole4_3 V c t, whole4_4 V c t, whole4_5 V c t, whole4_6 V c t,
    whole4_7 V c t, whole4_8 V c t]
  rfl

-- n = 2000 * (n / 2000) + n % 2000 with n / 2000 < 25.
theorem covered4_9 (i : S50000x128.Idx) :
    ∃ t : Fin cfg4.N, (cfg4.win 9).flush t = true ∧ i ∈ ((cfg4.win 9).blk t).view.set := by
  have hi0 : (i 0).val < 50000 := (i 0).isLt
  have hi1 : (i 1).val < 128 := (i 1).isLt
  obtain ⟨t, ht⟩ : ∃ t : Fin cfg4.N, t.val = (i 0).val / 2000 :=
    ⟨⟨(i 0).val / 2000, by rw [show cfg4.N = 25 from N_4]; omega⟩, rfl⟩
  refine ⟨t, flush4_9 t, ?_⟩
  show i ∈ ((View.whole main_v54).slice (win4_9.rect t)).set
  rw [View.set_slice_whole, Rect.mem_set_unit]
  intro a
  match a with
  | ⟨0, _⟩ => show win4_9.index t (0 : Fin 2) * 2000 ≤ (i 0).val ∧ (i 0).val < win4_9.index t (0 : Fin 2) * 2000 + 2000; rw [(idx4_9 t).1, ht]; omega
  | ⟨1, _⟩ => show win4_9.index t (1 : Fin 2) * 128 ≤ (i 1).val ∧ (i 1).val < win4_9.index t (1 : Fin 2) * 128 + 128; rw [(idx4_9 t).2]; omega

theorem final4_9 (c : Dev nD) :
    (dat4 (F := Ideal) V c).arrAt 9 cfg4.N = G4_9 (V c (Pipeline.arrRef spec4 0)) (V c (Pipeline.arrRef spec4 1)) (V c (Pipeline.arrRef spec4 2)) (V c (Pipeline.arrRef spec4 3)) (V c (Pipeline.arrRef spec4 4)) (V c (Pipeline.arrRef spec4 5)) (V c (Pipeline.arrRef spec4 6)) (V c (Pipeline.arrRef spec4 7)) (V c (Pipeline.arrRef spec4 8)) :=
  (dat4 (F := Ideal) V c).arrAt_eq_of_cover 9 _ (fun t _ => flushed4_9_eq V c t) covered4_9

end Cert.KernelIdeal.Val

end
-- ==== Proof.KV.Stage6.lean ====
import proofs.«422477_j6347961663751_3_alg».proof.Proof.KI.Fold
import proofs.«422477_j6347961663751_3_alg».proof.Proof.KV.Args
import proofs.«422477_j6347961663751_3_alg».proof.Proof.KV.Val4
import proofs.«422477_j6347961663751_3_alg».proof.Proof.KV.VarChain
import proofs.«422477_j6347961663751_3_alg».proof.Proof.Spec
import Idealize.ShloMosaic.Lib.StableHlo.Run
import Idealize.ShloMosaic.Lib.ValueIdx
import Idealize.ShloMosaic.Lib.ValueLayout
import Idealize.ShloMosaic.Lib.Pipeline.Value

noncomputable section

open scoped BigOperators

namespace Cert.KernelIdeal.Val

open Cert.KernelIdeal Cert.KernelIdeal.Gen Cert.KernelIdeal.Frm
open Idealize.ShloMosaic Idealize.ShloMosaic.ValueIdx Idealize.ShloMosaic.TcCoe

variable (m : (ℓ : Loc nD τ sig) → Buf (Elt Ideal) ℓ) (c : Dev nD)

theorem carry_v29_15_s6 : W15 m c main_v29 = W13 m c main_v29 :=
  (W15_of m c main_v29 (by decide)).trans (W14_of m c main_v29 (by decide))
theorem carry_v29_16_s6 : W16 m c main_v29 = W13 m c main_v29 :=
  (W16_of m c main_v29 (by decide)).trans (carry_v29_15_s6 m c)
theorem carry_v29_18_s6 : W18 m c main_v29 = W13 m c main_v29 :=
  (W18_of m c main_v29 (by decide)).trans ((W17_of m c main_v29 (by decide)).trans (carry_v29_16_s6 m c))

theorem mean_stretch_s6 (Wv : Valuation τ sig (Elt Ideal)) :
    (StableHlo.after hostOps4 Wv (Proc.devRef .tc main_v48) : FVec Ideal S1x128 .f32) = meanChain (Wv main_v29) := by
  after_results
  rfl

theorem zero_stretch_s6 (Wv : Valuation τ sig (Elt Ideal)) :
    (StableHlo.after hostOps4 Wv (Proc.devRef .tc main_c_8) : IVec S_ 32) = constantI S_ 32 0#32 := by
  after_results

theorem var_stretch_s6 (Wv : Valuation τ sig (Elt Ideal)) :
    (StableHlo.after hostOps4_1 Wv (Proc.devRef .tc main_v49) : FVec Ideal S1x128 .f32) = varChain (Wv main_v29) (Wv main_c_8) := by
  after_results_simp
  simp only [StableHlo.TRef.ofBuf, StableHlo.TRef.toBuf, cast_eq]
  rfl

theorem v50_stretch_s6 (Wv : Valuation τ sig (Elt Ideal)) :
    (StableHlo.after hostOps4_2 Wv (Proc.devRef .tc main_v50) : FVec Ideal S1x256 .f32)
      = shapeCast S1x256 (Wv main_arg22 : FVec Ideal S256 .f32) shapeCasts_S256_S1x256 := by
  after_results
  rfl
theorem v51_stretch_s6 (Wv : Valuation τ sig (Elt Ideal)) :
    (StableHlo.after hostOps4_2 Wv (Proc.devRef .tc main_v51) : FVec Ideal S1x128 .f32)
      = shapeCast S1x128 (Wv main_arg24 : FVec Ideal S128 .f32) shapeCasts_S128_S1x128 := by
  after_results
  rfl
theorem v52_stretch_s6 (Wv : Valuation τ sig (Elt Ideal)) :
    (StableHlo.after hostOps4_2 Wv (Proc.devRef .tc main_v52) : FVec Ideal S1x128 .f32)
      = shapeCast S1x128 (Wv main_arg17 : FVec Ideal S128 .f32) shapeCasts_S128_S1x128 := by
  after_results
  rfl
theorem v53_stretch_s6 (Wv : Valuation τ sig (Elt Ideal)) :
    (StableHlo.after hostOps4_2 Wv (Proc.devRef .tc main_v53) : FVec Ideal S1x128 .f32)
      = shapeCast S1x128 (Wv main_arg18 : FVec Ideal S128 .f32) shapeCasts_S128_S1x128 := by
  after_results
  rfl

theorem v48_18_s6 : (W18 m c main_v48 : FVec Ideal S1x128 .f32) = meanChain (W13 m c main_v29) :=
  (W18_of m c main_v48 (by decide)).trans ((W17_of m c main_v48 (by decide)).trans
    ((mean_stretch_s6 (W15 m c)).trans (congrArg meanChain (carry_v29_15_s6 m c))))
theorem v49_18_s6 : (W18 m c main_v49 : FVec Ideal S1x128 .f32) = varChain (W13 m c main_v29) (constantI S_ 32 0#32) :=
  (W18_of m c main_v49 (by decide)).trans ((var_stretch_s6 (W16 m c)).trans
    (congrArg₂ varChain (carry_v29_16_s6 m c) (zero_stretch_s6 (W15 m c))))

theorem v50_apply_s6 (q : Fin 256) : (W18 m c main_v50 : FVec Ideal S1x256 .f32) (ix2 (0 : Fin 1) q) = (argsOf m c).bf1 q := by
  refine (congrFun (v50_stretch_s6 (W17 m c)) _).trans ?_
  rw [W17_untouched m c main_arg22 (by decide)]
  exact shapeCast_a_1a_apply _ _ 0 q
theorem v51_apply_s6 (j : Fin 128) : (W18 m c main_v51 : FVec Ideal S1x128 .f32) (ix2 (0 : Fin 1) j) = (argsOf m c).bf2 j := by
  refine (congrFun (v51_stretch_s6 (W17 m c)) _).trans ?_
  rw [W17_untouched m c main_arg24 (by decide)]
  exact shapeCast_a_1a_apply _ _ 0 j
theorem v52_apply_s6 (k : Fin 128) : (W18 m c main_v52 : FVec Ideal S1x128 .f32) (ix2 (0 : Fin 1) k) = (argsOf m c).g1 k := by
  refine (congrFun (v52_stretch_s6 (W17 m c)) _).trans ?_
  rw [W17_untouched m c main_arg17 (by decide)]
  exact shapeCast_a_1a_apply _ _ 0 k
theorem v53_apply_s6 (k : Fin 128) : (W18 m c main_v53 : FVec Ideal S1x128 .f32) (ix2 (0 : Fin 1) k) = (argsOf m c).b1 k := by
  refine (congrFun (v53_stretch_s6 (W17 m c)) _).trans ?_
  rw [W17_untouched m c main_arg18 (by decide)]
  exact shapeCast_a_1a_apply _ _ 0 k

theorem arg21_apply_s6 (k : Fin 128) (q : Fin 256) :
    (W18 m c main_arg21 : FVec Ideal S128x256 .f32) (ix2 k q) = (argsOf m c).Wf1 k q := by
  rw [W18_untouched m c main_arg21 (by decide)]
  rfl
theorem arg23_apply_s6 (q : Fin 256) (j : Fin 128) :
    (W18 m c main_arg23 : FVec Ideal S256x128 .f32) (ix2 q j) = (argsOf m c).Wf2 q j := by
  rw [W18_untouched m c main_arg23 (by decide)]
  rfl

theorem v54_19_s6 : (W19 m c main_v54 : FVec Ideal S50000x128 .f32)
    = G4_9 (W18 m c main_v29) (W18 m c main_v48) (W18 m c main_v49) (W18 m c main_v52) (W18 m c main_v53)
        (W18 m c main_arg21) (W18 m c main_v50) (W18 m c main_arg23) (W18 m c main_v51) :=
  (W19_arr m c 9).trans (final4_9 (atTc (W18 m)) c)

-- With each input array read as the specification's value, the call's closed form is the specification's, operation by operation.
theorem pre2_eq (hxf : ∀ n j, (W13 m c main_v29 : FVec Ideal S50000x128 .f32) (ix2 n j) = Cert.Spec.xf (argsOf m c) n j)
    (n : Fin 50000) (j : Fin 128) :
    (W19 m c main_v54 : FVec Ideal S50000x128 .f32) (ix2 n j) = Cert.Spec.pre2 (argsOf m c) n j := by
  have hrows : (fun (n : Fin 50000) (k : Fin 128) => (W13 m c main_v29 : FVec Ideal S50000x128 .f32) (ix2 n k))
      = Cert.Spec.xf (argsOf m c) := funext fun n => funext fun k => hxf n k
  refine (congrFun (v54_19_s6 m c) (ix2 n j)).trans ?_
  show ffnOut (fun k => (W18 m c main_v29 : FVec Ideal S50000x128 .f32) (ix2 n k)) (W18 m c main_v48) (W18 m c main_v49)
    (W18 m c main_v52) (W18 m c main_v53) (W18 m c main_arg21) (W18 m c main_v50) (W18 m c main_arg23) (W18 m c main_v51) j = _
  unfold ffnOut ffnHidden ffnNorm
  unfold Cert.Spec.pre2 Cert.Spec.ffn Cert.Spec.hid Cert.Spec.relu Cert.Spec.lin Cert.Spec.h1 Cert.Spec.bn
  simp only [carry_v29_18_s6 m c, hxf, v48_18_s6 m c, v49_18_s6 m c, meanChain_apply, varChain_apply, hrows, v52_apply_s6 m c,
    v53_apply_s6 m c, arg21_apply_s6 m c, v50_apply_s6 m c, arg23_apply_s6 m c, v51_apply_s6 m c]

end Cert.KernelIdeal.Val

end
-- ==== Proof.KV.Stage7.lean ====
import proofs.«422477_j6347961663751_3_alg».proof.Proof.KI.Fold
import proofs.«422477_j6347961663751_3_alg».proof.Proof.KV.Args
import proofs.«422477_j6347961663751_3_alg».proof.Proof.KV.VarChain
import proofs.«422477_j6347961663751_3_alg».proof.Proof.Spec
import Idealize.ShloMosaic.Lib.ValueIdx
import Idealize.ShloMosaic.Lib.ValueLayout
import Idealize.ShloMosaic.Lib.IdealHost
import Idealize.ShloMosaic.Lib.KernelVsHost
import Idealize.ShloMosaic.Lib.Pipeline.Value
import Idealize.ShloMosaic.PureOps.Ideal.Laws

noncomputable section

open scoped BigOperators

namespace Cert.KernelIdeal.Val

open Cert.KernelIdeal Cert.KernelIdeal.Gen Cert.KernelIdeal.Frm
open Idealize.ShloMosaic Idealize.ShloMosaic.ValueIdx Idealize.ShloMosaic.TcCoe

theorem lane_apply_s7 (g : FVec Ideal S128 .f32) (j : Fin 128) :
    broadcastInDim S1x128 ![1] bcast_S128_S1x128_1 g (ix2 0 j) = g (ix1 j) := by
  refine broadcastInDim_apply ![1] bcast_S128_S1x128_1 g (ix2 0 j) (ix1 j) ?_
  intro a
  match a with
  | ⟨0, _⟩ => rfl

def bnChain_s7 (x : FVec Ideal S50000x128 .f32) (mu var : FVec Ideal S1x128 .f32) (g b : FVec Ideal S128 .f32) :
    FVec Ideal S50000x128 .f32 :=
  addf
    (mulf
      (mulf (subf x (broadcastInDim S50000x128 ![0, 1] bcast_S1x128_S50000x128_0_1 mu))
        (broadcastInDim S50000x128 ![0, 1] bcast_S1x128_S50000x128_0_1
          (Host.rsqrt (addf var (broadcastInDim S1x128 ![] bcast_S_S1x128 (constant (F := Ideal) S_ .f32 0x3727C5AC#32))))))
      (broadcastInDim S50000x128 ![0, 1] bcast_S1x128_S50000x128_0_1 (broadcastInDim S1x128 ![1] bcast_S128_S1x128_1 g)))
    (broadcastInDim S50000x128 ![0, 1] bcast_S1x128_S50000x128_0_1 (broadcastInDim S1x128 ![1] bcast_S128_S1x128_1 b))

theorem bnChain_apply_s7 (x : FVec Ideal S50000x128 .f32) (mu var : FVec Ideal S1x128 .f32) (g b : FVec Ideal S128 .f32)
    (n : Fin 50000) (j : Fin 128) :
    bnChain_s7 x mu var g b (ix2 n j)
      = ((x (ix2 n j) - mu (ix2 0 j)) * Ideal.rsqrt (var (ix2 0 j) + Cert.Spec.epsW)) * g (ix1 j) + b (ix1 j) := by
  unfold bnChain_s7
  rw [addf_apply, mulf_apply, mulf_apply, subf_apply, broadcastInDim_oneRow_apply, broadcastInDim_oneRow_apply, broadcastInDim_oneRow_apply, broadcastInDim_oneRow_apply, lane_apply_s7, lane_apply_s7]
  show _ * Ideal.rsqrt (addf var _ (ix2 0 j)) * _ + _ = _
  rw [addf_apply, broadcastInDim_scalar_apply, constant_apply]

theorem out_buf_s7 (V : Valuation τ sig (Elt Ideal)) :
    (StableHlo.after hostOps5_2 V (Proc.devRef .tc main_v72) : FVec Ideal S50000x128 .f32)
      = bnChain_s7 (V main_v54) (V main_v58) (V main_v59) (V main_arg19) (V main_arg20) := by
  after_results_simp
  rfl

variable (m : (ℓ : Loc nD τ sig) → Buf (Elt Ideal) ℓ) (c : Dev nD)

theorem mean_buf_s7 : (W20 m c main_v58 : FVec Ideal S1x128 .f32) = meanChain (W19 m c main_v54) := by
  show StableHlo.after hostOps5 (W19 m c) (Proc.devRef .tc main_v58) = _
  after_results
  rfl

theorem var_buf_s7 : (W21 m c main_v59 : FVec Ideal S1x128 .f32) = varChain (W19 m c main_v54) (constantI S_ 32 0#32) := by
  show StableHlo.after hostOps5_1 (W20 m c) (Proc.devRef .tc main_v59) = _
  after_results_simp
  rfl

theorem v54_at21_s7 : (W21 m c main_v54 : FVec Ideal S50000x128 .f32) = W19 m c main_v54 :=
  (W21_of m c main_v54 (by decide)).trans (W20_of m c main_v54 (by decide))

theorem v58_at21_s7 : (W21 m c main_v58 : FVec Ideal S1x128 .f32) = meanChain (W19 m c main_v54) :=
  (W21_of m c main_v58 (by decide)).trans (mean_buf_s7 m c)

theorem g_at21_s7 : W21 m c main_arg19 = m ((c : Thread nD τ).loc main_arg19) :=
  W21_untouched m c main_arg19 (by decide)

theorem b_at21_s7 : W21 m c main_arg20 = m ((c : Thread nD τ).loc main_arg20) :=
  W21_untouched m c main_arg20 (by decide)

theorem xout_eq (hpre2 : ∀ n j, (W19 m c main_v54 : FVec Ideal S50000x128 .f32) (ix2 n j) = Cert.Spec.pre2 (argsOf m c) n j)
    (n : Fin 50000) (j : Fin 128) :
    (W22 m c main_v72 : FVec Ideal S50000x128 .f32) (ix2 n j) = Cert.Spec.xout (argsOf m c) n j := by
  have hx : (fun n k => (W19 m c main_v54 : FVec Ideal S50000x128 .f32) (ix2 n k)) = Cert.Spec.pre2 (argsOf m c) :=
    funext fun n => funext fun k => hpre2 n k
  refine (congrFun (out_buf_s7 (W21 m c)) (ix2 n j)).trans ?_
  rw [bnChain_apply_s7, v54_at21_s7, v58_at21_s7, var_buf_s7, g_at21_s7, b_at21_s7, meanChain_apply, varChain_apply, hx, hpre2]
  rfl

end Cert.KernelIdeal.Val

end
-- ==== Proof.KV.Result.lean ====
import proofs.«422477_j6347961663751_3_alg».proof.Proof.KV.Stage1
import proofs.«422477_j6347961663751_3_alg».proof.Proof.KV.Stage2
import proofs.«422477_j6347961663751_3_alg».proof.Proof.KV.Stage3
import proofs.«422477_j6347961663751_3_alg».proof.Proof.KV.Stage4
import proofs.«422477_j6347961663751_3_alg».proof.Proof.KV.Stage5
import proofs.«422477_j6347961663751_3_alg».proof.Proof.KV.Stage6
import proofs.«422477_j6347961663751_3_alg».proof.Proof.KV.Stage7

noncomputable section

namespace Cert.KernelIdeal.Val

open Cert.KernelIdeal Cert.KernelIdeal.Gen Cert.KernelIdeal.Frm
open Idealize.ShloMosaic Idealize.ShloMosaic.ValueIdx Idealize.ShloMosaic.TcCoe

variable (m : (ℓ : Loc nD τ sig) → Buf (Elt Ideal) ℓ) (c : Dev nD)

theorem kernel_xout (hG : (argsOf m c).Good) (n : Fin 50000) (j : Fin 128) :
    (W22 m c main_v72 : FVec Ideal S50000x128 .f32) (ix2 n j) = Cert.Spec.xout (argsOf m c) n j :=
  have hde := de_eq m c hG.idx (row_raw m c) (col_raw m c) (Dx_eq m c) (Ex_eq m c)
  have hbxc := bxc_eq m c hG.idx (col_raw m c) (Bx_eq m c)
  have hmsgs := msgs_eq m c hde hbxc (bC_eq m c)
  have hxf := xf_eq m c (row_raw m c) (Ax_eq m c) hmsgs
  xout_eq m c (pre2_eq m c hxf) n j

theorem carry_v44 : W22 m c main_v44 = W15 m c main_v44 :=
  (W22_of m c main_v44 (by decide)).trans <| (W21_of m c main_v44 (by decide)).trans <| (W20_of m c main_v44 (by decide)).trans <|
  (W19_of m c main_v44 (by decide)).trans <| (W18_of m c main_v44 (by decide)).trans <| (W17_of m c main_v44 (by decide)).trans <|
  (W16_of m c main_v44 (by decide))

theorem kernel_ef (hG : (argsOf m c).Good) (e : Fin 800000) (j : Fin 128) :
    (W22 m c main_v44 : FVec Ideal S800000x128 .f32) (ix2 e j) = Cert.Spec.ef (argsOf m c) e j := by
  have hde := de_eq m c hG.idx (row_raw m c) (col_raw m c) (Dx_eq m c) (Ex_eq m c)
  have h := ef_eq m c hG hde (bC_eq m c) (psum_eq m c hde (bC_eq m c)) (psq_eq m c hde (bC_eq m c)) e j
  rw [carry_v44 m c]; exact h

end Cert.KernelIdeal.Val

end
-- ==== Proof.Ref.Args.lean ====
import proofs.«422477_j6347961663751_3_alg».proof.ReferenceIdeal
import proofs.«422477_j6347961663751_3_alg».proof.Proof.SpecGood
import Idealize.ShloMosaic.Lib.ValueIdx

noncomputable section

open Idealize.ShloMosaic Idealize.ShloMosaic.ValueIdx Idealize.ShloMosaic.TcCoe Idealize.SL.Sem

namespace Cert.ReferenceIdeal.RefVal

open Cert.ReferenceIdeal

def argsOf (m : (ℓ : Loc nD τ sig) → Buf (Elt Ideal) ℓ) (c : Dev nD) : Cert.Spec.Args where
  x i j := (m ((c.tc : Thread nD τ).loc main_arg0) : FVec Ideal S50000x128 .f32) (ix2 i j)
  ei i j := (m ((c.tc : Thread nD τ).loc main_arg1) : IVec S2x800000 32) (ix2 i j)
  ea i j := (m ((c.tc : Thread nD τ).loc main_arg2) : FVec Ideal S800000x128 .f32) (ix2 i j)
  WA i j := (m ((c.tc : Thread nD τ).loc main_arg3) : FVec Ideal S128x128 .f32) (ix2 i j)
  bA j := (m ((c.tc : Thread nD τ).loc main_arg4) : FVec Ideal S128 .f32) (ix1 j)
  WB i j := (m ((c.tc : Thread nD τ).loc main_arg5) : FVec Ideal S128x128 .f32) (ix2 i j)
  bB j := (m ((c.tc : Thread nD τ).loc main_arg6) : FVec Ideal S128 .f32) (ix1 j)
  WC i j := (m ((c.tc : Thread nD τ).loc main_arg7) : FVec Ideal S128x128 .f32) (ix2 i j)
  bC j := (m ((c.tc : Thread nD τ).loc main_arg8) : FVec Ideal S128 .f32) (ix1 j)
  WD i j := (m ((c.tc : Thread nD τ).loc main_arg9) : FVec Ideal S128x128 .f32) (ix2 i j)
  bD j := (m ((c.tc : Thread nD τ).loc main_arg10) : FVec Ideal S128 .f32) (ix1 j)
  WE i j := (m ((c.tc : Thread nD τ).loc main_arg11) : FVec Ideal S128x128 .f32) (ix2 i j)
  bE j := (m ((c.tc : Thread nD τ).loc main_arg12) : FVec Ideal S128 .f32) (ix1 j)
  gx j := (m ((c.tc : Thread nD τ).loc main_arg13) : FVec Ideal S128 .f32) (ix1 j)
  bx j := (m ((c.tc : Thread nD τ).loc main_arg14) : FVec Ideal S128 .f32) (ix1 j)
  ge j := (m ((c.tc : Thread nD τ).loc main_arg15) : FVec Ideal S128 .f32) (ix1 j)
  be j := (m ((c.tc : Thread nD τ).loc main_arg16) : FVec Ideal S128 .f32) (ix1 j)
  g1 j := (m ((c.tc : Thread nD τ).loc main_arg17) : FVec Ideal S128 .f32) (ix1 j)
  b1 j := (m ((c.tc : Thread nD τ).loc main_arg18) : FVec Ideal S128 .f32) (ix1 j)
  g2 j := (m ((c.tc : Thread nD τ).loc main_arg19) : FVec Ideal S128 .f32) (ix1 j)
  b2 j := (m ((c.tc : Thread nD τ).loc main_arg20) : FVec Ideal S128 .f32) (ix1 j)
  Wf1 i j := (m ((c.tc : Thread nD τ).loc main_arg21) : FVec Ideal S128x256 .f32) (ix2 i j)
  bf1 j := (m ((c.tc : Thread nD τ).loc main_arg22) : FVec Ideal S256 .f32) (ix1 j)
  Wf2 i j := (m ((c.tc : Thread nD τ).loc main_arg23) : FVec Ideal S256x128 .f32) (ix2 i j)
  bf2 j := (m ((c.tc : Thread nD τ).loc main_arg24) : FVec Ideal S128 .f32) (ix1 j)

end Cert.ReferenceIdeal.RefVal

end
-- ==== Proof.Ref.VarChain.lean ====
import proofs.«422477_j6347961663751_3_alg».proof.Proof.Gen.ReferenceIdeal
import proofs.«422477_j6347961663751_3_alg».proof.Proof.Spec
import proofs.«422477_j6347961663751_3_alg».proof.Proof.Ref.Fold
import Idealize.ShloMosaic.Lib.IdealHost
import Idealize.ShloMosaic.Lib.ValueIdx
import Idealize.ShloMosaic.Lib.ValueLayout
import Idealize.ShloMosaic.Lib.KernelVsHost
import Idealize.ShloMosaic.Lib.Pipeline.Value
import Idealize.ShloMosaic.Lib.StackMember
import Idealize.ShloMosaic.PureOps.Ideal.Laws

noncomputable section

open scoped BigOperators
open Idealize.ShloMosaic Idealize.ShloMosaic.ValueIdx

namespace Cert.ReferenceIdeal.RefVal

open Cert.ReferenceIdeal Cert.ReferenceIdeal.Gen

section Layout
variable {α : Type} {R K C : ℕ}
  (h1 : (⟨1, ![C]⟩ : Shape).BroadcastsInDim ⟨2, ![1, C]⟩ (![1] : Fin 1 → Fin 2))
  (h2 : (⟨2, ![1, C]⟩ : Shape).BroadcastsInDim (⟨2, ![R, C]⟩ : Shape) (![0, 1] : Fin 2 → Fin 2))

-- Output column j comes from input entry j unless the width is 1, and then j = 0 anyway.
theorem row_apply_rv (v : (⟨1, ![C]⟩ : Shape).Idx → α) (j : Fin C) :
    broadcastInDim ⟨2, ![1, C]⟩ ![1] h1 v (ix2 (0 : Fin 1) j) = v (ix1 j) := by
  refine broadcastInDim_apply ![1] h1 v (ix2 (0 : Fin 1) j) (ix1 j) ?_
  intro a
  match a with
  | ⟨0, _⟩ =>
    show j.val = if C = 1 then 0 else j.val
    split
    · have := j.isLt; omega
    · rfl

-- Every row is a copy of row 0.
theorem laid_apply_rv (v : (⟨1, ![C]⟩ : Shape).Idx → α) (n : Fin R) (j : Fin C) :
    broadcastInDim (⟨2, ![R, C]⟩ : Shape) ![0, 1] h2 (broadcastInDim ⟨2, ![1, C]⟩ ![1] h1 v) (ix2 n j) = v (ix1 j) :=
  (broadcastInDim_oneRow_apply h2 _ n j).trans (row_apply_rv h1 v j)

-- The contraction's sum plus the bias entry: lin unfolded.
theorem lin_apply_rv (D : DotDims ⟨2, ![R, K]⟩ ⟨2, ![K, C]⟩ ⟨2, ![R, C]⟩) (hD : D = DotDims.plain R K C)
    (X : FVec Ideal ⟨2, ![R, K]⟩ .f32) (W : FVec Ideal ⟨2, ![K, C]⟩ .f32) (b : FVec Ideal ⟨1, ![C]⟩ .f32)
    (n : Fin R) (j : Fin C) :
    addf (Host.dotGeneral D none X W)
        (broadcastInDim (⟨2, ![R, C]⟩ : Shape) ![0, 1] h2 (broadcastInDim ⟨2, ![1, C]⟩ ![1] h1 b)) (ix2 n j)
      = Cert.Spec.lin (fun n k => X (ix2 n k)) (fun k j => W (ix2 k j)) (fun j => b (ix1 j)) n j := by
  subst hD
  rw [addf_apply, laid_apply_rv, StackMember.dotGeneral_plain_apply]
  rfl

end Layout

section Columns

-- Only axis 0 is reduced, so the reduced index runs over the rows.
theorem colSum_apply_rv {n : ℕ} (h' : (⟨2, ![n, 128]⟩ : Shape).ReducesTo [0] ⟨1, ![128]⟩)
    (h : (⟨2, ![n, 128]⟩ : Shape).Reduces [0] ⟨1, ![128]⟩) (x : (⟨2, ![n, 128]⟩ : Shape).Idx → EReal) (init : EReal)
    (j : Fin 128) :
    Ideal.hostReduceAdd h' x init (ix1 j) = init + ∑ k : Fin n, x (ix2 k j) := by
  rw [Ideal.hostReduceAdd_single h' h]
  refine congrArg (init + ·) (Finset.sum_congr rfl fun k _ => congrArg x ?_)
  funext c
  match c with
  | ⟨0, _⟩ => rfl
  | ⟨1, _⟩ => rfl

variable {n : ℕ} (hr : (⟨2, ![n, 128]⟩ : Shape).ReducesTo [0] S128)
  (hb : S1x128.BroadcastsInDim (⟨2, ![n, 128]⟩ : Shape) (![0, 1] : Fin 2 → Fin 2)) (cw : BitVec 32)

-- Column sums divided by the count word cw.
def colMean_rv (x : FVec Ideal ⟨2, ![n, 128]⟩ .f32) : FVec Ideal S128 .f32 :=
  Host.divf (Host.reduceAdd x (constant (F := Ideal) S_ .f32 0x00000000#32) hr h_S_)
    (broadcastInDim S128 ![] bcast_S_S128 (constant (F := Ideal) S_ .f32 cw))

-- The same quotient formed on a one-row matrix.
def colMeanKeep_rv (x : FVec Ideal ⟨2, ![n, 128]⟩ .f32) : FVec Ideal S1x128 .f32 :=
  Host.divf (broadcastInDim S1x128 ![1] bcast_S128_S1x128_1
      (Host.reduceAdd x (constant (F := Ideal) S_ .f32 0x00000000#32) hr h_S_))
    (broadcastInDim S1x128 ![] bcast_S_S1x128 (constant (F := Ideal) S_ .f32 cw))

-- Squared deviations summed and divided by cw − c0; NaN unless that denominator is positive.
def colVar_rv (x : FVec Ideal ⟨2, ![n, 128]⟩ .f32) (c0 : IVec S_ 32) : FVec Ideal S128 .f32 :=
  let d : FVec Ideal ⟨2, ![n, 128]⟩ .f32 := subf x (broadcastInDim ⟨2, ![n, 128]⟩ ![0, 1] hb (colMeanKeep_rv hr cw x))
  let dof : FVec Ideal S_ .f32 := subf (constant (F := Ideal) S_ .f32 cw) (sitofp .f32 c0)
  let q : FVec Ideal S128 .f32 :=
    Host.divf (Host.reduceAdd (mulf d d) (constant (F := Ideal) S_ .f32 0x00000000#32) hr h_S_)
      (broadcastInDim S128 ![] bcast_S_S128 dof)
  select (broadcastInDim S128 ![] bcast_S_S128 (cmpf .ogt dof (constant (F := Ideal) S_ .f32 0x00000000#32))) q
    (broadcastInDim S128 ![] bcast_S_S128 (id (constant (F := Ideal) S_ .f32 0x7FC00000#32)))

-- Centre, scale by rsqrt(va + ε), then the affine pair; all four vectors act per column.
def bn_rv (x : FVec Ideal ⟨2, ![n, 128]⟩ .f32) (mu va g b : FVec Ideal S128 .f32) : FVec Ideal ⟨2, ![n, 128]⟩ .f32 :=
  addf
    (mulf
      (mulf
        (subf x (broadcastInDim ⟨2, ![n, 128]⟩ ![0, 1] hb (broadcastInDim S1x128 ![1] bcast_S128_S1x128_1 mu)))
        (broadcastInDim ⟨2, ![n, 128]⟩ ![0, 1] hb (broadcastInDim S1x128 ![1] bcast_S128_S1x128_1
          (Host.rsqrt (addf va (broadcastInDim S128 ![] bcast_S_S128 (constant (F := Ideal) S_ .f32 0x3727C5AC#32)))))))
      (broadcastInDim ⟨2, ![n, 128]⟩ ![0, 1] hb (broadcastInDim S1x128 ![1] bcast_S128_S1x128_1 g)))
    (broadcastInDim ⟨2, ![n, 128]⟩ ![0, 1] hb (broadcastInDim S1x128 ![1] bcast_S128_S1x128_1 b))

theorem bn_apply_rv (x : FVec Ideal ⟨2, ![n, 128]⟩ .f32) (mu va g b : FVec Ideal S128 .f32) (k : Fin n) (j : Fin 128) :
    bn_rv hb x mu va g b (ix2 k j)
      = ((x (ix2 k j) - mu (ix1 j)) * Ideal.rsqrt (va (ix1 j) + Cert.Spec.epsW)) * g (ix1 j) + b (ix1 j) := by
  unfold bn_rv
  rw [addf_apply, mulf_apply, mulf_apply, subf_apply, laid_apply_rv, laid_apply_rv, laid_apply_rv, laid_apply_rv]
  rfl

variable (hR : (⟨2, ![n, 128]⟩ : Shape).Reduces [0] S128) (cnt : ℝ) (hcw : Ideal.ofBits .f32 cw = (cnt : EReal))
include hR hcw

-- The reduction starts from the zero word, so it is the plain sum.
theorem colMean_apply_rv (x : FVec Ideal ⟨2, ![n, 128]⟩ .f32) (j : Fin 128) :
    colMean_rv hr cw x (ix1 j) = Cert.Spec.mean cnt (fun m k => x (ix2 m k)) j := by
  unfold colMean_rv Cert.Spec.mean
  rw [hostDivf_apply, hostReduceAdd_apply, broadcastInDim_scalar_apply, constant_apply, constant_apply,
    colSum_apply_rv hr hR, Ideal.ofBits_zero_f32, zero_add, hcw]

theorem colMeanKeep_apply_rv (x : FVec Ideal ⟨2, ![n, 128]⟩ .f32) (j : Fin 128) :
    colMeanKeep_rv hr cw x (ix2 (0 : Fin 1) j) = Cert.Spec.mean cnt (fun m k => x (ix2 m k)) j := by
  unfold colMeanKeep_rv Cert.Spec.mean
  rw [hostDivf_apply, row_apply_rv, hostReduceAdd_apply, broadcastInDim_scalar_apply, constant_apply,
    constant_apply, colSum_apply_rv hr hR, Ideal.ofBits_zero_f32, zero_add, hcw]

-- c0 = 0 leaves the denominator cnt > 0, so the select keeps the quotient.
theorem colVar_apply_rv (hpos : 0 < cnt) (x : FVec Ideal ⟨2, ![n, 128]⟩ .f32) (j : Fin 128) :
    colVar_rv hr hb cw x (constantI S_ 32 0#32) (ix1 j) = Cert.Spec.var cnt (fun m k => x (ix2 m k)) j := by
  have hmu : ∀ k : Fin n, broadcastInDim ⟨2, ![n, 128]⟩ ![0, 1] hb (colMeanKeep_rv hr cw x) (ix2 k j)
      = Cert.Spec.mean cnt (fun m k => x (ix2 m k)) j := fun k => by
    rw [broadcastInDim_oneRow_apply, colMeanKeep_apply_rv hr cw hR cnt hcw]
  have h0 : FloatOps.sitofp (F := Ideal) .f32 (0#32 : BitVec 32) = 0 := by
    show (((0#32 : BitVec 32).toInt : ℝ) : EReal) = 0
    simp
  have hp : FloatOps.cmpf (F := Ideal) (φ := .f32) .ogt (cnt : EReal) 0 = 1#1 := by
    show Ideal.cmp .ogt (cnt : EReal) 0 = 1#1
    unfold Ideal.cmp
    simp [hpos]
  unfold colVar_rv Cert.Spec.var
  simp only [select_apply, hostDivf_apply, hostReduceAdd_apply]
  rw [broadcastInDim_scalar_apply, broadcastInDim_scalar_apply, broadcastInDim_scalar_apply]
  simp only [cmpf_apply, subf_apply, constant_apply, sitofp_apply, constantI_apply, id]
  rw [colSum_apply_rv hr hR]
  simp only [mulf_apply, subf_apply, hmu]
  rw [Ideal.ofBits_zero_f32, hcw, h0, sub_zero, zero_add, hp, select_one]

-- The three reads above, composed.
theorem bn_spec_rv (hpos : 0 < cnt) (x : FVec Ideal ⟨2, ![n, 128]⟩ .f32) (g b : FVec Ideal S128 .f32) (k : Fin n)
    (j : Fin 128) :
    bn_rv hb x (colMean_rv hr cw x) (colVar_rv hr hb cw x (constantI S_ 32 0#32)) g b (ix2 k j)
      = Cert.Spec.bn cnt (fun m k => x (ix2 m k)) (fun j => g (ix1 j)) (fun j => b (ix1 j)) k j := by
  rw [bn_apply_rv, colMean_apply_rv hr cw hR cnt hcw, colVar_apply_rv hr hb cw hR cnt hcw hpos]
  rfl

end Columns

def rmean50k (x : FVec Ideal S50000x128 .f32) : FVec Ideal S128 .f32 :=
  colMean_rv reducesTo_S50000x128_S128_d0 0x47435000#32 x
def rvar50k (x : FVec Ideal S50000x128 .f32) (c0 : IVec S_ 32) : FVec Ideal S128 .f32 :=
  colVar_rv reducesTo_S50000x128_S128_d0 bcast_S1x128_S50000x128_0_1 0x47435000#32 x c0
def rmean800k (x : FVec Ideal S800000x128 .f32) : FVec Ideal S128 .f32 :=
  colMean_rv reducesTo_S800000x128_S128_d0 0x49435000#32 x
def rvar800k (x : FVec Ideal S800000x128 .f32) (c0 : IVec S_ 32) : FVec Ideal S128 .f32 :=
  colVar_rv reducesTo_S800000x128_S128_d0 bcast_S1x128_S800000x128_0_1 0x49435000#32 x c0

theorem rmean50k_apply (x : FVec Ideal S50000x128 .f32) (j : Fin 128) :
    rmean50k x (ix1 j) = Cert.Spec.mean 50000 (fun n k => x (ix2 n k)) j :=
  colMean_apply_rv _ _ (by decide) 50000 Cert.Spec.ofBits_50000 x j

theorem rvar50k_apply (x : FVec Ideal S50000x128 .f32) (j : Fin 128) :
    rvar50k x (constantI S_ 32 0#32) (ix1 j) = Cert.Spec.var 50000 (fun n k => x (ix2 n k)) j :=
  colVar_apply_rv _ _ _ (by decide) 50000 Cert.Spec.ofBits_50000 (by norm_num) x j

theorem bn50k_spec_rv (x : FVec Ideal S50000x128 .f32) (g b : FVec Ideal S128 .f32) (n : Fin 50000) (j : Fin 128) :
    bn_rv bcast_S1x128_S50000x128_0_1 x (rmean50k x) (rvar50k x (constantI S_ 32 0#32)) g b (ix2 n j)
      = Cert.Spec.bn 50000 (fun n k => x (ix2 n k)) (fun j => g (ix1 j)) (fun j => b (ix1 j)) n j :=
  bn_spec_rv _ _ _ (by decide) 50000 Cert.Spec.ofBits_50000 (by norm_num) x g b n j

theorem bn800k_spec_rv (x : FVec Ideal S800000x128 .f32) (g b : FVec Ideal S128 .f32) (e : Fin 800000) (j : Fin 128) :
    bn_rv bcast_S1x128_S800000x128_0_1 x (rmean800k x) (rvar800k x (constantI S_ 32 0#32)) g b (ix2 e j)
      = Cert.Spec.bn 800000 (fun n k => x (ix2 n k)) (fun j => g (ix1 j)) (fun j => b (ix1 j)) e j :=
  bn_spec_rv _ _ _ (by decide) 800000 Cert.Spec.ofBits_800000 (by norm_num) x g b e j

end Cert.ReferenceIdeal.RefVal

end
-- ==== Proof.Ref.Stage1.lean ====
import proofs.«422477_j6347961663751_3_alg».proof.Proof.Ref.Fold
import proofs.«422477_j6347961663751_3_alg».proof.Proof.Ref.Args
import proofs.«422477_j6347961663751_3_alg».proof.Proof.Spec
import proofs.«422477_j6347961663751_3_alg».proof.Proof.Ref.VarChain
import Idealize.ShloMosaic.Lib.ValueIdx
import Idealize.ShloMosaic.Lib.ValueLayout
import Idealize.ShloMosaic.Lib.Pipeline.Value

noncomputable section

open scoped BigOperators

namespace Cert.ReferenceIdeal.RefVal

open Cert.ReferenceIdeal Cert.ReferenceIdeal.Gen Cert.ReferenceIdeal.RefRun
open Idealize.ShloMosaic Idealize.ShloMosaic.ValueIdx Idealize.ShloMosaic.TcCoe
open Idealize.SL.Sem Idealize.ShloMosaic.StableHlo

-- Slicing out row o and dropping the unit axis only renames the index.
theorem row_apply_r1 {L : Nat} (o : Nat) (r : Fin 2) (hr : r.val = o)
    (hs : (⟨2, ![2, L]⟩ : Shape).Slices ![o, 0] ⟨2, ![1, L]⟩)
    (hc : (⟨2, ![1, L]⟩ : Shape).ShapeCasts ⟨1, ![L]⟩)
    (X : IVec ⟨2, ![2, L]⟩ 32) (e : Fin L) :
    shapeCast ⟨1, ![L]⟩ (extractStridedSlice ⟨2, ![1, L]⟩ ![o, 0] X hs) hc (ix1 e) = X (ix2 r e) :=
  (shapeCast_1a_a_apply _ hc e).trans (slice2_axis0_apply o X hs (0 : Fin 1) e r (by rw [hr]; rfl))

variable (m : (ℓ : Loc nD τ sig) → Buf (Elt Ideal) ℓ) (d : Dev nD)

theorem row_raw (e : Fin 800000) : (RV1 m d main_v1 : IVec S800000 32) (ix1 e) = (argsOf m d).ei 0 e := by
  after_results_simp
  exact row_apply_r1 0 (0 : Fin 2) rfl _ _ _ e

theorem col_raw (e : Fin 800000) : (RV1 m d main_v3 : IVec S800000 32) (ix1 e) = (argsOf m d).ei 1 e := by
  after_results_simp
  exact row_apply_r1 1 (1 : Fin 2) rfl _ _ _ e

theorem Ax_eq (n : Fin 50000) (j : Fin 128) :
    (RV1 m d main_v7 : FVec Ideal S50000x128 .f32) (ix2 n j) = Cert.Spec.Ax (argsOf m d) n j := by
  after_results_simp
  exact lin_apply_rv _ _ _ rfl _ _ _ n j

theorem Bx_eq (n : Fin 50000) (j : Fin 128) :
    (RV1 m d main_v11 : FVec Ideal S50000x128 .f32) (ix2 n j) = Cert.Spec.Bx (argsOf m d) n j := by
  after_results_simp
  exact lin_apply_rv _ _ _ rfl _ _ _ n j

theorem Ce_eq (e : Fin 800000) (j : Fin 128) :
    (RV1 m d main_v15 : FVec Ideal S800000x128 .f32) (ix2 e j) = Cert.Spec.Ce (argsOf m d) e j := by
  after_results_simp
  exact lin_apply_rv _ _ _ rfl _ _ _ e j

theorem Dx_eq (n : Fin 50000) (j : Fin 128) :
    (RV1 m d main_v19 : FVec Ideal S50000x128 .f32) (ix2 n j) = Cert.Spec.Dx (argsOf m d) n j := by
  after_results_simp
  exact lin_apply_rv _ _ _ rfl _ _ _ n j

theorem Ex_eq (n : Fin 50000) (j : Fin 128) :
    (RV1 m d main_v23 : FVec Ideal S50000x128 .f32) (ix2 n j) = Cert.Spec.Ex (argsOf m d) n j := by
  after_results_simp
  exact lin_apply_rv _ _ _ rfl _ _ _ n j

end Cert.ReferenceIdeal.RefVal

end
-- ==== Proof.Ref.Stage2.lean ====
import proofs.«422477_j6347961663751_3_alg».proof.Proof.Ref.Fold
import proofs.«422477_j6347961663751_3_alg».proof.Proof.Ref.Args
import proofs.«422477_j6347961663751_3_alg».proof.Proof.Spec
import proofs.«422477_j6347961663751_3_alg».proof.Proof.LibGatherScatter
import Idealize.ShloMosaic.Lib.IdealHost
import Idealize.ShloMosaic.Lib.ValueLayout

noncomputable section

namespace Cert.ReferenceIdeal.RefVal

open Cert.ReferenceIdeal Cert.ReferenceIdeal.Gen Cert.ReferenceIdeal.RefRun
open Idealize.ShloMosaic Idealize.ShloMosaic.ValueIdx Idealize.ShloMosaic.TcCoe
open Idealize.SL.Sem Idealize.ShloMosaic.StableHlo

-- The added axis has extent 1.
theorem column_apply_r2 (W : IVec S800000 32) (e : Fin 800000) :
    (broadcastInDim S800000x1 ![0] bcast_S800000_S800000x1_0 W : IVec S800000x1 32) (ix2 e 0) = W (ix1 e) :=
  broadcastInDim_apply _ _ _ _ (ix1 e) (fun a => match a with | ⟨0, _⟩ => rfl)

-- Row gather at the words, a negative one first raised by the table height.
def gath_r2 (T : FVec Ideal S50000x128 .f32) (ws : IVec S800000 32) : FVec Ideal S800000x128 .f32 :=
  Host.gather gather_S50000x128_S800000x1_S800000x128_1_0_n_n_0_1_1128 T
    (broadcastInDim S800000x1 ![0] bcast_S800000_S800000x1_0
      (select (cmpi .slt ws (broadcastInDim S800000 ![] bcast_S_S800000 (constantI S_ 32 0#32)))
        (addi ws (broadcastInDim S800000 ![] bcast_S_S800000 (constantI S_ 32 50000#32))) ws))

-- The library's row-gather read; the select is normIdx by definition.
theorem gath_apply_r2 (T : FVec Ideal S50000x128 .f32) (ws : IVec S800000 32) (e : Fin 800000) (j : Fin 128) :
    gath_r2 T ws (ix2 e j)
      = T (ix2 (Cert.Lib.clampRow 50000 (by norm_num) (Cert.Lib.normIdx 50000#32 (ws (ix1 e)))) j) := by
  unfold gath_r2
  refine (Cert.Lib.gather_rows_apply (N := 50000) (C := 128) (n := 800000) (by norm_num)
    gather_S50000x128_S800000x1_S800000x128_1_0_n_n_0_1_1128_wf T _ e j).trans ?_
  rw [column_apply_r2]
  rfl

-- 1 / (1 + exp (−x)), the 1 given as a float word.
def sig_r2 (x : FVec Ideal S800000x128 .f32) : FVec Ideal S800000x128 .f32 :=
  Host.divf (broadcastInDim S800000x128 ![] bcast_S_S800000x128 (constant (F := Ideal) S_ .f32 0x3F800000#32))
    (addf (broadcastInDim S800000x128 ![] bcast_S_S800000x128 (constant (F := Ideal) S_ .f32 0x3F800000#32))
      (Host.exp (Host.negf x)))

theorem sig_apply_r2 (x : FVec Ideal S800000x128 .f32) (i : S800000x128.Idx) : sig_r2 x i = Ideal.logistic (x i) := by
  show Ideal.div (Ideal.ofBits .f32 0x3F800000#32) (Ideal.ofBits .f32 0x3F800000#32 + Ideal.exp (-(x i))) = _
  rw [Ideal.ofBits_one_f32]
  rfl

section Stretches
variable (V : Valuation τ sig (Elt Ideal))

theorem rops1_v30_r2 :
    after rops1 V (Proc.devRef .tc main_v30) = gath_r2 (V (Proc.devRef .tc main_v19)) (V (Proc.devRef .tc main_v1)) := by
  after_results
  rfl

theorem rops1_v37_r2 :
    after rops1 V (Proc.devRef .tc main_v37) = gath_r2 (V (Proc.devRef .tc main_v23)) (V (Proc.devRef .tc main_v3)) := by
  after_results_simp
  rfl

theorem rops2_v39_r2 :
    after rops2 V (Proc.devRef .tc main_v39)
      = (addf (addf (V (Proc.devRef .tc main_v30) : FVec Ideal S800000x128 .f32) (V (Proc.devRef .tc main_v37)))
          (V (Proc.devRef .tc main_v15)) : FVec Ideal S800000x128 .f32) := by
  after_results

theorem rops2_v53_r2 :
    after rops2 V (Proc.devRef .tc main_v53)
      = (mulf (sig_r2 (after rops2 V (Proc.devRef .tc main_v39)))
          (gath_r2 (V (Proc.devRef .tc main_v11)) (V (Proc.devRef .tc main_v3))) : FVec Ideal S800000x128 .f32) := by
  after_results_simp
  rfl

theorem rops1_keeps_r2 (r : Ref sig .tc) (h : r ∉ rops1_W) :
    after rops1 V (Proc.devRef .tc r) = V (Proc.devRef .tc r) :=
  after_of_writes_sub rops1 V rops1_writes h

end Stretches

variable (m : (ℓ : Loc nD τ sig) → Buf (Elt Ideal) ℓ) (d : Dev nD)
  (hrow : ∀ e, (RV1 m d main_v1 : IVec S800000 32) (ix1 e) = (argsOf m d).ei 0 e)
  (hcol : ∀ e, (RV1 m d main_v3 : IVec S800000 32) (ix1 e) = (argsOf m d).ei 1 e)
  (hDx : ∀ n j, (RV1 m d main_v19 : FVec Ideal S50000x128 .f32) (ix2 n j) = Cert.Spec.Dx (argsOf m d) n j)
  (hEx : ∀ n j, (RV1 m d main_v23 : FVec Ideal S50000x128 .f32) (ix2 n j) = Cert.Spec.Ex (argsOf m d) n j)
  (hCe : ∀ e j, (RV1 m d main_v15 : FVec Ideal S800000x128 .f32) (ix2 e j) = Cert.Spec.Ce (argsOf m d) e j)
include hrow hcol hDx hEx hCe

theorem eij_eq (e : Fin 800000) (j : Fin 128) :
    (RV3 m d main_v39 : FVec Ideal S800000x128 .f32) (ix2 e j) = Cert.Spec.eij (argsOf m d) e j := by
  show (after rops2 (after rops1 (RV1 m d)) (Proc.devRef .tc main_v39) : FVec Ideal S800000x128 .f32) (ix2 e j) = _
  rw [rops2_v39_r2, addf_apply, addf_apply, rops1_v30_r2, rops1_v37_r2, rops1_keeps_r2 _ main_v15 (by decide),
    gath_apply_r2, gath_apply_r2, hrow, hcol, hDx, hEx, hCe]
  rfl

theorem msgs_eq
    (hBx : ∀ n j, (RV1 m d main_v11 : FVec Ideal S50000x128 .f32) (ix2 n j) = Cert.Spec.Bx (argsOf m d) n j)
    (e : Fin 800000) (j : Fin 128) :
    (RV3 m d main_v53 : FVec Ideal S800000x128 .f32) (ix2 e j) = Cert.Spec.msgs (argsOf m d) e j := by
  have he : (after rops2 (after rops1 (RV1 m d)) (Proc.devRef .tc main_v39) : FVec Ideal S800000x128 .f32) (ix2 e j) = _ :=
    eij_eq m d hrow hcol hDx hEx hCe e j
  show (after rops2 (after rops1 (RV1 m d)) (Proc.devRef .tc main_v53) : FVec Ideal S800000x128 .f32) (ix2 e j) = _
  rw [rops2_v53_r2, mulf_apply, sig_apply_r2, he, rops1_keeps_r2 _ main_v11 (by decide),
    rops1_keeps_r2 _ main_v3 (by decide), gath_apply_r2, hcol, hBx]
  rfl

end Cert.ReferenceIdeal.RefVal

end
-- ==== Proof.Ref.Stage3.lean ====
import proofs.«422477_j6347961663751_3_alg».proof.Proof.Ref.Fold
import proofs.«422477_j6347961663751_3_alg».proof.Proof.Ref.Args
import proofs.«422477_j6347961663751_3_alg».proof.Proof.Ref.VarChain
import proofs.«422477_j6347961663751_3_alg».proof.Proof.Spec
import Idealize.ShloMosaic.Lib.IdealHost
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.ReferenceIdeal.RefVal

open Cert.ReferenceIdeal Cert.ReferenceIdeal.Gen Cert.ReferenceIdeal.RefRun
open Idealize.ShloMosaic Idealize.ShloMosaic.ValueIdx Idealize.ShloMosaic.TcCoe
open Idealize.SL.Sem Idealize.ShloMosaic.StableHlo

-- Once its three operands are written as functions of the index this is aggr verbatim.
theorem scatter_eq_aggr_r3 (A : Cert.Spec.Args) (w : IVec S800000 32) (u : FVec Ideal S800000x128 .f32)
    (hw : ∀ e, w (ix1 e) = A.ei 0 e) (hu : ∀ e j, u (ix2 e j) = Cert.Spec.msgs A e j)
    (n : Fin 50000) (j : Fin 128) :
    Host.scatterAdd (F := Ideal) scatter_S50000x128_S800000x1_S800000x128_1_0_0_1
      (broadcastInDim S50000x128 ![] bcast_S_S50000x128 (constant (F := Ideal) S_ .f32 0x00000000#32))
      (broadcastInDim S800000x1 ![0] bcast_S800000_S800000x1_0 w) u (ix2 n j) = Cert.Spec.aggr A n j := by
  have h1 : broadcastInDim S50000x128 ![] bcast_S_S50000x128 (constant (F := Ideal) S_ .f32 0x00000000#32)
      = fun _ => Cert.Spec.zeroW :=
    funext fun i => (broadcastInDim_scalar_apply _ _ i).trans (constant_apply _ _)
  have h2 : broadcastInDim S800000x1 ![0] bcast_S800000_S800000x1_0 w = fun i => A.ei 0 (i 0) :=
    funext fun i => (broadcastInDim_apply _ _ _ i (ix1 (i 0)) (fun a => match a with | ⟨0, _⟩ => rfl)).trans (hw (i 0))
  have h3 : u = fun i => Cert.Spec.msgs A (i 0) (i 1) :=
    funext fun i => (congrArg u (eq_ix2 i)).trans (hu (i 0) (i 1))
  rw [h1, h2, h3]
  rfl

section Links
variable (V : Valuation τ sig (Elt Ideal))

theorem rops3_v56_r3 :
    (after rops3 V (Proc.devRef .tc main_v56) : FVec Ideal S50000x128 .f32)
      = Host.scatterAdd (F := Ideal) scatter_S50000x128_S800000x1_S800000x128_1_0_0_1
          (broadcastInDim S50000x128 ![] bcast_S_S50000x128 (constant (F := Ideal) S_ .f32 0x00000000#32))
          (broadcastInDim S800000x1 ![0] bcast_S800000_S800000x1_0 (V (Proc.devRef .tc main_v1)))
          (V (Proc.devRef .tc main_v53)) := by
  after_results

theorem rops3_v57_r3 :
    (after rops3 V (Proc.devRef .tc main_v57) : FVec Ideal S50000x128 .f32)
      = (addf (V (Proc.devRef .tc main_v7)) (after rops3 V (Proc.devRef .tc main_v56)) : FVec Ideal S50000x128 .f32) := by
  after_results

theorem rops3_v60_r3 :
    (after rops3 V (Proc.devRef .tc main_v60) : FVec Ideal S128 .f32)
      = rmean50k (after rops3 V (Proc.devRef .tc main_v57)) := by
  after_results
  rfl

theorem rops3_c9_r3 :
    (after rops3 V (Proc.devRef .tc main_c_9) : IVec S_ 32) = constantI S_ 32 0#32 := by
  after_results

theorem rops4_v61_r3 :
    (after rops4 V (Proc.devRef .tc main_v61) : FVec Ideal S128 .f32)
      = rvar50k (V (Proc.devRef .tc main_v57)) (V (Proc.devRef .tc main_c_9)) := by
  after_results_simp
  rfl

theorem rops5_v77_r3 :
    (after rops5 V (Proc.devRef .tc main_v77) : FVec Ideal S50000x128 .f32)
      = maximumf
          (bn_rv bcast_S1x128_S50000x128_0_1 (V (Proc.devRef .tc main_v57)) (V (Proc.devRef .tc main_v60))
            (V (Proc.devRef .tc main_v61)) (V (Proc.devRef .tc main_arg13)) (V (Proc.devRef .tc main_arg14)))
          (broadcastInDim S50000x128 ![] bcast_S_S50000x128 (constant (F := Ideal) S_ .f32 0x00000000#32)) := by
  after_results_simp
  rfl

end Links

variable (m : (ℓ : Loc nD τ sig) → Buf (Elt Ideal) ℓ) (d : Dev nD)
  (hrow : ∀ e, (RV1 m d main_v1 : IVec S800000 32) (ix1 e) = (argsOf m d).ei 0 e)
  (hAx : ∀ n j, (RV1 m d main_v7 : FVec Ideal S50000x128 .f32) (ix2 n j) = Cert.Spec.Ax (argsOf m d) n j)
  (hmsgs : ∀ e j, (RV3 m d main_v53 : FVec Ideal S800000x128 .f32) (ix2 e j) = Cert.Spec.msgs (argsOf m d) e j)
include hrow hAx hmsgs

-- The source words and the projection are unchanged since the first stretch.
theorem xt_eq_r3 (n : Fin 50000) (j : Fin 128) :
    (RV4 m d main_v57 : FVec Ideal S50000x128 .f32) (ix2 n j) = Cert.Spec.xt (argsOf m d) n j := by
  have h57 : (RV4 m d main_v57 : FVec Ideal S50000x128 .f32)
      = addf (F := Ideal) (s := S50000x128) (φ := .f32) (RV3 m d main_v7) (RV4 m d main_v56) :=
    rops3_v57_r3 (RV3 m d)
  have h56 : (RV4 m d main_v56 : FVec Ideal S50000x128 .f32) = _ := rops3_v56_r3 (RV3 m d)
  have hw : ∀ e, (RV3 m d main_v1 : IVec S800000 32) (ix1 e) = (argsOf m d).ei 0 e := fun e => by
    rw [RV3_of m d main_v1 (by decide), RV2_of m d main_v1 (by decide)]; exact hrow e
  rw [h57, addf_apply, RV3_of m d main_v7 (by decide), RV2_of m d main_v7 (by decide), hAx, h56,
    scatter_eq_aggr_r3 (argsOf m d) _ _ hw hmsgs]
  rfl

-- Mean and variance are read back as terms of the pre-activation, then bn50k_spec_rv applies.
theorem xrelu_eq (n : Fin 50000) (j : Fin 128) :
    (RV6 m d main_v77 : FVec Ideal S50000x128 .f32) (ix2 n j) = Cert.Spec.relu (Cert.Spec.bn 50000 (Cert.Spec.xt (argsOf m d)) (argsOf m d).gx (argsOf m d).bx n j) := by
  have hfun : (fun n k => (RV4 m d main_v57 : FVec Ideal S50000x128 .f32) (ix2 n k)) = Cert.Spec.xt (argsOf m d) :=
    funext fun n => funext fun k => xt_eq_r3 m d hrow hAx hmsgs n k
  have h60 : @Eq (FVec Ideal S128 .f32) (RV5 m d (Proc.devRef .tc main_v60)) (rmean50k (RV4 m d (Proc.devRef .tc main_v57))) :=
    (RV5_of m d main_v60 (by decide)).trans (rops3_v60_r3 (RV3 m d))
  have h61 : @Eq (FVec Ideal S128 .f32) (RV5 m d (Proc.devRef .tc main_v61))
      (rvar50k (RV4 m d (Proc.devRef .tc main_v57)) (constantI S_ 32 0#32)) :=
    (rops4_v61_r3 (RV4 m d)).trans (congrArg (rvar50k (RV4 m d (Proc.devRef .tc main_v57))) (rops3_c9_r3 (RV3 m d)))
  refine (congrFun (rops5_v77_r3 (RV5 m d)) (ix2 n j)).trans ?_
  rw [maximumf_apply, RV5_of m d main_v57 (by decide), h60, h61, bn50k_spec_rv, hfun,
    RV5_untouched m d main_arg13 (by decide), RV5_untouched m d main_arg14 (by decide),
    broadcastInDim_scalar_apply, constant_apply]
  rfl

end Cert.ReferenceIdeal.RefVal

end
-- ==== Proof.Ref.Stage4.lean ====
import proofs.«422477_j6347961663751_3_alg».proof.Proof.Ref.Fold
import proofs.«422477_j6347961663751_3_alg».proof.Proof.Ref.Args
import proofs.«422477_j6347961663751_3_alg».proof.Proof.Spec
import proofs.«422477_j6347961663751_3_alg».proof.Proof.Ref.VarChain
import Idealize.ShloMosaic.Lib.IdealHost
import Idealize.ShloMosaic.Lib.ValueIdx
import Idealize.ShloMosaic.Lib.KernelVsHost
import Idealize.ShloMosaic.Lib.Pipeline.Value

noncomputable section

open scoped BigOperators

namespace Cert.ReferenceIdeal.RefVal

open Cert.ReferenceIdeal Cert.ReferenceIdeal.Gen Cert.ReferenceIdeal.RefRun
open Idealize.ShloMosaic Idealize.ShloMosaic.ValueIdx Idealize.ShloMosaic.TcCoe
open Idealize.SL.Sem Idealize.ShloMosaic.StableHlo

-- With the type equation substituted both casts are the identity.
theorem ofBuf_toBuf_r4 {Val : EltTy → Type} {T : BufTy} (r : Ref sig .tc) (h1 h1' : r.ty = T) (h2 h2' : r.space ≠ .host)
    (h3 h3' : r.isScoped = false) (v : T.Contents Val) :
    (TRef.of r h1 h2 h3).ofBuf ((TRef.of r h1' h2' h3').toBuf v) = v := by
  subst h1; rfl

section Stretches
variable (V : Valuation τ sig (Elt Ideal))

theorem ofBuf_v39_r4 (h1 h2 h3) :
    (TRef.of main_v39 h1 h2 h3 : TRef sig ⟨S800000x128, .f32⟩).ofBuf (V (Proc.devRef .tc main_v39)) = V (Proc.devRef .tc main_v39) := rfl
theorem ofBuf_c13_r4 (h1 h2 h3) :
    (TRef.of main_c_13 h1 h2 h3 : TRef sig ⟨S_, .i32⟩).ofBuf (V (Proc.devRef .tc main_c_13)) = V (Proc.devRef .tc main_c_13) := rfl
theorem toBuf_v81_r4 (h1 h2 h3) (v : FVec Ideal S128 .f32) :
    ((TRef.of main_v81 h1 h2 h3 : TRef sig ⟨S128, .f32⟩).toBuf (Val := Elt Ideal) v : FVec Ideal S128 .f32) = v := rfl

theorem rops6_v80_r4 : after rops6 V (Proc.devRef .tc main_v80) = rmean800k (V (Proc.devRef .tc main_v39)) := by
  after_results
  unfold rmean800k
  rfl

theorem rops6_c13_r4 : after rops6 V (Proc.devRef .tc main_c_13) = constantI S_ 32 0#32 := by
  after_results

theorem rops7_v81_r4 :
    after rops7 V (Proc.devRef .tc main_v81) = rvar800k (V (Proc.devRef .tc main_v39)) (V (Proc.devRef .tc main_c_13)) := by
  after_results_simp
  simp only [ofBuf_toBuf_r4, toBuf_v81_r4]
  rw [ofBuf_v39_r4 V, ofBuf_c13_r4 V]
  unfold rvar800k
  rfl

theorem rops8_v97_r4 :
    after rops8 V (Proc.devRef .tc main_v97)
      = maximumf
          (bn_rv bcast_S1x128_S800000x128_0_1 (V (Proc.devRef .tc main_v39)) (V (Proc.devRef .tc main_v80))
            (V (Proc.devRef .tc main_v81)) (V (Proc.devRef .tc main_arg15)) (V (Proc.devRef .tc main_arg16)))
          (broadcastInDim S800000x128 ![] bcast_S_S800000x128 (constant (F := Ideal) S_ .f32 0x00000000#32)) := by
  after_results_simp
  rfl

end Stretches

variable (m : (ℓ : Loc nD τ sig) → Buf (Elt Ideal) ℓ) (d : Dev nD)

-- Only the gate's stretch writes the pre-activation, so its three readers see one array.
theorem erelu_eq
    (heij : ∀ e j, (RV3 m d main_v39 : FVec Ideal S800000x128 .f32) (ix2 e j) = Cert.Spec.eij (argsOf m d) e j)
    (e : Fin 800000) (j : Fin 128) :
    (RV9 m d main_v97 : FVec Ideal S800000x128 .f32) (ix2 e j)
      = Cert.Spec.relu (Cert.Spec.bn 800000 (Cert.Spec.eij (argsOf m d)) (argsOf m d).ge (argsOf m d).be e j) := by
  have c6 : RV6 m d (Proc.devRef .tc main_v39) = RV3 m d (Proc.devRef .tc main_v39) :=
    (RV6_of m d main_v39 (by decide)).trans ((RV5_of m d main_v39 (by decide)).trans (RV4_of m d main_v39 (by decide)))
  have c7 : RV7 m d (Proc.devRef .tc main_v39) = RV3 m d (Proc.devRef .tc main_v39) :=
    (RV7_of m d main_v39 (by decide)).trans c6
  have c8 : RV8 m d (Proc.devRef .tc main_v39) = RV3 m d (Proc.devRef .tc main_v39) :=
    (RV8_of m d main_v39 (by decide)).trans c7
  have h80 : RV8 m d (Proc.devRef .tc main_v80) = rmean800k (RV3 m d (Proc.devRef .tc main_v39)) :=
    (RV8_of m d main_v80 (by decide)).trans ((rops6_v80_r4 (RV6 m d)).trans (congrArg rmean800k c6))
  have h81 : RV8 m d (Proc.devRef .tc main_v81) = rvar800k (RV3 m d (Proc.devRef .tc main_v39)) (constantI S_ 32 0#32) :=
    (rops7_v81_r4 (RV7 m d)).trans
      ((congrArg (fun x => rvar800k x (RV7 m d (Proc.devRef .tc main_c_13))) c7).trans
        (congrArg (rvar800k (RV3 m d (Proc.devRef .tc main_v39))) (rops6_c13_r4 (RV6 m d))))
  have hfun : (fun n k => (RV3 m d main_v39 : FVec Ideal S800000x128 .f32) (ix2 n k)) = Cert.Spec.eij (argsOf m d) :=
    funext fun n => funext fun k => heij n k
  refine (congrFun (rops8_v97_r4 (RV8 m d)) (ix2 e j)).trans ?_
  rw [maximumf_apply, c8, h80, h81, bn800k_spec_rv, hfun, RV8_untouched m d main_arg15 (by decide),
    RV8_untouched m d main_arg16 (by decide), broadcastInDim_scalar_apply, constant_apply]
  rfl

end Cert.ReferenceIdeal.RefVal

end
-- ==== Proof.Ref.Stage5.lean ====
import proofs.«422477_j6347961663751_3_alg».proof.Proof.Ref.Fold
import proofs.«422477_j6347961663751_3_alg».proof.Proof.Ref.Args
import proofs.«422477_j6347961663751_3_alg».proof.Proof.Spec
import proofs.«422477_j6347961663751_3_alg».proof.Proof.Ref.VarChain
import Idealize.ShloMosaic.PureOps.Ideal.Laws
import Idealize.ShloMosaic.Lib.ValueIdx
import Idealize.ShloMosaic.Lib.ValueLayout
import Idealize.ShloMosaic.Lib.IdealHost
import Idealize.ShloMosaic.Lib.Pipeline.Value
import Idealize.ShloMosaic.Lib.KernelVsHost
import Idealize.ShloMosaic.Lib.StackMember

noncomputable section

open scoped BigOperators

namespace Cert.ReferenceIdeal.RefVal

open Cert.ReferenceIdeal Cert.ReferenceIdeal.Gen Cert.ReferenceIdeal.RefRun
open Idealize.ShloMosaic Idealize.ShloMosaic.ValueIdx Idealize.ShloMosaic.TcCoe
open Idealize.SL.Sem Idealize.ShloMosaic.StableHlo

section Stretches
variable (V : Valuation τ sig (Elt Ideal))

theorem rops9_v98_r5 :
    @Eq (FVec Ideal S50000x128 .f32) (after rops9 V (Proc.devRef .tc main_v98))
      (addf (V (Proc.devRef .tc main_arg0)) (V (Proc.devRef .tc main_v77))) := by
  after_results

theorem rops9_v99_r5 :
    @Eq (FVec Ideal S800000x128 .f32) (after rops9 V (Proc.devRef .tc main_v99))
      (addf (V (Proc.devRef .tc main_arg2)) (V (Proc.devRef .tc main_v97))) := by
  after_results

theorem rops9_v102_r5 :
    @Eq (FVec Ideal S128 .f32) (after rops9 V (Proc.devRef .tc main_v102))
      (rmean50k (after rops9 V (Proc.devRef .tc main_v98))) := by
  after_results
  rfl

theorem rops9_c17_r5 :
    @Eq (IVec S_ 32) (after rops9 V (Proc.devRef .tc main_c_17)) (constantI S_ 32 0#32) := by
  after_results

theorem rops10_v103_r5 :
    @Eq (FVec Ideal S128 .f32) (after rops10 V (Proc.devRef .tc main_v103))
      (rvar50k (V (Proc.devRef .tc main_v98)) (V (Proc.devRef .tc main_c_17))) := by
  after_results_simp
  rfl

theorem rops11_v123_r5 :
    @Eq (FVec Ideal S50000x256 .f32) (after rops11 V (Proc.devRef .tc main_v123))
      (maximumf
        (addf
          (Host.dotGeneral (φ₁ := .f32) (φ₂ := .f32) dot_S50000x128_S128x256_S50000x256_1_0_0_1_n_n none
            (bn_rv bcast_S1x128_S50000x128_0_1 (V (Proc.devRef .tc main_v98)) (V (Proc.devRef .tc main_v102)) (V (Proc.devRef .tc main_v103))
              (V (Proc.devRef .tc main_arg17)) (V (Proc.devRef .tc main_arg18)))
            (V (Proc.devRef .tc main_arg21)))
          (broadcastInDim S50000x256 ![0, 1] bcast_S1x256_S50000x256_0_1
            (broadcastInDim S1x256 ![1] bcast_S256_S1x256_1 (V (Proc.devRef .tc main_arg22)))))
        (broadcastInDim S50000x256 ![] bcast_S_S50000x256 (constant (F := Ideal) S_ .f32 0x00000000#32))) := by
  after_results_simp
  rfl

theorem rops12_v128_r5 :
    @Eq (FVec Ideal S50000x128 .f32) (after rops12 V (Proc.devRef .tc main_v128))
      (addf (V (Proc.devRef .tc main_v98))
        (addf
          (Host.dotGeneral (φ₁ := .f32) (φ₂ := .f32) dot_S50000x256_S256x128_S50000x128_1_0_0_1_n_n none
            (V (Proc.devRef .tc main_v123)) (V (Proc.devRef .tc main_arg23)))
          (broadcastInDim S50000x128 ![0, 1] bcast_S1x128_S50000x128_0_1
            (broadcastInDim S1x128 ![1] bcast_S128_S1x128_1 (V (Proc.devRef .tc main_arg24)))))) := by
  after_results

theorem rops12_v131_r5 :
    @Eq (FVec Ideal S128 .f32) (after rops12 V (Proc.devRef .tc main_v131))
      (rmean50k (after rops12 V (Proc.devRef .tc main_v128))) := by
  after_results
  rfl

end Stretches

variable (m : (ℓ : Loc nD τ sig) → Buf (Elt Ideal) ℓ) (d : Dev nD)

theorem xf_eq (hx : ∀ n j, (RV6 m d main_v77 : FVec Ideal S50000x128 .f32) (ix2 n j) = Cert.Spec.relu (Cert.Spec.bn 50000 (Cert.Spec.xt (argsOf m d)) (argsOf m d).gx (argsOf m d).bx n j)) (n : Fin 50000) (j : Fin 128) :
    (RV10 m d main_v98 : FVec Ideal S50000x128 .f32) (ix2 n j) = Cert.Spec.xf (argsOf m d) n j := by
  have e1 : @Eq (FVec Ideal S50000x128 .f32) (RV9 m d (Proc.devRef .tc main_v77)) (RV6 m d (Proc.devRef .tc main_v77)) :=
    (RV9_of m d main_v77 (by decide)).trans ((RV8_of m d main_v77 (by decide)).trans (RV7_of m d main_v77 (by decide)))
  refine (congrFun (rops9_v98_r5 (RV9 m d)) (ix2 n j)).trans ?_
  rw [addf_apply, RV9_untouched m d main_arg0 (by decide), e1, hx n j]
  rfl

theorem ef_eq (he : ∀ e j, (RV9 m d main_v97 : FVec Ideal S800000x128 .f32) (ix2 e j) = Cert.Spec.relu (Cert.Spec.bn 800000 (Cert.Spec.eij (argsOf m d)) (argsOf m d).ge (argsOf m d).be e j)) (e : Fin 800000) (j : Fin 128) :
    (RV10 m d main_v99 : FVec Ideal S800000x128 .f32) (ix2 e j) = Cert.Spec.ef (argsOf m d) e j := by
  refine (congrFun (rops9_v99_r5 (RV9 m d)) (ix2 e j)).trans ?_
  rw [addf_apply, RV9_untouched m d main_arg2 (by decide), he e j]
  rfl

-- Trace each operand to its last writer, then read the normalisation and the two linear layers.
theorem pre2_eq (hxf : ∀ n j, (RV10 m d main_v98 : FVec Ideal S50000x128 .f32) (ix2 n j) = Cert.Spec.xf (argsOf m d) n j) (n : Fin 50000) (j : Fin 128) :
    (RV13 m d main_v128 : FVec Ideal S50000x128 .f32) (ix2 n j) = Cert.Spec.pre2 (argsOf m d) n j := by
  have x11 : @Eq (FVec Ideal S50000x128 .f32) (RV11 m d (Proc.devRef .tc main_v98)) (RV10 m d (Proc.devRef .tc main_v98)) :=
    RV11_of m d main_v98 (by decide)
  have x12 : @Eq (FVec Ideal S50000x128 .f32) (RV12 m d (Proc.devRef .tc main_v98)) (RV10 m d (Proc.devRef .tc main_v98)) :=
    (RV12_of m d main_v98 (by decide)).trans x11
  have mu11 : @Eq (FVec Ideal S128 .f32) (RV11 m d (Proc.devRef .tc main_v102)) (rmean50k (RV10 m d (Proc.devRef .tc main_v98))) :=
    (RV11_of m d main_v102 (by decide)).trans (rops9_v102_r5 (RV9 m d))
  have va11 : @Eq (FVec Ideal S128 .f32) (RV11 m d (Proc.devRef .tc main_v103))
      (rvar50k (RV10 m d (Proc.devRef .tc main_v98)) (constantI S_ 32 0#32)) :=
    (rops10_v103_r5 (RV10 m d)).trans (congrArg (rvar50k (RV10 m d (Proc.devRef .tc main_v98))) (rops9_c17_r5 (RV9 m d)))
  have hfun : (fun n k => (RV10 m d (Proc.devRef .tc main_v98) : FVec Ideal S50000x128 .f32) (ix2 n k))
      = Cert.Spec.xf (argsOf m d) := funext fun n => funext fun k => hxf n k
  have hhid : (fun n q => (RV12 m d (Proc.devRef .tc main_v123) : FVec Ideal S50000x256 .f32) (ix2 n q))
      = Cert.Spec.hid (argsOf m d) := funext fun n => funext fun q => by
    refine (congrFun (rops11_v123_r5 (RV11 m d)) (ix2 n q)).trans ?_
    rw [maximumf_apply, broadcastInDim_scalar_apply, constant_apply]
    refine (congrArg (fun t => max t Cert.Spec.zeroW) (lin_apply_rv _ _ _ rfl _ _ _ n q)).trans ?_
    rw [x11, mu11, va11, RV11_untouched m d main_arg17 (by decide), RV11_untouched m d main_arg18 (by decide),
      RV11_untouched m d main_arg21 (by decide), RV11_untouched m d main_arg22 (by decide)]
    simp only [bn50k_spec_rv]
    rw [hfun]
    rfl
  refine (congrFun (rops12_v128_r5 (RV12 m d)) (ix2 n j)).trans ?_
  rw [addf_apply, x12, hxf n j]
  refine (congrArg (Cert.Spec.xf (argsOf m d) n j + ·) (lin_apply_rv _ _ _ rfl _ _ _ n j)).trans ?_
  rw [hhid, RV12_untouched m d main_arg23 (by decide), RV12_untouched m d main_arg24 (by decide)]
  rfl

theorem mean2_eq (hpre2 : ∀ n j, (RV13 m d main_v128 : FVec Ideal S50000x128 .f32) (ix2 n j) = Cert.Spec.pre2 (argsOf m d) n j) (j : Fin 128) :
    (RV13 m d main_v131 : FVec Ideal S128 .f32) (ix1 j) = Cert.Spec.mean 50000 (Cert.Spec.pre2 (argsOf m d)) j := by
  refine (congrFun (rops12_v131_r5 (RV12 m d)) (ix1 j)).trans ?_
  refine (rmean50k_apply _ j).trans ?_
  exact congrArg (fun h => Cert.Spec.mean 50000 h j) (funext fun n => funext fun k => hpre2 n k)

end Cert.ReferenceIdeal.RefVal

end
-- ==== Proof.Ref.Stage6.lean ====
import proofs.«422477_j6347961663751_3_alg».proof.Proof.Ref.Fold
import proofs.«422477_j6347961663751_3_alg».proof.Proof.Ref.Args
import proofs.«422477_j6347961663751_3_alg».proof.Proof.Ref.VarChain
import proofs.«422477_j6347961663751_3_alg».proof.Proof.Spec
import Idealize.ShloMosaic.Lib.ValueIdx
import Idealize.ShloMosaic.Lib.KernelVsHost
import Idealize.ShloMosaic.Lib.Pipeline.Value

noncomputable section

namespace Cert.ReferenceIdeal.RefVal

open Cert.ReferenceIdeal Cert.ReferenceIdeal.Gen Cert.ReferenceIdeal.RefRun
open Idealize.ShloMosaic Idealize.ShloMosaic.ValueIdx Idealize.ShloMosaic.TcCoe
open Idealize.SL.Sem Idealize.ShloMosaic.StableHlo

section Stretches
variable (V : Valuation τ sig (Elt Ideal))

theorem c21_r6 : (after rops12 V (Proc.devRef .tc main_c_21) : IVec S_ 32) = constantI S_ 32 0#32 := by
  after_results

theorem v132_r6 :
    (after rops13 V (Proc.devRef .tc main_v132) : FVec Ideal S128 .f32)
      = rvar50k (V (Proc.devRef .tc main_v128)) (V (Proc.devRef .tc main_c_21)) := by
  after_results
  rfl

theorem v147_r6 :
    (after rops14 V (Proc.devRef .tc main_v147) : FVec Ideal S50000x128 .f32)
      = bn_rv bcast_S1x128_S50000x128_0_1 (V (Proc.devRef .tc main_v128)) (V (Proc.devRef .tc main_v131))
          (V (Proc.devRef .tc main_v132)) (V (Proc.devRef .tc main_arg19)) (V (Proc.devRef .tc main_arg20)) := by
  after_results
  rfl

end Stretches

variable (m : (ℓ : Loc nD τ sig) → Buf (Elt Ideal) ℓ) (d : Dev nD)

-- Neither of the last two stretches writes the residual sum or its mean.
theorem xout_eq (hpre2 : ∀ n j, (RV13 m d main_v128 : FVec Ideal S50000x128 .f32) (ix2 n j) = Cert.Spec.pre2 (argsOf m d) n j)
    (hmean : ∀ j, (RV13 m d main_v131 : FVec Ideal S128 .f32) (ix1 j) = Cert.Spec.mean 50000 (Cert.Spec.pre2 (argsOf m d)) j)
    (n : Fin 50000) (j : Fin 128) :
    (RV15 m d main_v147 : FVec Ideal S50000x128 .f32) (ix2 n j) = Cert.Spec.xout (argsOf m d) n j := by
  have hfun : (fun n k => (RV13 m d main_v128 : FVec Ideal S50000x128 .f32) (ix2 n k)) = Cert.Spec.pre2 (argsOf m d) :=
    funext fun n => funext fun k => hpre2 n k
  have hvar : (RV14 m d main_v132 : FVec Ideal S128 .f32) (ix1 j) = Cert.Spec.var 50000 (Cert.Spec.pre2 (argsOf m d)) j := by
    refine (congrFun (v132_r6 (RV13 m d)) (ix1 j)).trans ?_
    refine (congrFun (congrArg (rvar50k (RV13 m d main_v128)) (c21_r6 (RV12 m d))) (ix1 j)).trans ?_
    rw [rvar50k_apply, hfun]
  refine (congrFun (v147_r6 (RV14 m d)) (ix2 n j)).trans ?_
  rw [bn_apply_rv, hvar, RV14_of m d main_v128 (by decide), RV14_of m d main_v131 (by decide), hpre2, hmean,
    RV14_untouched m d main_arg19 (by decide), RV14_untouched m d main_arg20 (by decide)]
  rfl

end Cert.ReferenceIdeal.RefVal

end
-- ==== Proof.Ref.Result.lean ====
import proofs.«422477_j6347961663751_3_alg».proof.Proof.Ref.Stage1
import proofs.«422477_j6347961663751_3_alg».proof.Proof.Ref.Stage2
import proofs.«422477_j6347961663751_3_alg».proof.Proof.Ref.Stage3
import proofs.«422477_j6347961663751_3_alg».proof.Proof.Ref.Stage4
import proofs.«422477_j6347961663751_3_alg».proof.Proof.Ref.Stage5
import proofs.«422477_j6347961663751_3_alg».proof.Proof.Ref.Stage6

noncomputable section

namespace Cert.ReferenceIdeal.RefVal

open Cert.ReferenceIdeal Cert.ReferenceIdeal.RefRun
open Idealize.ShloMosaic Idealize.ShloMosaic.ValueIdx Idealize.ShloMosaic.TcCoe

variable (m : (ℓ : Loc nD τ sig) → Buf (Elt Ideal) ℓ) (d : Dev nD)

theorem ref_xout (n : Fin 50000) (j : Fin 128) :
    (RV15 m d main_v147 : FVec Ideal S50000x128 .f32) (ix2 n j) = Cert.Spec.xout (argsOf m d) n j :=
  have hmsgs := msgs_eq m d (row_raw m d) (col_raw m d) (Dx_eq m d) (Ex_eq m d) (Ce_eq m d) (Bx_eq m d)
  have hpre2 := pre2_eq m d (xf_eq m d (xrelu_eq m d (row_raw m d) (Ax_eq m d) hmsgs))
  xout_eq m d hpre2 (mean2_eq m d hpre2) n j

-- Stretches 10 to 14 do not write the edge result.
theorem ref_ef (e : Fin 800000) (j : Fin 128) :
    (RV15 m d main_v99 : FVec Ideal S800000x128 .f32) (ix2 e j) = Cert.Spec.ef (argsOf m d) e j := by
  rw [RV15_of m d main_v99 (by decide), RV14_of m d main_v99 (by decide), RV13_of m d main_v99 (by decide),
    RV12_of m d main_v99 (by decide), RV11_of m d main_v99 (by decide)]
  exact ef_eq m d (erelu_eq m d (eij_eq m d (row_raw m d) (col_raw m d) (Dx_eq m d) (Ex_eq m d) (Ce_eq m d))) e j

end Cert.ReferenceIdeal.RefVal

end
-- ==== Proof.PreFacts.lean ====
import proofs.«422477_j6347961663751_3_alg».proof.Pre_finite_inputs
import Idealize.ShloMosaic.Lib.ReduceAll
import Idealize.ShloMosaic.Lib.IdealHost
import Idealize.ShloMosaic.PureOps.Ideal

namespace Cert.PreFacts

open Idealize.ShloMosaic

def AllReal {S : Shape} (x : S.Idx → EReal) : Prop := ∀ i, ∃ r : ℝ, x i = (r : EReal)

instance subsingleton_scalar_idx : Subsingleton (⟨0, ![]⟩ : Shape).Idx := ⟨fun a b => funext fun d => d.elim0⟩

theorem real_of_abs_lt_top (x : EReal) (h : max x (-x) < ⊤) : ∃ r : ℝ, x = (r : EReal) := by
  induction x using EReal.rec with
  | bot => simp at h
  | coe r => exact ⟨r, rfl⟩
  | top => simp at h

theorem lt_of_cmp_olt {a b : EReal} (h : Ideal.cmp .olt a b = 1#1) : a < b := by
  by_contra hn
  simp [Ideal.cmp, hn] at h

theorem ofBits_inf : Ideal.ofBits .f32 0x7F800000#32 = ⊤ := by simp [Ideal.ofBits, Ideal.ieee]

theorem allReal_of_all {S : Shape} {axes : List (Fin S.rank)} (x : FVec Ideal S .f32)
    (hb : (⟨0, ![]⟩ : Shape).BroadcastsInDim S (![] : Fin 0 → Fin S.rank)) (hr : S.ReducesTo axes ⟨0, ![]⟩)
    (hu : 0 < (⟨0, ![]⟩ : Shape).numel)
    (e : Host.reduce IntOp.andi
          (cmpf .olt (Host.absf x) (broadcastInDim S ![] hb (constant (F := Ideal) ⟨0, ![]⟩ .f32 0x7F800000#32)))
          (constantI ⟨0, ![]⟩ 1 1#1) hr hu ValueIdx.ix0 = 1#1) : AllReal x := by
  intro i
  have hi := Host.reduce_andi_all _ _ hr hu ValueIdx.ix0 e i
  apply real_of_abs_lt_top
  have hi' : Ideal.cmp .olt (max (x i) (-(x i)))
      (broadcastInDim S ![] hb (constant (F := Ideal) ⟨0, ![]⟩ .f32 0x7F800000#32) i) = 1#1 := hi
  rw [ValueIdx.broadcastInDim_scalar_apply hb] at hi'
  change Ideal.cmp .olt _ (Ideal.ofBits .f32 0x7F800000#32) = 1#1 at hi'
  rw [ofBits_inf] at hi'
  exact lt_of_cmp_olt hi'

-- an "and" over every index that is one says the compared answer is one at each index
theorem cmpi_of_all {S : Shape} {axes : List (Fin S.rank)} (p : CmpIPredicate) (x : IVec S 32) (c : BitVec 32)
    (hb : (⟨0, ![]⟩ : Shape).BroadcastsInDim S (![] : Fin 0 → Fin S.rank)) (hr : S.ReducesTo axes ⟨0, ![]⟩)
    (hu : 0 < (⟨0, ![]⟩ : Shape).numel)
    (e : Host.reduce IntOp.andi (cmpi p x (broadcastInDim S ![] hb (constantI ⟨0, ![]⟩ 32 c)))
          (constantI ⟨0, ![]⟩ 1 1#1) hr hu ValueIdx.ix0 = 1#1) (i : S.Idx) : IntOp.cmpi p (x i) c = 1#1 := by
  have hi : IntOp.cmpi p (x i) (broadcastInDim S ![] hb (constantI ⟨0, ![]⟩ 32 c) i) = 1#1 :=
    Host.reduce_andi_all _ _ hr hu ValueIdx.ix0 e i
  rwa [ValueIdx.broadcastInDim_scalar_apply hb] at hi

theorem and_scalar {x y : IVec ⟨0, ![]⟩ 1} (h : andi x y ValueIdx.ix0 = 1#1) :
    x ValueIdx.ix0 = 1#1 ∧ y ValueIdx.ix0 = 1#1 := IntOp.andi_eq_one.1 h

open Cert.Pre_finite_inputs in
theorem of_pre [Facts]
    (a0 : FVec Ideal S50000x128 .f32)
    (a1 : IVec S2x800000 32)
    (a2 : FVec Ideal S800000x128 .f32)
    (a3 : FVec Ideal S128x128 .f32)
    (a4 : FVec Ideal S128 .f32)
    (a5 : FVec Ideal S128x128 .f32)
    (a6 : FVec Ideal S128 .f32)
    (a7 : FVec Ideal S128x128 .f32)
    (a8 : FVec Ideal S128 .f32)
    (a9 : FVec Ideal S128x128 .f32)
    (a10 : FVec Ideal S128 .f32)
    (a11 : FVec Ideal S128x128 .f32)
    (a12 : FVec Ideal S128 .f32)
    (a13 : FVec Ideal S128 .f32)
    (a14 : FVec Ideal S128 .f32)
    (a15 : FVec Ideal S128 .f32)
    (a16 : FVec Ideal S128 .f32)
    (a17 : FVec Ideal S128 .f32)
    (a18 : FVec Ideal S128 .f32)
    (a19 : FVec Ideal S128 .f32)
    (a20 : FVec Ideal S128 .f32)
    (a21 : FVec Ideal S128x256 .f32)
    (a22 : FVec Ideal S256 .f32)
    (a23 : FVec Ideal S256x128 .f32)
    (a24 : FVec Ideal S128 .f32)
    (h : fn (F := Ideal) a0 a1 a2 a3 a4 a5 a6 a7 a8 a9 a10 a11 a12 a13 a14 a15 a16 a17 a18 a19 a20 a21 a22 a23 a24 = (fun _ => 1#1)) :
    AllReal a0 ∧ AllReal a2 ∧ AllReal a3 ∧ AllReal a4 ∧ AllReal a5 ∧ AllReal a6 ∧ AllReal a7 ∧ AllReal a8 ∧ AllReal a9 ∧ AllReal a10 ∧ AllReal a11 ∧ AllReal a12 ∧ AllReal a13 ∧ AllReal a14 ∧ AllReal a15 ∧ AllReal a16 ∧ AllReal a17 ∧ AllReal a18 ∧ AllReal a19 ∧ AllReal a20 ∧ AllReal a21 ∧ AllReal a22 ∧ AllReal a23 ∧ AllReal a24
      ∧ (∀ i, 0 ≤ (a1 i).toInt ∧ (a1 i).toInt < 50000) := by
  have h0 := congrFun h ValueIdx.ix0
  dsimp only [fn, fn_part1, fn_part2, fn_part3, fn_part4, fn_part5, fn_part6, fn_part7] at h0
  obtain ⟨h0, hlt⟩ := and_scalar h0
  obtain ⟨h0, hge⟩ := and_scalar h0
  obtain ⟨h0, h24⟩ := and_scalar h0
  obtain ⟨h0, h23⟩ := and_scalar h0
  obtain ⟨h0, h22⟩ := and_scalar h0
  obtain ⟨h0, h21⟩ := and_scalar h0
  obtain ⟨h0, h20⟩ := and_scalar h0
  obtain ⟨h0, h19⟩ := and_scalar h0
  obtain ⟨h0, h18⟩ := and_scalar h0
  obtain ⟨h0, h17⟩ := and_scalar h0
  obtain ⟨h0, h16⟩ := and_scalar h0
  obtain ⟨h0, h15⟩ := and_scalar h0
  obtain ⟨h0, h14⟩ := and_scalar h0
  obtain ⟨h0, h13⟩ := and_scalar h0
  obtain ⟨h0, h12⟩ := and_scalar h0
  obtain ⟨h0, h11⟩ := and_scalar h0
  obtain ⟨h0, h10⟩ := and_scalar h0
  obtain ⟨h0, h9⟩ := and_scalar h0
  obtain ⟨h0, h8⟩ := and_scalar h0
  obtain ⟨h0, h7⟩ := and_scalar h0
  obtain ⟨h0, h6⟩ := and_scalar h0
  obtain ⟨h0, h5⟩ := and_scalar h0
  obtain ⟨h0, h4⟩ := and_scalar h0
  obtain ⟨h0, h3⟩ := and_scalar h0
  obtain ⟨h0, h2⟩ := and_scalar h0
  have z0 : (0#32 : BitVec 32).toInt = 0 := by decide
  have z1 : (50000#32 : BitVec 32).toInt = 50000 := by decide
  refine ⟨allReal_of_all a0 _ _ _ h0,
    allReal_of_all a2 _ _ _ h2,
    allReal_of_all a3 _ _ _ h3,
    allReal_of_all a4 _ _ _ h4,
    allReal_of_all a5 _ _ _ h5,
    allReal_of_all a6 _ _ _ h6,
    allReal_of_all a7 _ _ _ h7,
    allReal_of_all a8 _ _ _ h8,
    allReal_of_all a9 _ _ _ h9,
    allReal_of_all a10 _ _ _ h10,
    allReal_of_all a11 _ _ _ h11,
    allReal_of_all a12 _ _ _ h12,
    allReal_of_all a13 _ _ _ h13,
    allReal_of_all a14 _ _ _ h14,
    allReal_of_all a15 _ _ _ h15,
    allReal_of_all a16 _ _ _ h16,
    allReal_of_all a17 _ _ _ h17,
    allReal_of_all a18 _ _ _ h18,
    allReal_of_all a19 _ _ _ h19,
    allReal_of_all a20 _ _ _ h20,
    allReal_of_all a21 _ _ _ h21,
    allReal_of_all a22 _ _ _ h22,
    allReal_of_all a23 _ _ _ h23,
    allReal_of_all a24 _ _ _ h24,
    fun i => ⟨?_, ?_⟩⟩
  · have := IntOp.cmpi_sge.1 (cmpi_of_all .sge a1 0#32 _ _ _ hge i); rwa [z0] at this
  · have := IntOp.cmpi_slt.1 (cmpi_of_all .slt a1 50000#32 _ _ _ hlt i); rwa [z1] at this

end Cert.PreFacts
-- ==== Proof.Agree.lean ====
import proofs.«422477_j6347961663751_3_alg».proof.Defs
import proofs.«422477_j6347961663751_3_alg».proof.Proof.Gen.Pre_finite_inputs
import proofs.«422477_j6347961663751_3_alg».proof.Proof.Gen.KernelIdeal
import proofs.«422477_j6347961663751_3_alg».proof.Proof.Gen.ReferenceIdeal
import proofs.«422477_j6347961663751_3_alg».proof.Proof.KV.Args
import proofs.«422477_j6347961663751_3_alg».proof.Proof.Ref.Args
import proofs.«422477_j6347961663751_3_alg».proof.Proof.PreFacts

noncomputable section

namespace Cert.Proof

open Idealize.ShloMosaic Idealize.ShloMosaic.ValueIdx Idealize.ShloMosaic.TcCoe Idealize.SL.Sem

theorem good_of_pre (m : (ℓ : Loc Cert.KernelIdeal.nD Cert.KernelIdeal.τ Cert.KernelIdeal.sig) → Buf (Elt Ideal) ℓ)
    (hpre : Cert.Pre_KernelIdeal m) (c : Dev Cert.KernelIdeal.nD) : (Cert.KernelIdeal.Val.argsOf m c).Good := by
  obtain ⟨h_x, h_ea, h_WA, h_bA, h_WB, h_bB, h_WC, h_bC, h_WD, h_bD, h_WE, h_bE, h_gx, h_bx, h_ge, h_be, h_g1, h_b1, h_g2, h_b2, h_Wf1, h_bf1, h_Wf2, h_bf2, hidx⟩ := Cert.PreFacts.of_pre _ _ _ _ _ _ _ _ _ _ _ _ _ _ _ _ _ _ _ _ _ _ _ _ _ (hpre c)
  exact {
    x := fun i j => h_x (ix2 i j)
    ea := fun i j => h_ea (ix2 i j)
    WA := fun i j => h_WA (ix2 i j)
    bA := fun j => h_bA (ix1 j)
    WB := fun i j => h_WB (ix2 i j)
    bB := fun j => h_bB (ix1 j)
    WC := fun i j => h_WC (ix2 i j)
    bC := fun j => h_bC (ix1 j)
    WD := fun i j => h_WD (ix2 i j)
    bD := fun j => h_bD (ix1 j)
    WE := fun i j => h_WE (ix2 i j)
    bE := fun j => h_bE (ix1 j)
    gx := fun j => h_gx (ix1 j)
    bx := fun j => h_bx (ix1 j)
    ge := fun j => h_ge (ix1 j)
    be := fun j => h_be (ix1 j)
    g1 := fun j => h_g1 (ix1 j)
    b1 := fun j => h_b1 (ix1 j)
    g2 := fun j => h_g2 (ix1 j)
    b2 := fun j => h_b2 (ix1 j)
    Wf1 := fun i j => h_Wf1 (ix2 i j)
    bf1 := fun j => h_bf1 (ix1 j)
    Wf2 := fun i j => h_Wf2 (ix2 i j)
    bf2 := fun j => h_bf2 (ix1 j)
    idx := fun a e => hidx (ix2 a e) }

theorem args_agree (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (h : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)) :
    Cert.ReferenceIdeal.RefVal.argsOf m' c = Cert.KernelIdeal.Val.argsOf m c := by
  obtain ⟨h0, h1, h2, h3, h4, h5, h6, h7, h8, h9, h10, h11, h12, h13, h14, h15, h16, h17, h18, h19, h20, h21, h22, h23, h24⟩ := h
  unfold Cert.ReferenceIdeal.RefVal.argsOf Cert.KernelIdeal.Val.argsOf
  rw [h0, h1, h2, h3, h4, h5, h6, h7, h8, h9, h10, h11, h12, h13, h14, h15, h16, h17, h18, h19, h20, h21, h22, h23, h24]

end Cert.Proof

end
-- ==== Proof.lean ====
import proofs.«422477_j6347961663751_3_alg».proof.Defs
import proofs.«422477_j6347961663751_3_alg».proof.Proof.Gen.Kernel
import proofs.«422477_j6347961663751_3_alg».proof.Proof.Gen.KernelIdeal
import proofs.«422477_j6347961663751_3_alg».proof.Proof.Gen.ReferenceIdeal
import proofs.«422477_j6347961663751_3_alg».proof.Proof.Gen.Pre_finite_inputs
import proofs.«422477_j6347961663751_3_alg».proof.Proof.K.Run
import proofs.«422477_j6347961663751_3_alg».proof.Proof.KI.Run
import proofs.«422477_j6347961663751_3_alg».proof.Proof.Ref.Run
import proofs.«422477_j6347961663751_3_alg».proof.Proof.KV.Result
import proofs.«422477_j6347961663751_3_alg».proof.Proof.Ref.Result
import proofs.«422477_j6347961663751_3_alg».proof.Proof.Agree

noncomputable section

namespace Cert.Proof

open Idealize.ShloMosaic Idealize.ShloMosaic.ValueIdx Idealize.ShloMosaic.TcCoe Idealize.SL.Sem

variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ) (c : Dev Cert.KernelIdeal.nD)

/-- Both programs' node results are the specification's `xout` of the arguments, entry by entry. -/
theorem xout_agree (hG : (Cert.KernelIdeal.Val.argsOf m c).Good)
    (hA : Cert.ReferenceIdeal.RefVal.argsOf m' c = Cert.KernelIdeal.Val.argsOf m c) :
    (Cert.ReferenceIdeal.RefRun.RV15 m' c Cert.ReferenceIdeal.main_v147 : FVec Ideal Cert.KernelIdeal.S50000x128 .f32)
      = (Cert.KernelIdeal.Frm.W22 m c Cert.KernelIdeal.main_v72 : FVec Ideal Cert.KernelIdeal.S50000x128 .f32) := by
  funext i
  obtain ⟨n, j, rfl⟩ : ∃ (n : Fin 50000) (j : Fin 128), i = ix2 n j := ⟨i 0, i 1, eq_ix2 i⟩
  exact (Cert.ReferenceIdeal.RefVal.ref_xout m' c n j).trans
    ((congrArg (fun A => Cert.Spec.xout A n j) hA).trans (Cert.KernelIdeal.Val.kernel_xout m c hG n j).symm)

/-- Both programs' edge results are the specification's `ef` of the arguments, entry by entry. -/
theorem ef_agree (hG : (Cert.KernelIdeal.Val.argsOf m c).Good)
    (hA : Cert.ReferenceIdeal.RefVal.argsOf m' c = Cert.KernelIdeal.Val.argsOf m c) :
    (Cert.ReferenceIdeal.RefRun.RV15 m' c Cert.ReferenceIdeal.main_v99 : FVec Ideal Cert.KernelIdeal.S800000x128 .f32)
      = (Cert.KernelIdeal.Frm.W22 m c Cert.KernelIdeal.main_v44 : FVec Ideal Cert.KernelIdeal.S800000x128 .f32) := by
  funext i
  obtain ⟨e, j, rfl⟩ : ∃ (e : Fin 800000) (j : Fin 128), i = ix2 e j := ⟨i 0, i 1, eq_ix2 i⟩
  exact (Cert.ReferenceIdeal.RefVal.ref_ef m' c e j).trans
    ((congrArg (fun A => Cert.Spec.ef A e j) hA).trans (Cert.KernelIdeal.Val.kernel_ef m c hG e j).symm)

theorem algebraic : Cert.algebraic_KernelIdeal_ReferenceIdeal := by
  intro m g m' g' hpre hagree
  refine ⟨fun c => Cert.KernelIdeal.Frm.W22 m c Cert.KernelIdeal.main_v72, fun c => Cert.KernelIdeal.Frm.W22 m c Cert.KernelIdeal.main_v44,
    Cert.KernelIdeal.Frm.run_results m g, ?_⟩
  refine (θ_run Cert.ReferenceIdeal.defs _ _).mono (fun r h c => ?_) (Cert.ReferenceIdeal.RefRun.run_results (F := Ideal) m' g')
  obtain ⟨hv0, hv1, hargs⟩ := h c
  have hA := args_agree m m' c (hagree c)
  have hG := good_of_pre m hpre c
  exact ⟨hv0.trans (xout_agree m m' c hG hA), hv1.trans (ef_agree m m' c hG hA), hargs⟩

theorem claim : Cert.Claim := ⟨Cert.Kernel.Gen.facts, Cert.KernelIdeal.Gen.facts, Cert.ReferenceIdeal.Gen.facts, Cert.Pre_finite_inputs.Gen.facts,
  fun m ρ _ => Cert.Kernel.Frm.frame m ρ,
  fun m ρ _ => Cert.KernelIdeal.Frm.frame m ρ,
  fun m ρ _ => Cert.ReferenceIdeal.RefRun.frame m ρ,
  trivial,
  algebraic⟩

end Cert.Proof

end
